-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S3x16x64 : Shape := ⟨3, ![3, 16, 64]⟩
abbrev S3x64 : Shape := ⟨2, ![3, 64]⟩
abbrev S3x64x64 : Shape := ⟨3, ![3, 64, 64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S2x800000 : Shape := ⟨2, ![2, 800000]⟩
abbrev S50000 : Shape := ⟨1, ![50000]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S3x16x64 : S_.BroadcastsInDim S3x16x64 (![] : Fin 0 → Fin S3x16x64.rank)
  reducesTo_S3x16x64_S_d0_1_2 : S3x16x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part4 {F : FTy → Type} [FloatOps F] (main_arg14 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg14
  let main_c_26 : IVec S_ 32 := constantI S_ 32 0#32
  let main_v70 : IVec S1x800000 32 := broadcastInDim S1x800000 ![] bcast_S_S1x800000 main_c_26
  let main_v71 : IVec S1x800000 1 := cmpi .sge main_v69 main_v70
  let main_v72 : IVec S1x800000 32 := (extractStridedSlice S1x800000 ![0, 0] · slices_S2x800000_S1x800000_0_0) main_arg14
  let main_c_27 : IVec S_ 32 := constantI S_ 32 50000#32
  let main_v73 : IVec S1x800000 32 := broadcastInDim S1x800000 ![] bcast_S_S1x800000 main_c_27
  let main_v74 : IVec S1x800000 1 := cmpi .slt main_v72 main_v73
  let main_v75 : IVec S1x800000 1 := andi main_v71 main_v74
  let main_c_28 : IVec S_ 1 := constantI S_ 1 1#1
  let main_v76 : IVec S_ 1 := (fun x v => Host.reduce IntOp.andi x v reducesTo_S1x800000_S_d0_1 h_S_) main_v75 main_c_28
  let main_v77 : IVec S_ 1 := andi main_v68 main_v76
  main_v77

def fn_part3 {F : FTy → Type} [FloatOps F] (main_arg11 : FVec F S192 .f32) (main_arg12 : FVec F S192x10 .f32) (main_arg13 : FVec F S10 .f32) (main_arg14 : IVec S2x800000 32) (main_v48 : IVec S_ 1) (main_v49 : FVec F S192x192 .f32) (main_v50 : FVec F S192x192 .f32) : IVec S_ 1 :=
  let main_v51 : IVec S192x192 1 := cmpf .olt main_v49 main_v50
  let main_c_19 : IVec S_ 1 := constantI S_ 1 1#1
  let main_v52 : IVec S_ 1 := (fun x v => Host.reduce IntOp.andi x v reducesTo_S192x192_S_d0_1 h_S_) main_v51 main_c_19
  let main_v53 : IVec S_ 1 := andi main_v48 main_v52
  let main_v54 : FVec F S192 .f32 := Host.absf main_arg11
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S192x10 .f32 := Host.absf main_arg12
  let main_cst_22 : FVec F S_ .f32 := constant S_ .f32 0x7F800000#32
  let main_v60 : FVec F S192x10 .f32 := broadcastInDim S192x10 ![] bcast_S_S192x10 main_cst_22
  let main_v61 : IVec S192x10 1 := cmpf .olt main_v59 main_v60
  let main_c_23 : IVec S_ 1 := constantI S_ 1 1#1
  let main_v62 : IVec S_ 1 := (fun x v => Host.reduce IntOp.andi x v reducesTo_S192x10_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg14 main_v63 main_v67

def fn_part2 {F : FTy → Type} [FloatOps F] (main_arg7 : FVec F S3x64 .f32) (main_arg8 : FVec F S3x64x64 .f32) (main_arg9 : FVec F S3x64 .f32) (main_arg10 : FVec F S192x192 .f32) (main_arg11 : FVec F S192 .f32) (main_arg12 : FVec F S192x10 .f32) (main_arg13 : FVec F S10 .f32) (main_arg14 : IVec S2x800000 32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg8
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg9
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S192x192 .f32 := Host.absf main_arg10
  let main_cst_18 : FVec F S_ .f32 := constant S_ .f32 0x7F800000#32
  let main_v50 : FVec F S192x192 .f32 := broadcastInDim S192x192 ![] bcast_S_S192x192 main_cst_18
  fn_part3 (F := F) main_arg11 main_arg12 main_arg13 main_arg14 main_v48 main_v49 main_v50

def fn_part1 {F : FTy → Type} [FloatOps F] (main_arg4 : FVec F S3x64x64 .f32) (main_arg5 : FVec F S3x64 .f32) (main_arg6 : FVec F S3x64 .f32) (main_arg7 : FVec F S3x64 .f32) (main_arg8 : FVec F S3x64x64 .f32) (main_arg9 : FVec F S3x64 .f32) (main_arg10 : FVec F S192x192 .f32) (main_arg11 : FVec F S192 .f32) (main_arg12 : FVec F S192x10 .f32) (main_arg13 : FVec F S10 .f32) (main_arg14 : IVec S2x800000 32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x64 .f32) (main_arg1 : FVec F S800000x16 .f32) (main_arg2 : FVec F S3x16x64 .f32) (main_arg3 : FVec F S3x64 .f32) (main_arg4 : FVec F S3x64x64 .f32) (main_arg5 : FVec F S3x64 .f32) (main_arg6 : FVec F S3x64 .f32) (main_arg7 : FVec F S3x64 .f32) (main_arg8 : FVec F S3x64x64 .f32) (main_arg9 : FVec F S3x64 .f32) (main_arg10 : FVec F S192x192 .f32) (main_arg11 : FVec F S192 .f32) (main_arg12 : FVec F S192x10 .f32) (main_arg13 : FVec F S10 .f32) (main_arg14 : IVec S2x800000 32) (main_arg15 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S3x16x64 .f32 := Host.absf main_arg2
  let main_cst_2 : FVec F S_ .f32 := constant S_ .f32 0x7F800000#32
  let main_v10 : FVec F S3x16x64 .f32 := broadcastInDim S3x16x64 ![] bcast_S_S3x16x64 main_cst_2
  let main_v11 : IVec S3x16x64 1 := cmpf .olt main_v9 main_v10
  let main_c_3 : IVec S_ 1 := constantI S_ 1 1#1
  let main_v12 : IVec S_ 1 := (fun x v => Host.reduce IntOp.andi x v reducesTo_S3x16x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x64 : Shape := ⟨2, ![50000, 64]⟩
abbrev S800000x16 : Shape := ⟨2, ![800000, 16]⟩
abbrev S3x16x64 : Shape := ⟨3, ![3, 16, 64]⟩
abbrev S3x64 : Shape := ⟨2, ![3, 64]⟩
abbrev S3x64x64 : Shape := ⟨3, ![3, 64, 64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S1x16x64 : Shape := ⟨3, ![1, 16, 64]⟩
abbrev S16x64 : Shape := ⟨2, ![16, 64]⟩
abbrev S800000x64 : Shape := ⟨2, ![800000, 64]⟩
abbrev S1x64 : Shape := ⟨2, ![1, 64]⟩
abbrev S64 : Shape := ⟨1, ![64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x64x64 : Shape := ⟨3, ![1, 64, 64]⟩
abbrev S64x64 : Shape := ⟨2, ![64, 64]⟩
abbrev S10000x64 : Shape := ⟨2, ![10000, 64]⟩
abbrev S50000x1 : Shape := ⟨2, ![50000, 1]⟩
abbrev S512x1 : Shape := ⟨2, ![512, 1]⟩
abbrev S512x64 : Shape := ⟨2, ![512, 64]⟩
abbrev S512x192 : Shape := ⟨2, ![512, 192]⟩
abbrev S1x192 : Shape := ⟨2, ![1, 192]⟩
abbrev S1x10 : Shape := ⟨2, ![1, 10]⟩
abbrev S512x10 : Shape := ⟨2, ![512, 10]⟩
abbrev S512 : Shape := ⟨1, ![512]⟩

abbrev nBuf : Space → Nat
  | .hbm => 318
  | .vmem => 60
  | .smem => 0
  | _ => 0

abbrev hbmTy0_0 (i : Nat) : BufTy := match i % 128 with
  | 0 => ⟨S50000x64, .f32⟩
  | 1 => ⟨S800000x16, .f32⟩
  | 2 => ⟨S3x16x64, .f32⟩
  | 3 => ⟨S3x64, .f32⟩
  | 4 => ⟨S3x64x64, .f32⟩
  | 5 => ⟨S3x64, .f32⟩
  | 6 => ⟨S3x64, .f32⟩
  | 7 => ⟨S3x64, .f32⟩
  | 8 => ⟨S3x64x64, .f32⟩
  | 9 => ⟨S3x64, .f32⟩
  | 10 => ⟨S192x192, .f32⟩
  | 11 => ⟨S192, .f32⟩
  | 12 => ⟨S192x10, .f32⟩
  | 13 => ⟨S10, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S1x16x64, .f32⟩
  | 21 => ⟨S16x64, .f32⟩
  | 22 => ⟨S800000x64, .f32⟩
  | 23 => ⟨S1x64, .f32⟩
  | 24 => ⟨S64, .f32⟩
  | 25 => ⟨S1x64, .f32⟩
  | 26 => ⟨S800000x64, .f32⟩
  | 27 => ⟨S800000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x64, .f32⟩
  | 47 => ⟨S800000x64, .i1⟩
  | 48 => ⟨S_, .f32⟩
  | 49 => ⟨S800000x64, .f32⟩
  | 50 => ⟨S800000x64, .f32⟩
  | 51 => ⟨S800000x64, .f32⟩
  | 52 => ⟨S_, .f32⟩
  | 53 => ⟨S800000x64, .f32⟩
  | 54 => ⟨S800000x64, .f32⟩
  | 55 => ⟨S800000x64, .bf16⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S1x64x64, .f32⟩
  | 62 => ⟨S64x64, .f32⟩
  | 63 => ⟨S1x64, .f32⟩
  | 64 => ⟨S64, .f32⟩
  | 65 => ⟨S1x64, .f32⟩
  | 66 => ⟨S50000x64, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S50000x64, .f32⟩
  | 80 => ⟨S50000x64, .f32⟩
  | 81 => ⟨S50000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S64, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S1x64, .f32⟩
  | 104 => ⟨S1x64, .f32⟩
  | 105 => ⟨S1x64, .f32⟩
  | 106 => ⟨S1x64, .f32⟩
  | 107 => ⟨S1x64, .f32⟩
  | 108 => ⟨S50000x64, .f32⟩
  | 109 => ⟨S1x16x64, .f32⟩
  | 110 => ⟨S16x64, .f32⟩
  | 111 => ⟨S800000x64, .f32⟩
  | 112 => ⟨S1x64, .f32⟩
  | 113 => ⟨S64, .f32⟩
  | 114 => ⟨S1x64, .f32⟩
  | 115 => ⟨S800000x64, .f32⟩
  | 116 => ⟨S800000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S1, .i32⟩
  | 126 => ⟨S_, .i32⟩
  | 127 => ⟨S800000x1, .i32⟩
  | _ => ⟨S50000x64, .f32⟩

abbrev hbmTy0_1 (i : Nat) : BufTy := match i % 128 with
  | 0 => ⟨S800000x1, .i1⟩
  | 1 => ⟨S1x1, .i32⟩
  | 2 => ⟨S800000x1, .i32⟩
  | 3 => ⟨S800000x1, .i1⟩
  | 4 => ⟨S800000x1, .i1⟩
  | 5 => ⟨S_, .i1⟩
  | 6 => ⟨S800000, .i1⟩
  | 7 => ⟨S800000x64, .f32⟩
  | 8 => ⟨S800000x64, .i1⟩
  | 9 => ⟨S_, .f32⟩
  | 10 => ⟨S800000x64, .f32⟩
  | 11 => ⟨S800000x64, .f32⟩
  | 12 => ⟨S800000x64, .f32⟩
  | 13 => ⟨S_, .f32⟩
  | 14 => ⟨S800000x64, .f32⟩
  | 15 => ⟨S800000x64, .f32⟩
  | 16 => ⟨S800000x64, .bf16⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S50000x64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S50000x64, .f32⟩
  | 41 => ⟨S50000x64, .f32⟩
  | 42 => ⟨S50000x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S64, .f32⟩
  | 58 => ⟨S1x64, .f32⟩
  | 59 => ⟨S64, .f32⟩
  | 60 => ⟨S1x64x64, .f32⟩
  | 61 => ⟨S64x64, .f32⟩
  | 62 => ⟨S1x64, .f32⟩
  | 63 => ⟨S64, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S50000x64, .f32⟩
  | 70 => ⟨S1x16x64, .f32⟩
  | 71 => ⟨S16x64, .f32⟩
  | 72 => ⟨S800000x64, .f32⟩
  | 73 => ⟨S1x64, .f32⟩
  | 74 => ⟨S64, .f32⟩
  | 75 => ⟨S1x64, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S800000x64, .f32⟩
  | 102 => ⟨S_, .f32⟩
  | 103 => ⟨S800000x64, .f32⟩
  | 104 => ⟨S800000x64, .f32⟩
  | 105 => ⟨S800000x64, .bf16⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S50000x64, .f32⟩
  | 117 => ⟨S_, .f32⟩
  | 118 => ⟨S64, .f32⟩
  | 119 => ⟨S_, .f32⟩
  | 120 => ⟨S64, .f32⟩
  | 121 => ⟨S64, .f32⟩
  | 122 => ⟨S_, .i32⟩
  | 123 => ⟨S_, .f32⟩
  | 124 => ⟨S64, .f32⟩
  | 125 => ⟨S1x64, .f32⟩
  | 126 => ⟨S_, .f32⟩
  | 127 => ⟨S1x64, .f32⟩
  | _ => ⟨S50000x64, .f32⟩

abbrev hbmTy0_2 (i : Nat) : BufTy := match i % 128 with
  | 0 => ⟨S1x64, .f32⟩
  | 1 => ⟨S50000x64, .f32⟩
  | 2 => ⟨S50000x64, .f32⟩
  | 3 => ⟨S50000x64, .f32⟩
  | 4 => ⟨S_, .f32⟩
  | 5 => ⟨S_, .f32⟩
  | 6 => ⟨S_, .f32⟩
  | 7 => ⟨S_, .f32⟩
  | 8 => ⟨S64, .f32⟩
  | 9 => ⟨S64, .f32⟩
  | 10 => ⟨S64, .f32⟩
  | 11 => ⟨S_, .f32⟩
  | 12 => ⟨S_, .i1⟩
  | 13 => ⟨S_, .f32⟩
  | 14 => ⟨S_, .f32⟩
  | 15 => ⟨S64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S50000x64, .f32⟩
  | 31 => ⟨S_, .f32⟩
  | 32 => ⟨S50000x1, .f32⟩
  | 33 => ⟨S_, .f32⟩
  | 34 => ⟨S512x1, .f32⟩
  | 35 => ⟨S50000x1, .i32⟩
  | 36 => ⟨S512x1, .f32⟩
  | 37 => ⟨S_, .f32⟩
  | 38 => ⟨S512x1, .f32⟩
  | 39 => ⟨S512x1, .f32⟩
  | 40 => ⟨S_, .f32⟩
  | 41 => ⟨S512x64, .f32⟩
  | 42 => ⟨S50000x1, .i32⟩
  | 43 => ⟨S512x64, .f32⟩
  | 44 => ⟨S512x64, .f32⟩
  | 45 => ⟨S512x64, .f32⟩
  | 46 => ⟨S_, .f32⟩
  | 47 => ⟨S512x64, .f32⟩
  | 48 => ⟨S50000x1, .i32⟩
  | 49 => ⟨S512x64, .f32⟩
  | 50 => ⟨S512x64, .f32⟩
  | 51 => ⟨S512x64, .f32⟩
  | 52 => ⟨S_, .f32⟩
  | 53 => ⟨S512x64, .f32⟩
  | 54 => ⟨S50000x1, .i32⟩
  | 55 => ⟨S512x64, .f32⟩
  | 56 => ⟨S512x64, .f32⟩
  | 57 => ⟨S512x64, .f32⟩
  | 58 => ⟨S512x192, .f32⟩
  | 59 => ⟨S1x192, .f32⟩
  | 60 => ⟨S1x10, .f32⟩
  | 61 => ⟨S512x10, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S512x192, .f32⟩
  | .local _ .vmem, ⟨55, _⟩ => ⟨S192x192, .f32⟩
  | .local _ .vmem, ⟨56, _⟩ => ⟨S1x192, .f32⟩
  | .local _ .vmem, ⟨57, _⟩ => ⟨S192x10, .f32⟩
  | .local _ .vmem, ⟨58, _⟩ => ⟨S1x10, .f32⟩
  | .local _ .vmem, ⟨59, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v12 : Ref sig .tc := ⟨.hbm, 50, rfl⟩
abbrev main_v13 : Ref sig .tc := ⟨.hbm, 51, rfl⟩
abbrev main_call1_cst : Ref sig .tc := ⟨.hbm, 52, rfl⟩
abbrev main_call1_v0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_0 : Ref sig .tc := ⟨.hbm, 67, rfl⟩
abbrev main_v26 : Ref sig .tc := ⟨.hbm, 68, rfl⟩
abbrev main_cst_1 : Ref sig .tc := ⟨.hbm, 69, rfl⟩
abbrev main_v27 : Ref sig .tc := ⟨.hbm, 70, rfl⟩
abbrev main_v28 : Ref sig .tc := ⟨.hbm, 71, rfl⟩
abbrev main_c : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v52 : Ref sig .tc := ⟨.hbm, 139, rfl⟩
abbrev main_v53 : Ref sig .tc := ⟨.hbm, 140, rfl⟩
abbrev main_call4_cst : Ref sig .tc := ⟨.hbm, 141, rfl⟩
abbrev main_call4_v0 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_cst_2 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_cst_3 : Ref sig .tc := ⟨.hbm, 156, rfl⟩
abbrev main_v66 : Ref sig .tc := ⟨.hbm, 157, rfl⟩
abbrev main_cst_4 : Ref sig .tc := ⟨.hbm, 158, rfl⟩
abbrev main_v67 : Ref sig .tc := ⟨.hbm, 159, rfl⟩
abbrev main_v68 : Ref sig .tc := ⟨.hbm, 160, rfl⟩
abbrev main_c_5 : Ref sig .tc := ⟨.hbm, 161, rfl⟩
abbrev main_call5_cst : Ref sig .tc := ⟨.hbm, 162, rfl⟩
abbrev main_call5_v0 : Ref sig .tc := ⟨.hbm, 163, rfl⟩
abbrev main_call5_v1 : Ref sig .tc := ⟨.hbm, 164, rfl⟩
abbrev main_call5_cst_0 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_v5 : Ref sig .tc := ⟨.hbm, 169, rfl⟩
abbrev main_call5_v6 : Ref sig .tc := ⟨.hbm, 170, rfl⟩
abbrev main_call5_v7 : Ref sig .tc := ⟨.hbm, 171, rfl⟩
abbrev main_call5_cst_1 : Ref sig .tc := ⟨.hbm, 172, rfl⟩
abbrev main_call5_v8 : Ref sig .tc := ⟨.hbm, 173, rfl⟩
abbrev main_call5_cst_2 : Ref sig .tc := ⟨.hbm, 174, rfl⟩
abbrev main_call5_v9 : Ref sig .tc := ⟨.hbm, 175, rfl⟩
abbrev main_call5_v10 : Ref sig .tc := ⟨.hbm, 176, rfl⟩
abbrev main_call5_v11 : Ref sig .tc := ⟨.hbm, 177, rfl⟩
abbrev main_call5_cst_3 : Ref sig .tc := ⟨.hbm, 178, rfl⟩
abbrev main_call5_v12 : Ref sig .tc := ⟨.hbm, 179, rfl⟩
abbrev main_call5_cst_4 : Ref sig .tc := ⟨.hbm, 180, rfl⟩
abbrev main_call5_call0_v0 : Ref sig .tc := ⟨.hbm, 181, rfl⟩
abbrev main_call5_call0_v1 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_call6_c : Ref sig .tc := ⟨.hbm, 206, rfl⟩
abbrev main_call6_v0 : Ref sig .tc := ⟨.hbm, 207, rfl⟩
abbrev main_call6_v1 : Ref sig .tc := ⟨.hbm, 208, rfl⟩
abbrev main_call6_c_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_c_1 : Ref sig .tc := ⟨.hbm, 214, rfl⟩
abbrev main_call6_c_2 : Ref sig .tc := ⟨.hbm, 215, rfl⟩
abbrev main_call6_v6 : Ref sig .tc := ⟨.hbm, 216, rfl⟩
abbrev main_call6_v7 : Ref sig .tc := ⟨.hbm, 217, rfl⟩
abbrev main_call6_v8 : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_c_3 : Ref sig .tc := ⟨.hbm, 222, rfl⟩
abbrev main_call6_v12 : Ref sig .tc := ⟨.hbm, 223, rfl⟩
abbrev main_call6_v13 : Ref sig .tc := ⟨.hbm, 224, rfl⟩
abbrev main_call6_v14 : Ref sig .tc := ⟨.hbm, 225, rfl⟩
abbrev main_call6_cst : Ref sig .tc := ⟨.hbm, 226, rfl⟩
abbrev main_call6_v15 : Ref sig .tc := ⟨.hbm, 227, rfl⟩
abbrev main_v92 : Ref sig .tc := ⟨.hbm, 228, rfl⟩
abbrev main_v93 : Ref sig .tc := ⟨.hbm, 229, rfl⟩
abbrev main_call7_cst : Ref sig .tc := ⟨.hbm, 230, rfl⟩
abbrev main_call7_v0 : Ref sig .tc := ⟨.hbm, 231, rfl⟩
abbrev main_v94 : Ref sig .tc := ⟨.hbm, 232, rfl⟩
abbrev main_v95 : Ref sig .tc := ⟨.hbm, 233, rfl⟩
abbrev main_v96 : Ref sig .tc := ⟨.hbm, 234, rfl⟩
abbrev main_cst_6 : Ref sig .tc := ⟨.hbm, 235, rfl⟩
abbrev main_v97 : Ref sig .tc := ⟨.hbm, 236, rfl⟩
abbrev main_v98 : Ref sig .tc := ⟨.hbm, 237, rfl⟩
abbrev main_v99 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_v104 : Ref sig .tc := ⟨.hbm, 243, rfl⟩
abbrev main_v105 : Ref sig .tc := ⟨.hbm, 244, rfl⟩
abbrev main_cst_7 : Ref sig .tc := ⟨.hbm, 245, rfl⟩
abbrev main_v106 : Ref sig .tc := ⟨.hbm, 246, rfl⟩
abbrev main_cst_8 : Ref sig .tc := ⟨.hbm, 247, rfl⟩
abbrev main_v107 : Ref sig .tc := ⟨.hbm, 248, rfl⟩
abbrev main_v108 : Ref sig .tc := ⟨.hbm, 249, rfl⟩
abbrev main_c_9 : Ref sig .tc := ⟨.hbm, 250, rfl⟩
abbrev main_call8_cst : Ref sig .tc := ⟨.hbm, 251, rfl⟩
abbrev main_call8_v0 : Ref sig .tc := ⟨.hbm, 252, rfl⟩
abbrev main_call8_v1 : Ref sig .tc := ⟨.hbm, 253, rfl⟩
abbrev main_call8_cst_0 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_call8_v5 : Ref sig .tc := ⟨.hbm, 258, rfl⟩
abbrev main_call8_v6 : Ref sig .tc := ⟨.hbm, 259, rfl⟩
abbrev main_call8_v7 : Ref sig .tc := ⟨.hbm, 260, rfl⟩
abbrev main_call8_cst_1 : Ref sig .tc := ⟨.hbm, 261, rfl⟩
abbrev main_call8_v8 : Ref sig .tc := ⟨.hbm, 262, rfl⟩
abbrev main_call8_cst_2 : Ref sig .tc := ⟨.hbm, 263, rfl⟩
abbrev main_call8_v9 : Ref sig .tc := ⟨.hbm, 264, rfl⟩
abbrev main_call8_v10 : Ref sig .tc := ⟨.hbm, 265, rfl⟩
abbrev main_call8_v11 : Ref sig .tc := ⟨.hbm, 266, rfl⟩
abbrev main_call8_cst_3 : Ref sig .tc := ⟨.hbm, 267, rfl⟩
abbrev main_call8_v12 : Ref sig .tc := ⟨.hbm, 268, rfl⟩
abbrev main_call8_cst_4 : Ref sig .tc := ⟨.hbm, 269, rfl⟩
abbrev main_call8_call0_v0 : Ref sig .tc := ⟨.hbm, 270, rfl⟩
abbrev main_call8_call0_v1 : Ref sig .tc := ⟨.hbm, 271, rfl⟩
abbrev main_v109 : Ref sig .tc := ⟨.hbm, 272, rfl⟩
abbrev main_v110 : Ref sig .tc := ⟨.hbm, 273, rfl⟩
abbrev main_v111 : Ref sig .tc := ⟨.hbm, 274, rfl⟩
abbrev main_v112 : Ref sig .tc := ⟨.hbm, 275, rfl⟩
abbrev main_v113 : Ref sig .tc := ⟨.hbm, 276, rfl⟩
abbrev main_v114 : Ref sig .tc := ⟨.hbm, 277, rfl⟩
abbrev main_v115 : Ref sig .tc := ⟨.hbm, 278, rfl⟩
abbrev main_v116 : Ref sig .tc := ⟨.hbm, 279, rfl⟩
abbrev main_v117 : Ref sig .tc := ⟨.hbm, 280, rfl⟩
abbrev main_v118 : Ref sig .tc := ⟨.hbm, 281, rfl⟩
abbrev main_v119 : Ref sig .tc := ⟨.hbm, 282, rfl⟩
abbrev main_v120 : Ref sig .tc := ⟨.hbm, 283, rfl⟩
abbrev main_v121 : Ref sig .tc := ⟨.hbm, 284, rfl⟩
abbrev main_v122 : Ref sig .tc := ⟨.hbm, 285, rfl⟩
abbrev main_v123 : Ref sig .tc := ⟨.hbm, 286, rfl⟩
abbrev main_cst_10 : Ref sig .tc := ⟨.hbm, 287, rfl⟩
abbrev main_v124 : Ref sig .tc := ⟨.hbm, 288, rfl⟩
abbrev main_cst_11 : Ref sig .tc := ⟨.hbm, 289, rfl⟩
abbrev main_v125 : Ref sig .tc := ⟨.hbm, 290, rfl⟩
abbrev main_v126 : Ref sig .tc := ⟨.hbm, 291, rfl⟩
abbrev main_v127 : Ref sig .tc := ⟨.hbm, 292, rfl⟩
abbrev main_cst_12 : Ref sig .tc := ⟨.hbm, 293, rfl⟩
abbrev main_v128 : Ref sig .tc := ⟨.hbm, 294, rfl⟩
abbrev main_v129 : Ref sig .tc := ⟨.hbm, 295, rfl⟩
abbrev main_cst_13 : Ref sig .tc := ⟨.hbm, 296, rfl⟩
abbrev main_v130 : Ref sig .tc := ⟨.hbm, 297, rfl⟩
abbrev main_v131 : Ref sig .tc := ⟨.hbm, 298, rfl⟩
abbrev main_v132 : Ref sig .tc := ⟨.hbm, 299, rfl⟩
abbrev main_v133 : Ref sig .tc := ⟨.hbm, 300, rfl⟩
abbrev main_v134 : Ref sig .tc := ⟨.hbm, 301, rfl⟩
abbrev main_cst_14 : Ref sig .tc := ⟨.hbm, 302, rfl⟩
abbrev main_v135 : Ref sig .tc := ⟨.hbm, 303, rfl⟩
abbrev main_v136 : Ref sig .tc := ⟨.hbm, 304, rfl⟩
abbrev main_v137 : Ref sig .tc := ⟨.hbm, 305, rfl⟩
abbrev main_v138 : Ref sig .tc := ⟨.hbm, 306, rfl⟩
abbrev main_v139 : Ref sig .tc := ⟨.hbm, 307, rfl⟩
abbrev main_cst_15 : Ref sig .tc := ⟨.hbm, 308, rfl⟩
abbrev main_v140 : Ref sig .tc := ⟨.hbm, 309, rfl⟩
abbrev main_v141 : Ref sig .tc := ⟨.hbm, 310, rfl⟩
abbrev main_v142 : Ref sig .tc := ⟨.hbm, 311, rfl⟩
abbrev main_v143 : Ref sig .tc := ⟨.hbm, 312, rfl⟩
abbrev main_v144 : Ref sig .tc := ⟨.hbm, 313, rfl⟩
abbrev main_v145 : Ref sig .tc := ⟨.hbm, 314, rfl⟩
abbrev main_v146 : Ref sig .tc := ⟨.hbm, 315, rfl⟩
abbrev main_v147 : Ref sig .tc := ⟨.hbm, 316, rfl⟩
abbrev main_v148 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x192 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S192x192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x192 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S192x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bitsLt_bf16_f32 : FTy.bits .bf16 < FTy.bits .f32
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S3x16x64_S1x16x64_1_0_0 : S3x16x64.Slices ![1, 0, 0] S1x16x64
  slices_S3x64_S1x64_1_0 : S3x64.Slices ![1, 0] S1x64
  slices_S3x64x64_S1x64x64_1_0_0 : S3x64x64.Slices ![1, 0, 0] S1x64x64
  slices_S3x16x64_S1x16x64_2_0_0 : S3x16x64.Slices ![2, 0, 0] S1x16x64
  slices_S3x64_S1x64_2_0 : S3x64.Slices ![2, 0] S1x64
  slices_S3x64x64_S1x64x64_2_0_0 : S3x64x64.Slices ![2, 0, 0] S1x64x64
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512x1_S512x64_0_1 : S512x1.BroadcastsInDim S512x64 (![0, 1] : Fin 2 → Fin S512x64.rank)
  concatenates_S512x64_S512x64_S512x64_S512x192_d1 : Shape.Concatenates [S512x64, S512x64, S512x64] S512x192 1
  shapeCasts_S192_S1x192 : S192.ShapeCasts S1x192
  shapeCasts_S10_S1x10 : S10.ShapeCasts S1x10
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S512x192 : S1x192.Broadcasts S512x192
  inb_S192x10_S192x10_0_0 : ∀ a, (![0, 0] : Fin 2 → Nat) a + S192x10.size a ≤ S192x10.size a
  h_S192x10 : 0 < S192x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  dot_S800000x16_S16x64_S800000x64_1_0_0_1_n_n_wf : DotDims.WF S800000x16 S16x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S512x1_S50000x1_S50000x1_1_0_0_1_wf : ScatterDims.WF S512x1 S50000x1 S50000x1 [1] [0] [0] 1
  scatter_S512x64_S50000x1_S50000x64_1_0_0_1_wf : ScatterDims.WF S512x64 S50000x1 S50000x64 [1] [0] [0] 1
  dot_S512x192_S192x192_S512x192_1_0_0_1_n_n_wf : DotDims.WF S512x192 S192x192 S512x192 [1] [0] [0] [1] [] []
  dot_S512x192_S192x10_S512x10_1_0_0_1_n_n_wf : DotDims.WF S512x192 S192x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S50000x64.size a
  hwx3_7 : ∀ i : grid3.Coords, EltTy.bits .f32 = 32 ∨ (Rect.block (s := S50000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S50000x64.size a
  hwx4_4 : ∀ i : grid4.Coords, EltTy.bits .f32 = 32 ∨ (Rect.block (s := S50000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x64.size a ≤ S50000x64.size a
  hwx5_7 : ∀ i : grid5.Coords, EltTy.bits .f32 = 32 ∨ (Rect.block (s := S50000x64) S10000x64.size (cc5_transform_7 i) (hinb5_7 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x192.size a ≤ S512x192.size a
  hwx6_0 : ∀ i : grid6.Coords, EltTy.bits .f32 = 32 ∨ (Rect.block (s := S512x192) S512x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x192.size a ≤ S192x192.size a
  hwx6_1 : ∀ i : grid6.Coords, EltTy.bits .f32 = 32 ∨ (Rect.block (s := S192x192) S192x192.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x192.size a ≤ S1x192.size a
  hwx6_2 : ∀ i : grid6.Coords, EltTy.bits .f32 = 32 ∨ (Rect.block (s := S1x192) S1x192.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S192x10.size a ≤ S192x10.size a
  hwx6_3 : ∀ i : grid6.Coords, EltTy.bits .f32 = 32 ∨ (Rect.block (s := S192x10) S192x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x10.size a ≤ S512x10.size a
  hwx6_5 : ∀ i : grid6.Coords, EltTy.bits .f32 = 32 ∨ (Rect.block (s := S512x10) S512x10.size (cc6_transform_5 i) (hinb6_5 i)).WholeWords (EltTy.packing .f32)

variable [Facts₀]

def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x10_S512x10_1_0_0_1_n_n : DotDims S512x192 S192x10 S512x10 where
  lhsContracting := [1]
  rhsContracting := [0]
  lhsNonContracting := [0]
  rhsNonContracting := [1]
  lhsBatch := []
  rhsBatch := []
  wf := dot_S512x192_S192x10_S512x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v65) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v83) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v83) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v101) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v105) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v115) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v122) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v123) S10000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v145) S512x192.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S192x192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v146) S1x192.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S192x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v147) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v148) S512x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S800000x16 : Shape := ⟨2, ![800000, 16]⟩
abbrev S3x16x64 : Shape := ⟨3, ![3, 16, 64]⟩
abbrev S3x64 : Shape := ⟨2, ![3, 64]⟩
abbrev S3x64x64 : Shape := ⟨3, ![3, 64, 64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x16x64 : Shape := ⟨3, ![1, 16, 64]⟩
abbrev S16x64 : Shape := ⟨2, ![16, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S50000x1 : Shape := ⟨2, ![50000, 1]⟩
abbrev S512x1 : Shape := ⟨2, ![512, 1]⟩
abbrev S512x64 : Shape := ⟨2, ![512, 64]⟩
abbrev S512x192 : Shape := ⟨2, ![512, 192]⟩
abbrev S1x192 : Shape := ⟨2, ![1, 192]⟩
abbrev S512x10 : Shape := ⟨2, ![512, 10]⟩
abbrev S1x10 : Shape := ⟨2, ![1, 10]⟩
abbrev S512 : Shape := ⟨1, ![512]⟩

abbrev nBuf : Space → Nat
  | .hbm => 368
  | .vmem => 0
  | .smem => 0
  | _ => 0

abbrev hbmTy0_0 (i : Nat) : BufTy := match i % 128 with
  | 0 => ⟨S50000x64, .f32⟩
  | 1 => ⟨S800000x16, .f32⟩
  | 2 => ⟨S3x16x64, .f32⟩
  | 3 => ⟨S3x64, .f32⟩
  | 4 => ⟨S3x64x64, .f32⟩
  | 5 => ⟨S3x64, .f32⟩
  | 6 => ⟨S3x64, .f32⟩
  | 7 => ⟨S3x64, .f32⟩
  | 8 => ⟨S3x64x64, .f32⟩
  | 9 => ⟨S3x64, .f32⟩
  | 10 => ⟨S192x192, .f32⟩
  | 11 => ⟨S192, .f32⟩
  | 12 => ⟨S192x10, .f32⟩
  | 13 => ⟨S10, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S1x16x64, .f32⟩
  | 30 => ⟨S16x64, .f32⟩
  | 31 => ⟨S800000x64, .f32⟩
  | 32 => ⟨S800000x64, .f32⟩
  | 33 => ⟨S1x64, .f32⟩
  | 34 => ⟨S64, .f32⟩
  | 35 => ⟨S1x64, .f32⟩
  | 36 => ⟨S800000x64, .f32⟩
  | 37 => ⟨S800000x64, .f32⟩
  | 38 => ⟨S_, .f32⟩
  | 39 => ⟨S800000x64, .f32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S50000x64, .f32⟩
  | 46 => ⟨S1x64x64, .f32⟩
  | 47 => ⟨S64x64, .f32⟩
  | 48 => ⟨S50000x64, .f32⟩
  | 49 => ⟨S1x64, .f32⟩
  | 50 => ⟨S64, .f32⟩
  | 51 => ⟨S1x64, .f32⟩
  | 52 => ⟨S50000x64, .f32⟩
  | 53 => ⟨S50000x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S50000x64, .f32⟩
  | 67 => ⟨S50000x64, .f32⟩
  | 68 => ⟨S50000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S1x64, .f32⟩
  | 93 => ⟨S64, .f32⟩
  | 94 => ⟨S1x64, .f32⟩
  | 95 => ⟨S50000x64, .f32⟩
  | 96 => ⟨S50000x64, .f32⟩
  | 97 => ⟨S1x64, .f32⟩
  | 98 => ⟨S64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S1x64x64, .f32⟩
  | 106 => ⟨S64x64, .f32⟩
  | 107 => ⟨S50000x64, .f32⟩
  | 108 => ⟨S1x64, .f32⟩
  | 109 => ⟨S64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S1x16x64, .f32⟩
  | 126 => ⟨S16x64, .f32⟩
  | 127 => ⟨S800000x64, .f32⟩
  | _ => ⟨S50000x64, .f32⟩

abbrev hbmTy0_1 (i : Nat) : BufTy := match i % 128 with
  | 0 => ⟨S800000x64, .f32⟩
  | 1 => ⟨S1x64, .f32⟩
  | 2 => ⟨S64, .f32⟩
  | 3 => ⟨S1x64, .f32⟩
  | 4 => ⟨S800000x64, .f32⟩
  | 5 => ⟨S800000x64, .f32⟩
  | 6 => ⟨S_, .f32⟩
  | 7 => ⟨S800000x64, .f32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S50000x64, .f32⟩
  | 14 => ⟨S1x64x64, .f32⟩
  | 15 => ⟨S64x64, .f32⟩
  | 16 => ⟨S50000x64, .f32⟩
  | 17 => ⟨S1x64, .f32⟩
  | 18 => ⟨S64, .f32⟩
  | 19 => ⟨S1x64, .f32⟩
  | 20 => ⟨S50000x64, .f32⟩
  | 21 => ⟨S50000x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S50000x64, .f32⟩
  | 35 => ⟨S50000x64, .f32⟩
  | 36 => ⟨S50000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S1x64x64, .f32⟩
  | 74 => ⟨S64x64, .f32⟩
  | 75 => ⟨S50000x64, .f32⟩
  | 76 => ⟨S1x64, .f32⟩
  | 77 => ⟨S64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S1x16x64, .f32⟩
  | 94 => ⟨S16x64, .f32⟩
  | 95 => ⟨S800000x64, .f32⟩
  | 96 => ⟨S800000x64, .f32⟩
  | 97 => ⟨S1x64, .f32⟩
  | 98 => ⟨S64, .f32⟩
  | 99 => ⟨S1x64, .f32⟩
  | 100 => ⟨S800000x64, .f32⟩
  | 101 => ⟨S800000x64, .f32⟩
  | 102 => ⟨S_, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S1x64x64, .f32⟩
  | 111 => ⟨S64x64, .f32⟩
  | 112 => ⟨S50000x64, .f32⟩
  | 113 => ⟨S1x64, .f32⟩
  | 114 => ⟨S64, .f32⟩
  | 115 => ⟨S1x64, .f32⟩
  | 116 => ⟨S50000x64, .f32⟩
  | 117 => ⟨S50000x64, .f32⟩
  | 118 => ⟨S_, .f32⟩
  | 119 => ⟨S64, .f32⟩
  | 120 => ⟨S_, .f32⟩
  | 121 => ⟨S64, .f32⟩
  | 122 => ⟨S64, .f32⟩
  | 123 => ⟨S_, .i32⟩
  | 124 => ⟨S_, .f32⟩
  | 125 => ⟨S64, .f32⟩
  | 126 => ⟨S1x64, .f32⟩
  | 127 => ⟨S_, .f32⟩
  | _ => ⟨S50000x64, .f32⟩

abbrev hbmTy0_2 (i : Nat) : BufTy := match i % 128 with
  | 0 => ⟨S1x64, .f32⟩
  | 1 => ⟨S1x64, .f32⟩
  | 2 => ⟨S50000x64, .f32⟩
  | 3 => ⟨S50000x64, .f32⟩
  | 4 => ⟨S50000x64, .f32⟩
  | 5 => ⟨S_, .f32⟩
  | 6 => ⟨S_, .f32⟩
  | 7 => ⟨S_, .f32⟩
  | 8 => ⟨S_, .f32⟩
  | 9 => ⟨S64, .f32⟩
  | 10 => ⟨S64, .f32⟩
  | 11 => ⟨S64, .f32⟩
  | 12 => ⟨S_, .f32⟩
  | 13 => ⟨S_, .i1⟩
  | 14 => ⟨S_, .f32⟩
  | 15 => ⟨S_, .f32⟩
  | 16 => ⟨S64, .f32⟩
  | 17 => ⟨S64, .f32⟩
  | 18 => ⟨S1x64, .f32⟩
  | 19 => ⟨S50000x64, .f32⟩
  | 20 => ⟨S50000x64, .f32⟩
  | 21 => ⟨S_, .f32⟩
  | 22 => ⟨S64, .f32⟩
  | 23 => ⟨S64, .f32⟩
  | 24 => ⟨S64, .f32⟩
  | 25 => ⟨S1x64, .f32⟩
  | 26 => ⟨S50000x64, .f32⟩
  | 27 => ⟨S50000x64, .f32⟩
  | 28 => ⟨S1x64, .f32⟩
  | 29 => ⟨S64, .f32⟩
  | 30 => ⟨S1x64, .f32⟩
  | 31 => ⟨S50000x64, .f32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S1x64x64, .f32⟩
  | 42 => ⟨S64x64, .f32⟩
  | 43 => ⟨S50000x64, .f32⟩
  | 44 => ⟨S1x64, .f32⟩
  | 45 => ⟨S64, .f32⟩
  | 46 => ⟨S1x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S_, .f32⟩
  | 53 => ⟨S50000x1, .f32⟩
  | 54 => ⟨S_, .f32⟩
  | 55 => ⟨S512x1, .f32⟩
  | 56 => ⟨S50000x1, .i32⟩
  | 57 => ⟨S512x1, .f32⟩
  | 58 => ⟨S_, .f32⟩
  | 59 => ⟨S512x64, .f32⟩
  | 60 => ⟨S50000x1, .i32⟩
  | 61 => ⟨S512x64, .f32⟩
  | 62 => ⟨S_, .f32⟩
  | 63 => ⟨S512x1, .f32⟩
  | 64 => ⟨S512x1, .f32⟩
  | 65 => ⟨S512x64, .f32⟩
  | 66 => ⟨S512x64, .f32⟩
  | 67 => ⟨S_, .f32⟩
  | 68 => ⟨S512x64, .f32⟩
  | 69 => ⟨S50000x1, .i32⟩
  | 70 => ⟨S512x64, .f32⟩
  | 71 => ⟨S_, .f32⟩
  | 72 => ⟨S512x1, .f32⟩
  | 73 => ⟨S512x1, .f32⟩
  | 74 => ⟨S512x64, .f32⟩
  | 75 => ⟨S512x64, .f32⟩
  | 76 => ⟨S_, .f32⟩
  | 77 => ⟨S512x64, .f32⟩
  | 78 => ⟨S50000x1, .i32⟩
  | 79 => ⟨S512x64, .f32⟩
  | 80 => ⟨S_, .f32⟩
  | 81 => ⟨S512x1, .f32⟩
  | 82 => ⟨S512x1, .f32⟩
  | 83 => ⟨S512x64, .f32⟩
  | 84 => ⟨S512x64, .f32⟩
  | 85 => ⟨S512x192, .f32⟩
  | 86 => ⟨S512x192, .f32⟩
  | 87 => ⟨S1x192, .f32⟩
  | 88 => ⟨S512x192, .f32⟩
  | 89 => ⟨S512x192, .f32⟩
  | 90 => ⟨S_, .f32⟩
  | 91 => ⟨S512x192, .f32⟩
  | 92 => ⟨S512x192, .f32⟩
  | 93 => ⟨S512x10, .f32⟩
  | 94 => ⟨S1x10, .f32⟩
  | 95 => ⟨S512x10, .f32⟩
  | 96 => ⟨S512x10, .f32⟩
  | 97 => ⟨S_, .f32⟩
  | 98 => ⟨S512, .f32⟩
  | 99 => ⟨S_, .f32⟩
  | 100 => ⟨S512, .f32⟩
  | 101 => ⟨S512, .f32⟩
  | 102 => ⟨S512x1, .f32⟩
  | 103 => ⟨S512x10, .f32⟩
  | 104 => ⟨S512x10, .f32⟩
  | 105 => ⟨S512x10, .f32⟩
  | 106 => ⟨S_, .f32⟩
  | 107 => ⟨S512, .f32⟩
  | 108 => ⟨S512x1, .f32⟩
  | 109 => ⟨S512x1, .f32⟩
  | 110 => ⟨S512x10, .f32⟩
  | 111 => ⟨S512x10, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_c_3 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_cst_3 : Ref sig .tc := ⟨.hbm, 76, rfl⟩
abbrev main_call1_v12 : Ref sig .tc := ⟨.hbm, 77, rfl⟩
abbrev main_call1_cst_4 : Ref sig .tc := ⟨.hbm, 78, rfl⟩
abbrev main_call1_call0_v0 : Ref sig .tc := ⟨.hbm, 79, rfl⟩
abbrev main_call1_call0_v1 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call2_cst : Ref sig .tc := ⟨.hbm, 102, rfl⟩
abbrev main_call2_v0 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call3_cst : Ref sig .tc := ⟨.hbm, 113, rfl⟩
abbrev main_call3_v0 : Ref sig .tc := ⟨.hbm, 114, rfl⟩
abbrev main_v65 : Ref sig .tc := ⟨.hbm, 115, rfl⟩
abbrev main_c_5 : Ref sig .tc := ⟨.hbm, 116, rfl⟩
abbrev main_v66 : Ref sig .tc := ⟨.hbm, 117, rfl⟩
abbrev main_v67 : Ref sig .tc := ⟨.hbm, 118, rfl⟩
abbrev main_c_6 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_call4_cst : Ref sig .tc := ⟨.hbm, 134, rfl⟩
abbrev main_call4_v0 : Ref sig .tc := ⟨.hbm, 135, rfl⟩
abbrev main_v82 : Ref sig .tc := ⟨.hbm, 136, rfl⟩
abbrev main_cst_7 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_8 : Ref sig .tc := ⟨.hbm, 150, rfl⟩
abbrev main_v95 : Ref sig .tc := ⟨.hbm, 151, rfl⟩
abbrev main_cst_9 : Ref sig .tc := ⟨.hbm, 152, rfl⟩
abbrev main_v96 : Ref sig .tc := ⟨.hbm, 153, rfl⟩
abbrev main_v97 : Ref sig .tc := ⟨.hbm, 154, rfl⟩
abbrev main_c_10 : Ref sig .tc := ⟨.hbm, 155, rfl⟩
abbrev main_call5_cst : Ref sig .tc := ⟨.hbm, 156, rfl⟩
abbrev main_call5_v0 : Ref sig .tc := ⟨.hbm, 157, rfl⟩
abbrev main_call5_v1 : Ref sig .tc := ⟨.hbm, 158, rfl⟩
abbrev main_call5_cst_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_v6 : Ref sig .tc := ⟨.hbm, 164, rfl⟩
abbrev main_call5_v7 : Ref sig .tc := ⟨.hbm, 165, rfl⟩
abbrev main_call5_cst_1 : Ref sig .tc := ⟨.hbm, 166, rfl⟩
abbrev main_call5_v8 : Ref sig .tc := ⟨.hbm, 167, rfl⟩
abbrev main_call5_cst_2 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_cst_3 : Ref sig .tc := ⟨.hbm, 172, rfl⟩
abbrev main_call5_v12 : Ref sig .tc := ⟨.hbm, 173, rfl⟩
abbrev main_call5_cst_4 : Ref sig .tc := ⟨.hbm, 174, rfl⟩
abbrev main_call5_call0_v0 : Ref sig .tc := ⟨.hbm, 175, rfl⟩
abbrev main_call5_call0_v1 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_cst_11 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_call6_cst : Ref sig .tc := ⟨.hbm, 198, rfl⟩
abbrev main_call6_v0 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_call7_cst : Ref sig .tc := ⟨.hbm, 209, rfl⟩
abbrev main_call7_v0 : Ref sig .tc := ⟨.hbm, 210, rfl⟩
abbrev main_v127 : Ref sig .tc := ⟨.hbm, 211, rfl⟩
abbrev main_c_12 : Ref sig .tc := ⟨.hbm, 212, rfl⟩
abbrev main_v128 : Ref sig .tc := ⟨.hbm, 213, rfl⟩
abbrev main_v129 : Ref sig .tc := ⟨.hbm, 214, rfl⟩
abbrev main_c_13 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_call8_cst : Ref sig .tc := ⟨.hbm, 230, rfl⟩
abbrev main_call8_v0 : Ref sig .tc := ⟨.hbm, 231, rfl⟩
abbrev main_v144 : Ref sig .tc := ⟨.hbm, 232, rfl⟩
abbrev main_cst_14 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_15 : Ref sig .tc := ⟨.hbm, 246, rfl⟩
abbrev main_v157 : Ref sig .tc := ⟨.hbm, 247, rfl⟩
abbrev main_cst_16 : Ref sig .tc := ⟨.hbm, 248, rfl⟩
abbrev main_v158 : Ref sig .tc := ⟨.hbm, 249, rfl⟩
abbrev main_v159 : Ref sig .tc := ⟨.hbm, 250, rfl⟩
abbrev main_c_17 : Ref sig .tc := ⟨.hbm, 251, rfl⟩
abbrev main_call9_cst : Ref sig .tc := ⟨.hbm, 252, rfl⟩
abbrev main_call9_v0 : Ref sig .tc := ⟨.hbm, 253, rfl⟩
abbrev main_call9_v1 : Ref sig .tc := ⟨.hbm, 254, rfl⟩
abbrev main_call9_cst_0 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_call9_v5 : Ref sig .tc := ⟨.hbm, 259, rfl⟩
abbrev main_call9_v6 : Ref sig .tc := ⟨.hbm, 260, rfl⟩
abbrev main_call9_v7 : Ref sig .tc := ⟨.hbm, 261, rfl⟩
abbrev main_call9_cst_1 : Ref sig .tc := ⟨.hbm, 262, rfl⟩
abbrev main_call9_v8 : Ref sig .tc := ⟨.hbm, 263, rfl⟩
abbrev main_call9_cst_2 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_cst_3 : Ref sig .tc := ⟨.hbm, 268, rfl⟩
abbrev main_call9_v12 : Ref sig .tc := ⟨.hbm, 269, rfl⟩
abbrev main_call9_cst_4 : Ref sig .tc := ⟨.hbm, 270, rfl⟩
abbrev main_call9_call0_v0 : Ref sig .tc := ⟨.hbm, 271, rfl⟩
abbrev main_call9_call0_v1 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_cst_18 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_call10_cst : Ref sig .tc := ⟨.hbm, 294, rfl⟩
abbrev main_call10_v0 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_call11_cst : Ref sig .tc := ⟨.hbm, 305, rfl⟩
abbrev main_call11_v0 : Ref sig .tc := ⟨.hbm, 306, rfl⟩
abbrev main_v189 : Ref sig .tc := ⟨.hbm, 307, rfl⟩
abbrev main_cst_19 : Ref sig .tc := ⟨.hbm, 308, rfl⟩
abbrev main_v190 : Ref sig .tc := ⟨.hbm, 309, rfl⟩
abbrev main_cst_20 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_cst_21 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_cst_22 : Ref sig .tc := ⟨.hbm, 318, rfl⟩
abbrev main_v197 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩
abbrev main_cst_23 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_cst_24 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_cst_25 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_cst_26 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_v219 : Ref sig .tc := ⟨.hbm, 345, rfl⟩
abbrev main_call12_cst : Ref sig .tc := ⟨.hbm, 346, rfl⟩
abbrev main_call12_v0 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_call13_cst : Ref sig .tc := ⟨.hbm, 353, rfl⟩
abbrev main_call13_v0 : Ref sig .tc := ⟨.hbm, 354, rfl⟩
abbrev main_call13_cst_0 : Ref sig .tc := ⟨.hbm, 355, rfl⟩
abbrev main_call13_v1 : Ref sig .tc := ⟨.hbm, 356, rfl⟩
abbrev main_call13_v2 : Ref sig .tc := ⟨.hbm, 357, rfl⟩
abbrev main_call13_v3 : Ref sig .tc := ⟨.hbm, 358, rfl⟩
abbrev main_call13_v4 : Ref sig .tc := ⟨.hbm, 359, rfl⟩
abbrev main_call13_v5 : Ref sig .tc := ⟨.hbm, 360, rfl⟩
abbrev main_call13_v6 : Ref sig .tc := ⟨.hbm, 361, rfl⟩
abbrev main_call13_cst_1 : Ref sig .tc := ⟨.hbm, 362, rfl⟩
abbrev main_call13_v7 : Ref sig .tc := ⟨.hbm, 363, rfl⟩
abbrev main_call13_v8 : Ref sig .tc := ⟨.hbm, 364, rfl⟩
abbrev main_call13_v9 : Ref sig .tc := ⟨.hbm, 365, rfl⟩
abbrev main_call13_v10 : Ref sig .tc := ⟨.hbm, 366, rfl⟩
abbrev main_v225 : Ref sig .tc := ⟨.hbm, 367, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x16x64_S1x16x64_1_0_0 : S3x16x64.Slices ![1, 0, 0] S1x16x64
  slices_S3x64_S1x64_1_0 : S3x64.Slices ![1, 0] S1x64
  slices_S3x64x64_S1x64x64_1_0_0 : S3x64x64.Slices ![1, 0, 0] S1x64x64
  slices_S3x16x64_S1x16x64_2_0_0 : S3x16x64.Slices ![2, 0, 0] S1x16x64
  slices_S3x64_S1x64_2_0 : S3x64.Slices ![2, 0] S1x64
  slices_S3x64x64_S1x64x64_2_0_0 : S3x64x64.Slices ![2, 0, 0] S1x64x64
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512x1_S512x64_0_1 : S512x1.BroadcastsInDim S512x64 (![0, 1] : Fin 2 → Fin S512x64.rank)
  concatenates_S512x64_S512x64_S512x64_S512x192_d1 : Shape.Concatenates [S512x64, S512x64, S512x64] S512x192 1
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  bcast_S_S512x192 : S_.BroadcastsInDim S512x192 (![] : Fin 0 → Fin S512x192.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x64_S800000x1_S800000x64_1_0_n_n_0_1_164_wf : GatherDims.WF S50000x64 S800000x1 S800000x64 [1] [0] [] [0] [] 1 ![1, 64]
  dot_S800000x16_S16x64_S800000x64_1_0_0_1_n_n_wf : DotDims.WF S800000x16 S16x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x1_S50000x1_S50000x1_1_0_0_1_wf : ScatterDims.WF S512x1 S50000x1 S50000x1 [1] [0] [0] 1
  scatter_S512x64_S50000x1_S50000x64_1_0_0_1_wf : ScatterDims.WF S512x64 S50000x1 S50000x64 [1] [0] [0] 1
  dot_S512x192_S192x192_S512x192_1_0_0_1_n_n_wf : DotDims.WF S512x192 S192x192 S512x192 [1] [0] [0] [1] [] []
  dot_S512x192_S192x10_S512x10_1_0_0_1_n_n_wf : DotDims.WF S512x192 S192x10 S512x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x10_S512x10_1_0_0_1_n_n : DotDims S512x192 S192x10 S512x10 where
  lhsContracting := [1]
  rhsContracting := [0]
  lhsNonContracting := [0]
  rhsNonContracting := [1]
  lhsBatch := []
  rhsBatch := []
  wf := dot_S512x192_S192x10_S512x10_1_0_0_1_n_n_wf

class Facts : Prop extends Facts₀ where

variable [Facts]
-- ==== Proof.RegI0.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_2 : Rect S64x64 := Rect.unit (s := S64x64) ![0, 0] S64x64.size inb_S64x64_S64x64_0_0
abbrev r0_3 : Rect S1x64 := Rect.unit (s := S1x64) ![0, 0] S1x64.size inb_S1x64_S1x64_0_0

def out0_4 (x0 : Vec F S10000x64 .f32) (x1 : Vec F S10000x64 .f32) (x2 : Vec F S64x64 .f32) (x3 : Vec F S1x64 .f32) : Vec F S10000x64 .f32 :=
  View.canon [⟨r0_0, k0_pay1 (View.ld x0 r0_0) (View.ld x1 r0_0) (View.ld x2 r0_2) (View.ld x3 r0_3)⟩]

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0_in (c : Dev nD) (t : Fin cfg0.N) : ∀ w : Fin cfg0.W, w ≠ 4 → ∀ d, (dat0 V c).before w t d = (dat0 V c).after w t
  | ⟨0, _⟩, _, d | ⟨1, _⟩, _, d | ⟨2, _⟩, _, d | ⟨3, _⟩, _, d =>
    ((dat0 V c).before_in_eq_fetched _ rfl (fun _ => rfl) (fun _ _ _ => rfl) (fun _ => by dsimp only [dat0]; rfl) t d).trans
      (by unfold Dat.fetched Dat.blockOf; dsimp only [dat0]; rfl)
  | ⟨4, _⟩, h, _ => absurd rfl h

set_option maxHeartbeats 1000000 in
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__node_update_kernel i arg1 harg1 arg2 harg2 arg3 harg3 arg4 harg4 arg5 harg5) K := by
  simp only [cc0__node_update_kernel_eq_skeleton]; unfold cc0__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  iexists _; isplitr; swap; iexact H4
  ipureintro
  exact View.read_writes_eq_canon _ _ _ (View.cover_of_tiled _ S10000x64.size (by rfl))

theorem body_obligation0 (c : Dev nD) : BodyObligation (dat0 (F := F) V c) (defs₀ (F := F)) Variants.none () Set.univ := fun t => by
  rw [bigSep_W0, bigSep_W0]
  simp (disch := decide) only [before0_in]
  dsimp only [dat0]
  change _ ⊢ wp _ _ _ (bodyAt0 t) _
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  iframe H0 H1 H2 H3
  isplitl [H4]; · iexists _; iexact H4
  iintro H
  iframe
  iexact Ho

end Cert.KernelIdeal.HF

end
-- ==== Proof.RegI1.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

def out1_7 (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) : Vec F S10000x64 .f32 :=
  View.canon [⟨r1_0, k1_pay1 (View.ld x0 r1_0) (View.ld x1 r1_1) (View.ld x2 r1_1) (View.ld x3 r1_1) (View.ld x4 r1_1) (View.ld x5 r1_2) (View.ld x6 r1_1)⟩]

set_option maxHeartbeats 4000000 in
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_relu_mlp2_kernel i arg1 harg1 arg2 harg2 arg3 harg3 arg4 harg4 arg5 harg5 arg6 harg6 arg7 harg7 arg8 harg8) K := by
  simp only [cc1__bn_relu_mlp2_kernel_eq_skeleton]; unfold cc1__bn_relu_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr; swap; iexact H7
  ipureintro
  exact View.read_writes_eq_canon _ _ _ (View.cover_of_tiled _ S10000x64.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_in (c : Dev nD) (t : Fin cfg1.N) : ∀ w : Fin cfg1.W, w ≠ 7 → ∀ d, (dat1 V c).before w t d = (dat1 V c).after w t
  | ⟨0, _⟩, _, d | ⟨1, _⟩, _, d | ⟨2, _⟩, _, d | ⟨3, _⟩, _, d | ⟨4, _⟩, _, d | ⟨5, _⟩, _, d | ⟨6, _⟩, _, d =>
    ((dat1 V c).before_in_eq_fetched _ rfl (fun _ => rfl) (fun _ _ _ => rfl) (fun _ => by dsimp only [dat1]; rfl) t d).trans
      (by unfold Dat.fetched Dat.blockOf; dsimp only [dat1]; rfl)
  | ⟨7, _⟩, h, _ => absurd rfl h

theorem body_obligation1 (c : Dev nD) : BodyObligation (dat1 (F := F) V c) (defs₀ (F := F)) Variants.none () Set.univ := fun t => by
  rw [bigSep_W1, bigSep_W1]
  simp (disch := decide) only [before1_in]
  dsimp only [dat1]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro H
  iframe
  iexact Ho

end Cert.KernelIdeal.HF

end
-- ==== Proof.RegI2.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0

def out2_4 (x0 : Vec F S10000x64 .f32) (x1 : Vec F S10000x64 .f32) (x2 : Vec F S64x64 .f32) (x3 : Vec F S1x64 .f32) : Vec F S10000x64 .f32 :=
  View.canon [⟨r2_0, k2_pay1 (View.ld x0 r2_0) (View.ld x1 r2_0) (View.ld x2 r2_2) (View.ld x3 r2_3)⟩]

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

theorem before2_in (c : Dev nD) (t : Fin cfg2.N) : ∀ w : Fin cfg2.W, w ≠ 4 → ∀ d, (dat2 V c).before w t d = (dat2 V c).after w t
  | ⟨0, _⟩, _, d | ⟨1, _⟩, _, d | ⟨2, _⟩, _, d | ⟨3, _⟩, _, d =>
    ((dat2 V c).before_in_eq_fetched _ rfl (fun _ => rfl) (fun _ _ _ => rfl) (fun _ => by dsimp only [dat2]; rfl) t d).trans
      (by unfold Dat.fetched Dat.blockOf; dsimp only [dat2]; rfl)
  | ⟨4, _⟩, h, _ => absurd rfl h

set_option maxHeartbeats 1000000 in
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__node_update_kernel i arg1 harg1 arg2 harg2 arg3 harg3 arg4 harg4 arg5 harg5) K := by
  simp only [cc2__node_update_kernel_eq_skeleton]; unfold cc2__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  iexists _; isplitr; swap; iexact H4
  ipureintro
  exact View.read_writes_eq_canon _ _ _ (View.cover_of_tiled _ S10000x64.size (by rfl))

theorem body_obligation2 (c : Dev nD) : BodyObligation (dat2 (F := F) V c) (defs₀ (F := F)) Variants.none () Set.univ := fun t => by
  rw [bigSep_W2, bigSep_W2]
  simp (disch := decide) only [before2_in]
  dsimp only [dat2]
  change _ ⊢ wp _ _ _ (bodyAt2 t) _
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  iframe H0 H1 H2 H3
  isplitl [H4]; · iexists _; iexact H4
  iintro H
  iframe
  iexact Ho

end Cert.KernelIdeal.HF

end
-- ==== Proof.RegI3.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S64x64 := Rect.unit (s := S64x64) ![0, 0] S64x64.size inb_S64x64_S64x64_0_0

def out3_7 (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) : Vec F S10000x64 .f32 :=
  View.canon [⟨r3_0, k3_pay1 (View.ld x0 r3_0) (View.ld x1 r3_1) (View.ld x2 r3_1) (View.ld x3 r3_1) (View.ld x4 r3_1) (View.ld x5 r3_2) (View.ld x6 r3_1)⟩]

set_option maxHeartbeats 4000000 in
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_relu_mlp2_kernel i arg1 harg1 arg2 harg2 arg3 harg3 arg4 harg4 arg5 harg5 arg6 harg6 arg7 harg7 arg8 harg8) K := by
  simp only [cc3__bn_relu_mlp2_kernel_eq_skeleton]; unfold cc3__bn_relu_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr; swap; iexact H7
  ipureintro
  exact View.read_writes_eq_canon _ _ _ (View.cover_of_tiled _ S10000x64.size (by rfl))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_in (c : Dev nD) (t : Fin cfg3.N) : ∀ w : Fin cfg3.W, w ≠ 7 → ∀ d, (dat3 V c).before w t d = (dat3 V c).after w t
  | ⟨0, _⟩, _, d | ⟨1, _⟩, _, d | ⟨2, _⟩, _, d | ⟨3, _⟩, _, d | ⟨4, _⟩, _, d | ⟨5, _⟩, _, d | ⟨6, _⟩, _, d =>
    ((dat3 V c).before_in_eq_fetched _ rfl (fun _ => rfl) (fun _ _ _ => rfl) (fun _ => by dsimp only [dat3]; rfl) t d).trans
      (by unfold Dat.fetched Dat.blockOf; dsimp only [dat3]; rfl)
  | ⟨7, _⟩, h, _ => absurd rfl h

theorem body_obligation3 (c : Dev nD) : BodyObligation (dat3 (F := F) V c) (defs₀ (F := F)) Variants.none () Set.univ := fun t => by
  rw [bigSep_W3, bigSep_W3]
  simp (disch := decide) only [before3_in]
  dsimp only [dat3]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  iintro H
  iframe
  iexact Ho

end Cert.KernelIdeal.HF

end
-- ==== Proof.RegI4.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_2 : Rect S64x64 := Rect.unit (s := S64x64) ![0, 0] S64x64.size inb_S64x64_S64x64_0_0
abbrev r4_3 : Rect S1x64 := Rect.unit (s := S1x64) ![0, 0] S1x64.size inb_S1x64_S1x64_0_0

def out4_4 (x0 : Vec F S10000x64 .f32) (x1 : Vec F S10000x64 .f32) (x2 : Vec F S64x64 .f32) (x3 : Vec F S1x64 .f32) : Vec F S10000x64 .f32 :=
  View.canon [⟨r4_0, k4_pay1 (View.ld x0 r4_0) (View.ld x1 r4_0) (View.ld x2 r4_2) (View.ld x3 r4_3)⟩]

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem before4_in (c : Dev nD) (t : Fin cfg4.N) : ∀ w : Fin cfg4.W, w ≠ 4 → ∀ d, (dat4 V c).before w t d = (dat4 V c).after w t
  | ⟨0, _⟩, _, d | ⟨1, _⟩, _, d | ⟨2, _⟩, _, d | ⟨3, _⟩, _, d =>
    ((dat4 V c).before_in_eq_fetched _ rfl (fun _ => rfl) (fun _ _ _ => rfl) (fun _ => by dsimp only [dat4]; rfl) t d).trans
      (by unfold Dat.fetched Dat.blockOf; dsimp only [dat4]; rfl)
  | ⟨4, _⟩, h, _ => absurd rfl h

set_option maxHeartbeats 1000000 in
theorem sound_kernel4 (c : Dev nD) (E : Set ℕ) (i : grid4.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__node_update_kernel i arg1 harg1 arg2 harg2 arg3 harg3 arg4 harg4 arg5 harg5) K := by
  simp only [cc4__node_update_kernel_eq_skeleton]; unfold cc4__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  iexists _; isplitr; swap; iexact H4
  ipureintro
  exact View.read_writes_eq_canon _ _ _ (View.cover_of_tiled _ S10000x64.size (by rfl))

theorem body_obligation4 (c : Dev nD) : BodyObligation (dat4 (F := F) V c) (defs₀ (F := F)) Variants.none () Set.univ := fun t => by
  rw [bigSep_W4, bigSep_W4]
  simp (disch := decide) only [before4_in]
  dsimp only [dat4]
  change _ ⊢ wp _ _ _ (bodyAt4 t) _
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  iframe H0 H1 H2 H3
  isplitl [H4]; · iexists _; iexact H4
  iintro H
  iframe
  iexact Ho

end Cert.KernelIdeal.HF

end
-- ==== Proof.RegI5.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S64x64 := Rect.unit (s := S64x64) ![0, 0] S64x64.size inb_S64x64_S64x64_0_0

def out5_7 (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) : Vec F S10000x64 .f32 :=
  View.canon [⟨r5_0, k5_pay1 (View.ld x0 r5_0) (View.ld x1 r5_1) (View.ld x2 r5_1) (View.ld x3 r5_1) (View.ld x4 r5_1) (View.ld x5 r5_2) (View.ld x6 r5_1)⟩]

set_option maxHeartbeats 4000000 in
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__bn_relu_mlp2_kernel i arg1 harg1 arg2 harg2 arg3 harg3 arg4 harg4 arg5 harg5 arg6 harg6 arg7 harg7 arg8 harg8) K := by
  simp only [cc5__bn_relu_mlp2_kernel_eq_skeleton]; unfold cc5__bn_relu_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr; swap; iexact H7
  ipureintro
  exact View.read_writes_eq_canon _ _ _ (View.cover_of_tiled _ S10000x64.size (by rfl))

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_in (c : Dev nD) (t : Fin cfg5.N) : ∀ w : Fin cfg5.W, w ≠ 7 → ∀ d, (dat5 V c).before w t d = (dat5 V c).after w t
  | ⟨0, _⟩, _, d | ⟨1, _⟩, _, d | ⟨2, _⟩, _, d | ⟨3, _⟩, _, d | ⟨4, _⟩, _, d | ⟨5, _⟩, _, d | ⟨6, _⟩, _, d =>
    ((dat5 V c).before_in_eq_fetched _ rfl (fun _ => rfl) (fun _ _ _ => rfl) (fun _ => by dsimp only [dat5]; rfl) t d).trans
      (by unfold Dat.fetched Dat.blockOf; dsimp only [dat5]; rfl)
  | ⟨7, _⟩, h, _ => absurd rfl h

theorem body_obligation5 (c : Dev nD) : BodyObligation (dat5 (F := F) V c) (defs₀ (F := F)) Variants.none () Set.univ := fun t => by
  rw [bigSep_W5, bigSep_W5]
  simp (disch := decide) only [before5_in]
  dsimp only [dat5]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro H
  iframe
  iexact Ho

end Cert.KernelIdeal.HF

end
-- ==== Proof.RegI6.lean ====
import proofs.«405318_j78374563217910_3_alg».proof.Proof.Gen.KernelIdeal.Launch
import proofs.«405318_j78374563217910_3_alg».proof.Proof.Gen.KernelIdeal.Skeleton
import proofs.«405318_j78374563217910_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S512x192 := Rect.unit (s := S512x192) ![0, 0] S512x192.size inb_S512x192_S512x192_0_0
abbrev r6_1 : Rect S192x192 := Rect.unit (s := S192x192) ![0, 0] S192x192.size inb_S192x192_S192x192_0_0
abbrev r6_2 : Rect S1x192 := Rect.unit (s := S1x192) ![0, 0] S1x192.size inb_S1x192_S1x192_0_0
abbrev r6_3 : Rect S192x10 := Rect.unit (s := S192x10) ![0, 0] S192x10.size inb_S192x10_S192x10_0_0
abbrev r6_4 : Rect S1x10 := Rect.unit (s := S1x10) ![0, 0] S1x10.size inb_S1x10_S1x10_0_0
abbrev r6_5 : Rect S512x10 := Rect.unit (s := S512x10) ![0, 0] S512x10.size inb_S512x10_S512x10_0_0

def out6_5 (x0 : Vec F S512x192 .f32) (x1 : Vec F S192x192 .f32) (x2 : Vec F S1x192 .f32) (x3 : Vec F S192x10 .f32) (x4 : Vec F S1x10 .f32) : Vec F S512x10 .f32 :=
  View.canon [⟨r6_5, k6_pay1 (View.ld x0 r6_0) (View.ld x1 r6_1) (View.ld x2 r6_2) (View.ld x3 r6_3) (View.ld x4 r6_4)⟩]

set_option maxHeartbeats 1000000 in
/-- The body's one store covers the whole output buffer, which so ends at the payload of the five loaded blocks. -/
theorem sound_kernel6 (c : Dev nD) (E : Set ℕ) (i : grid6.Coords) (arg1 : Memref sig .tc .vmem S512x192 .f32) (harg1 : arg1.IsWhole) (arg2 : Memref sig .tc .vmem S192x192 .f32) (harg2 : arg2.IsWhole) (arg3 : Memref sig .tc .vmem S1x192 .f32) (harg3 : arg3.IsWhole) (arg4 : Memref sig .tc .vmem S192x10 .f32) (harg4 : arg4.IsWhole) (arg5 : Memref sig .tc .vmem S1x10 .f32) (harg5 : arg5.IsWhole) (arg6 : Memref sig .tc .vmem S512x10 .f32) (harg6 : arg6.IsWhole)
    (x0 : Vec F S512x192 .f32) (x1 : Vec F S192x192 .f32) (x2 : Vec F S1x192 .f32) (x3 : Vec F S192x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__final_mlp_kernel i arg1 harg1 arg2 harg2 arg3 harg3 arg4 harg4 arg5 harg5 arg6 harg6) K := by
  simp only [cc6__final_mlp_kernel_eq_skeleton]; unfold cc6__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S512x10.size (by rfl))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- For an input window what the body is handed is what it leaves: the window's block. -/
theorem before6_in (c : Dev nD) (t : Fin cfg6.N) : ∀ w : Fin cfg6.W, w ≠ 5 → ∀ d, (dat6 V c).before w t d = (dat6 V c).after w t
  | ⟨0, _⟩, _ | ⟨1, _⟩, _ | ⟨2, _⟩, _ | ⟨3, _⟩, _ | ⟨4, _⟩, _ => fun d =>
    ((dat6 V c).before_in_eq_fetched _ rfl (fun _ => rfl) (fun _ _ _ => rfl) (fun _ => rfl) t d).trans rfl
  | ⟨5, _⟩, h => absurd rfl h

theorem sound_body6 (c : Dev nD) (t : Fin cfg6.N) :
    iprop((dat6 V c).Φ t.castSucc ∗ (dat6 V c).owesAt () t.castSucc
        ∗ bigSep Finset.univ fun w : Fin cfg6.W => iprop(∃ d, owns (c : Thread nD τ) ((cfg6.win w).stage (cfg6.slots t w)) fullShare ((dat6 V c).before w t d)))
      ⊢ wp frame (wpE (defs₀ (F := F)) Variants.none c none) Set.univ (bodyAt6 t) fun _ =>
        iprop((dat6 V c).Φ t.castSucc ∗ (dat6 V c).owesAt () t.castSucc
          ∗ bigSep Finset.univ fun w : Fin cfg6.W => owns (c : Thread nD τ) ((cfg6.win w).stage (cfg6.slots t w)) fullShare ((dat6 V c).after w t)) := by
  rw [bigSep_W6, bigSep_W6]
  simp (disch := decide) only [before6_in V c t]
  dsimp only [dat6]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ _ _ _ _ _ _)
  iframe H0 H1 H2 H3 H4
  isplitl [H5]; · iexists _; iexact H5
  iintro ⟨H0, H1, H2, H3, H4, H5⟩
  iframe

theorem body_obligation6 (c : Dev nD) : BodyObligation (dat6 (F := F) V c) (defs₀ (F := F)) Variants.none () Set.univ :=
  fun t => sound_body6 V c t

end Cert.KernelIdeal.HF

end
-- ==== Proof.RunIW.lean ====
import proofs.«405318_j78374563217910_3_alg».proof.Proof.RegI0
import proofs.«405318_j78374563217910_3_alg».proof.Proof.RegI1
import proofs.«405318_j78374563217910_3_alg».proof.Proof.RegI2
import proofs.«405318_j78374563217910_3_alg».proof.Proof.RegI3
import proofs.«405318_j78374563217910_3_alg».proof.Proof.RegI4
import proofs.«405318_j78374563217910_3_alg».proof.Proof.RegI5
import proofs.«405318_j78374563217910_3_alg».proof.Proof.RegI6
import proofs.«405318_j78374563217910_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

abbrev W5 : Dev nD → Valuation τ sig (Elt F) := fun c => StableHlo.after hostOps0_4 (W4 m ρ c)
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

abbrev V5 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N :=
  Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) :=
  Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h

abbrev W8 : Dev nD → Valuation τ sig (Elt F) := fun c => StableHlo.after hostOps1_1 (W7 m ρ c)
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h

abbrev W9 : Dev nD → Valuation τ sig (Elt F) := fun c => StableHlo.after hostOps1_2 (W8 m ρ c)
theorem W9_of (c : Dev nD) (r : Ref sig .tc) (h : r ∉ hostOps1_2_W) :
    W9 m ρ c (Proc.devRef .tc r) = W8 m ρ c (Proc.devRef .tc r) :=
  StableHlo.after_of_writes_sub hostOps1_2 _ hostOps1_2_writes h

abbrev V9 : (c : Dev nD) → (b : Ref sig .tc) → Buf (Elt F) ((c : Thread nD τ).loc b) := fun c b => W9 m ρ c b
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N :=
  Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) :=
  Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps2 (W10 m ρ c)
theorem W11_of (c : Dev nD) (r : Ref sig .tc) (h : r ∉ hostOps2_W) :
    W11 m ρ c (Proc.devRef .tc r) = W10 m ρ c (Proc.devRef .tc r) :=
  StableHlo.after_of_writes_sub hostOps2 _ hostOps2_writes h

abbrev W12 : Dev nD → Valuation τ sig (Elt F) := fun c => StableHlo.after hostOps2_1 (W11 m ρ c)
theorem W12_of (c : Dev nD) (r : Ref sig .tc) (h : r ∉ hostOps2_1_W) :
    W12 m ρ c (Proc.devRef .tc r) = W11 m ρ c (Proc.devRef .tc r) :=
  StableHlo.after_of_writes_sub hostOps2_1 _ hostOps2_1_writes h

abbrev W13 : Dev nD → Valuation τ sig (Elt F) := fun c => StableHlo.after hostOps2_2 (W12 m ρ c)
theorem W13_of (c : Dev nD) (r : Ref sig .tc) (h : r ∉ hostOps2_2_W) :
    W13 m ρ c (Proc.devRef .tc r) = W12 m ρ c (Proc.devRef .tc r) :=
  StableHlo.after_of_writes_sub hostOps2_2 _ hostOps2_2_writes h

abbrev W14 : Dev nD → Valuation τ sig (Elt F) := fun c => StableHlo.after hostOps2_3 (W13 m ρ c)
theorem W14_of (c : Dev nD) (r : Ref sig .tc) (h : r ∉ hostOps2_3_W) :
    W14 m ρ c (Proc.devRef .tc r) = W13 m ρ c (Proc.devRef .tc r) :=
  StableHlo.after_of_writes_sub hostOps2_3 _ hostOps2_3_writes h

abbrev W15 : Dev nD → Valuation τ sig (Elt F) := fun c => StableHlo.after hostOps2_4 (W14 m ρ c)
theorem W15_of (c : Dev nD) (r : Ref sig .tc) (h : r ∉ hostOps2_4_W) :
    W15 m ρ c (Proc.devRef .tc r) = W14 m ρ c (Proc.devRef .tc r) :=
  StableHlo.after_of_writes_sub hostOps2_4 _ hostOps2_4_writes h

abbrev V15 : (c : Dev nD) → (b : Ref sig .tc) → Buf (Elt F) ((c : Thread nD τ).loc b) := fun c b => W15 m ρ c b
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N :=
  Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) :=
  Pipeline.withArrays_of_ne spec2 c _ _ b hb
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps3 (W16 m ρ c)
theorem W17_of (c : Dev nD) (r : Ref sig .tc) (h : r ∉ hostOps3_W) :
    W17 m ρ c (Proc.devRef .tc r) = W16 m ρ c (Proc.devRef .tc r) :=
  StableHlo.after_of_writes_sub hostOps3 _ hostOps3_writes h

abbrev W18 : Dev nD → Valuation τ sig (Elt F) := fun c => StableHlo.after hostOps3_1 (W17 m ρ c)
theorem W18_of (c : Dev nD) (r : Ref sig .tc) (h : r ∉ hostOps3_1_W) :
    W18 m ρ c (Proc.devRef .tc r) = W17 m ρ c (Proc.devRef .tc r) :=
  StableHlo.after_of_writes_sub hostOps3_1 _ hostOps3_1_writes h

abbrev W19 : Dev nD → Valuation τ sig (Elt F) := fun c => StableHlo.after hostOps3_2 (W18 m ρ c)
theorem W19_of (c : Dev nD) (r : Ref sig .tc) (h : r ∉ hostOps3_2_W) :
    W19 m ρ c (Proc.devRef .tc r) = W18 m ρ c (Proc.devRef .tc r) :=
  StableHlo.after_of_writes_sub hostOps3_2 _ hostOps3_2_writes h

abbrev V19 : (c : Dev nD) → (b : Ref sig .tc) → Buf (Elt F) ((c : Thread nD τ).loc b) := fun c b => W19 m ρ c b
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N :=
  Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) :=
  Pipeline.withArrays_of_ne spec3 c _ _ b hb
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)

abbrev W21 : Dev nD → Valuation τ sig (Elt F) := fun c => StableHlo.after hostOps4 (W20 m ρ c)
theorem W21_of (c : Dev nD) (r : Ref sig .tc) (h : r ∉ hostOps4_W) :
    W21 m ρ c (Proc.devRef .tc r) = W20 m ρ c (Proc.devRef .tc r) :=
  StableHlo.after_of_writes_sub hostOps4 _ hostOps4_writes h

abbrev W22 : Dev nD → Valuation τ sig (Elt F) := fun c => StableHlo.after hostOps4_1 (W21 m ρ c)
theorem W22_of (c : Dev nD) (r : Ref sig .tc) (h : r ∉ hostOps4_1_W) :
    W22 m ρ c (Proc.devRef .tc r) = W21 m ρ c (Proc.devRef .tc r) :=
  StableHlo.after_of_writes_sub hostOps4_1 _ hostOps4_1_writes h

abbrev W23 : Dev nD → Valuation τ sig (Elt F) := fun c => StableHlo.after hostOps4_2 (W22 m ρ c)
theorem W23_of (c : Dev nD) (r : Ref sig .tc) (h : r ∉ hostOps4_2_W) :
    W23 m ρ c (Proc.devRef .tc r) = W22 m ρ c (Proc.devRef .tc r) :=
  StableHlo.after_of_writes_sub hostOps4_2 _ hostOps4_2_writes h

abbrev W24 : Dev nD → Valuation τ sig (Elt F) := fun c => StableHlo.after hostOps4_3 (W23 m ρ c)
theorem W24_of (c : Dev nD) (r : Ref sig .tc) (h : r ∉ hostOps4_3_W) :
    W24 m ρ c (Proc.devRef .tc r) = W23 m ρ c (Proc.devRef .tc r) :=
  StableHlo.after_of_writes_sub hostOps4_3 _ hostOps4_3_writes h

abbrev W25 : Dev nD → Valuation τ sig (Elt F) := fun c => StableHlo.after hostOps4_4 (W24 m ρ c)
theorem W25_of (c : Dev nD) (r : Ref sig .tc) (h : r ∉ hostOps4_4_W) :
    W25 m ρ c (Proc.devRef .tc r) = W24 m ρ c (Proc.devRef .tc r) :=
  StableHlo.after_of_writes_sub hostOps4_4 _ hostOps4_4_writes h

abbrev V25 : (c : Dev nD) → (b : Ref sig .tc) → Buf (Elt F) ((c : Thread nD τ).loc b) := fun c b => W25 m ρ c b
def W26 (c : Dev nD) : Valuation τ sig (Elt F) :=
  Pipeline.withArrays spec4 c (W25 m ρ c) fun w => (dat4 (V25 m ρ) c).arrAt w cfg4.N
theorem W26_arr (c : Dev nD) (w : Fin cfg4.W) :
    W26 m ρ c (Proc.devRef .tc (Pipeline.arrRef spec4 w)) = (dat4 (V25 m ρ) c).arrAt w cfg4.N :=
  Pipeline.withArrays_arr spec4 launch4.win.arr_inj c _ _ w
theorem W26_of_ne (c : Dev nD) (b : Ref sig .tc) (hb : ∀ w, Pipeline.arrRef spec4 w ≠ b) :
    W26 m ρ c (Proc.devRef .tc b) = W25 m ρ c (Proc.devRef .tc b) :=
  Pipeline.withArrays_of_ne spec4 c _ _ b hb
abbrev V26 : (c : Dev nD) → (b : Ref sig .tc) → Buf (Elt F) ((c : Thread nD τ).loc b) := fun c b => W26 m ρ c b
theorem hF4 (c : Dev nD) (w : Fin cfg4.W) : (dat4 (V25 m ρ) c).arrAt w cfg4.N = V26 m ρ c (Pipeline.arrRef spec4 w) :=
  (W26_arr m ρ c w).symm
theorem hrest4 (c : Dev nD) : ∀ b, b ∉ Finset.univ.image (Pipeline.arrRef spec4) → V26 m ρ c b = V25 m ρ c b :=
  fun b hb => W26_of_ne m ρ c b fun w e => hb (Finset.mem_image.mpr ⟨w, Finset.mem_univ _, e⟩)

abbrev W27 : Dev nD → Valuation τ sig (Elt F) := fun c => StableHlo.after hostOps5 (W26 m ρ c)
theorem W27_of (c : Dev nD) (r : Ref sig .tc) (h : r ∉ hostOps5_W) :
    W27 m ρ c (Proc.devRef .tc r) = W26 m ρ c (Proc.devRef .tc r) :=
  StableHlo.after_of_writes_sub hostOps5 _ hostOps5_writes h

abbrev W28 : Dev nD → Valuation τ sig (Elt F) := fun c => StableHlo.after hostOps5_1 (W27 m ρ c)
theorem W28_of (c : Dev nD) (r : Ref sig .tc) (h : r ∉ hostOps5_1_W) :
    W28 m ρ c (Proc.devRef .tc r) = W27 m ρ c (Proc.devRef .tc r) :=
  StableHlo.after_of_writes_sub hostOps5_1 _ hostOps5_1_writes h

abbrev W29 : Dev nD → Valuation τ sig (Elt F) := fun c => StableHlo.after hostOps5_2 (W28 m ρ c)
theorem W29_of (c : Dev nD) (r : Ref sig .tc) (h : r ∉ hostOps5_2_W) :
    W29 m ρ c (Proc.devRef .tc r) = W28 m ρ c (Proc.devRef .tc r) :=
  StableHlo.after_of_writes_sub hostOps5_2 _ hostOps5_2_writes h

abbrev V29 : (c : Dev nD) → (b : Ref sig .tc) → Buf (Elt F) ((c : Thread nD τ).loc b) := fun c b => W29 m ρ c b
def W30 (c : Dev nD) : Valuation τ sig (Elt F) :=
  Pipeline.withArrays spec5 c (W29 m ρ c) fun w => (dat5 (V29 m ρ) c).arrAt w cfg5.N
theorem W30_arr (c : Dev nD) (w : Fin cfg5.W) :
    W30 m ρ c (Proc.devRef .tc (Pipeline.arrRef spec5 w)) = (dat5 (V29 m ρ) c).arrAt w cfg5.N :=
  Pipeline.withArrays_arr spec5 launch5.win.arr_inj c _ _ w
theorem W30_of_ne (c : Dev nD) (b : Ref sig .tc) (hb : ∀ w, Pipeline.arrRef spec5 w ≠ b) :
    W30 m ρ c (Proc.devRef .tc b) = W29 m ρ c (Proc.devRef .tc b) :=
  Pipeline.withArrays_of_ne spec5 c _ _ b hb
abbrev V30 : (c : Dev nD) → (b : Ref sig .tc) → Buf (Elt F) ((c : Thread nD τ).loc b) := fun c b => W30 m ρ c b
theorem hF5 (c : Dev nD) (w : Fin cfg5.W) : (dat5 (V29 m ρ) c).arrAt w cfg5.N = V30 m ρ c (Pipeline.arrRef spec5 w) :=
  (W30_arr m ρ c w).symm
theorem hrest5 (c : Dev nD) : ∀ b, b ∉ Finset.univ.image (Pipeline.arrRef spec5) → V30 m ρ c b = V29 m ρ c b :=
  fun b hb => W30_of_ne m ρ c b fun w e => hb (Finset.mem_image.mpr ⟨w, Finset.mem_univ _, e⟩)

abbrev W31 : Dev nD → Valuation τ sig (Elt F) := fun c => StableHlo.after hostOps6 (W30 m ρ c)
theorem W31_of (c : Dev nD) (r : Ref sig .tc) (h : r ∉ hostOps6_W) :
    W31 m ρ c (Proc.devRef .tc r) = W30 m ρ c (Proc.devRef .tc r) :=
  StableHlo.after_of_writes_sub hostOps6 _ hostOps6_writes h

abbrev V31 : (c : Dev nD) → (b : Ref sig .tc) → Buf (Elt F) ((c : Thread nD τ).loc b) := fun c b => W31 m ρ c b
def W32 (c : Dev nD) : Valuation τ sig (Elt F) :=
  Pipeline.withArrays spec6 c (W31 m ρ c) fun w => (dat6 (V31 m ρ) c).arrAt w cfg6.N
theorem W32_arr (c : Dev nD) (w : Fin cfg6.W) :
    W32 m ρ c (Proc.devRef .tc (Pipeline.arrRef spec6 w)) = (dat6 (V31 m ρ) c).arrAt w cfg6.N :=
  Pipeline.withArrays_arr spec6 launch6.win.arr_inj c _ _ w
theorem W32_of_ne (c : Dev nD) (b : Ref sig .tc) (hb : ∀ w, Pipeline.arrRef spec6 w ≠ b) :
    W32 m ρ c (Proc.devRef .tc b) = W31 m ρ c (Proc.devRef .tc b) :=
  Pipeline.withArrays_of_ne spec6 c _ _ b hb
abbrev V32 : (c : Dev nD) → (b : Ref sig .tc) → Buf (Elt F) ((c : Thread nD τ).loc b) := fun c b => W32 m ρ c b
theorem hF6 (c : Dev nD) (w : Fin cfg6.W) : (dat6 (V31 m ρ) c).arrAt w cfg6.N = V32 m ρ c (Pipeline.arrRef spec6 w) :=
  (W32_arr m ρ c w).symm
theorem hrest6 (c : Dev nD) : ∀ b, b ∉ Finset.univ.image (Pipeline.arrRef spec6) → V32 m ρ c b = V31 m ρ c b :=
  fun b hb => W32_of_ne m ρ c b fun w e => hb (Finset.mem_image.mpr ⟨w, Finset.mem_univ _, e⟩)

abbrev argRefs : List (Ref sig .tc) := [main_arg0, main_arg1, main_arg2, main_arg3, main_arg4, main_arg5, main_arg6, main_arg7, main_arg8, main_arg9, main_arg10, main_arg11, main_arg12, main_arg13, main_arg14, main_arg15]

/-- A reference that is no output window's array has the same contents after a region's arrays are put back as before. -/
theorem withArrays_keep {cfg : Cfg sig Λ₀} {c : Dev nD} (dat : Dat τ (Elt F) Unit ℕ (Pipeline.UD sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.spec w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr cfg.spec hinj c V _ w).trans ((dat.arrAt_in w (hb w rfl) _).trans (hA w))
  · exact Pipeline.withArrays_of_ne cfg.spec c V _ b fun w e => h ⟨w, e⟩

/-- No host operation writes an argument and no region has one as an output window, so at every boundary it is as launched. -/
theorem W0_arg (c : Dev nD) (b : Ref sig .tc) (hb : b ∈ argRefs) :
    W0 m ρ c (Proc.devRef .tc b) = m ((c : Thread nD τ).loc b) :=
  rfl

theorem W1_arg (c : Dev nD) (b : Ref sig .tc) (hb : b ∈ argRefs) :
    W1 m ρ c (Proc.devRef .tc b) = m ((c : Thread nD τ).loc b) :=
  (W1_of m ρ c b (by revert b; decide)).trans <|
  W0_arg m ρ c b hb

theorem W4_arg (c : Dev nD) (b : Ref sig .tc) (hb : b ∈ argRefs) :
    W4 m ρ c (Proc.devRef .tc b) = m ((c : Thread nD τ).loc b) :=
  (W4_of m ρ c b (by revert b; decide)).trans <|
  (W3_of m ρ c b (by revert b; decide)).trans <|
  (W2_of m ρ c b (by revert b; decide)).trans <|
  W1_arg m ρ c b hb

theorem W5_arg (c : Dev nD) (b : Ref sig .tc) (hb : b ∈ argRefs) :
    W5 m ρ c (Proc.devRef .tc b) = m ((c : Thread nD τ).loc b) :=
  (W5_of m ρ c b (by revert b; decide)).trans <|
  W4_arg m ρ c b hb

theorem W8_arg (c : Dev nD) (b : Ref sig .tc) (hb : b ∈ argRefs) :
    W8 m ρ c (Proc.devRef .tc b) = m ((c : Thread nD τ).loc b) :=
  (W8_of m ρ c b (by revert b; decide)).trans <|
  (W7_of m ρ c b (by revert b; decide)).trans <|
  (withArrays_keep (dat0 (V5 m ρ) c) launch0.win.arr_inj (W5 m ρ c) (A_eq0 _ c) b (by revert b; decide)).trans <|
  W5_arg m ρ c b hb

theorem W10_arg (c : Dev nD) (b : Ref sig .tc) (hb : b ∈ argRefs) :
    W10 m ρ c (Proc.devRef .tc b) = m ((c : Thread nD τ).loc b) :=
  (withArrays_keep (dat1 (V9 m ρ) c) launch1.win.arr_inj (W9 m ρ c) (A_eq1 _ c) b (by revert b; decide)).trans <|
  (W9_of m ρ c b (by revert b; decide)).trans <|
  W8_arg m ρ c b hb

theorem W14_arg (c : Dev nD) (b : Ref sig .tc) (hb : b ∈ argRefs) :
    W14 m ρ c (Proc.devRef .tc b) = m ((c : Thread nD τ).loc b) :=
  (W14_of m ρ c b (by revert b; decide)).trans <|
  (W13_of m ρ c b (by revert b; decide)).trans <|
  (W12_of m ρ c b (by revert b; decide)).trans <|
  (W11_of m ρ c b (by revert b; decide)).trans <|
  W10_arg m ρ c b hb

theorem W18_arg (c : Dev nD) (b : Ref sig .tc) (hb : b ∈ argRefs) :
    W18 m ρ c (Proc.devRef .tc b) = m ((c : Thread nD τ).loc b) :=
  (W18_of m ρ c b (by revert b; decide)).trans <|
  (W17_of m ρ c b (by revert b; decide)).trans <|
  (withArrays_keep (dat2 (V15 m ρ) c) launch2.win.arr_inj (W15 m ρ c) (A_eq2 _ c) b (by revert b; decide)).trans <|
  (W15_of m ρ c b (by revert b; decide)).trans <|
  W14_arg m ρ c b hb

theorem W20_arg (c : Dev nD) (b : Ref sig .tc) (hb : b ∈ argRefs) :
    W20 m ρ c (Proc.devRef .tc b) = m ((c : Thread nD τ).loc b) :=
  (withArrays_keep (dat3 (V19 m ρ) c) launch3.win.arr_inj (W19 m ρ c) (A_eq3 _ c) b (by revert b; decide)).trans <|
  (W19_of m ρ c b (by revert b; decide)).trans <|
  W18_arg m ρ c b hb

theorem W24_arg (c : Dev nD) (b : Ref sig .tc) (hb : b ∈ argRefs) :
    W24 m ρ c (Proc.devRef .tc b) = m ((c : Thread nD τ).loc b) :=
  (W24_of m ρ c b (by revert b; decide)).trans <|
  (W23_of m ρ c b (by revert b; decide)).trans <|
  (W22_of m ρ c b (by revert b; decide)).trans <|
  (W21_of m ρ c b (by revert b; decide)).trans <|
  W20_arg m ρ c b hb

theorem W28_arg (c : Dev nD) (b : Ref sig .tc) (hb : b ∈ argRefs) :
    W28 m ρ c (Proc.devRef .tc b) = m ((c : Thread nD τ).loc b) :=
  (W28_of m ρ c b (by revert b; decide)).trans <|
  (W27_of m ρ c b (by revert b; decide)).trans <|
  (withArrays_keep (dat4 (V25 m ρ) c) launch4.win.arr_inj (W25 m ρ c) (A_eq4 _ c) b (by revert b; decide)).trans <|
  (W25_of m ρ c b (by revert b; decide)).trans <|
  W24_arg m ρ c b hb

theorem W30_arg (c : Dev nD) (b : Ref sig .tc) (hb : b ∈ argRefs) :
    W30 m ρ c (Proc.devRef .tc b) = m ((c : Thread nD τ).loc b) :=
  (withArrays_keep (dat5 (V29 m ρ) c) launch5.win.arr_inj (W29 m ρ c) (A_eq5 _ c) b (by revert b; decide)).trans <|
  (W29_of m ρ c b (by revert b; decide)).trans <|
  W28_arg m ρ c b hb

theorem W32_arg (c : Dev nD) (b : Ref sig .tc) (hb : b ∈ argRefs) :
    W32 m ρ c (Proc.devRef .tc b) = m ((c : Thread nD τ).loc b) :=
  (withArrays_keep (dat6 (V31 m ρ) c) launch6.win.arr_inj (W31 m ρ c) (A_eq6 _ c) b (by revert b; decide)).trans <|
  (W31_of m ρ c b (by revert b; decide)).trans <|
  W30_arg m ρ c b hb

abbrev adm : (p : Fin 7) → (pcfgs (F := F) p).Adm := fun p => (cfgs p).toPCfg_adm
def pdats : (p : Fin 7) → (c : Dev nD) → Dat τ (Elt F) Unit ℕ (Pipeline.UD sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V15 m ρ) c
  | ⟨3, _⟩ => fun c => dat3 (V19 m ρ) c
  | ⟨4, _⟩ => fun c => dat4 (V25 m ρ) c
  | ⟨5, _⟩ => fun c => dat5 (V29 m ρ) c
  | ⟨6, _⟩ => fun c => dat6 (V31 m ρ) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W32 m ρ c) ∗ ∃ r, prngReg c r)

end Cert.KernelIdeal.HF

end
-- ==== Proof.RunIR.lean ====
import proofs.«405318_j78374563217910_3_alg».proof.Proof.RunIW

noncomputable section

namespace Cert.KernelIdeal.HF

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The buffers at `Win` split into the region's arrays and a rest that bypasses it; the arrays at their final contents rejoin that rest as the buffers at `Wout`, equal to `Win` off the arrays. -/
def regOf (p : Fin 7) (kit : Pipeline.LaunchFacts (nD := nD) (τ := τ) cfgs p)
    (Win Wout : Dev nD → Valuation τ sig (Elt F))
    (hbody : ∀ c, Pipeline.BodyObligation (pdats m ρ p c) defs₀ 𝒱₀ () Set.univ)
    (hF : ∀ c w, (pdats m ρ p c).arrAt w (cfgs p).N = Wout c (Pipeline.arrRef (cfgs p).spec w))
    (hrest : ∀ c b, b ∉ Finset.univ.image (Pipeline.arrRef (cfgs p).spec) → Wout c b = Win c b)
    (hq : ∀ c w, (pdats m ρ p c).q w = fullShare := by intros; rfl)
    (hA : ∀ c w, (pdats m ρ p c).A w = Win c (Pipeline.arrRef (cfgs p).spec w) := by intros; rfl)
    (howed : ∀ c t, (pdats m ρ p c).owed t = 0 := by intros; rfl)
    (hrec : ∀ c, (pdats m ρ p c).recorded 0 = Set.univ := by intros; rfl)
    (hΦ : ∀ c t, (pdats m ρ p c).Φ t = Pipeline.ΦA (cfgs p).spec c := by intros; rfl) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (cfgs p).spec c fun b => Win c b
  hentry c := by
    have hsplit := Pipeline.arrays_of_unscopedBufs _ _ (pdats m ρ) kit.win kit.arr_whole c
      ((pdats m ρ p c).share_full (hq c)) (fun b => Win c b) (hA c)
    rw [Pipeline.unscopedBufs_held] at hsplit
    unfold Pipeline.prefHeld Pipeline.Dat.owesAt Pipeline.owesWithin Pipeline.Dat.bound
    rw [Pipeline.ownSems0_none, howed, hrec, show (Finset.univ : Finset (Fin 0)) = ∅ from rfl, BI.bigSep_empty]
    iintro ⟨⟨Hub, Hp, %W, HO⟩, -, -⟩
    ihave ⟨Ha, Hrest⟩ := hsplit $$ Hub
    imodintro
    iframe Ha Hp Hrest
    isplitr; · iempintro
    iexists W; iframe HO
    ipureintro; exact fun _ _ => Or.inl trivial
  hin c := by
    rw [hΦ]; unfold Pipeline.ΦA
    iintro ⟨Hp, -, Hr⟩
    iframe
  hout c := by
    rw [Pipeline.ownSems0_none, hΦ]; unfold Pipeline.ΦA
    iintro ⟨Hr, Hp⟩
    iframe; iempintro
  hexit c := by
    have hjoin := Pipeline.unscopedBufs_of_arrays _ _ kit.win kit.arr_whole c (pdats m ρ)
      ((pdats m ρ p c).share_full (hq c)) (fun b => Win c b) (fun b => Wout c b) _ (hF c) (hrest c)
    rw [Pipeline.unscopedBufs_held] at hjoin
    unfold Pipeline.Dat.owesAt Pipeline.owesWithin; rw [howed]
    iintro ⟨Ha, ⟨%W, -, HO⟩, HY, Hrest⟩
    imodintro
    isplitl [Ha Hrest]
    · iapply hjoin; iframe
    isplitl [HY]; · iexact HY
    iexists W; iexact HO

def reg0 : Pipeline.RegionSeg (pcfgs (F := F)) adm (pdats m ρ) () defs₀ 𝒱₀ L lv 0 :=
  regOf m ρ 0 launch0 (W5 m ρ) (W6 m ρ) (body_obligation0 (V5 m ρ)) (hF0 m ρ) (hrest0 m ρ)
def reg1 : Pipeline.RegionSeg (pcfgs (F := F)) adm (pdats m ρ) () defs₀ 𝒱₀ L lv 1 :=
  regOf m ρ 1 launch1 (W9 m ρ) (W10 m ρ) (body_obligation1 (V9 m ρ)) (hF1 m ρ) (hrest1 m ρ)
def reg2 : Pipeline.RegionSeg (pcfgs (F := F)) adm (pdats m ρ) () defs₀ 𝒱₀ L lv 2 :=
  regOf m ρ 2 launch2 (W15 m ρ) (W16 m ρ) (body_obligation2 (V15 m ρ)) (hF2 m ρ) (hrest2 m ρ)
def reg3 : Pipeline.RegionSeg (pcfgs (F := F)) adm (pdats m ρ) () defs₀ 𝒱₀ L lv 3 :=
  regOf m ρ 3 launch3 (W19 m ρ) (W20 m ρ) (body_obligation3 (V19 m ρ)) (hF3 m ρ) (hrest3 m ρ)
def reg4 : Pipeline.RegionSeg (pcfgs (F := F)) adm (pdats m ρ) () defs₀ 𝒱₀ L lv 4 :=
  regOf m ρ 4 launch4 (W25 m ρ) (W26 m ρ) (body_obligation4 (V25 m ρ)) (hF4 m ρ) (hrest4 m ρ)
def reg5 : Pipeline.RegionSeg (pcfgs (F := F)) adm (pdats m ρ) () defs₀ 𝒱₀ L lv 5 :=
  regOf m ρ 5 launch5 (W29 m ρ) (W30 m ρ) (body_obligation5 (V29 m ρ)) (hF5 m ρ) (hrest5 m ρ)
def reg6 : Pipeline.RegionSeg (pcfgs (F := F)) adm (pdats m ρ) () defs₀ 𝒱₀ L lv 6 :=
  regOf m ρ 6 launch6 (W31 m ρ) (W32 m ρ) (body_obligation6 (V31 m ρ)) (hF6 m ρ) (hrest6 m ρ)

end Cert.KernelIdeal.HF

end
-- ==== Proof.RunI.lean ====
import proofs.«405318_j78374563217910_3_alg».proof.Proof.RunIR

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- An argument array is an unscoped buffer no item writes, so a state that agrees with the last boundary has it as launched.
theorem arg_kept {r : PUnit × MemSt nD τ sig (Elt F)}
    (h : ∀ c : Dev nD, ∀ b ∈ Pipeline.ucRefs τ sig, r.2.mem (((c : Thread nD τ)).1, b) = W32 m ρ c b)
    (c : Dev nD) {b : Ref sig .tc} (hb : b ∈ argRefs) :
    r.2.mem ((c.tc : Thread nD τ).loc b) = m ((c.tc : Thread nD τ).loc b) :=
  (h c _ (mem_uc b (by revert b; decide))).trans (W32_arg m ρ c b hb)

theorem last_state (c : Dev nD) :
    iprop(StableHlo.held (c : Thread nD τ) (Pipeline.ucRefs τ sig) (W32 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .host (hseg hostOps2_1 hostOps2_1_sub hostOps2_1_fresh (W11 m ρ)),
    .host (hseg hostOps2_2 hostOps2_2_sub hostOps2_2_fresh (W12 m ρ)),
    .host (hseg hostOps2_3 hostOps2_3_sub hostOps2_3_fresh (W13 m ρ)),
    .host (hseg hostOps2_4 hostOps2_4_sub hostOps2_4_fresh (W14 m ρ)),
    .region (reg2 m ρ),
    .host (hseg hostOps3 hostOps3_sub hostOps3_fresh (W16 m ρ)),
    .host (hseg hostOps3_1 hostOps3_1_sub hostOps3_1_fresh (W17 m ρ)),
    .host (hseg hostOps3_2 hostOps3_2_sub hostOps3_2_fresh (W18 m ρ)),
    .region (reg3 m ρ),
    .host (hseg hostOps4 hostOps4_sub hostOps4_fresh (W20 m ρ)),
    .host (hseg hostOps4_1 hostOps4_1_sub hostOps4_1_fresh (W21 m ρ)),
    .host (hseg hostOps4_2 hostOps4_2_sub hostOps4_2_fresh (W22 m ρ)),
    .host (hseg hostOps4_3 hostOps4_3_sub hostOps4_3_fresh (W23 m ρ)),
    .host (hseg hostOps4_4 hostOps4_4_sub hostOps4_4_fresh (W24 m ρ)),
    .region (reg4 m ρ),
    .host (hseg hostOps5 hostOps5_sub hostOps5_fresh (W26 m ρ)),
    .host (hseg hostOps5_1 hostOps5_1_sub hostOps5_1_fresh (W27 m ρ)),
    .host (hseg hostOps5_2 hostOps5_2_sub hostOps5_2_fresh (W28 m ρ)),
    .region (reg5 m ρ),
    .host (hseg hostOps6 hostOps6_sub hostOps6_fresh (W30 m ρ)),
    .region (reg6 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun _ h => h)

end Cert.KernelIdeal.HF

end
-- ==== Proof.RegW0.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_2 : Rect S64x64 := Rect.unit (s := S64x64) ![0, 0] S64x64.size inb_S64x64_S64x64_0_0
abbrev r0_3 : Rect S1x64 := Rect.unit (s := S1x64) ![0, 0] S1x64.size inb_S1x64_S1x64_0_0

def out0_4 (x0 : Vec F S10000x64 .f32) (x1 : Vec F S10000x64 .f32) (x2 : Vec F S64x64 .f32) (x3 : Vec F S1x64 .f32) : Vec F S10000x64 .f32 :=
  View.canon [⟨r0_0, k0_pay1 (View.ld x0 r0_0) (View.ld x1 r0_0) (View.ld x2 r0_2) (View.ld x3 r0_3)⟩]

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0_in (c : Dev nD) (t : Fin cfg0.N) : ∀ w : Fin cfg0.W, w ≠ 4 → ∀ d, (dat0 V c).before w t d = (dat0 V c).after w t
  | ⟨0, _⟩, _, d | ⟨1, _⟩, _, d | ⟨2, _⟩, _, d | ⟨3, _⟩, _, d =>
    ((dat0 V c).before_in_eq_fetched _ rfl (fun _ => rfl) (fun _ _ _ => rfl) (fun _ => by dsimp only [dat0]; rfl) t d).trans
      (by unfold Dat.fetched Dat.blockOf; dsimp only [dat0]; rfl)
  | ⟨4, _⟩, h, _ => absurd rfl h

set_option maxHeartbeats 1000000 in
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__node_update_kernel i arg1 harg1 arg2 harg2 arg3 harg3 arg4 harg4 arg5 harg5) K := by
  simp only [cc0__node_update_kernel_eq_skeleton]; unfold cc0__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  iexists _; isplitr; swap; iexact H4
  ipureintro
  exact View.read_writes_eq_canon _ _ _ (View.cover_of_tiled _ S10000x64.size (by rfl))

theorem body_obligation0 (c : Dev nD) : BodyObligation (dat0 (F := F) V c) (defs₀ (F := F)) Variants.none () Set.univ := fun t => by
  rw [bigSep_W0, bigSep_W0]
  simp (disch := decide) only [before0_in]
  dsimp only [dat0]
  change _ ⊢ wp _ _ _ (bodyAt0 t) _
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  iframe H0 H1 H2 H3
  isplitl [H4]; · iexists _; iexact H4
  iintro H
  iframe
  iexact Ho

end Cert.Kernel.HF

end
-- ==== Proof.RegW1.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

def out1_7 (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) : Vec F S10000x64 .f32 :=
  View.canon [⟨r1_0, k1_pay1 (View.ld x0 r1_0) (View.ld x1 r1_1) (View.ld x2 r1_1) (View.ld x3 r1_1) (View.ld x4 r1_1) (View.ld x5 r1_2) (View.ld x6 r1_1)⟩]

set_option maxHeartbeats 4000000 in
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_relu_mlp2_kernel i arg1 harg1 arg2 harg2 arg3 harg3 arg4 harg4 arg5 harg5 arg6 harg6 arg7 harg7 arg8 harg8) K := by
  simp only [cc1__bn_relu_mlp2_kernel_eq_skeleton]; unfold cc1__bn_relu_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr; swap; iexact H7
  ipureintro
  exact View.read_writes_eq_canon _ _ _ (View.cover_of_tiled _ S10000x64.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_in (c : Dev nD) (t : Fin cfg1.N) : ∀ w : Fin cfg1.W, w ≠ 7 → ∀ d, (dat1 V c).before w t d = (dat1 V c).after w t
  | ⟨0, _⟩, _, d | ⟨1, _⟩, _, d | ⟨2, _⟩, _, d | ⟨3, _⟩, _, d | ⟨4, _⟩, _, d | ⟨5, _⟩, _, d | ⟨6, _⟩, _, d =>
    ((dat1 V c).before_in_eq_fetched _ rfl (fun _ => rfl) (fun _ _ _ => rfl) (fun _ => by dsimp only [dat1]; rfl) t d).trans
      (by unfold Dat.fetched Dat.blockOf; dsimp only [dat1]; rfl)
  | ⟨7, _⟩, h, _ => absurd rfl h

theorem body_obligation1 (c : Dev nD) : BodyObligation (dat1 (F := F) V c) (defs₀ (F := F)) Variants.none () Set.univ := fun t => by
  rw [bigSep_W1, bigSep_W1]
  simp (disch := decide) only [before1_in]
  dsimp only [dat1]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro H
  iframe
  iexact Ho

end Cert.Kernel.HF

end
-- ==== Proof.RegW2.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0

def out2_4 (x0 : Vec F S10000x64 .f32) (x1 : Vec F S10000x64 .f32) (x2 : Vec F S64x64 .f32) (x3 : Vec F S1x64 .f32) : Vec F S10000x64 .f32 :=
  View.canon [⟨r2_0, k2_pay1 (View.ld x0 r2_0) (View.ld x1 r2_0) (View.ld x2 r2_2) (View.ld x3 r2_3)⟩]

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

theorem before2_in (c : Dev nD) (t : Fin cfg2.N) : ∀ w : Fin cfg2.W, w ≠ 4 → ∀ d, (dat2 V c).before w t d = (dat2 V c).after w t
  | ⟨0, _⟩, _, d | ⟨1, _⟩, _, d | ⟨2, _⟩, _, d | ⟨3, _⟩, _, d =>
    ((dat2 V c).before_in_eq_fetched _ rfl (fun _ => rfl) (fun _ _ _ => rfl) (fun _ => by dsimp only [dat2]; rfl) t d).trans
      (by unfold Dat.fetched Dat.blockOf; dsimp only [dat2]; rfl)
  | ⟨4, _⟩, h, _ => absurd rfl h

set_option maxHeartbeats 1000000 in
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__node_update_kernel i arg1 harg1 arg2 harg2 arg3 harg3 arg4 harg4 arg5 harg5) K := by
  simp only [cc2__node_update_kernel_eq_skeleton]; unfold cc2__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  iexists _; isplitr; swap; iexact H4
  ipureintro
  exact View.read_writes_eq_canon _ _ _ (View.cover_of_tiled _ S10000x64.size (by rfl))

theorem body_obligation2 (c : Dev nD) : BodyObligation (dat2 (F := F) V c) (defs₀ (F := F)) Variants.none () Set.univ := fun t => by
  rw [bigSep_W2, bigSep_W2]
  simp (disch := decide) only [before2_in]
  dsimp only [dat2]
  change _ ⊢ wp _ _ _ (bodyAt2 t) _
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  iframe H0 H1 H2 H3
  isplitl [H4]; · iexists _; iexact H4
  iintro H
  iframe
  iexact Ho

end Cert.Kernel.HF

end
-- ==== Proof.RegW3.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S64x64 := Rect.unit (s := S64x64) ![0, 0] S64x64.size inb_S64x64_S64x64_0_0

def out3_7 (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) : Vec F S10000x64 .f32 :=
  View.canon [⟨r3_0, k3_pay1 (View.ld x0 r3_0) (View.ld x1 r3_1) (View.ld x2 r3_1) (View.ld x3 r3_1) (View.ld x4 r3_1) (View.ld x5 r3_2) (View.ld x6 r3_1)⟩]

set_option maxHeartbeats 4000000 in
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_relu_mlp2_kernel i arg1 harg1 arg2 harg2 arg3 harg3 arg4 harg4 arg5 harg5 arg6 harg6 arg7 harg7 arg8 harg8) K := by
  simp only [cc3__bn_relu_mlp2_kernel_eq_skeleton]; unfold cc3__bn_relu_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr; swap; iexact H7
  ipureintro
  exact View.read_writes_eq_canon _ _ _ (View.cover_of_tiled _ S10000x64.size (by rfl))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_in (c : Dev nD) (t : Fin cfg3.N) : ∀ w : Fin cfg3.W, w ≠ 7 → ∀ d, (dat3 V c).before w t d = (dat3 V c).after w t
  | ⟨0, _⟩, _, d | ⟨1, _⟩, _, d | ⟨2, _⟩, _, d | ⟨3, _⟩, _, d | ⟨4, _⟩, _, d | ⟨5, _⟩, _, d | ⟨6, _⟩, _, d =>
    ((dat3 V c).before_in_eq_fetched _ rfl (fun _ => rfl) (fun _ _ _ => rfl) (fun _ => by dsimp only [dat3]; rfl) t d).trans
      (by unfold Dat.fetched Dat.blockOf; dsimp only [dat3]; rfl)
  | ⟨7, _⟩, h, _ => absurd rfl h

theorem body_obligation3 (c : Dev nD) : BodyObligation (dat3 (F := F) V c) (defs₀ (F := F)) Variants.none () Set.univ := fun t => by
  rw [bigSep_W3, bigSep_W3]
  simp (disch := decide) only [before3_in]
  dsimp only [dat3]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  iintro H
  iframe
  iexact Ho

end Cert.Kernel.HF

end
-- ==== Proof.RegW4.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_2 : Rect S64x64 := Rect.unit (s := S64x64) ![0, 0] S64x64.size inb_S64x64_S64x64_0_0
abbrev r4_3 : Rect S1x64 := Rect.unit (s := S1x64) ![0, 0] S1x64.size inb_S1x64_S1x64_0_0

def out4_4 (x0 : Vec F S10000x64 .f32) (x1 : Vec F S10000x64 .f32) (x2 : Vec F S64x64 .f32) (x3 : Vec F S1x64 .f32) : Vec F S10000x64 .f32 :=
  View.canon [⟨r4_0, k4_pay1 (View.ld x0 r4_0) (View.ld x1 r4_0) (View.ld x2 r4_2) (View.ld x3 r4_3)⟩]

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem before4_in (c : Dev nD) (t : Fin cfg4.N) : ∀ w : Fin cfg4.W, w ≠ 4 → ∀ d, (dat4 V c).before w t d = (dat4 V c).after w t
  | ⟨0, _⟩, _, d | ⟨1, _⟩, _, d | ⟨2, _⟩, _, d | ⟨3, _⟩, _, d =>
    ((dat4 V c).before_in_eq_fetched _ rfl (fun _ => rfl) (fun _ _ _ => rfl) (fun _ => by dsimp only [dat4]; rfl) t d).trans
      (by unfold Dat.fetched Dat.blockOf; dsimp only [dat4]; rfl)
  | ⟨4, _⟩, h, _ => absurd rfl h

set_option maxHeartbeats 1000000 in
theorem sound_kernel4 (c : Dev nD) (E : Set ℕ) (i : grid4.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__node_update_kernel i arg1 harg1 arg2 harg2 arg3 harg3 arg4 harg4 arg5 harg5) K := by
  simp only [cc4__node_update_kernel_eq_skeleton]; unfold cc4__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  iexists _; isplitr; swap; iexact H4
  ipureintro
  exact View.read_writes_eq_canon _ _ _ (View.cover_of_tiled _ S10000x64.size (by rfl))

theorem body_obligation4 (c : Dev nD) : BodyObligation (dat4 (F := F) V c) (defs₀ (F := F)) Variants.none () Set.univ := fun t => by
  rw [bigSep_W4, bigSep_W4]
  simp (disch := decide) only [before4_in]
  dsimp only [dat4]
  change _ ⊢ wp _ _ _ (bodyAt4 t) _
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  iframe H0 H1 H2 H3
  isplitl [H4]; · iexists _; iexact H4
  iintro H
  iframe
  iexact Ho

end Cert.Kernel.HF

end
-- ==== Proof.RegW5.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S64x64 := Rect.unit (s := S64x64) ![0, 0] S64x64.size inb_S64x64_S64x64_0_0

def out5_7 (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) : Vec F S10000x64 .f32 :=
  View.canon [⟨r5_0, k5_pay1 (View.ld x0 r5_0) (View.ld x1 r5_1) (View.ld x2 r5_1) (View.ld x3 r5_1) (View.ld x4 r5_1) (View.ld x5 r5_2) (View.ld x6 r5_1)⟩]

set_option maxHeartbeats 4000000 in
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S1x64 .f32) (x2 : Vec F S1x64 .f32) (x3 : Vec F S1x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__bn_relu_mlp2_kernel i arg1 harg1 arg2 harg2 arg3 harg3 arg4 harg4 arg5 harg5 arg6 harg6 arg7 harg7 arg8 harg8) K := by
  simp only [cc5__bn_relu_mlp2_kernel_eq_skeleton]; unfold cc5__bn_relu_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr; swap; iexact H7
  ipureintro
  exact View.read_writes_eq_canon _ _ _ (View.cover_of_tiled _ S10000x64.size (by rfl))

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_in (c : Dev nD) (t : Fin cfg5.N) : ∀ w : Fin cfg5.W, w ≠ 7 → ∀ d, (dat5 V c).before w t d = (dat5 V c).after w t
  | ⟨0, _⟩, _, d | ⟨1, _⟩, _, d | ⟨2, _⟩, _, d | ⟨3, _⟩, _, d | ⟨4, _⟩, _, d | ⟨5, _⟩, _, d | ⟨6, _⟩, _, d =>
    ((dat5 V c).before_in_eq_fetched _ rfl (fun _ => rfl) (fun _ _ _ => rfl) (fun _ => by dsimp only [dat5]; rfl) t d).trans
      (by unfold Dat.fetched Dat.blockOf; dsimp only [dat5]; rfl)
  | ⟨7, _⟩, h, _ => absurd rfl h

theorem body_obligation5 (c : Dev nD) : BodyObligation (dat5 (F := F) V c) (defs₀ (F := F)) Variants.none () Set.univ := fun t => by
  rw [bigSep_W5, bigSep_W5]
  simp (disch := decide) only [before5_in]
  dsimp only [dat5]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro H
  iframe
  iexact Ho

end Cert.Kernel.HF

end
-- ==== Proof.RegW6.lean ====
import proofs.«405318_j78374563217910_3_alg».proof.Proof.Gen.Kernel.Launch
import proofs.«405318_j78374563217910_3_alg».proof.Proof.Gen.Kernel.Skeleton
import proofs.«405318_j78374563217910_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S512x192 := Rect.unit (s := S512x192) ![0, 0] S512x192.size inb_S512x192_S512x192_0_0
abbrev r6_1 : Rect S192x192 := Rect.unit (s := S192x192) ![0, 0] S192x192.size inb_S192x192_S192x192_0_0
abbrev r6_2 : Rect S1x192 := Rect.unit (s := S1x192) ![0, 0] S1x192.size inb_S1x192_S1x192_0_0
abbrev r6_3 : Rect S192x10 := Rect.unit (s := S192x10) ![0, 0] S192x10.size inb_S192x10_S192x10_0_0
abbrev r6_4 : Rect S1x10 := Rect.unit (s := S1x10) ![0, 0] S1x10.size inb_S1x10_S1x10_0_0
abbrev r6_5 : Rect S512x10 := Rect.unit (s := S512x10) ![0, 0] S512x10.size inb_S512x10_S512x10_0_0

def out6_5 (x0 : Vec F S512x192 .f32) (x1 : Vec F S192x192 .f32) (x2 : Vec F S1x192 .f32) (x3 : Vec F S192x10 .f32) (x4 : Vec F S1x10 .f32) : Vec F S512x10 .f32 :=
  View.canon [⟨r6_5, k6_pay1 (View.ld x0 r6_0) (View.ld x1 r6_1) (View.ld x2 r6_2) (View.ld x3 r6_3) (View.ld x4 r6_4)⟩]

set_option maxHeartbeats 1000000 in
/-- The body's one store covers the whole output buffer, which so ends at the payload of the five loaded blocks. -/
theorem sound_kernel6 (c : Dev nD) (E : Set ℕ) (i : grid6.Coords) (arg1 : Memref sig .tc .vmem S512x192 .f32) (harg1 : arg1.IsWhole) (arg2 : Memref sig .tc .vmem S192x192 .f32) (harg2 : arg2.IsWhole) (arg3 : Memref sig .tc .vmem S1x192 .f32) (harg3 : arg3.IsWhole) (arg4 : Memref sig .tc .vmem S192x10 .f32) (harg4 : arg4.IsWhole) (arg5 : Memref sig .tc .vmem S1x10 .f32) (harg5 : arg5.IsWhole) (arg6 : Memref sig .tc .vmem S512x10 .f32) (harg6 : arg6.IsWhole)
    (x0 : Vec F S512x192 .f32) (x1 : Vec F S192x192 .f32) (x2 : Vec F S1x192 .f32) (x3 : Vec F S192x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__final_mlp_kernel i arg1 harg1 arg2 harg2 arg3 harg3 arg4 harg4 arg5 harg5 arg6 harg6) K := by
  simp only [cc6__final_mlp_kernel_eq_skeleton]; unfold cc6__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S512x10.size (by rfl))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- For an input window what the body is handed is what it leaves: the window's block. -/
theorem before6_in (c : Dev nD) (t : Fin cfg6.N) : ∀ w : Fin cfg6.W, w ≠ 5 → ∀ d, (dat6 V c).before w t d = (dat6 V c).after w t
  | ⟨0, _⟩, _ | ⟨1, _⟩, _ | ⟨2, _⟩, _ | ⟨3, _⟩, _ | ⟨4, _⟩, _ => fun d =>
    ((dat6 V c).before_in_eq_fetched _ rfl (fun _ => rfl) (fun _ _ _ => rfl) (fun _ => rfl) t d).trans rfl
  | ⟨5, _⟩, h => absurd rfl h

theorem sound_body6 (c : Dev nD) (t : Fin cfg6.N) :
    iprop((dat6 V c).Φ t.castSucc ∗ (dat6 V c).owesAt () t.castSucc
        ∗ bigSep Finset.univ fun w : Fin cfg6.W => iprop(∃ d, owns (c : Thread nD τ) ((cfg6.win w).stage (cfg6.slots t w)) fullShare ((dat6 V c).before w t d)))
      ⊢ wp frame (wpE (defs₀ (F := F)) Variants.none c none) Set.univ (bodyAt6 t) fun _ =>
        iprop((dat6 V c).Φ t.castSucc ∗ (dat6 V c).owesAt () t.castSucc
          ∗ bigSep Finset.univ fun w : Fin cfg6.W => owns (c : Thread nD τ) ((cfg6.win w).stage (cfg6.slots t w)) fullShare ((dat6 V c).after w t)) := by
  rw [bigSep_W6, bigSep_W6]
  simp (disch := decide) only [before6_in V c t]
  dsimp only [dat6]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ _ _ _ _ _ _)
  iframe H0 H1 H2 H3 H4
  isplitl [H5]; · iexists _; iexact H5
  iintro ⟨H0, H1, H2, H3, H4, H5⟩
  iframe

theorem body_obligation6 (c : Dev nD) : BodyObligation (dat6 (F := F) V c) (defs₀ (F := F)) Variants.none () Set.univ :=
  fun t => sound_body6 V c t

end Cert.Kernel.HF

end
-- ==== Proof.RunWW.lean ====
import proofs.«405318_j78374563217910_3_alg».proof.Proof.RegW0
import proofs.«405318_j78374563217910_3_alg».proof.Proof.RegW1
import proofs.«405318_j78374563217910_3_alg».proof.Proof.RegW2
import proofs.«405318_j78374563217910_3_alg».proof.Proof.RegW3
import proofs.«405318_j78374563217910_3_alg».proof.Proof.RegW4
import proofs.«405318_j78374563217910_3_alg».proof.Proof.RegW5
import proofs.«405318_j78374563217910_3_alg».proof.Proof.RegW6
import proofs.«405318_j78374563217910_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

abbrev W5 : Dev nD → Valuation τ sig (Elt F) := fun c => StableHlo.after hostOps0_4 (W4 m ρ c)
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

abbrev V5 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N :=
  Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) :=
  Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h

abbrev W8 : Dev nD → Valuation τ sig (Elt F) := fun c => StableHlo.after hostOps1_1 (W7 m ρ c)
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h

abbrev W9 : Dev nD → Valuation τ sig (Elt F) := fun c => StableHlo.after hostOps1_2 (W8 m ρ c)
theorem W9_of (c : Dev nD) (r : Ref sig .tc) (h : r ∉ hostOps1_2_W) :
    W9 m ρ c (Proc.devRef .tc r) = W8 m ρ c (Proc.devRef .tc r) :=
  StableHlo.after_of_writes_sub hostOps1_2 _ hostOps1_2_writes h

abbrev V9 : (c : Dev nD) → (b : Ref sig .tc) → Buf (Elt F) ((c : Thread nD τ).loc b) := fun c b => W9 m ρ c b
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N :=
  Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) :=
  Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps2 (W10 m ρ c)
theorem W11_of (c : Dev nD) (r : Ref sig .tc) (h : r ∉ hostOps2_W) :
    W11 m ρ c (Proc.devRef .tc r) = W10 m ρ c (Proc.devRef .tc r) :=
  StableHlo.after_of_writes_sub hostOps2 _ hostOps2_writes h

abbrev W12 : Dev nD → Valuation τ sig (Elt F) := fun c => StableHlo.after hostOps2_1 (W11 m ρ c)
theorem W12_of (c : Dev nD) (r : Ref sig .tc) (h : r ∉ hostOps2_1_W) :
    W12 m ρ c (Proc.devRef .tc r) = W11 m ρ c (Proc.devRef .tc r) :=
  StableHlo.after_of_writes_sub hostOps2_1 _ hostOps2_1_writes h

abbrev W13 : Dev nD → Valuation τ sig (Elt F) := fun c => StableHlo.after hostOps2_2 (W12 m ρ c)
theorem W13_of (c : Dev nD) (r : Ref sig .tc) (h : r ∉ hostOps2_2_W) :
    W13 m ρ c (Proc.devRef .tc r) = W12 m ρ c (Proc.devRef .tc r) :=
  StableHlo.after_of_writes_sub hostOps2_2 _ hostOps2_2_writes h

abbrev W14 : Dev nD → Valuation τ sig (Elt F) := fun c => StableHlo.after hostOps2_3 (W13 m ρ c)
theorem W14_of (c : Dev nD) (r : Ref sig .tc) (h : r ∉ hostOps2_3_W) :
    W14 m ρ c (Proc.devRef .tc r) = W13 m ρ c (Proc.devRef .tc r) :=
  StableHlo.after_of_writes_sub hostOps2_3 _ hostOps2_3_writes h

abbrev W15 : Dev nD → Valuation τ sig (Elt F) := fun c => StableHlo.after hostOps2_4 (W14 m ρ c)
theorem W15_of (c : Dev nD) (r : Ref sig .tc) (h : r ∉ hostOps2_4_W) :
    W15 m ρ c (Proc.devRef .tc r) = W14 m ρ c (Proc.devRef .tc r) :=
  StableHlo.after_of_writes_sub hostOps2_4 _ hostOps2_4_writes h

abbrev V15 : (c : Dev nD) → (b : Ref sig .tc) → Buf (Elt F) ((c : Thread nD τ).loc b) := fun c b => W15 m ρ c b
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N :=
  Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) :=
  Pipeline.withArrays_of_ne spec2 c _ _ b hb
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps3 (W16 m ρ c)
theorem W17_of (c : Dev nD) (r : Ref sig .tc) (h : r ∉ hostOps3_W) :
    W17 m ρ c (Proc.devRef .tc r) = W16 m ρ c (Proc.devRef .tc r) :=
  StableHlo.after_of_writes_sub hostOps3 _ hostOps3_writes h

abbrev W18 : Dev nD → Valuation τ sig (Elt F) := fun c => StableHlo.after hostOps3_1 (W17 m ρ c)
theorem W18_of (c : Dev nD) (r : Ref sig .tc) (h : r ∉ hostOps3_1_W) :
    W18 m ρ c (Proc.devRef .tc r) = W17 m ρ c (Proc.devRef .tc r) :=
  StableHlo.after_of_writes_sub hostOps3_1 _ hostOps3_1_writes h

abbrev W19 : Dev nD → Valuation τ sig (Elt F) := fun c => StableHlo.after hostOps3_2 (W18 m ρ c)
theorem W19_of (c : Dev nD) (r : Ref sig .tc) (h : r ∉ hostOps3_2_W) :
    W19 m ρ c (Proc.devRef .tc r) = W18 m ρ c (Proc.devRef .tc r) :=
  StableHlo.after_of_writes_sub hostOps3_2 _ hostOps3_2_writes h

abbrev V19 : (c : Dev nD) → (b : Ref sig .tc) → Buf (Elt F) ((c : Thread nD τ).loc b) := fun c b => W19 m ρ c b
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N :=
  Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) :=
  Pipeline.withArrays_of_ne spec3 c _ _ b hb
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)

abbrev W21 : Dev nD → Valuation τ sig (Elt F) := fun c => StableHlo.after hostOps4 (W20 m ρ c)
theorem W21_of (c : Dev nD) (r : Ref sig .tc) (h : r ∉ hostOps4_W) :
    W21 m ρ c (Proc.devRef .tc r) = W20 m ρ c (Proc.devRef .tc r) :=
  StableHlo.after_of_writes_sub hostOps4 _ hostOps4_writes h

abbrev W22 : Dev nD → Valuation τ sig (Elt F) := fun c => StableHlo.after hostOps4_1 (W21 m ρ c)
theorem W22_of (c : Dev nD) (r : Ref sig .tc) (h : r ∉ hostOps4_1_W) :
    W22 m ρ c (Proc.devRef .tc r) = W21 m ρ c (Proc.devRef .tc r) :=
  StableHlo.after_of_writes_sub hostOps4_1 _ hostOps4_1_writes h

abbrev W23 : Dev nD → Valuation τ sig (Elt F) := fun c => StableHlo.after hostOps4_2 (W22 m ρ c)
theorem W23_of (c : Dev nD) (r : Ref sig .tc) (h : r ∉ hostOps4_2_W) :
    W23 m ρ c (Proc.devRef .tc r) = W22 m ρ c (Proc.devRef .tc r) :=
  StableHlo.after_of_writes_sub hostOps4_2 _ hostOps4_2_writes h

abbrev W24 : Dev nD → Valuation τ sig (Elt F) := fun c => StableHlo.after hostOps4_3 (W23 m ρ c)
theorem W24_of (c : Dev nD) (r : Ref sig .tc) (h : r ∉ hostOps4_3_W) :
    W24 m ρ c (Proc.devRef .tc r) = W23 m ρ c (Proc.devRef .tc r) :=
  StableHlo.after_of_writes_sub hostOps4_3 _ hostOps4_3_writes h

abbrev W25 : Dev nD → Valuation τ sig (Elt F) := fun c => StableHlo.after hostOps4_4 (W24 m ρ c)
theorem W25_of (c : Dev nD) (r : Ref sig .tc) (h : r ∉ hostOps4_4_W) :
    W25 m ρ c (Proc.devRef .tc r) = W24 m ρ c (Proc.devRef .tc r) :=
  StableHlo.after_of_writes_sub hostOps4_4 _ hostOps4_4_writes h

abbrev V25 : (c : Dev nD) → (b : Ref sig .tc) → Buf (Elt F) ((c : Thread nD τ).loc b) := fun c b => W25 m ρ c b
def W26 (c : Dev nD) : Valuation τ sig (Elt F) :=
  Pipeline.withArrays spec4 c (W25 m ρ c) fun w => (dat4 (V25 m ρ) c).arrAt w cfg4.N
theorem W26_arr (c : Dev nD) (w : Fin cfg4.W) :
    W26 m ρ c (Proc.devRef .tc (Pipeline.arrRef spec4 w)) = (dat4 (V25 m ρ) c).arrAt w cfg4.N :=
  Pipeline.withArrays_arr spec4 launch4.win.arr_inj c _ _ w
theorem W26_of_ne (c : Dev nD) (b : Ref sig .tc) (hb : ∀ w, Pipeline.arrRef spec4 w ≠ b) :
    W26 m ρ c (Proc.devRef .tc b) = W25 m ρ c (Proc.devRef .tc b) :=
  Pipeline.withArrays_of_ne spec4 c _ _ b hb
abbrev V26 : (c : Dev nD) → (b : Ref sig .tc) → Buf (Elt F) ((c : Thread nD τ).loc b) := fun c b => W26 m ρ c b
theorem hF4 (c : Dev nD) (w : Fin cfg4.W) : (dat4 (V25 m ρ) c).arrAt w cfg4.N = V26 m ρ c (Pipeline.arrRef spec4 w) :=
  (W26_arr m ρ c w).symm
theorem hrest4 (c : Dev nD) : ∀ b, b ∉ Finset.univ.image (Pipeline.arrRef spec4) → V26 m ρ c b = V25 m ρ c b :=
  fun b hb => W26_of_ne m ρ c b fun w e => hb (Finset.mem_image.mpr ⟨w, Finset.mem_univ _, e⟩)

abbrev W27 : Dev nD → Valuation τ sig (Elt F) := fun c => StableHlo.after hostOps5 (W26 m ρ c)
theorem W27_of (c : Dev nD) (r : Ref sig .tc) (h : r ∉ hostOps5_W) :
    W27 m ρ c (Proc.devRef .tc r) = W26 m ρ c (Proc.devRef .tc r) :=
  StableHlo.after_of_writes_sub hostOps5 _ hostOps5_writes h

abbrev W28 : Dev nD → Valuation τ sig (Elt F) := fun c => StableHlo.after hostOps5_1 (W27 m ρ c)
theorem W28_of (c : Dev nD) (r : Ref sig .tc) (h : r ∉ hostOps5_1_W) :
    W28 m ρ c (Proc.devRef .tc r) = W27 m ρ c (Proc.devRef .tc r) :=
  StableHlo.after_of_writes_sub hostOps5_1 _ hostOps5_1_writes h

abbrev W29 : Dev nD → Valuation τ sig (Elt F) := fun c => StableHlo.after hostOps5_2 (W28 m ρ c)
theorem W29_of (c : Dev nD) (r : Ref sig .tc) (h : r ∉ hostOps5_2_W) :
    W29 m ρ c (Proc.devRef .tc r) = W28 m ρ c (Proc.devRef .tc r) :=
  StableHlo.after_of_writes_sub hostOps5_2 _ hostOps5_2_writes h

abbrev V29 : (c : Dev nD) → (b : Ref sig .tc) → Buf (Elt F) ((c : Thread nD τ).loc b) := fun c b => W29 m ρ c b
def W30 (c : Dev nD) : Valuation τ sig (Elt F) :=
  Pipeline.withArrays spec5 c (W29 m ρ c) fun w => (dat5 (V29 m ρ) c).arrAt w cfg5.N
theorem W30_arr (c : Dev nD) (w : Fin cfg5.W) :
    W30 m ρ c (Proc.devRef .tc (Pipeline.arrRef spec5 w)) = (dat5 (V29 m ρ) c).arrAt w cfg5.N :=
  Pipeline.withArrays_arr spec5 launch5.win.arr_inj c _ _ w
theorem W30_of_ne (c : Dev nD) (b : Ref sig .tc) (hb : ∀ w, Pipeline.arrRef spec5 w ≠ b) :
    W30 m ρ c (Proc.devRef .tc b) = W29 m ρ c (Proc.devRef .tc b) :=
  Pipeline.withArrays_of_ne spec5 c _ _ b hb
abbrev V30 : (c : Dev nD) → (b : Ref sig .tc) → Buf (Elt F) ((c : Thread nD τ).loc b) := fun c b => W30 m ρ c b
theorem hF5 (c : Dev nD) (w : Fin cfg5.W) : (dat5 (V29 m ρ) c).arrAt w cfg5.N = V30 m ρ c (Pipeline.arrRef spec5 w) :=
  (W30_arr m ρ c w).symm
theorem hrest5 (c : Dev nD) : ∀ b, b ∉ Finset.univ.image (Pipeline.arrRef spec5) → V30 m ρ c b = V29 m ρ c b :=
  fun b hb => W30_of_ne m ρ c b fun w e => hb (Finset.mem_image.mpr ⟨w, Finset.mem_univ _, e⟩)

abbrev W31 : Dev nD → Valuation τ sig (Elt F) := fun c => StableHlo.after hostOps6 (W30 m ρ c)
theorem W31_of (c : Dev nD) (r : Ref sig .tc) (h : r ∉ hostOps6_W) :
    W31 m ρ c (Proc.devRef .tc r) = W30 m ρ c (Proc.devRef .tc r) :=
  StableHlo.after_of_writes_sub hostOps6 _ hostOps6_writes h

abbrev V31 : (c : Dev nD) → (b : Ref sig .tc) → Buf (Elt F) ((c : Thread nD τ).loc b) := fun c b => W31 m ρ c b
def W32 (c : Dev nD) : Valuation τ sig (Elt F) :=
  Pipeline.withArrays spec6 c (W31 m ρ c) fun w => (dat6 (V31 m ρ) c).arrAt w cfg6.N
theorem W32_arr (c : Dev nD) (w : Fin cfg6.W) :
    W32 m ρ c (Proc.devRef .tc (Pipeline.arrRef spec6 w)) = (dat6 (V31 m ρ) c).arrAt w cfg6.N :=
  Pipeline.withArrays_arr spec6 launch6.win.arr_inj c _ _ w
theorem W32_of_ne (c : Dev nD) (b : Ref sig .tc) (hb : ∀ w, Pipeline.arrRef spec6 w ≠ b) :
    W32 m ρ c (Proc.devRef .tc b) = W31 m ρ c (Proc.devRef .tc b) :=
  Pipeline.withArrays_of_ne spec6 c _ _ b hb
abbrev V32 : (c : Dev nD) → (b : Ref sig .tc) → Buf (Elt F) ((c : Thread nD τ).loc b) := fun c b => W32 m ρ c b
theorem hF6 (c : Dev nD) (w : Fin cfg6.W) : (dat6 (V31 m ρ) c).arrAt w cfg6.N = V32 m ρ c (Pipeline.arrRef spec6 w) :=
  (W32_arr m ρ c w).symm
theorem hrest6 (c : Dev nD) : ∀ b, b ∉ Finset.univ.image (Pipeline.arrRef spec6) → V32 m ρ c b = V31 m ρ c b :=
  fun b hb => W32_of_ne m ρ c b fun w e => hb (Finset.mem_image.mpr ⟨w, Finset.mem_univ _, e⟩)

abbrev argRefs : List (Ref sig .tc) := [main_arg0, main_arg1, main_arg2, main_arg3, main_arg4, main_arg5, main_arg6, main_arg7, main_arg8, main_arg9, main_arg10, main_arg11, main_arg12, main_arg13, main_arg14, main_arg15]

/-- A reference that is no output window's array has the same contents after a region's arrays are put back as before. -/
theorem withArrays_keep {cfg : Cfg sig Λ₀} {c : Dev nD} (dat : Dat τ (Elt F) Unit ℕ (Pipeline.UD sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.spec w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr cfg.spec hinj c V _ w).trans ((dat.arrAt_in w (hb w rfl) _).trans (hA w))
  · exact Pipeline.withArrays_of_ne cfg.spec c V _ b fun w e => h ⟨w, e⟩

/-- No host operation writes an argument and no region has one as an output window, so at every boundary it is as launched. -/
theorem W0_arg (c : Dev nD) (b : Ref sig .tc) (hb : b ∈ argRefs) :
    W0 m ρ c (Proc.devRef .tc b) = m ((c : Thread nD τ).loc b) :=
  rfl

theorem W1_arg (c : Dev nD) (b : Ref sig .tc) (hb : b ∈ argRefs) :
    W1 m ρ c (Proc.devRef .tc b) = m ((c : Thread nD τ).loc b) :=
  (W1_of m ρ c b (by revert b; decide)).trans <|
  W0_arg m ρ c b hb

theorem W4_arg (c : Dev nD) (b : Ref sig .tc) (hb : b ∈ argRefs) :
    W4 m ρ c (Proc.devRef .tc b) = m ((c : Thread nD τ).loc b) :=
  (W4_of m ρ c b (by revert b; decide)).trans <|
  (W3_of m ρ c b (by revert b; decide)).trans <|
  (W2_of m ρ c b (by revert b; decide)).trans <|
  W1_arg m ρ c b hb

theorem W5_arg (c : Dev nD) (b : Ref sig .tc) (hb : b ∈ argRefs) :
    W5 m ρ c (Proc.devRef .tc b) = m ((c : Thread nD τ).loc b) :=
  (W5_of m ρ c b (by revert b; decide)).trans <|
  W4_arg m ρ c b hb

theorem W8_arg (c : Dev nD) (b : Ref sig .tc) (hb : b ∈ argRefs) :
    W8 m ρ c (Proc.devRef .tc b) = m ((c : Thread nD τ).loc b) :=
  (W8_of m ρ c b (by revert b; decide)).trans <|
  (W7_of m ρ c b (by revert b; decide)).trans <|
  (withArrays_keep (dat0 (V5 m ρ) c) launch0.win.arr_inj (W5 m ρ c) (A_eq0 _ c) b (by revert b; decide)).trans <|
  W5_arg m ρ c b hb

theorem W10_arg (c : Dev nD) (b : Ref sig .tc) (hb : b ∈ argRefs) :
    W10 m ρ c (Proc.devRef .tc b) = m ((c : Thread nD τ).loc b) :=
  (withArrays_keep (dat1 (V9 m ρ) c) launch1.win.arr_inj (W9 m ρ c) (A_eq1 _ c) b (by revert b; decide)).trans <|
  (W9_of m ρ c b (by revert b; decide)).trans <|
  W8_arg m ρ c b hb

theorem W14_arg (c : Dev nD) (b : Ref sig .tc) (hb : b ∈ argRefs) :
    W14 m ρ c (Proc.devRef .tc b) = m ((c : Thread nD τ).loc b) :=
  (W14_of m ρ c b (by revert b; decide)).trans <|
  (W13_of m ρ c b (by revert b; decide)).trans <|
  (W12_of m ρ c b (by revert b; decide)).trans <|
  (W11_of m ρ c b (by revert b; decide)).trans <|
  W10_arg m ρ c b hb

theorem W18_arg (c : Dev nD) (b : Ref sig .tc) (hb : b ∈ argRefs) :
    W18 m ρ c (Proc.devRef .tc b) = m ((c : Thread nD τ).loc b) :=
  (W18_of m ρ c b (by revert b; decide)).trans <|
  (W17_of m ρ c b (by revert b; decide)).trans <|
  (withArrays_keep (dat2 (V15 m ρ) c) launch2.win.arr_inj (W15 m ρ c) (A_eq2 _ c) b (by revert b; decide)).trans <|
  (W15_of m ρ c b (by revert b; decide)).trans <|
  W14_arg m ρ c b hb

theorem W20_arg (c : Dev nD) (b : Ref sig .tc) (hb : b ∈ argRefs) :
    W20 m ρ c (Proc.devRef .tc b) = m ((c : Thread nD τ).loc b) :=
  (withArrays_keep (dat3 (V19 m ρ) c) launch3.win.arr_inj (W19 m ρ c) (A_eq3 _ c) b (by revert b; decide)).trans <|
  (W19_of m ρ c b (by revert b; decide)).trans <|
  W18_arg m ρ c b hb

theorem W24_arg (c : Dev nD) (b : Ref sig .tc) (hb : b ∈ argRefs) :
    W24 m ρ c (Proc.devRef .tc b) = m ((c : Thread nD τ).loc b) :=
  (W24_of m ρ c b (by revert b; decide)).trans <|
  (W23_of m ρ c b (by revert b; decide)).trans <|
  (W22_of m ρ c b (by revert b; decide)).trans <|
  (W21_of m ρ c b (by revert b; decide)).trans <|
  W20_arg m ρ c b hb

theorem W28_arg (c : Dev nD) (b : Ref sig .tc) (hb : b ∈ argRefs) :
    W28 m ρ c (Proc.devRef .tc b) = m ((c : Thread nD τ).loc b) :=
  (W28_of m ρ c b (by revert b; decide)).trans <|
  (W27_of m ρ c b (by revert b; decide)).trans <|
  (withArrays_keep (dat4 (V25 m ρ) c) launch4.win.arr_inj (W25 m ρ c) (A_eq4 _ c) b (by revert b; decide)).trans <|
  (W25_of m ρ c b (by revert b; decide)).trans <|
  W24_arg m ρ c b hb

theorem W30_arg (c : Dev nD) (b : Ref sig .tc) (hb : b ∈ argRefs) :
    W30 m ρ c (Proc.devRef .tc b) = m ((c : Thread nD τ).loc b) :=
  (withArrays_keep (dat5 (V29 m ρ) c) launch5.win.arr_inj (W29 m ρ c) (A_eq5 _ c) b (by revert b; decide)).trans <|
  (W29_of m ρ c b (by revert b; decide)).trans <|
  W28_arg m ρ c b hb

theorem W32_arg (c : Dev nD) (b : Ref sig .tc) (hb : b ∈ argRefs) :
    W32 m ρ c (Proc.devRef .tc b) = m ((c : Thread nD τ).loc b) :=
  (withArrays_keep (dat6 (V31 m ρ) c) launch6.win.arr_inj (W31 m ρ c) (A_eq6 _ c) b (by revert b; decide)).trans <|
  (W31_of m ρ c b (by revert b; decide)).trans <|
  W30_arg m ρ c b hb

abbrev adm : (p : Fin 7) → (pcfgs (F := F) p).Adm := fun p => (cfgs p).toPCfg_adm
def pdats : (p : Fin 7) → (c : Dev nD) → Dat τ (Elt F) Unit ℕ (Pipeline.UD sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V15 m ρ) c
  | ⟨3, _⟩ => fun c => dat3 (V19 m ρ) c
  | ⟨4, _⟩ => fun c => dat4 (V25 m ρ) c
  | ⟨5, _⟩ => fun c => dat5 (V29 m ρ) c
  | ⟨6, _⟩ => fun c => dat6 (V31 m ρ) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W32 m ρ c) ∗ ∃ r, prngReg c r)

end Cert.Kernel.HF

end
-- ==== Proof.RunWR.lean ====
import proofs.«405318_j78374563217910_3_alg».proof.Proof.RunWW

noncomputable section

namespace Cert.Kernel.HF

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The buffers at `Win` split into the region's arrays and a rest that bypasses it; the arrays at their final contents rejoin that rest as the buffers at `Wout`, equal to `Win` off the arrays. -/
def regOf (p : Fin 7) (kit : Pipeline.LaunchFacts (nD := nD) (τ := τ) cfgs p)
    (Win Wout : Dev nD → Valuation τ sig (Elt F))
    (hbody : ∀ c, Pipeline.BodyObligation (pdats m ρ p c) defs₀ 𝒱₀ () Set.univ)
    (hF : ∀ c w, (pdats m ρ p c).arrAt w (cfgs p).N = Wout c (Pipeline.arrRef (cfgs p).spec w))
    (hrest : ∀ c b, b ∉ Finset.univ.image (Pipeline.arrRef (cfgs p).spec) → Wout c b = Win c b)
    (hq : ∀ c w, (pdats m ρ p c).q w = fullShare := by intros; rfl)
    (hA : ∀ c w, (pdats m ρ p c).A w = Win c (Pipeline.arrRef (cfgs p).spec w) := by intros; rfl)
    (howed : ∀ c t, (pdats m ρ p c).owed t = 0 := by intros; rfl)
    (hrec : ∀ c, (pdats m ρ p c).recorded 0 = Set.univ := by intros; rfl)
    (hΦ : ∀ c t, (pdats m ρ p c).Φ t = Pipeline.ΦA (cfgs p).spec c := by intros; rfl) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (cfgs p).spec c fun b => Win c b
  hentry c := by
    have hsplit := Pipeline.arrays_of_unscopedBufs _ _ (pdats m ρ) kit.win kit.arr_whole c
      ((pdats m ρ p c).share_full (hq c)) (fun b => Win c b) (hA c)
    rw [Pipeline.unscopedBufs_held] at hsplit
    unfold Pipeline.prefHeld Pipeline.Dat.owesAt Pipeline.owesWithin Pipeline.Dat.bound
    rw [Pipeline.ownSems0_none, howed, hrec, show (Finset.univ : Finset (Fin 0)) = ∅ from rfl, BI.bigSep_empty]
    iintro ⟨⟨Hub, Hp, %W, HO⟩, -, -⟩
    ihave ⟨Ha, Hrest⟩ := hsplit $$ Hub
    imodintro
    iframe Ha Hp Hrest
    isplitr; · iempintro
    iexists W; iframe HO
    ipureintro; exact fun _ _ => Or.inl trivial
  hin c := by
    rw [hΦ]; unfold Pipeline.ΦA
    iintro ⟨Hp, -, Hr⟩
    iframe
  hout c := by
    rw [Pipeline.ownSems0_none, hΦ]; unfold Pipeline.ΦA
    iintro ⟨Hr, Hp⟩
    iframe; iempintro
  hexit c := by
    have hjoin := Pipeline.unscopedBufs_of_arrays _ _ kit.win kit.arr_whole c (pdats m ρ)
      ((pdats m ρ p c).share_full (hq c)) (fun b => Win c b) (fun b => Wout c b) _ (hF c) (hrest c)
    rw [Pipeline.unscopedBufs_held] at hjoin
    unfold Pipeline.Dat.owesAt Pipeline.owesWithin; rw [howed]
    iintro ⟨Ha, ⟨%W, -, HO⟩, HY, Hrest⟩
    imodintro
    isplitl [Ha Hrest]
    · iapply hjoin; iframe
    isplitl [HY]; · iexact HY
    iexists W; iexact HO

def reg0 : Pipeline.RegionSeg (pcfgs (F := F)) adm (pdats m ρ) () defs₀ 𝒱₀ L lv 0 :=
  regOf m ρ 0 launch0 (W5 m ρ) (W6 m ρ) (body_obligation0 (V5 m ρ)) (hF0 m ρ) (hrest0 m ρ)
def reg1 : Pipeline.RegionSeg (pcfgs (F := F)) adm (pdats m ρ) () defs₀ 𝒱₀ L lv 1 :=
  regOf m ρ 1 launch1 (W9 m ρ) (W10 m ρ) (body_obligation1 (V9 m ρ)) (hF1 m ρ) (hrest1 m ρ)
def reg2 : Pipeline.RegionSeg (pcfgs (F := F)) adm (pdats m ρ) () defs₀ 𝒱₀ L lv 2 :=
  regOf m ρ 2 launch2 (W15 m ρ) (W16 m ρ) (body_obligation2 (V15 m ρ)) (hF2 m ρ) (hrest2 m ρ)
def reg3 : Pipeline.RegionSeg (pcfgs (F := F)) adm (pdats m ρ) () defs₀ 𝒱₀ L lv 3 :=
  regOf m ρ 3 launch3 (W19 m ρ) (W20 m ρ) (body_obligation3 (V19 m ρ)) (hF3 m ρ) (hrest3 m ρ)
def reg4 : Pipeline.RegionSeg (pcfgs (F := F)) adm (pdats m ρ) () defs₀ 𝒱₀ L lv 4 :=
  regOf m ρ 4 launch4 (W25 m ρ) (W26 m ρ) (body_obligation4 (V25 m ρ)) (hF4 m ρ) (hrest4 m ρ)
def reg5 : Pipeline.RegionSeg (pcfgs (F := F)) adm (pdats m ρ) () defs₀ 𝒱₀ L lv 5 :=
  regOf m ρ 5 launch5 (W29 m ρ) (W30 m ρ) (body_obligation5 (V29 m ρ)) (hF5 m ρ) (hrest5 m ρ)
def reg6 : Pipeline.RegionSeg (pcfgs (F := F)) adm (pdats m ρ) () defs₀ 𝒱₀ L lv 6 :=
  regOf m ρ 6 launch6 (W31 m ρ) (W32 m ρ) (body_obligation6 (V31 m ρ)) (hF6 m ρ) (hrest6 m ρ)

end Cert.Kernel.HF

end
-- ==== Proof.RunW.lean ====
import proofs.«405318_j78374563217910_3_alg».proof.Proof.RunWR

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- An argument array is an unscoped buffer no item writes, so a state that agrees with the last boundary has it as launched.
theorem arg_kept {r : PUnit × MemSt nD τ sig (Elt F)}
    (h : ∀ c : Dev nD, ∀ b ∈ Pipeline.ucRefs τ sig, r.2.mem (((c : Thread nD τ)).1, b) = W32 m ρ c b)
    (c : Dev nD) {b : Ref sig .tc} (hb : b ∈ argRefs) :
    r.2.mem ((c.tc : Thread nD τ).loc b) = m ((c.tc : Thread nD τ).loc b) :=
  (h c _ (mem_uc b (by revert b; decide))).trans (W32_arg m ρ c b hb)

theorem last_state (c : Dev nD) :
    iprop(StableHlo.held (c : Thread nD τ) (Pipeline.ucRefs τ sig) (W32 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .host (hseg hostOps2_1 hostOps2_1_sub hostOps2_1_fresh (W11 m ρ)),
    .host (hseg hostOps2_2 hostOps2_2_sub hostOps2_2_fresh (W12 m ρ)),
    .host (hseg hostOps2_3 hostOps2_3_sub hostOps2_3_fresh (W13 m ρ)),
    .host (hseg hostOps2_4 hostOps2_4_sub hostOps2_4_fresh (W14 m ρ)),
    .region (reg2 m ρ),
    .host (hseg hostOps3 hostOps3_sub hostOps3_fresh (W16 m ρ)),
    .host (hseg hostOps3_1 hostOps3_1_sub hostOps3_1_fresh (W17 m ρ)),
    .host (hseg hostOps3_2 hostOps3_2_sub hostOps3_2_fresh (W18 m ρ)),
    .region (reg3 m ρ),
    .host (hseg hostOps4 hostOps4_sub hostOps4_fresh (W20 m ρ)),
    .host (hseg hostOps4_1 hostOps4_1_sub hostOps4_1_fresh (W21 m ρ)),
    .host (hseg hostOps4_2 hostOps4_2_sub hostOps4_2_fresh (W22 m ρ)),
    .host (hseg hostOps4_3 hostOps4_3_sub hostOps4_3_fresh (W23 m ρ)),
    .host (hseg hostOps4_4 hostOps4_4_sub hostOps4_4_fresh (W24 m ρ)),
    .region (reg4 m ρ),
    .host (hseg hostOps5 hostOps5_sub hostOps5_fresh (W26 m ρ)),
    .host (hseg hostOps5_1 hostOps5_1_sub hostOps5_1_fresh (W27 m ρ)),
    .host (hseg hostOps5_2 hostOps5_2_sub hostOps5_2_fresh (W28 m ρ)),
    .region (reg5 m ρ),
    .host (hseg hostOps6 hostOps6_sub hostOps6_fresh (W30 m ρ)),
    .region (reg6 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun _ h => h)

end Cert.Kernel.HF

end
-- ==== Proof.SpecA.lean ====
import Idealize.ShloMosaic.PureOps.Ideal
import Idealize.ShloMosaic.Lib.ValueIdx

noncomputable section

namespace Cert.Spec

open Idealize.ShloMosaic Idealize.ShloMosaic.ValueIdx

def specA (h a : FVec Ideal ⟨2, ![50000, 64]⟩ .f32) (w : FVec Ideal ⟨2, ![64, 64]⟩ .f32) (b : Fin 64 → EReal) :
    FVec Ideal ⟨2, ![50000, 64]⟩ .f32 :=
  fun i => (∑ k : Fin 64, (h (ix2 (i 0) k) + a (ix2 (i 0) k)) * w (ix2 k (i 1))) + b (i 1)

end Cert.Spec

end
-- ==== Proof.SpecB.lean ====
import Idealize.ShloMosaic.PureOps.Ideal
import Idealize.ShloMosaic.Lib.ValueIdx

noncomputable section

open scoped BigOperators

namespace Cert.Spec

open Idealize.ShloMosaic Idealize.ShloMosaic.ValueIdx

def specB (z : FVec Ideal ⟨2, ![50000, 64]⟩ .f32) (mu var g bb : Fin 64 → EReal) (w : FVec Ideal ⟨2, ![64, 64]⟩ .f32)
    (b2 : Fin 64 → EReal) : FVec Ideal ⟨2, ![50000, 64]⟩ .f32 :=
  fun i => max ((∑ k : Fin 64, max ((((z (ix2 (i 0) k) - mu k) * Ideal.rsqrt (var k + Ideal.ofBits .f32 0x3727C5AC#32)) * g k) + bb k) 0
    * w (ix2 k (i 1))) + b2 (i 1)) 0

end Cert.Spec

end
-- ==== Proof.SpecC.lean ====
import Idealize.ShloMosaic.PureOps.Ideal
import Idealize.ShloMosaic.Lib.ValueIdx

noncomputable section

open scoped BigOperators

namespace Cert.Spec

open Idealize.ShloMosaic Idealize.ShloMosaic.ValueIdx

def hiddenC (hc : FVec Ideal ⟨2, ![512, 192]⟩ .f32) (w1 : FVec Ideal ⟨2, ![192, 192]⟩ .f32) (b1 : Fin 192 → EReal)
    (g : Fin 512) (k : Fin 192) : EReal :=
  max ((∑ k' : Fin 192, hc (ix2 g k') * w1 (ix2 k' k)) + b1 k) 0

def logitsC (hc : FVec Ideal ⟨2, ![512, 192]⟩ .f32) (w1 : FVec Ideal ⟨2, ![192, 192]⟩ .f32) (b1 : Fin 192 → EReal)
    (w2 : FVec Ideal ⟨2, ![192, 10]⟩ .f32) (b2 : Fin 10 → EReal) (g : Fin 512) (f : Fin 10) : EReal :=
  (∑ k : Fin 192, hiddenC hc w1 b1 g k * w2 (ix2 k f)) + b2 f

def rowMaxC (hc : FVec Ideal ⟨2, ![512, 192]⟩ .f32) (w1 : FVec Ideal ⟨2, ![192, 192]⟩ .f32) (b1 : Fin 192 → EReal)
    (w2 : FVec Ideal ⟨2, ![192, 10]⟩ .f32) (b2 : Fin 10 → EReal) (g : Fin 512) : EReal :=
  (Finset.univ : Finset (Fin 10)).fold max (Ideal.ofBits .f32 0xFF800000#32) (fun f => logitsC hc w1 b1 w2 b2 g f)

def specC (hc : FVec Ideal ⟨2, ![512, 192]⟩ .f32) (w1 : FVec Ideal ⟨2, ![192, 192]⟩ .f32) (b1 : Fin 192 → EReal)
    (w2 : FVec Ideal ⟨2, ![192, 10]⟩ .f32) (b2 : Fin 10 → EReal) : FVec Ideal ⟨2, ![512, 10]⟩ .f32 := fun j =>
  (logitsC hc w1 b1 w2 b2 (j 0) (j 1) - rowMaxC hc w1 b1 w2 b2 (j 0))
    - Ideal.log (∑ f' : Fin 10, Ideal.exp (logitsC hc w1 b1 w2 b2 (j 0) f' - rowMaxC hc w1 b1 w2 b2 (j 0)))

theorem specC_apply (hc : FVec Ideal ⟨2, ![512, 192]⟩ .f32) (w1 : FVec Ideal ⟨2, ![192, 192]⟩ .f32) (b1 : Fin 192 → EReal)
    (w2 : FVec Ideal ⟨2, ![192, 10]⟩ .f32) (b2 : Fin 10 → EReal) (g : Fin 512) (f : Fin 10) :
    specC hc w1 b1 w2 b2 (ix2 g f)
      = (logitsC hc w1 b1 w2 b2 g f - rowMaxC hc w1 b1 w2 b2 g)
        - Ideal.log (∑ f' : Fin 10, Ideal.exp (logitsC hc w1 b1 w2 b2 g f' - rowMaxC hc w1 b1 w2 b2 g)) := rfl

end Cert.Spec

end
-- ==== Proof.KNet.lean ====
import proofs.«405318_j78374563217910_3_alg».proof.KernelIdeal
import proofs.«405318_j78374563217910_3_alg».proof.Proof.SpecA
import proofs.«405318_j78374563217910_3_alg».proof.Proof.SpecB
import proofs.«405318_j78374563217910_3_alg».proof.Proof.SpecC

noncomputable section

namespace Cert.KernelIdeal.HV

open Idealize.ShloMosaic Idealize.ShloMosaic.ValueIdx
open Cert.KernelIdeal Cert.KernelIdeal.Facts₀

variable [Facts]

def srcK (ei : IVec S2x800000 32) : IVec S800000 32 :=
  fun i => shapeCast S800000 (extractStridedSlice S1x800000 ![0, 0] ei slices_S2x800000_S1x800000_0_0) shapeCasts_S1x800000_S800000 i

def dstK (ei : IVec S2x800000 32) : IVec S800000 32 :=
  fun i => shapeCast S800000 (extractStridedSlice S1x800000 ![1, 0] ei slices_S2x800000_S1x800000_1_0) shapeCasts_S1x800000_S800000 i

def sliceWe0 (We : FVec Ideal S3x16x64 .f32) : FVec Ideal S16x64 .f32 :=
  fun i => shapeCast S16x64 (extractStridedSlice S1x16x64 ![0, 0, 0] We slices_S3x16x64_S1x16x64_0_0_0) shapeCasts_S1x16x64_S16x64 i

def sliceWe1 (We : FVec Ideal S3x16x64 .f32) : FVec Ideal S16x64 .f32 :=
  fun i => shapeCast S16x64 (extractStridedSlice S1x16x64 ![1, 0, 0] We slices_S3x16x64_S1x16x64_1_0_0) shapeCasts_S1x16x64_S16x64 i

def sliceWe2 (We : FVec Ideal S3x16x64 .f32) : FVec Ideal S16x64 .f32 :=
  fun i => shapeCast S16x64 (extractStridedSlice S1x16x64 ![2, 0, 0] We slices_S3x16x64_S1x16x64_2_0_0) shapeCasts_S1x16x64_S16x64 i

def sliceV0 (b : FVec Ideal S3x64 .f32) : FVec Ideal S64 .f32 :=
  fun i => shapeCast S64 (extractStridedSlice S1x64 ![0, 0] b slices_S3x64_S1x64_0_0) shapeCasts_S1x64_S64 i

def sliceV1 (b : FVec Ideal S3x64 .f32) : FVec Ideal S64 .f32 :=
  fun i => shapeCast S64 (extractStridedSlice S1x64 ![1, 0] b slices_S3x64_S1x64_1_0) shapeCasts_S1x64_S64 i

def sliceV2 (b : FVec Ideal S3x64 .f32) : FVec Ideal S64 .f32 :=
  fun i => shapeCast S64 (extractStridedSlice S1x64 ![2, 0] b slices_S3x64_S1x64_2_0) shapeCasts_S1x64_S64 i

def sliceM0 (w : FVec Ideal S3x64x64 .f32) : FVec Ideal S64x64 .f32 :=
  fun i => shapeCast S64x64 (extractStridedSlice S1x64x64 ![0, 0, 0] w slices_S3x64x64_S1x64x64_0_0_0) shapeCasts_S1x64x64_S64x64 i

def sliceM1 (w : FVec Ideal S3x64x64 .f32) : FVec Ideal S64x64 .f32 :=
  fun i => shapeCast S64x64 (extractStridedSlice S1x64x64 ![1, 0, 0] w slices_S3x64x64_S1x64x64_1_0_0) shapeCasts_S1x64x64_S64x64 i

def sliceM2 (w : FVec Ideal S3x64x64 .f32) : FVec Ideal S64x64 .f32 :=
  fun i => shapeCast S64x64 (extractStridedSlice S1x64x64 ![2, 0, 0] w slices_S3x64x64_S1x64x64_2_0_0) shapeCasts_S1x64x64_S64x64 i

def rowK (v : FVec Ideal S64 .f32) : FVec Ideal S1x64 .f32 :=
  fun i => shapeCast S1x64 v shapeCasts_S64_S1x64 i

def rowK192 (v : FVec Ideal S192 .f32) : FVec Ideal S1x192 .f32 :=
  fun i => shapeCast S1x192 v shapeCasts_S192_S1x192 i

def rowK10 (v : FVec Ideal S10 .f32) : FVec Ideal S1x10 .f32 :=
  fun i => shapeCast S1x10 v shapeCasts_S10_S1x10 i

def linK (ea : FVec Ideal S800000x16 .f32) (We_i : FVec Ideal S16x64 .f32) (be_i : FVec Ideal S64 .f32) :
    FVec Ideal S800000x64 .f32 :=
  addf (Host.dotGeneral dot_S800000x16_S16x64_S800000x64_1_0_0_1_n_n none ea We_i)
    (broadcastInDim S800000x64 ![0, 1] bcast_S1x64_S800000x64_0_1 (broadcastInDim S1x64 ![1] bcast_S64_S1x64_1 be_i))

def wrapK (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

def colK (src : IVec S800000 32) : IVec S800000x1 32 :=
  broadcastInDim S800000x1 ![0] bcast_S800000_S800000x1_0 (wrapK src)

def inRangeK (src : IVec S800000 32) : IVec S800000 1 :=
  Host.reduce IntOp.andi
    (andi (cmpi .sge (colK src) (broadcastInDim S800000x1 ![] bcast_S_S800000x1 (constantI S_ 32 0#32)))
      (cmpi .sle (colK src)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

def takeK (h : FVec Ideal S50000x64 .f32) (src : IVec S800000 32) : FVec Ideal S800000x64 .f32 :=
  select (broadcastInDim S800000x64 ![0] bcast_S800000_S800000x64_0 (inRangeK src))
    (Host.gather gather_S50000x64_S800000x1_S800000x64_1_0_n_n_0_1_164 h (colK src))
    (broadcastInDim S800000x64 ![] bcast_S_S800000x64 (constant (F := Ideal) S_ .f32 0x7FC00000#32))

def reluK (x : FVec Ideal S800000x64 .f32) : FVec Ideal S800000x64 .f32 :=
  maximumf x (broadcastInDim S800000x64 ![] bcast_S_S800000x64 (constant (F := Ideal) S_ .f32 0x00000000#32))

def roundK (x : FVec Ideal S800000x64 .f32) : FVec Ideal S800000x64 .f32 :=
  extf .f32 (truncf .bf16 x bitsLt_bf16_f32) bitsLt_bf16_f32

def msgK (h : FVec Ideal S50000x64 .f32) (src : IVec S800000 32) (ea : FVec Ideal S800000x16 .f32)
    (We_i : FVec Ideal S16x64 .f32) (be_i : FVec Ideal S64 .f32) : FVec Ideal S800000x64 .f32 :=
  roundK (reluK (addf (takeK h src) (linK ea We_i be_i)))

def aggK (dst : IVec S800000 32) (msg : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst) msg

def muK (z : FVec Ideal S50000x64 .f32) : FVec Ideal S64 .f32 :=
  Host.divf (Host.reduceAdd z (constant (F := Ideal) S_ .f32 0x00000000#32) reducesTo_S50000x64_S64_d0 h_S_)
    (broadcastInDim S64 ![] bcast_S_S64 (constant (F := Ideal) S_ .f32 0x47435000#32))

def dofK (c : IVec S_ 32) : FVec Ideal S_ .f32 :=
  subf (constant (F := Ideal) S_ .f32 0x47435000#32) (sitofp .f32 c)

def devK (z : FVec Ideal S50000x64 .f32) : FVec Ideal S50000x64 .f32 :=
  subf z (broadcastInDim S50000x64 ![0, 1] bcast_S1x64_S50000x64_0_1
    (Host.divf (broadcastInDim S1x64 ![1] bcast_S64_S1x64_1 (Host.reduceAdd z (constant (F := Ideal) S_ .f32 0x00000000#32) reducesTo_S50000x64_S64_d0 h_S_))
      (broadcastInDim S1x64 ![] bcast_S_S1x64 (constant (F := Ideal) S_ .f32 0x47435000#32))))

def devSqK (z : FVec Ideal S50000x64 .f32) : FVec Ideal S50000x64 .f32 :=
  mulf (devK z) (devK z)

def varCK (z : FVec Ideal S50000x64 .f32) (c : IVec S_ 32) : FVec Ideal S64 .f32 :=
  select (broadcastInDim S64 ![] bcast_S_S64 (cmpf .ogt (dofK c) (constant (F := Ideal) S_ .f32 0x00000000#32)))
    (Host.divf (Host.reduceAdd (devSqK z) (constant (F := Ideal) S_ .f32 0x00000000#32) reducesTo_S50000x64_S64_d0 h_S_)
      (broadcastInDim S64 ![] bcast_S_S64 (dofK c)))
    (broadcastInDim S64 ![] bcast_S_S64 (id (constant (F := Ideal) S_ .f32 0x7FC00000#32)))

def varK (z : FVec Ideal S50000x64 .f32) : FVec Ideal S64 .f32 :=
  varCK z (constantI S_ 32 0#32)

def layerK (h : FVec Ideal S50000x64 .f32) (src dst : IVec S800000 32) (ea : FVec Ideal S800000x16 .f32)
    (We_i : FVec Ideal S16x64 .f32) (be_i : FVec Ideal S64 .f32) (W1_i : FVec Ideal S64x64 .f32) (b1_i : FVec Ideal S64 .f32)
    (g_i bb_i : FVec Ideal S64 .f32) (W2_i : FVec Ideal S64x64 .f32) (b2_i : FVec Ideal S64 .f32) : FVec Ideal S50000x64 .f32 :=
  let z := Cert.Spec.specA h (aggK dst (msgK h src ea We_i be_i)) W1_i (fun j => rowK b1_i (ix2 0 j))
  Cert.Spec.specB z (fun j => rowK (muK z) (ix2 0 j)) (fun j => rowK (varK z) (ix2 0 j)) (fun j => rowK g_i (ix2 0 j))
    (fun j => rowK bb_i (ix2 0 j)) W2_i (fun j => rowK b2_i (ix2 0 j))

def batchColK (batch : IVec S50000 32) : IVec S50000x1 32 :=
  broadcastInDim S50000x1 ![0] bcast_S50000_S50000x1_0 batch

def countK (batch : IVec S50000 32) : FVec Ideal S512x1 .f32 :=
  maximumf
    (Host.scatterAdd scatter_S512x1_S50000x1_S50000x1_1_0_0_1
      (broadcastInDim S512x1 ![] bcast_S_S512x1 (constant (F := Ideal) S_ .f32 0x00000000#32))
      (batchColK batch)
      (broadcastInDim S50000x1 ![] bcast_S_S50000x1 (constant (F := Ideal) S_ .f32 0x3F800000#32)))
    (broadcastInDim S512x1 ![] bcast_S_S512x1 (constant (F := Ideal) S_ .f32 0x3F800000#32))

def meanK (h : FVec Ideal S50000x64 .f32) (batch : IVec S50000 32) : FVec Ideal S512x64 .f32 :=
  Host.divf
    (Host.scatterAdd scatter_S512x64_S50000x1_S50000x64_1_0_0_1
      (broadcastInDim S512x64 ![] bcast_S_S512x64 (constant (F := Ideal) S_ .f32 0x00000000#32))
      (batchColK batch) h)
    (broadcastInDim S512x64 ![0, 1] bcast_S512x1_S512x64_0_1 (countK batch))

def poolK (h1 h2 h3 : FVec Ideal S50000x64 .f32) (batch : IVec S50000 32) : FVec Ideal S512x192 .f32 :=
  concatenate S512x192 1 [⟨S512x64, meanK h1 batch⟩, ⟨S512x64, meanK h2 batch⟩, ⟨S512x64, meanK h3 batch⟩]
    concatenates_S512x64_S512x64_S512x64_S512x192_d1

def netK (x : FVec Ideal S50000x64 .f32) (ea : FVec Ideal S800000x16 .f32) (We : FVec Ideal S3x16x64 .f32)
    (be : FVec Ideal S3x64 .f32) (W1 : FVec Ideal S3x64x64 .f32) (b1 g bb : FVec Ideal S3x64 .f32)
    (W2 : FVec Ideal S3x64x64 .f32) (b2 : FVec Ideal S3x64 .f32) (l1W : FVec Ideal S192x192 .f32) (l1b : FVec Ideal S192 .f32)
    (l2W : FVec Ideal S192x10 .f32) (l2b : FVec Ideal S10 .f32) (ei : IVec S2x800000 32) (batch : IVec S50000 32) :
    FVec Ideal S512x10 .f32 :=
  let h1 := layerK x (srcK ei) (dstK ei) ea (sliceWe0 We) (sliceV0 be) (sliceM0 W1) (sliceV0 b1) (sliceV0 g) (sliceV0 bb) (sliceM0 W2) (sliceV0 b2)
  let h2 := layerK h1 (srcK ei) (dstK ei) ea (sliceWe1 We) (sliceV1 be) (sliceM1 W1) (sliceV1 b1) (sliceV1 g) (sliceV1 bb) (sliceM1 W2) (sliceV1 b2)
  let h3 := layerK h2 (srcK ei) (dstK ei) ea (sliceWe2 We) (sliceV2 be) (sliceM2 W1) (sliceV2 b1) (sliceV2 g) (sliceV2 bb) (sliceM2 W2) (sliceV2 b2)
  Cert.Spec.specC (poolK h1 h2 h3 batch) l1W (fun j => rowK192 l1b (ix2 0 j)) l2W (fun j => rowK10 l2b (ix2 0 j))

end Cert.KernelIdeal.HV

end
-- ==== Proof.KHost0.lean ====
import proofs.«405318_j78374563217910_3_alg».proof.Proof.Gen.KernelIdeal.Regions
import proofs.«405318_j78374563217910_3_alg».proof.Proof.KNet

set_option maxRecDepth 2024

noncomputable section

namespace Cert.KernelIdeal.HV

open Idealize.ShloMosaic Idealize.ShloMosaic.ValueIdx
open Cert.KernelIdeal Cert.KernelIdeal.Gen

local notation "⟪" r "⟫" => (Proc.devRef (τ := τ) (sig := sig) Proc.tc r)

variable (W : Valuation τ sig (Elt Ideal))

theorem hostOps0_v1 : StableHlo.after (hostOps0 (F := Ideal)) W ⟪main_v1⟫ = srcK (W ⟪main_arg14⟫) := by
  after_results <;> rfl
theorem hostOps0_v3 : StableHlo.after (hostOps0 (F := Ideal)) W ⟪main_v3⟫ = dstK (W ⟪main_arg14⟫) := by
  after_results <;> rfl

theorem hostOps0_v11 : StableHlo.after (hostOps0 (F := Ideal)) W ⟪main_v11⟫ = linK (W ⟪main_arg1⟫) (sliceWe0 (W ⟪main_arg2⟫)) (sliceV0 (W ⟪main_arg3⟫)) := by
  after_results <;> rfl
theorem hostOps0_2_v13 : StableHlo.after (hostOps0_2 (F := Ideal)) W ⟪main_v13⟫ = (addf (W ⟪main_v12⟫ : FVec Ideal S800000x64 .f32) (W ⟪main_v11⟫) : FVec Ideal S800000x64 .f32) := by
  after_results <;> rfl
theorem hostOps0_3_v14 : StableHlo.after (hostOps0_3 (F := Ideal)) W ⟪main_v14⟫ = reluK (W ⟪main_v13⟫) := by
  after_results <;> (try simp only [StableHlo.TRef.ofBuf, StableHlo.TRef.toBuf, cast_eq]) <;> rfl
theorem hostOps0_4_v19 : StableHlo.after (hostOps0_4 (F := Ideal)) W ⟪main_v19⟫ = aggK (W ⟪main_v3⟫) (roundK (W ⟪main_v14⟫)) := by
  after_results <;> rfl
theorem hostOps0_4_v21 : StableHlo.after (hostOps0_4 (F := Ideal)) W ⟪main_v21⟫ = sliceM0 (W ⟪main_arg4⟫) := by
  after_results <;> rfl
theorem hostOps0_4_v24 : StableHlo.after (hostOps0_4 (F := Ideal)) W ⟪main_v24⟫ = rowK (sliceV0 (W ⟪main_arg5⟫)) := by
  after_results <;> rfl

theorem hostOps1_v28 : StableHlo.after (hostOps1 (F := Ideal)) W ⟪main_v28⟫ = muK (W ⟪main_v25⟫) := by
  after_results <;> rfl
theorem hostOps1_c : StableHlo.after (hostOps1 (F := Ideal)) W ⟪main_c⟫ = constantI S_ 32 0#32 := by
  after_results <;> rfl
theorem hostOps1_2_v35 : StableHlo.after (hostOps1_2 (F := Ideal)) W ⟪main_v35⟫ = sliceM0 (W ⟪main_arg8⟫) := by
  after_results <;> rfl
theorem hostOps1_2_v38 : StableHlo.after (hostOps1_2 (F := Ideal)) W ⟪main_v38⟫ = rowK (W ⟪main_v28⟫) := by
  after_results <;> rfl
theorem hostOps1_2_v39 : StableHlo.after (hostOps1_2 (F := Ideal)) W ⟪main_v39⟫ = rowK (W ⟪main_v29⟫) := by
  after_results <;> rfl
theorem hostOps1_2_v40 : StableHlo.after (hostOps1_2 (F := Ideal)) W ⟪main_v40⟫ = rowK (sliceV0 (W ⟪main_arg6⟫)) := by
  after_results <;> rfl
theorem hostOps1_2_v41 : StableHlo.after (hostOps1_2 (F := Ideal)) W ⟪main_v41⟫ = rowK (sliceV0 (W ⟪main_arg7⟫)) := by
  after_results <;> rfl
theorem hostOps1_2_v42 : StableHlo.after (hostOps1_2 (F := Ideal)) W ⟪main_v42⟫ = rowK (sliceV0 (W ⟪main_arg9⟫)) := by
  after_results <;> rfl

end Cert.KernelIdeal.HV

end
-- ==== Proof.KValBase.lean ====
import proofs.«405318_j78374563217910_3_alg».proof.Proof.RunIW
import proofs.«405318_j78374563217910_3_alg».proof.Proof.KNet
import proofs.«405318_j78374563217910_3_alg».proof.Proof.KHost0

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)

local notation "⟪" r "⟫" => (Proc.devRef (τ := τ) (sig := sig) Proc.tc r)

variable (m : (ℓ : Loc nD τ sig) → Buf (Elt Ideal) ℓ) (ρ : Dev nD → PrngReg) (c : Dev nD)

set_option quotPrecheck false
local notation "⟦a0⟧" => (m ((c : Thread nD τ).loc main_arg0))
local notation "⟦a1⟧" => (m ((c : Thread nD τ).loc main_arg1))
local notation "⟦a2⟧" => (m ((c : Thread nD τ).loc main_arg2))
local notation "⟦a3⟧" => (m ((c : Thread nD τ).loc main_arg3))
local notation "⟦a4⟧" => (m ((c : Thread nD τ).loc main_arg4))
local notation "⟦a5⟧" => (m ((c : Thread nD τ).loc main_arg5))
local notation "⟦a6⟧" => (m ((c : Thread nD τ).loc main_arg6))
local notation "⟦a7⟧" => (m ((c : Thread nD τ).loc main_arg7))
local notation "⟦a8⟧" => (m ((c : Thread nD τ).loc main_arg8))
local notation "⟦a9⟧" => (m ((c : Thread nD τ).loc main_arg9))
local notation "⟦a10⟧" => (m ((c : Thread nD τ).loc main_arg10))
local notation "⟦a11⟧" => (m ((c : Thread nD τ).loc main_arg11))
local notation "⟦a12⟧" => (m ((c : Thread nD τ).loc main_arg12))
local notation "⟦a13⟧" => (m ((c : Thread nD τ).loc main_arg13))
local notation "⟦a14⟧" => (m ((c : Thread nD τ).loc main_arg14))
local notation "⟦a15⟧" => (m ((c : Thread nD τ).loc main_arg15))
local notation "⟦src⟧" => (srcK ⟦a14⟧)
local notation "⟦dst⟧" => (dstK ⟦a14⟧)

theorem W1_arg0 : W1 m ρ c ⟪main_arg0⟫ = ⟦a0⟧ :=
  W1_arg m ρ c main_arg0 (by decide)
theorem W5_arg0 : W5 m ρ c ⟪main_arg0⟫ = ⟦a0⟧ :=
  W5_arg m ρ c main_arg0 (by decide)
theorem W0_arg1 : W0 m ρ c ⟪main_arg1⟫ = ⟦a1⟧ :=
  W0_arg m ρ c main_arg1 (by decide)
theorem W10_arg1 : W10 m ρ c ⟪main_arg1⟫ = ⟦a1⟧ :=
  W10_arg m ρ c main_arg1 (by decide)
theorem W20_arg1 : W20 m ρ c ⟪main_arg1⟫ = ⟦a1⟧ :=
  W20_arg m ρ c main_arg1 (by decide)
theorem W0_arg2 : W0 m ρ c ⟪main_arg2⟫ = ⟦a2⟧ :=
  W0_arg m ρ c main_arg2 (by decide)
theorem W10_arg2 : W10 m ρ c ⟪main_arg2⟫ = ⟦a2⟧ :=
  W10_arg m ρ c main_arg2 (by decide)
theorem W20_arg2 : W20 m ρ c ⟪main_arg2⟫ = ⟦a2⟧ :=
  W20_arg m ρ c main_arg2 (by decide)
theorem W0_arg3 : W0 m ρ c ⟪main_arg3⟫ = ⟦a3⟧ :=
  W0_arg m ρ c main_arg3 (by decide)
theorem W10_arg3 : W10 m ρ c ⟪main_arg3⟫ = ⟦a3⟧ :=
  W10_arg m ρ c main_arg3 (by decide)
theorem W20_arg3 : W20 m ρ c ⟪main_arg3⟫ = ⟦a3⟧ :=
  W20_arg m ρ c main_arg3 (by decide)
theorem W4_arg4 : W4 m ρ c ⟪main_arg4⟫ = ⟦a4⟧ :=
  W4_arg m ρ c main_arg4 (by decide)
theorem W14_arg4 : W14 m ρ c ⟪main_arg4⟫ = ⟦a4⟧ :=
  W14_arg m ρ c main_arg4 (by decide)
theorem W24_arg4 : W24 m ρ c ⟪main_arg4⟫ = ⟦a4⟧ :=
  W24_arg m ρ c main_arg4 (by decide)
theorem W4_arg5 : W4 m ρ c ⟪main_arg5⟫ = ⟦a5⟧ :=
  W4_arg m ρ c main_arg5 (by decide)
theorem W14_arg5 : W14 m ρ c ⟪main_arg5⟫ = ⟦a5⟧ :=
  W14_arg m ρ c main_arg5 (by decide)
theorem W24_arg5 : W24 m ρ c ⟪main_arg5⟫ = ⟦a5⟧ :=
  W24_arg m ρ c main_arg5 (by decide)
theorem W8_arg6 : W8 m ρ c ⟪main_arg6⟫ = ⟦a6⟧ :=
  W8_arg m ρ c main_arg6 (by decide)
theorem W18_arg6 : W18 m ρ c ⟪main_arg6⟫ = ⟦a6⟧ :=
  W18_arg m ρ c main_arg6 (by decide)
theorem W28_arg6 : W28 m ρ c ⟪main_arg6⟫ = ⟦a6⟧ :=
  W28_arg m ρ c main_arg6 (by decide)
theorem W8_arg7 : W8 m ρ c ⟪main_arg7⟫ = ⟦a7⟧ :=
  W8_arg m ρ c main_arg7 (by decide)
theorem W18_arg7 : W18 m ρ c ⟪main_arg7⟫ = ⟦a7⟧ :=
  W18_arg m ρ c main_arg7 (by decide)
theorem W28_arg7 : W28 m ρ c ⟪main_arg7⟫ = ⟦a7⟧ :=
  W28_arg m ρ c main_arg7 (by decide)
theorem W8_arg8 : W8 m ρ c ⟪main_arg8⟫ = ⟦a8⟧ :=
  W8_arg m ρ c main_arg8 (by decide)
theorem W18_arg8 : W18 m ρ c ⟪main_arg8⟫ = ⟦a8⟧ :=
  W18_arg m ρ c main_arg8 (by decide)
theorem W28_arg8 : W28 m ρ c ⟪main_arg8⟫ = ⟦a8⟧ :=
  W28_arg m ρ c main_arg8 (by decide)
theorem W8_arg9 : W8 m ρ c ⟪main_arg9⟫ = ⟦a9⟧ :=
  W8_arg m ρ c main_arg9 (by decide)
theorem W18_arg9 : W18 m ρ c ⟪main_arg9⟫ = ⟦a9⟧ :=
  W18_arg m ρ c main_arg9 (by decide)
theorem W28_arg9 : W28 m ρ c ⟪main_arg9⟫ = ⟦a9⟧ :=
  W28_arg m ρ c main_arg9 (by decide)
theorem W30_arg10 : W30 m ρ c ⟪main_arg10⟫ = ⟦a10⟧ :=
  W30_arg m ρ c main_arg10 (by decide)
theorem W30_arg11 : W30 m ρ c ⟪main_arg11⟫ = ⟦a11⟧ :=
  W30_arg m ρ c main_arg11 (by decide)
theorem W30_arg12 : W30 m ρ c ⟪main_arg12⟫ = ⟦a12⟧ :=
  W30_arg m ρ c main_arg12 (by decide)
theorem W30_arg13 : W30 m ρ c ⟪main_arg13⟫ = ⟦a13⟧ :=
  W30_arg m ρ c main_arg13 (by decide)
theorem W0_arg14 : W0 m ρ c ⟪main_arg14⟫ = ⟦a14⟧ :=
  W0_arg m ρ c main_arg14 (by decide)
theorem W30_arg15 : W30 m ρ c ⟪main_arg15⟫ = ⟦a15⟧ :=
  W30_arg m ρ c main_arg15 (by decide)
theorem W1_v1 : W1 m ρ c ⟪main_v1⟫ = ⟦src⟧ := hostOps0_v1 (W0 m ρ c)
theorem W1_v3 : W1 m ρ c ⟪main_v3⟫ = ⟦dst⟧ := hostOps0_v3 (W0 m ρ c)
theorem W11_v1 : W11 m ρ c ⟪main_v1⟫ = ⟦src⟧ :=
  (W11_of m ρ c main_v1 (by decide)).trans <|
    (W10_of_ne m ρ c main_v1 (by decide)).trans <|
    (W9_of m ρ c main_v1 (by decide)).trans <|
    (W8_of m ρ c main_v1 (by decide)).trans <|
    (W7_of m ρ c main_v1 (by decide)).trans <|
    (W6_of_ne m ρ c main_v1 (by decide)).trans <|
    (W5_of m ρ c main_v1 (by decide)).trans <|
    (W4_of m ρ c main_v1 (by decide)).trans <|
    (W3_of m ρ c main_v1 (by decide)).trans <|
    (W2_of m ρ c main_v1 (by decide)).trans <|
    (W1_v1 m ρ c)
theorem W21_v1 : W21 m ρ c ⟪main_v1⟫ = ⟦src⟧ :=
  (W21_of m ρ c main_v1 (by decide)).trans <|
    (W20_of_ne m ρ c main_v1 (by decide)).trans <|
    (W19_of m ρ c main_v1 (by decide)).trans <|
    (W18_of m ρ c main_v1 (by decide)).trans <|
    (W17_of m ρ c main_v1 (by decide)).trans <|
    (W16_of_ne m ρ c main_v1 (by decide)).trans <|
    (W15_of m ρ c main_v1 (by decide)).trans <|
    (W14_of m ρ c main_v1 (by decide)).trans <|
    (W13_of m ρ c main_v1 (by decide)).trans <|
    (W12_of m ρ c main_v1 (by decide)).trans <|
    (W11_v1 m ρ c)
theorem W4_v3 : W4 m ρ c ⟪main_v3⟫ = ⟦dst⟧ :=
  (W4_of m ρ c main_v3 (by decide)).trans <|
    (W3_of m ρ c main_v3 (by decide)).trans <|
    (W2_of m ρ c main_v3 (by decide)).trans <|
    (W1_v3 m ρ c)
theorem W14_v3 : W14 m ρ c ⟪main_v3⟫ = ⟦dst⟧ :=
  (W14_of m ρ c main_v3 (by decide)).trans <|
    (W13_of m ρ c main_v3 (by decide)).trans <|
    (W12_of m ρ c main_v3 (by decide)).trans <|
    (W11_of m ρ c main_v3 (by decide)).trans <|
    (W10_of_ne m ρ c main_v3 (by decide)).trans <|
    (W9_of m ρ c main_v3 (by decide)).trans <|
    (W8_of m ρ c main_v3 (by decide)).trans <|
    (W7_of m ρ c main_v3 (by decide)).trans <|
    (W6_of_ne m ρ c main_v3 (by decide)).trans <|
    (W5_of m ρ c main_v3 (by decide)).trans <|
    (W4_v3 m ρ c)
theorem W24_v3 : W24 m ρ c ⟪main_v3⟫ = ⟦dst⟧ :=
  (W24_of m ρ c main_v3 (by decide)).trans <|
    (W23_of m ρ c main_v3 (by decide)).trans <|
    (W22_of m ρ c main_v3 (by decide)).trans <|
    (W21_of m ρ c main_v3 (by decide)).trans <|
    (W20_of_ne m ρ c main_v3 (by decide)).trans <|
    (W19_of m ρ c main_v3 (by decide)).trans <|
    (W18_of m ρ c main_v3 (by decide)).trans <|
    (W17_of m ρ c main_v3 (by decide)).trans <|
    (W16_of_ne m ρ c main_v3 (by decide)).trans <|
    (W15_of m ρ c main_v3 (by decide)).trans <|
    (W14_v3 m ρ c)

end Cert.KernelIdeal.HV

end
-- ==== Proof.LibTakeRows.lean ====
import Idealize.ShloMosaic.Lib.ReduceAll
import Idealize.ShloMosaic.Lib.ValueIdx
import Idealize.ShloMosaic.Lib.Pipeline.Value
import Idealize.ShloMosaic.Lib.StableHlo.Run

noncomputable section

namespace Cert.Proof.TakeRows

open Idealize.ShloMosaic Idealize.ShloMosaic.ValueIdx

theorem toInt_zero32 : (0#32 : BitVec 32).toInt = 0 := by decide

theorem wrap_of_nonneg (w n : BitVec 32) (h0 : 0 ≤ w.toInt) :
    Scalar.select (IntOp.cmpi .slt w 0#32) (IntOp.addi w n) w = w := by
  have hne : ¬ IntOp.cmpi .slt w 0#32 = 1#1 := by
    rw [IntOp.cmpi_slt, toInt_zero32]; omega
  rw [eq_zero_of_ne_one hne, select_zero]

theorem inb_of_range (w hi : BitVec 32) (h0 : 0 ≤ w.toInt) (h1 : w.toInt ≤ hi.toInt) :
    IntOp.andi (IntOp.cmpi .sge w 0#32) (IntOp.cmpi .sle w hi) = 1#1 := by
  rw [IntOp.andi_eq_one, IntOp.cmpi_sge, IntOp.cmpi_sle, toInt_zero32]
  exact ⟨h0, h1⟩

theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_all_one f l _ ?_ fun n hn => hl n (List.mem_cons_of_mem _ hn)
    rw [h, hl a List.mem_cons_self]; rfl

theorem reduce_andi_eq_one_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_all_one x _ _ hinit fun i hi => hx i ?_
  exact of_decide_eq_true (List.mem_filter.1 hi).2

theorem drop_unit_col {E : Nat} (h : (⟨2, ![E, 1]⟩ : Shape).ReducesTo [1] ⟨1, ![E]⟩)
    (i : (⟨2, ![E, 1]⟩ : Shape).Idx) (e : Fin E) (hd : h.drop i = ix1 e) : i = ix2 e 0 := by
  have hv : (h.drop i 0 : Nat) = i 0 := Shape.ReducesTo.drop_apply_val h i 0
  rw [hd] at hv
  funext a
  match a with
  | ⟨0, _⟩ => exact Fin.ext hv.symm
  | ⟨1, h1⟩ =>
    apply Fin.ext
    have hlt := (i ⟨1, h1⟩).isLt
    have hs : (⟨2, ![E, 1]⟩ : Shape).size ⟨1, h1⟩ = 1 := rfl
    show (i ⟨1, h1⟩).val = 0
    omega

theorem reduce_unit_col_eq_one {E : Nat} {u : Shape} (x : IVec ⟨2, ![E, 1]⟩ 1) (init : IVec u 1)
    (h : (⟨2, ![E, 1]⟩ : Shape).ReducesTo [1] ⟨1, ![E]⟩) (hu : 0 < u.numel) (e : Fin E)
    (hinit : init (Shape.Idx.first hu) = 1#1) (hx : x (ix2 e 0) = 1#1) :
    Host.reduce IntOp.andi x init h hu (ix1 e) = 1#1 :=
  reduce_andi_eq_one_of_all x init h hu _ hinit fun i hi => by rw [drop_unit_col h i e hi]; exact hx

theorem bcast_axis0_apply {α : Type} {E C : Nat} (hb : (⟨1, ![E]⟩ : Shape).BroadcastsInDim ⟨2, ![E, C]⟩ ![0])
    (x : (⟨1, ![E]⟩ : Shape).Idx → α) (e : Fin E) (q : Fin C) :
    broadcastInDim ⟨2, ![E, C]⟩ ![0] hb x (ix2 e q) = x (ix1 e) := by
  refine broadcastInDim_apply ![0] hb x (ix2 e q) (ix1 e) fun a => ?_
  match a with
  | ⟨0, _⟩ =>
    show e.val = if E = 1 then 0 else e.val
    have := e.isLt
    split <;> omega

theorem take_fill_apply {α : Type} {E C : Nat} {u : Shape}
    (s zero nwrap : IVec ⟨1, ![E]⟩ 32) (zero2 hi : IVec ⟨2, ![E, 1]⟩ 32) (one : IVec u 1)
    (g fill : (⟨2, ![E, C]⟩ : Shape).Idx → α)
    (hb1 : (⟨1, ![E]⟩ : Shape).BroadcastsInDim ⟨2, ![E, 1]⟩ ![0])
    (hr : (⟨2, ![E, 1]⟩ : Shape).ReducesTo [1] ⟨1, ![E]⟩) (hu : 0 < u.numel)
    (hb2 : (⟨1, ![E]⟩ : Shape).BroadcastsInDim ⟨2, ![E, C]⟩ ![0])
    (e : Fin E) (q : Fin C) (hiw : BitVec 32)
    (hzero : zero (ix1 e) = 0#32) (hzero2 : zero2 (ix2 e 0) = 0#32) (hhi : hi (ix2 e 0) = hiw)
    (hone : one (Shape.Idx.first hu) = 1#1)
    (h0 : 0 ≤ (s (ix1 e)).toInt) (h1 : (s (ix1 e)).toInt ≤ hiw.toInt) :
    select
      (broadcastInDim ⟨2, ![E, C]⟩ ![0] hb2
        (Host.reduce IntOp.andi
          (andi (cmpi .sge (broadcastInDim ⟨2, ![E, 1]⟩ ![0] hb1 (select (cmpi .slt s zero) (addi s nwrap) s)) zero2)
                (cmpi .sle (broadcastInDim ⟨2, ![E, 1]⟩ ![0] hb1 (select (cmpi .slt s zero) (addi s nwrap) s)) hi))
          one hr hu))
      g fill (ix2 e q) = g (ix2 e q) := by
  have hidx : broadcastInDim ⟨2, ![E, 1]⟩ ![0] hb1 (select (cmpi .slt s zero) (addi s nwrap) s) (ix2 e 0) = s (ix1 e) := by
    rw [bcast_axis0_apply]
    show Scalar.select (IntOp.cmpi .slt (s (ix1 e)) (zero (ix1 e))) (IntOp.addi (s (ix1 e)) (nwrap (ix1 e))) (s (ix1 e)) = _
    rw [hzero, wrap_of_nonneg _ _ h0]
  have hmask : Host.reduce IntOp.andi
      (andi (cmpi .sge (broadcastInDim ⟨2, ![E, 1]⟩ ![0] hb1 (select (cmpi .slt s zero) (addi s nwrap) s)) zero2)
            (cmpi .sle (broadcastInDim ⟨2, ![E, 1]⟩ ![0] hb1 (select (cmpi .slt s zero) (addi s nwrap) s)) hi))
      one hr hu (ix1 e) = 1#1 := by
    refine reduce_unit_col_eq_one _ one hr hu e hone ?_
    show IntOp.andi (IntOp.cmpi .sge (broadcastInDim ⟨2, ![E, 1]⟩ ![0] hb1 (select (cmpi .slt s zero) (addi s nwrap) s) (ix2 e 0)) (zero2 (ix2 e 0)))
        (IntOp.cmpi .sle (broadcastInDim ⟨2, ![E, 1]⟩ ![0] hb1 (select (cmpi .slt s zero) (addi s nwrap) s) (ix2 e 0)) (hi (ix2 e 0))) = 1#1
    rw [hidx, hzero2, hhi]
    exact inb_of_range _ _ h0 h1
  rw [select_apply, bcast_axis0_apply, hmask, select_one]

theorem concat4_apply {α : Type} {E : Nat} (x0 x1 x2 x3 : (⟨2, ![E, 128]⟩ : Shape).Idx → α)
    (h : Shape.Concatenates (([⟨⟨2, ![E, 128]⟩, x0⟩, ⟨⟨2, ![E, 128]⟩, x1⟩, ⟨⟨2, ![E, 128]⟩, x2⟩, ⟨⟨2, ![E, 128]⟩, x3⟩] :
      List ((s : Shape) × (s.Idx → α))).map (·.1)) ⟨2, ![E, 512]⟩ 1)
    (e : Fin E) (k : Fin 4) (q : Fin 128) (j : Fin 512) (hj : j.val = 128 * k.val + q.val) :
    concatenate ⟨2, ![E, 512]⟩ 1 [⟨⟨2, ![E, 128]⟩, x0⟩, ⟨⟨2, ![E, 128]⟩, x1⟩, ⟨⟨2, ![E, 128]⟩, x2⟩, ⟨⟨2, ![E, 128]⟩, x3⟩] h (ix2 e j)
      = (![x0, x1, x2, x3] k) (ix2 e q) := by
  have hoff : ∀ b : Fin (⟨2, ![E, 128]⟩ : Shape).rank, b.cast (rfl : (⟨2, ![E, 128]⟩ : Shape).rank = (⟨2, ![E, 512]⟩ : Shape).rank) ≠ 1 →
      ((ix2 e q : (⟨2, ![E, 128]⟩ : Shape).Idx) b).val = ((ix2 e j : (⟨2, ![E, 512]⟩ : Shape).Idx) (b.cast rfl)).val := by
    intro b hb
    match b with
    | ⟨0, _⟩ => rfl
    | ⟨1, _⟩ => exact absurd rfl hb
  match k, hj with
  | ⟨0, _⟩, hj =>
    have hj' : j.val = 128 * 0 + q.val := hj
    exact concatenate_apply_piece 1 _ h (ix2 e j) 0 (by show 0 < 4; omega) ⟨2, ![E, 128]⟩ x0 rfl rfl 0 rfl (ix2 e q) hoff (by show 0 + q.val = j.val; omega)
  | ⟨1, _⟩, hj =>
    have hj' : j.val = 128 * 1 + q.val := hj
    exact concatenate_apply_piece 1 _ h (ix2 e j) 1 (by show 1 < 4; omega) ⟨2, ![E, 128]⟩ x1 rfl rfl 128 rfl (ix2 e q) hoff (by show 128 + q.val = j.val; omega)
  | ⟨2, _⟩, hj =>
    have hj' : j.val = 128 * 2 + q.val := hj
    exact concatenate_apply_piece 1 _ h (ix2 e j) 2 (by show 2 < 4; omega) ⟨2, ![E, 128]⟩ x2 rfl rfl 256 rfl (ix2 e q) hoff (by show 256 + q.val = j.val; omega)
  | ⟨3, _⟩, hj =>
    have hj' : j.val = 128 * 3 + q.val := hj
    exact concatenate_apply_piece 1 _ h (ix2 e j) 3 (by show 3 < 4; omega) ⟨2, ![E, 128]⟩ x3 rfl rfl 384 rfl (ix2 e q) hoff (by show 384 + q.val = j.val; omega)

open Idealize.ShloMosaic.StableHlo Idealize.SL.Sem in

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Proof.TakeRows

end
-- ==== Proof.KHostVar.lean ====
import proofs.«405318_j78374563217910_3_alg».proof.Proof.Gen.KernelIdeal.Regions
import proofs.«405318_j78374563217910_3_alg».proof.Proof.KNet
import proofs.«405318_j78374563217910_3_alg».proof.Proof.LibTakeRows

set_option maxRecDepth 2024

noncomputable section

namespace Cert.KernelIdeal.HV

open Idealize.ShloMosaic Idealize.ShloMosaic.ValueIdx
open Cert.KernelIdeal Cert.KernelIdeal.Gen

local notation "⟪" r "⟫" => (Proc.devRef (τ := τ) (sig := sig) Proc.tc r)

local macro "writes_in" : tactic =>
  `(tactic| (simp only [StableHlo.nullary_writes, StableHlo.unary_writes, StableHlo.binary_writes, StableHlo.ternary_writes,
      Finset.singleton_subset_iff, List.mem_toFinset]
             exact List.mem_map_of_mem (by decide)))

def varQuotK (sq : FVec Ideal S50000x64 .f32) (dof : FVec Ideal S_ .f32) : FVec Ideal S64 .f32 :=
  Host.divf (Host.reduceAdd sq (constant (F := Ideal) S_ .f32 0x00000000#32) Facts₀.reducesTo_S50000x64_S64_d0 Facts₀.h_S_)
    (broadcastInDim S64 ![] Facts₀.bcast_S_S64 dof)

def varSelK (dof : FVec Ideal S_ .f32) (q : FVec Ideal S64 .f32) : FVec Ideal S64 .f32 :=
  select (broadcastInDim S64 ![] Facts₀.bcast_S_S64 (cmpf .ogt dof (constant (F := Ideal) S_ .f32 0x00000000#32))) q
    (broadcastInDim S64 ![] Facts₀.bcast_S_S64 (id (constant (F := Ideal) S_ .f32 0x7FC00000#32)))

theorem varCK_eq (z : FVec Ideal S50000x64 .f32) (c : IVec S_ 32) :
    varCK z c = varSelK (dofK c) (varQuotK (devSqK z) (dofK c)) := rfl

section Pieces1
variable {F : FTy → Type} [FloatOps F]

abbrev ops1A : List (HloOp τ sig (Elt F)) :=
  [ StableHlo.TRef.nullary (.of main_call2_cst : StableHlo.TRef sig ⟨S_, .f32⟩) (constant S_ .f32 0x00000000#32),
    StableHlo.TRef.binary (.of main_v25 : StableHlo.TRef sig ⟨S50000x64, .f32⟩) (.of main_call2_cst : StableHlo.TRef sig ⟨S_, .f32⟩) (.of main_call2_v0 : StableHlo.TRef sig ⟨S64, .f32⟩) (fun x v => Host.reduceAdd x v reducesTo_S50000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S50000x64, .f32⟩) (broadcastInDim S50000x64 ![0, 1] bcast_S1x64_S50000x64_0_1),
    StableHlo.TRef.binary (.of main_v25 : StableHlo.TRef sig ⟨S50000x64, .f32⟩) (.of main_call2_v4 : StableHlo.TRef sig ⟨S50000x64, .f32⟩) (.of main_call2_v5 : StableHlo.TRef sig ⟨S50000x64, .f32⟩) subf,
    StableHlo.TRef.binary (.of main_call2_v5 : StableHlo.TRef sig ⟨S50000x64, .f32⟩) (.of main_call2_v5 : StableHlo.TRef sig ⟨S50000x64, .f32⟩) (.of main_call2_v6 : StableHlo.TRef sig ⟨S50000x64, .f32⟩) mulf ]

abbrev ops1B : List (HloOp τ sig (Elt F)) :=
  [ StableHlo.TRef.unary (.of main_c : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf ]

abbrev ops1C : List (HloOp τ sig (Elt F)) :=
  [ StableHlo.TRef.nullary (.of main_call2_cst_2 : StableHlo.TRef sig ⟨S_, .f32⟩) (constant S_ .f32 0x00000000#32),
    StableHlo.TRef.binary (.of main_call2_v6 : StableHlo.TRef sig ⟨S50000x64, .f32⟩) (.of main_call2_cst_2 : StableHlo.TRef sig ⟨S_, .f32⟩) (.of main_call2_v9 : StableHlo.TRef sig ⟨S64, .f32⟩) (fun x v => Host.reduceAdd x v reducesTo_S50000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf ]

abbrev ops1D : List (HloOp τ sig (Elt F)) :=
  [ StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v29 : StableHlo.TRef sig ⟨S64, .f32⟩) (fun p a b => select (broadcastInDim S64 ![] bcast_S_S64 p) a b) ]

theorem hostOps1_1_cut : (hostOps1_1 : List (HloOp τ sig (Elt F))) = ops1A ++ (ops1B ++ (ops1C ++ ops1D)) := rfl

abbrev ops1A_W : List (Ref sig .tc) := [main_call2_cst, main_call2_v0, main_call2_v1, main_call2_cst_0, main_call2_v2, main_call2_v3, main_call2_v4, main_call2_v5, main_call2_v6]
abbrev ops1B_W : List (Ref sig .tc) := [main_call2_v7, main_call2_cst_1, main_call2_v8]
abbrev ops1C_W : List (Ref sig .tc) := [main_call2_cst_2, main_call2_v9, main_call2_v10, main_call2_v11]
abbrev ops1D_W : List (Ref sig .tc) := [main_call2_cst_3, main_call2_v12, main_call2_cst_4, main_call2_call0_v0, main_call2_call0_v1, main_v29]

theorem ops1A_writes : (ops1A : List (HloOp τ sig (Elt F))).Forall fun op => op.writes ⊆ (ops1A_W.map (Proc.devRef (τ := τ) .tc)).toFinset := by
  simp only [List.Forall]; refine ⟨?_, ?_, ?_, ?_, ?_, ?_, ?_, ?_, ?_⟩ <;> writes_in
theorem ops1B_writes : (ops1B : List (HloOp τ sig (Elt F))).Forall fun op => op.writes ⊆ (ops1B_W.map (Proc.devRef (τ := τ) .tc)).toFinset := by
  simp only [List.Forall]; refine ⟨?_, ?_, ?_⟩ <;> writes_in
theorem ops1C_writes : (ops1C : List (HloOp τ sig (Elt F))).Forall fun op => op.writes ⊆ (ops1C_W.map (Proc.devRef (τ := τ) .tc)).toFinset := by
  simp only [List.Forall]; refine ⟨?_, ?_, ?_, ?_⟩ <;> writes_in
theorem ops1D_writes : (ops1D : List (HloOp τ sig (Elt F))).Forall fun op => op.writes ⊆ (ops1D_W.map (Proc.devRef (τ := τ) .tc)).toFinset := by
  simp only [List.Forall]; refine ⟨?_, ?_, ?_, ?_, ?_, ?_⟩ <;> writes_in

end Pieces1

theorem ops1A_keep (r : Ref sig .tc) (X : Valuation τ sig (Elt Ideal)) (hr : r ∉ ops1A_W) : StableHlo.after ops1A X ⟪r⟫ = X ⟪r⟫ :=
  StableHlo.after_of_writes_sub ops1A X ops1A_writes hr
theorem ops1B_keep (r : Ref sig .tc) (X : Valuation τ sig (Elt Ideal)) (hr : r ∉ ops1B_W) : StableHlo.after ops1B X ⟪r⟫ = X ⟪r⟫ :=
  StableHlo.after_of_writes_sub ops1B X ops1B_writes hr
theorem ops1C_keep (r : Ref sig .tc) (X : Valuation τ sig (Elt Ideal)) (hr : r ∉ ops1C_W) : StableHlo.after ops1C X ⟪r⟫ = X ⟪r⟫ :=
  StableHlo.after_of_writes_sub ops1C X ops1C_writes hr
theorem ops1D_keep (r : Ref sig .tc) (X : Valuation τ sig (Elt Ideal)) (hr : r ∉ ops1D_W) : StableHlo.after ops1D X ⟪r⟫ = X ⟪r⟫ :=
  StableHlo.after_of_writes_sub ops1D X ops1D_writes hr

theorem ops1A_sq (X : Valuation τ sig (Elt Ideal)) : StableHlo.after ops1A X ⟪main_call2_v6⟫ = devSqK (X ⟪main_v25⟫) := by
  after_results; rfl
theorem ops1B_dof (X : Valuation τ sig (Elt Ideal)) : StableHlo.after ops1B X ⟪main_call2_v8⟫ = dofK (X ⟪main_c⟫) := by
  after_results; rfl
theorem ops1C_quot (X : Valuation τ sig (Elt Ideal)) : StableHlo.after ops1C X ⟪main_call2_v11⟫ = varQuotK (X ⟪main_call2_v6⟫) (X ⟪main_call2_v8⟫) := by
  after_results; rfl
theorem ops1D_sel (X : Valuation τ sig (Elt Ideal)) : StableHlo.after ops1D X ⟪main_v29⟫ = varSelK (X ⟪main_call2_v8⟫) (X ⟪main_call2_v11⟫) := by
  after_results; rfl

theorem hostOps1_1_after (W : Valuation τ sig (Elt Ideal)) : StableHlo.after (hostOps1_1 (F := Ideal)) W
    = StableHlo.after ops1D (StableHlo.after ops1C (StableHlo.after ops1B (StableHlo.after ops1A W))) := by
  rw [hostOps1_1_cut, Cert.Proof.TakeRows.after_append, Cert.Proof.TakeRows.after_append, Cert.Proof.TakeRows.after_append]

theorem upTo1B_dof (W : Valuation τ sig (Elt Ideal)) : StableHlo.after ops1B (StableHlo.after ops1A W) ⟪main_call2_v8⟫ = dofK (W ⟪main_c⟫) := by
  rw [ops1B_dof, ops1A_keep main_c _ (by decide)]

theorem hostOps1_1_v29 (W : Valuation τ sig (Elt Ideal)) :
    StableHlo.after (hostOps1_1 (F := Ideal)) W ⟪main_v29⟫ = varCK (W ⟪main_v25⟫) (W ⟪main_c⟫) := by
  rw [hostOps1_1_after, ops1D_sel, ops1C_keep main_call2_v8 _ (by decide), upTo1B_dof, ops1C_quot,
    upTo1B_dof, ops1B_keep main_call2_v6 _ (by decide), ops1A_sq, varCK_eq]

section Pieces3
variable {F : FTy → Type} [FloatOps F]

abbrev ops3A : List (HloOp τ sig (Elt F)) :=
  [ StableHlo.TRef.nullary (.of main_call5_cst : StableHlo.TRef sig ⟨S_, .f32⟩) (constant S_ .f32 0x00000000#32),
    StableHlo.TRef.binary (.of main_v65 : StableHlo.TRef sig ⟨S50000x64, .f32⟩) (.of main_call5_cst : StableHlo.TRef sig ⟨S_, .f32⟩) (.of main_call5_v0 : StableHlo.TRef sig ⟨S64, .f32⟩) (fun x v => Host.reduceAdd x v reducesTo_S50000x64_S64_d0 h_S_),
    StableHlo.TRef.unary (.of main_call5_v0 : StableHlo.TRef sig ⟨S64, .f32⟩) (.of main_call5_v1 : StableHlo.TRef sig ⟨S1x64, .f32⟩) (broadcastInDim S1x64 ![1] bcast_S64_S1x64_1),
    StableHlo.TRef.nullary (.of main_call5_cst_0 : StableHlo.TRef sig ⟨S_, .f32⟩) (constant S_ .f32 0x47435000#32),
    StableHlo.TRef.unary (.of main_call5_cst_0 : StableHlo.TRef sig ⟨S_, .f32⟩) (.of main_call5_v2 : StableHlo.TRef sig ⟨S1x64, .f32⟩) (broadcastInDim S1x64 ![] bcast_S_S1x64),
    StableHlo.TRef.binary (.of main_call5_v1 : StableHlo.TRef sig ⟨S1x64, .f32⟩) (.of main_call5_v2 : StableHlo.TRef sig ⟨S1x64, .f32⟩) (.of main_call5_v3 : StableHlo.TRef sig ⟨S1x64, .f32⟩) Host.divf,
    StableHlo.TRef.unary (.of main_call5_v3 : StableHlo.TRef sig ⟨S1x64, .f32⟩) (.of main_call5_v4 : StableHlo.TRef sig ⟨S50000x64, .f32⟩) (broadcastInDim S50000x64 ![0, 1] bcast_S1x64_S50000x64_0_1),
    StableHlo.TRef.binary (.of main_v65 : StableHlo.TRef sig ⟨S50000x64, .f32⟩) (.of main_call5_v4 : StableHlo.TRef sig ⟨S50000x64, .f32⟩) (.of main_call5_v5 : StableHlo.TRef sig ⟨S50000x64, .f32⟩) subf,
    StableHlo.TRef.binary (.of main_call5_v5 : StableHlo.TRef sig ⟨S50000x64, .f32⟩) (.of main_call5_v5 : StableHlo.TRef sig ⟨S50000x64, .f32⟩) (.of main_call5_v6 : StableHlo.TRef sig ⟨S50000x64, .f32⟩) mulf ]

abbrev ops3B : List (HloOp τ sig (Elt F)) :=
  [ StableHlo.TRef.unary (.of main_c_5 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47435000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf ]

abbrev ops3C : List (HloOp τ sig (Elt F)) :=
  [ StableHlo.TRef.nullary (.of main_call5_cst_2 : StableHlo.TRef sig ⟨S_, .f32⟩) (constant S_ .f32 0x00000000#32),
    StableHlo.TRef.binary (.of main_call5_v6 : StableHlo.TRef sig ⟨S50000x64, .f32⟩) (.of main_call5_cst_2 : StableHlo.TRef sig ⟨S_, .f32⟩) (.of main_call5_v9 : StableHlo.TRef sig ⟨S64, .f32⟩) (fun x v => Host.reduceAdd x v reducesTo_S50000x64_S64_d0 h_S_),
    StableHlo.TRef.unary (.of main_call5_v8 : StableHlo.TRef sig ⟨S_, .f32⟩) (.of main_call5_v10 : StableHlo.TRef sig ⟨S64, .f32⟩) (broadcastInDim S64 ![] bcast_S_S64),
    StableHlo.TRef.binary (.of main_call5_v9 : StableHlo.TRef sig ⟨S64, .f32⟩) (.of main_call5_v10 : StableHlo.TRef sig ⟨S64, .f32⟩) (.of main_call5_v11 : StableHlo.TRef sig ⟨S64, .f32⟩) Host.divf ]

abbrev ops3D : List (HloOp τ sig (Elt F)) :=
  [ StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S64, .f32⟩) (broadcastInDim S64 ![] bcast_S_S64),
    StableHlo.TRef.ternary (.of main_call5_v12 : StableHlo.TRef sig ⟨S_, .i1⟩) (.of main_call5_v11 : StableHlo.TRef sig ⟨S64, .f32⟩) (.of main_call5_call0_v1 : StableHlo.TRef sig ⟨S64, .f32⟩) (.of main_v69 : StableHlo.TRef sig ⟨S64, .f32⟩) (fun p a b => select (broadcastInDim S64 ![] bcast_S_S64 p) a b) ]

theorem hostOps3_1_cut : (hostOps3_1 : List (HloOp τ sig (Elt F))) = ops3A ++ (ops3B ++ (ops3C ++ ops3D)) := rfl

abbrev ops3A_W : List (Ref sig .tc) := [main_call5_cst, main_call5_v0, main_call5_v1, main_call5_cst_0, main_call5_v2, main_call5_v3, main_call5_v4, main_call5_v5, main_call5_v6]
abbrev ops3B_W : List (Ref sig .tc) := [main_call5_v7, main_call5_cst_1, main_call5_v8]
abbrev ops3C_W : List (Ref sig .tc) := [main_call5_cst_2, main_call5_v9, main_call5_v10, main_call5_v11]
abbrev ops3D_W : List (Ref sig .tc) := [main_call5_cst_3, main_call5_v12, main_call5_cst_4, main_call5_call0_v0, main_call5_call0_v1, main_v69]

theorem ops3A_writes : (ops3A : List (HloOp τ sig (Elt F))).Forall fun op => op.writes ⊆ (ops3A_W.map (Proc.devRef (τ := τ) .tc)).toFinset := by
  simp only [List.Forall]; refine ⟨?_, ?_, ?_, ?_, ?_, ?_, ?_, ?_, ?_⟩ <;> writes_in
theorem ops3B_writes : (ops3B : List (HloOp τ sig (Elt F))).Forall fun op => op.writes ⊆ (ops3B_W.map (Proc.devRef (τ := τ) .tc)).toFinset := by
  simp only [List.Forall]; refine ⟨?_, ?_, ?_⟩ <;> writes_in
theorem ops3C_writes : (ops3C : List (HloOp τ sig (Elt F))).Forall fun op => op.writes ⊆ (ops3C_W.map (Proc.devRef (τ := τ) .tc)).toFinset := by
  simp only [List.Forall]; refine ⟨?_, ?_, ?_, ?_⟩ <;> writes_in
theorem ops3D_writes : (ops3D : List (HloOp τ sig (Elt F))).Forall fun op => op.writes ⊆ (ops3D_W.map (Proc.devRef (τ := τ) .tc)).toFinset := by
  simp only [List.Forall]; refine ⟨?_, ?_, ?_, ?_, ?_, ?_⟩ <;> writes_in

end Pieces3

theorem ops3A_keep (r : Ref sig .tc) (X : Valuation τ sig (Elt Ideal)) (hr : r ∉ ops3A_W) : StableHlo.after ops3A X ⟪r⟫ = X ⟪r⟫ :=
  StableHlo.after_of_writes_sub ops3A X ops3A_writes hr
theorem ops3B_keep (r : Ref sig .tc) (X : Valuation τ sig (Elt Ideal)) (hr : r ∉ ops3B_W) : StableHlo.after ops3B X ⟪r⟫ = X ⟪r⟫ :=
  StableHlo.after_of_writes_sub ops3B X ops3B_writes hr
theorem ops3C_keep (r : Ref sig .tc) (X : Valuation τ sig (Elt Ideal)) (hr : r ∉ ops3C_W) : StableHlo.after ops3C X ⟪r⟫ = X ⟪r⟫ :=
  StableHlo.after_of_writes_sub ops3C X ops3C_writes hr
theorem ops3D_keep (r : Ref sig .tc) (X : Valuation τ sig (Elt Ideal)) (hr : r ∉ ops3D_W) : StableHlo.after ops3D X ⟪r⟫ = X ⟪r⟫ :=
  StableHlo.after_of_writes_sub ops3D X ops3D_writes hr

theorem ops3A_sq (X : Valuation τ sig (Elt Ideal)) : StableHlo.after ops3A X ⟪main_call5_v6⟫ = devSqK (X ⟪main_v65⟫) := by
  after_results; rfl
theorem ops3B_dof (X : Valuation τ sig (Elt Ideal)) : StableHlo.after ops3B X ⟪main_call5_v8⟫ = dofK (X ⟪main_c_5⟫) := by
  after_results; rfl
theorem ops3C_quot (X : Valuation τ sig (Elt Ideal)) : StableHlo.after ops3C X ⟪main_call5_v11⟫ = varQuotK (X ⟪main_call5_v6⟫) (X ⟪main_call5_v8⟫) := by
  after_results; rfl
theorem ops3D_sel (X : Valuation τ sig (Elt Ideal)) : StableHlo.after ops3D X ⟪main_v69⟫ = varSelK (X ⟪main_call5_v8⟫) (X ⟪main_call5_v11⟫) := by
  after_results; rfl

theorem hostOps3_1_after (W : Valuation τ sig (Elt Ideal)) : StableHlo.after (hostOps3_1 (F := Ideal)) W
    = StableHlo.after ops3D (StableHlo.after ops3C (StableHlo.after ops3B (StableHlo.after ops3A W))) := by
  rw [hostOps3_1_cut, Cert.Proof.TakeRows.after_append, Cert.Proof.TakeRows.after_append, Cert.Proof.TakeRows.after_append]

theorem upTo3B_dof (W : Valuation τ sig (Elt Ideal)) : StableHlo.after ops3B (StableHlo.after ops3A W) ⟪main_call5_v8⟫ = dofK (W ⟪main_c_5⟫) := by
  rw [ops3B_dof, ops3A_keep main_c_5 _ (by decide)]

theorem hostOps3_1_v69 (W : Valuation τ sig (Elt Ideal)) :
    StableHlo.after (hostOps3_1 (F := Ideal)) W ⟪main_v69⟫ = varCK (W ⟪main_v65⟫) (W ⟪main_c_5⟫) := by
  rw [hostOps3_1_after, ops3D_sel, ops3C_keep main_call5_v8 _ (by decide), upTo3B_dof, ops3C_quot,
    upTo3B_dof, ops3B_keep main_call5_v6 _ (by decide), ops3A_sq, varCK_eq]

section Pieces5
variable {F : FTy → Type} [FloatOps F]

abbrev ops5A : List (HloOp τ sig (Elt F)) :=
  [ StableHlo.TRef.nullary (.of main_call8_cst : StableHlo.TRef sig ⟨S_, .f32⟩) (constant S_ .f32 0x00000000#32),
    StableHlo.TRef.binary (.of main_v105 : StableHlo.TRef sig ⟨S50000x64, .f32⟩) (.of main_call8_cst : StableHlo.TRef sig ⟨S_, .f32⟩) (.of main_call8_v0 : StableHlo.TRef sig ⟨S64, .f32⟩) (fun x v => Host.reduceAdd x v reducesTo_S50000x64_S64_d0 h_S_),
    StableHlo.TRef.unary (.of main_call8_v0 : StableHlo.TRef sig ⟨S64, .f32⟩) (.of main_call8_v1 : StableHlo.TRef sig ⟨S1x64, .f32⟩) (broadcastInDim S1x64 ![1] bcast_S64_S1x64_1),
    StableHlo.TRef.nullary (.of main_call8_cst_0 : StableHlo.TRef sig ⟨S_, .f32⟩) (constant S_ .f32 0x47435000#32),
    StableHlo.TRef.unary (.of main_call8_cst_0 : StableHlo.TRef sig ⟨S_, .f32⟩) (.of main_call8_v2 : StableHlo.TRef sig ⟨S1x64, .f32⟩) (broadcastInDim S1x64 ![] bcast_S_S1x64),
    StableHlo.TRef.binary (.of main_call8_v1 : StableHlo.TRef sig ⟨S1x64, .f32⟩) (.of main_call8_v2 : StableHlo.TRef sig ⟨S1x64, .f32⟩) (.of main_call8_v3 : StableHlo.TRef sig ⟨S1x64, .f32⟩) Host.divf,
    StableHlo.TRef.unary (.of main_call8_v3 : StableHlo.TRef sig ⟨S1x64, .f32⟩) (.of main_call8_v4 : StableHlo.TRef sig ⟨S50000x64, .f32⟩) (broadcastInDim S50000x64 ![0, 1] bcast_S1x64_S50000x64_0_1),
    StableHlo.TRef.binary (.of main_v105 : StableHlo.TRef sig ⟨S50000x64, .f32⟩) (.of main_call8_v4 : StableHlo.TRef sig ⟨S50000x64, .f32⟩) (.of main_call8_v5 : StableHlo.TRef sig ⟨S50000x64, .f32⟩) subf,
    StableHlo.TRef.binary (.of main_call8_v5 : StableHlo.TRef sig ⟨S50000x64, .f32⟩) (.of main_call8_v5 : StableHlo.TRef sig ⟨S50000x64, .f32⟩) (.of main_call8_v6 : StableHlo.TRef sig ⟨S50000x64, .f32⟩) mulf ]

abbrev ops5B : List (HloOp τ sig (Elt F)) :=
  [ StableHlo.TRef.unary (.of main_c_9 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47435000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf ]

abbrev ops5C : List (HloOp τ sig (Elt F)) :=
  [ StableHlo.TRef.nullary (.of main_call8_cst_2 : StableHlo.TRef sig ⟨S_, .f32⟩) (constant S_ .f32 0x00000000#32),
    StableHlo.TRef.binary (.of main_call8_v6 : StableHlo.TRef sig ⟨S50000x64, .f32⟩) (.of main_call8_cst_2 : StableHlo.TRef sig ⟨S_, .f32⟩) (.of main_call8_v9 : StableHlo.TRef sig ⟨S64, .f32⟩) (fun x v => Host.reduceAdd x v reducesTo_S50000x64_S64_d0 h_S_),
    StableHlo.TRef.unary (.of main_call8_v8 : StableHlo.TRef sig ⟨S_, .f32⟩) (.of main_call8_v10 : StableHlo.TRef sig ⟨S64, .f32⟩) (broadcastInDim S64 ![] bcast_S_S64),
    StableHlo.TRef.binary (.of main_call8_v9 : StableHlo.TRef sig ⟨S64, .f32⟩) (.of main_call8_v10 : StableHlo.TRef sig ⟨S64, .f32⟩) (.of main_call8_v11 : StableHlo.TRef sig ⟨S64, .f32⟩) Host.divf ]

abbrev ops5D : List (HloOp τ sig (Elt F)) :=
  [ StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S64, .f32⟩) (broadcastInDim S64 ![] bcast_S_S64),
    StableHlo.TRef.ternary (.of main_call8_v12 : StableHlo.TRef sig ⟨S_, .i1⟩) (.of main_call8_v11 : StableHlo.TRef sig ⟨S64, .f32⟩) (.of main_call8_call0_v1 : StableHlo.TRef sig ⟨S64, .f32⟩) (.of main_v109 : StableHlo.TRef sig ⟨S64, .f32⟩) (fun p a b => select (broadcastInDim S64 ![] bcast_S_S64 p) a b) ]

theorem hostOps5_1_cut : (hostOps5_1 : List (HloOp τ sig (Elt F))) = ops5A ++ (ops5B ++ (ops5C ++ ops5D)) := rfl

abbrev ops5A_W : List (Ref sig .tc) := [main_call8_cst, main_call8_v0, main_call8_v1, main_call8_cst_0, main_call8_v2, main_call8_v3, main_call8_v4, main_call8_v5, main_call8_v6]
abbrev ops5B_W : List (Ref sig .tc) := [main_call8_v7, main_call8_cst_1, main_call8_v8]
abbrev ops5C_W : List (Ref sig .tc) := [main_call8_cst_2, main_call8_v9, main_call8_v10, main_call8_v11]
abbrev ops5D_W : List (Ref sig .tc) := [main_call8_cst_3, main_call8_v12, main_call8_cst_4, main_call8_call0_v0, main_call8_call0_v1, main_v109]

theorem ops5A_writes : (ops5A : List (HloOp τ sig (Elt F))).Forall fun op => op.writes ⊆ (ops5A_W.map (Proc.devRef (τ := τ) .tc)).toFinset := by
  simp only [List.Forall]; refine ⟨?_, ?_, ?_, ?_, ?_, ?_, ?_, ?_, ?_⟩ <;> writes_in
theorem ops5B_writes : (ops5B : List (HloOp τ sig (Elt F))).Forall fun op => op.writes ⊆ (ops5B_W.map (Proc.devRef (τ := τ) .tc)).toFinset := by
  simp only [List.Forall]; refine ⟨?_, ?_, ?_⟩ <;> writes_in
theorem ops5C_writes : (ops5C : List (HloOp τ sig (Elt F))).Forall fun op => op.writes ⊆ (ops5C_W.map (Proc.devRef (τ := τ) .tc)).toFinset := by
  simp only [List.Forall]; refine ⟨?_, ?_, ?_, ?_⟩ <;> writes_in
theorem ops5D_writes : (ops5D : List (HloOp τ sig (Elt F))).Forall fun op => op.writes ⊆ (ops5D_W.map (Proc.devRef (τ := τ) .tc)).toFinset := by
  simp only [List.Forall]; refine ⟨?_, ?_, ?_, ?_, ?_, ?_⟩ <;> writes_in

end Pieces5

theorem ops5A_keep (r : Ref sig .tc) (X : Valuation τ sig (Elt Ideal)) (hr : r ∉ ops5A_W) : StableHlo.after ops5A X ⟪r⟫ = X ⟪r⟫ :=
  StableHlo.after_of_writes_sub ops5A X ops5A_writes hr
theorem ops5B_keep (r : Ref sig .tc) (X : Valuation τ sig (Elt Ideal)) (hr : r ∉ ops5B_W) : StableHlo.after ops5B X ⟪r⟫ = X ⟪r⟫ :=
  StableHlo.after_of_writes_sub ops5B X ops5B_writes hr
theorem ops5C_keep (r : Ref sig .tc) (X : Valuation τ sig (Elt Ideal)) (hr : r ∉ ops5C_W) : StableHlo.after ops5C X ⟪r⟫ = X ⟪r⟫ :=
  StableHlo.after_of_writes_sub ops5C X ops5C_writes hr
theorem ops5D_keep (r : Ref sig .tc) (X : Valuation τ sig (Elt Ideal)) (hr : r ∉ ops5D_W) : StableHlo.after ops5D X ⟪r⟫ = X ⟪r⟫ :=
  StableHlo.after_of_writes_sub ops5D X ops5D_writes hr

theorem ops5A_sq (X : Valuation τ sig (Elt Ideal)) : StableHlo.after ops5A X ⟪main_call8_v6⟫ = devSqK (X ⟪main_v105⟫) := by
  after_results; rfl
theorem ops5B_dof (X : Valuation τ sig (Elt Ideal)) : StableHlo.after ops5B X ⟪main_call8_v8⟫ = dofK (X ⟪main_c_9⟫) := by
  after_results; rfl
theorem ops5C_quot (X : Valuation τ sig (Elt Ideal)) : StableHlo.after ops5C X ⟪main_call8_v11⟫ = varQuotK (X ⟪main_call8_v6⟫) (X ⟪main_call8_v8⟫) := by
  after_results; rfl
theorem ops5D_sel (X : Valuation τ sig (Elt Ideal)) : StableHlo.after ops5D X ⟪main_v109⟫ = varSelK (X ⟪main_call8_v8⟫) (X ⟪main_call8_v11⟫) := by
  after_results; rfl

theorem hostOps5_1_after (W : Valuation τ sig (Elt Ideal)) : StableHlo.after (hostOps5_1 (F := Ideal)) W
    = StableHlo.after ops5D (StableHlo.after ops5C (StableHlo.after ops5B (StableHlo.after ops5A W))) := by
  rw [hostOps5_1_cut, Cert.Proof.TakeRows.after_append, Cert.Proof.TakeRows.after_append, Cert.Proof.TakeRows.after_append]

theorem upTo5B_dof (W : Valuation τ sig (Elt Ideal)) : StableHlo.after ops5B (StableHlo.after ops5A W) ⟪main_call8_v8⟫ = dofK (W ⟪main_c_9⟫) := by
  rw [ops5B_dof, ops5A_keep main_c_9 _ (by decide)]

theorem hostOps5_1_v109 (W : Valuation τ sig (Elt Ideal)) :
    StableHlo.after (hostOps5_1 (F := Ideal)) W ⟪main_v109⟫ = varCK (W ⟪main_v105⟫) (W ⟪main_c_9⟫) := by
  rw [hostOps5_1_after, ops5D_sel, ops5C_keep main_call8_v8 _ (by decide), upTo5B_dof, ops5C_quot,
    upTo5B_dof, ops5B_keep main_call8_v6 _ (by decide), ops5A_sq, varCK_eq]

end Cert.KernelIdeal.HV

end
-- ==== Proof.KHostCall.lean ====
import proofs.«405318_j78374563217910_3_alg».proof.Proof.Gen.KernelIdeal.Regions
import proofs.«405318_j78374563217910_3_alg».proof.Proof.KNet
import proofs.«405318_j78374563217910_3_alg».proof.Proof.KHostVar

set_option maxRecDepth 2024

noncomputable section

namespace Cert.KernelIdeal.HV

open Idealize.ShloMosaic Idealize.ShloMosaic.ValueIdx
open Cert.KernelIdeal Cert.KernelIdeal.Gen

local notation "⟪" r "⟫" => (Proc.devRef (τ := τ) (sig := sig) Proc.tc r)

theorem step_nullary {y : Ref sig .tc} (v : y.ty.Contents (Elt Ideal)) (hy) (ops : List (HloOp τ sig (Elt Ideal)))
    (V : Valuation τ sig (Elt Ideal)) (d : DevRef τ sig) (X : d.ty.Contents (Elt Ideal))
    (h : ∀ V' : Valuation τ sig (Elt Ideal), V' ⟪y⟫ = v → (∀ b : DevRef τ sig, b ≠ ⟪y⟫ → V' b = V b) → StableHlo.after ops V' d = X) :
    StableHlo.after (StableHlo.nullary y v hy :: ops) V d = X :=
  h _ (StableHlo.nullary_result y v hy V)
    (fun b hb => HloOp.result_of_not_mem _ _ (by rw [StableHlo.nullary_writes, Finset.mem_singleton]; exact hb))

theorem step_unary {x y : Ref sig .tc} (f : x.ty.Contents (Elt Ideal) → y.ty.Contents (Elt Ideal)) (hx hy)
    (ops : List (HloOp τ sig (Elt Ideal))) (V : Valuation τ sig (Elt Ideal)) (d : DevRef τ sig) (X : d.ty.Contents (Elt Ideal))
    (h : ∀ V' : Valuation τ sig (Elt Ideal), V' ⟪y⟫ = f (V ⟪x⟫) → (∀ b : DevRef τ sig, b ≠ ⟪y⟫ → V' b = V b) → StableHlo.after ops V' d = X) :
    StableHlo.after (StableHlo.unary x y f hx hy :: ops) V d = X :=
  h _ (StableHlo.unary_result x y f hx hy V)
    (fun b hb => HloOp.result_of_not_mem _ _ (by rw [StableHlo.unary_writes, Finset.mem_singleton]; exact hb))

theorem step_binary {a b y : Ref sig .tc} (f : a.ty.Contents (Elt Ideal) → b.ty.Contents (Elt Ideal) → y.ty.Contents (Elt Ideal)) (ha hb hy)
    (ops : List (HloOp τ sig (Elt Ideal))) (V : Valuation τ sig (Elt Ideal)) (d : DevRef τ sig) (X : d.ty.Contents (Elt Ideal))
    (h : ∀ V' : Valuation τ sig (Elt Ideal), V' ⟪y⟫ = f (V ⟪a⟫) (V ⟪b⟫) → (∀ r : DevRef τ sig, r ≠ ⟪y⟫ → V' r = V r) → StableHlo.after ops V' d = X) :
    StableHlo.after (StableHlo.binary a b y f ha hb hy :: ops) V d = X :=
  h _ (StableHlo.binary_result a b y f ha hb hy V)
    (fun r hr => HloOp.result_of_not_mem _ _ (by rw [StableHlo.binary_writes, Finset.mem_singleton]; exact hr))

theorem step_ternary {c a b y : Ref sig .tc}
    (f : c.ty.Contents (Elt Ideal) → a.ty.Contents (Elt Ideal) → b.ty.Contents (Elt Ideal) → y.ty.Contents (Elt Ideal)) (hc ha hb hy)
    (ops : List (HloOp τ sig (Elt Ideal))) (V : Valuation τ sig (Elt Ideal)) (d : DevRef τ sig) (X : d.ty.Contents (Elt Ideal))
    (h : ∀ V' : Valuation τ sig (Elt Ideal), V' ⟪y⟫ = f (V ⟪c⟫) (V ⟪a⟫) (V ⟪b⟫) → (∀ r : DevRef τ sig, r ≠ ⟪y⟫ → V' r = V r) → StableHlo.after ops V' d = X) :
    StableHlo.after (StableHlo.ternary c a b y f hc ha hb hy :: ops) V d = X :=
  h _ (StableHlo.ternary_result c a b y f hc ha hb hy V)
    (fun r hr => HloOp.result_of_not_mem _ _ (by rw [StableHlo.ternary_writes, Finset.mem_singleton]; exact hr))

local macro "sN" : tactic => `(tactic| (refine step_nullary _ _ _ _ _ _ ?_; intro V e k; try dsimp only [StableHlo.TRef.toBuf, StableHlo.TRef.ofBuf, cast_eq] at e))
local macro "sU" : tactic => `(tactic| (refine step_unary _ _ _ _ _ _ _ ?_; intro V e k; try dsimp only [StableHlo.TRef.toBuf, StableHlo.TRef.ofBuf, cast_eq] at e))
local macro "sB" : tactic => `(tactic| (refine step_binary _ _ _ _ _ _ _ _ ?_; intro V e k; try dsimp only [StableHlo.TRef.toBuf, StableHlo.TRef.ofBuf, cast_eq] at e))
local macro "sT" : tactic => `(tactic| (refine step_ternary _ _ _ _ _ _ _ _ _ ?_; intro V e k; try dsimp only [StableHlo.TRef.toBuf, StableHlo.TRef.ofBuf, cast_eq] at e))

variable (W : Valuation τ sig (Elt Ideal))

set_option maxHeartbeats 1000000 in
theorem hostOps0_1_v12 : StableHlo.after (hostOps0_1 (F := Ideal)) W ⟪main_v12⟫ = takeK (W ⟪main_arg0⟫) (W ⟪main_v1⟫) := by
  sN; sU; sB; sN; sU; sB; sT; sU; sN; sN; sU; sB; sU; sU; sB; sB; sN; sB; sB; sU; sN; sU; sT
  simp (disch := exact StableHlo.devRef_ne_of_ne (by decide)) only [StableHlo.after_nil, *]
  rfl

set_option maxHeartbeats 1000000 in
theorem hostOps2_1_v52 : StableHlo.after (hostOps2_1 (F := Ideal)) W ⟪main_v52⟫ = takeK (W ⟪main_v43⟫) (W ⟪main_v1⟫) := by
  sN; sU; sB; sN; sU; sB; sT; sU; sN; sN; sU; sB; sU; sU; sB; sB; sN; sB; sB; sU; sN; sU; sT
  simp (disch := exact StableHlo.devRef_ne_of_ne (by decide)) only [StableHlo.after_nil, *]
  rfl

set_option maxHeartbeats 1000000 in
theorem hostOps4_1_v92 : StableHlo.after (hostOps4_1 (F := Ideal)) W ⟪main_v92⟫ = takeK (W ⟪main_v83⟫) (W ⟪main_v1⟫) := by
  sN; sU; sB; sN; sU; sB; sT; sU; sN; sN; sU; sB; sU; sU; sB; sB; sN; sB; sB; sU; sN; sU; sT
  simp (disch := exact StableHlo.devRef_ne_of_ne (by decide)) only [StableHlo.after_nil, *]
  rfl

end Cert.KernelIdeal.HV

end
-- ==== Proof.ValI0.lean ====
import proofs.«405318_j78374563217910_3_alg».proof.Proof.RegI0
import proofs.«405318_j78374563217910_3_alg».proof.Proof.SpecA
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem pay0_apply (x0 x1 : Vec Ideal S10000x64 .f32) (x2 : Vec Ideal S64x64 .f32) (x3 : Vec Ideal S1x64 .f32)
    (p : Fin 10000) (q : Fin 64) :
    k0_pay1 (F := Ideal) x0 x1 x2 x3 (ix2 p q)
      = (∑ k : Fin 64, (x0 (ix2 p k) + x1 (ix2 p k)) * x2 (ix2 k q)) + x3 (ix2 (0 : Fin 1) q) := by
  unfold k0_pay1
  simp only [shapeCast_self]
  rw [addf_apply, broadcastTo_1b_ab_apply, matmul_zero_eq_dotGeneral]
  congr 1
  exact (StackMember.dotGeneral_plain_apply none _ _ p q).trans
    (Finset.sum_congr rfl fun k _ => by rw [truncf_apply, truncf_apply, addf_apply])

theorem hz0 : (![0, 0] : Fin 2 → Nat) = fun _ => 0 := funext fun a => by fin_cases a <;> rfl

theorem idx_facts0 : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

theorem idx_onto0 : ∀ q0 : Fin 5, ∃ t : Fin cfg0.N, win0_4.index t = ![q0.val, 0] :=
  (by decide +kernel : ∀ q0 : Fin 5, ∃ t : Fin grid0.N, win0_4.index t = ![q0.val, 0])

theorem flushed0_4 (c : Dev nD) (t : Fin cfg0.N) :
    (dat0 (F := Ideal) V c).flushed 4 t = ((cfg0.win 4).blk t).view.read (Elt Ideal)
      (Cert.Spec.specA (V c main_arg0) (V c main_v19) (V c main_v21) (fun j => V c main_v24 (ix2 (0 : Fin 1) j))) := by
  show (cfg0.win 4).cut (grid0.coords t) ((dat0 V c).after 4 t) = _
  rw [after0_4]
  unfold out0_4
  rw [View.canon_unit_zero hz0]
  simp only [View.ld_unit_zero (S := S10000x64) hz0, View.ld_unit_zero (S := S64x64) hz0, View.ld_unit_zero (S := S1x64) hz0]
  obtain ⟨e00, e01, e10, e11, e20, e21, e30, e31, e41⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (iblk0 V c 3 t) (ix2 p q)
    = Cert.Spec.specA (V c main_arg0) (V c main_v19) (V c main_v21) (fun j => V c main_v24 (ix2 (0 : Fin 1) j))
        (((cfg0.win 4).blk t).view.emb (ix2 p q))
  set i := ((cfg0.win 4).blk t).view.emb (ix2 p q)
  rw [pay0_apply]
  unfold Cert.Spec.specA
  have h3 : ((cfg0.win 3).blk t).view.emb (ix2 (0 : Fin 1) q) = ix2 (0 : Fin 1) (i 1) :=
    Shape.idx_ext₂ (by show win0_3.index t (0 : Fin 2) * 1 + 1 * 0 = 0; omega)
      (by show win0_3.index t (1 : Fin 2) * 64 + 1 * q.val = win0_4.index t (1 : Fin 2) * 64 + 1 * q.val; omega)
  refine congrArg₂ (fun x y : EReal => x + y) (Finset.sum_congr rfl fun k _ => ?_) ?_
  · have h0 : ((cfg0.win 0).blk t).view.emb (ix2 p k) = ix2 (i 0) k :=
      Shape.idx_ext₂ (by show win0_0.index t (0 : Fin 2) * 10000 + 1 * p.val = win0_4.index t (0 : Fin 2) * 10000 + 1 * p.val; omega)
        (by show win0_0.index t (1 : Fin 2) * 64 + 1 * k.val = k.val; omega)
    have h1 : ((cfg0.win 1).blk t).view.emb (ix2 p k) = ix2 (i 0) k :=
      Shape.idx_ext₂ (by show win0_1.index t (0 : Fin 2) * 10000 + 1 * p.val = win0_4.index t (0 : Fin 2) * 10000 + 1 * p.val; omega)
        (by show win0_1.index t (1 : Fin 2) * 64 + 1 * k.val = k.val; omega)
    have h2 : ((cfg0.win 2).blk t).view.emb (ix2 k q) = ix2 k (i 1) :=
      Shape.idx_ext₂ (by show win0_2.index t (0 : Fin 2) * 64 + 1 * k.val = k.val; omega)
        (by show win0_2.index t (1 : Fin 2) * 64 + 1 * q.val = win0_4.index t (1 : Fin 2) * 64 + 1 * q.val; omega)
    refine congrArg₂ (fun x y : EReal => x * y) (congrArg₂ (fun x y : EReal => x + y) ?_ ?_) ?_
    · exact congrArg (V c main_arg0) h0
    · exact congrArg (V c main_v19) h1
    · exact congrArg (V c main_v21) h2
  · exact congrArg (V c main_v24) h3

theorem covered0_4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto0 ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  show i ∈ ((View.whole main_v25).slice (win0_4.rect t)).set
  rw [View.set_slice_whole, Rect.mem_set_unit]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

theorem arrAt0_4 (c : Dev nD) :
    (dat0 (F := Ideal) V c).arrAt 4 cfg0.N
      = Cert.Spec.specA (V c main_arg0) (V c main_v19) (V c main_v21) (fun j => V c main_v24 (ix2 (0 : Fin 1) j)) :=
  (dat0 (F := Ideal) V c).arrAt_eq_of_cover 4 _ (fun t _ => flushed0_4 V c t) covered0_4

end Cert.KernelIdeal.HV

end
-- ==== Proof.ValI1.lean ====
import proofs.«405318_j78374563217910_3_alg».proof.Proof.RegI1
import proofs.«405318_j78374563217910_3_alg».proof.Proof.SpecB
import Idealize.ShloMosaic.Lib.Pipeline.Value
import Idealize.ShloMosaic.Lib.ValueLayout
import Idealize.ShloMosaic.PureOps.Ideal.Laws

noncomputable section

open scoped BigOperators

namespace Cert.KernelIdeal.HF

open Cert.KernelIdeal Cert.KernelIdeal.Gen
open Idealize.ShloMosaic Idealize.ShloMosaic.TcCoe Idealize.ShloMosaic.ValueIdx Idealize.SL.Sem
open Idealize.ShloMosaic.Pipeline (Dat)

private theorem rsqrtB_apply {s : Shape} {φ : FTy} (v : FVec Ideal s φ) (i : s.Idx) : rsqrt v i = Ideal.rsqrt (v i) := rfl

private theorem matmulB_apply {φ₁ φ₂ : FTy} (prec : Option ContractPrecision) (A : FVec Ideal S10000x64 φ₁) (B : FVec Ideal S64x64 φ₂)
    (p : Fin 10000) (q : Fin 64) :
    FloatOps.matmul dot_S10000x64_S64x64_S10000x64_1_0_0_1_n_n prec A B (constant S10000x64 .f32 0x00000000#32) (ix2 p q)
      = ∑ k : Fin 64, A (ix2 p k) * B (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have c2 := contrEquiv1_symm_val dot_S10000x64_S64x64_S10000x64_1_0_0_1_n_n 64 rfl rfl k
  rw [show dot_S10000x64_S64x64_S10000x64_1_0_0_1_n_n.lhsIdx (ix2 p q) ((contrEquiv1 _ 64 rfl rfl).symm k) = ix2 p k from Shape.idx_ext₂ rfl c2,
    show dot_S10000x64_S64x64_S10000x64_1_0_0_1_n_n.rhsIdx (ix2 p q) ((contrEquiv1 _ 64 rfl rfl).symm k) = ix2 k q from Shape.idx_ext₂ c2 rfl]

theorem pay1_apply (x0 : Vec Ideal S10000x64 .f32) (x1 x2 x3 x4 : Vec Ideal S1x64 .f32) (x5 : Vec Ideal S64x64 .f32)
    (x6 : Vec Ideal S1x64 .f32) (p : Fin 10000) (q : Fin 64) :
    k1_pay1 (F := Ideal) x0 x1 x2 x3 x4 x5 x6 (ix2 p q)
      = max ((∑ k : Fin 64, max ((((x0 (ix2 p k) - x1 (ix2 0 k)) * Ideal.rsqrt (x2 (ix2 0 k) + Ideal.ofBits .f32 0x3727C5AC#32))
          * x3 (ix2 0 k)) + x4 (ix2 0 k)) 0 * x5 (ix2 k q)) + x6 (ix2 0 q)) 0 := by
  unfold k1_pay1
  simp only [shapeCast_self]
  simp only [matmul]
  rw [maximumf_apply, addf_apply, matmulB_apply]
  simp only [truncf_apply, maximumf_apply, addf_apply, mulf_apply, subf_apply, broadcast_apply, broadcastTo_1b_ab_apply, rsqrtB_apply,
    Ideal.ofBits_def, Ideal.ofBits_zero_f32]

variable (V : (c : Dev nD) → (b : Ref sig .tc) → Buf (Elt Ideal) ((c : Thread nD τ).loc b))

theorem hz1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

def rowB1 (t : Fin cfg1.N) (p : Fin 10000) : Fin 50000 := ⟨t.val * 10000 + p.val, by have := lt_of_lt_of_eq t.isLt N_1; omega⟩

theorem iblk1_0_apply (c : Dev nD) (t : Fin cfg1.N) (p : Fin 10000) (k : Fin 64) :
    iblk1 V c 0 t (ix2 p k) = V c main_v25 (ix2 (rowB1 t p) k) := by
  obtain ⟨e0, e1, -⟩ := idx_facts1 t
  exact congrArg _ (Shape.idx_ext₂ ((win1_0.rect_emb_val t _ (0 : Fin 2)).trans (by rw [e0]; rfl)) (win1_0.rect_emb_val_of_index_zero t (1 : Fin 2) e1 _))

theorem iblk1_whole (c : Dev nD) (t : Fin cfg1.N) : iblk1 V c 1 t = V c main_v38 ∧ iblk1 V c 2 t = V c main_v39 ∧ iblk1 V c 3 t = V c main_v40
    ∧ iblk1 V c 4 t = V c main_v41 ∧ iblk1 V c 5 t = V c main_v35 ∧ iblk1 V c 6 t = V c main_v42 := by
  obtain ⟨-, -, a1, b1, a2, b2, a3, b3, a4, b4, a5, b5, a6, b6, -⟩ := idx_facts1 t
  refine ⟨?_, ?_, ?_, ?_, ?_, ?_⟩ <;> exact funext fun y => congrArg _ (Shape.idx_ext₂
    (Pipeline.Window.rect_emb_val_of_index_zero _ t (0 : Fin 2) (by assumption) y) (Pipeline.Window.rect_emb_val_of_index_zero _ t (1 : Fin 2) (by assumption) y))

theorem embOut1_apply (t : Fin cfg1.N) (p : Fin 10000) (q : Fin 64) :
    ((cfg1.win 7).blk t).view.emb (ix2 p q) = ix2 (rowB1 t p) q := by
  obtain ⟨-, -, -, -, -, -, -, -, -, -, -, -, -, -, e0, e1⟩ := idx_facts1 t
  exact Shape.idx_ext₂ ((win1_7.rect_emb_val t _ (0 : Fin 2)).trans (by rw [e0]; rfl)) (win1_7.rect_emb_val_of_index_zero t (1 : Fin 2) e1 _)

abbrev specAt1 (c : Dev nD) : FVec Ideal ⟨2, ![50000, 64]⟩ .f32 :=
  Cert.Spec.specB (V c main_v25) (fun j => V c main_v38 (ix2 0 j)) (fun j => V c main_v39 (ix2 0 j))
    (fun j => V c main_v40 (ix2 0 j)) (fun j => V c main_v41 (ix2 0 j)) (V c main_v35) (fun j => V c main_v42 (ix2 0 j))

theorem flushed1_7_eq (c : Dev nD) (t : Fin cfg1.N) :
    (dat1 (F := Ideal) V c).flushed 7 t = ((cfg1.win 7).blk t).view.read (Elt Ideal) (specAt1 V c) := by
  obtain ⟨h1, h2, h3, h4, h5, h6⟩ := iblk1_whole V c t
  show (cfg1.win 7).cut (grid1.coords t) ((dat1 V c).after 7 t) = _
  rw [after1_7]
  unfold out1_7
  rw [View.canon_unit_zero hz1]
  simp only [View.ld_unit_zero (S := S10000x64) hz1, View.ld_unit_zero (S := S1x64) hz1, View.ld_unit_zero (S := S64x64) hz1]
  funext j
  obtain ⟨p, q, rfl⟩ : ∃ (p : Fin 10000) (q : Fin 64), j = ix2 p q := ⟨j 0, j 1, eq_ix2 j⟩
  change _ = specAt1 V c (((cfg1.win 7).blk t).view.emb (ix2 p q))
  rw [embOut1_apply]
  refine (pay1_apply _ _ _ _ _ _ _ p q).trans ?_
  simp only [iblk1_0_apply, h1, h2, h3, h4, h5, h6]
  rfl

theorem covered1_7 (i : S50000x64.Idx) :
    ∃ t : Fin cfg1.N, (cfg1.win 7).flush t = true ∧ i ∈ ((cfg1.win 7).blk t).view.set := by
  have h0 : (i 0).val < 50000 := (i 0).isLt
  have h1 : (i 1).val < 64 := (i 1).isLt
  have hN : cfg1.N = 5 := N_1
  let t : Fin cfg1.N := ⟨(i 0).val / 10000, by rw [hN]; omega⟩
  obtain ⟨-, -, -, -, -, -, -, -, -, -, -, -, -, -, (e0 : win1_7.index t (0 : Fin 2) = (i 0).val / 10000), e1⟩ := idx_facts1 t
  refine ⟨t, flush1_7 t, ?_⟩
  show i ∈ ((View.whole main_v43).slice (win1_7.rect t)).set
  rw [View.set_slice_whole, Rect.mem_set_unit]
  intro a
  match a with
  | ⟨0, _⟩ => show win1_7.index t (0 : Fin 2) * 10000 ≤ (i 0).val ∧ (i 0).val < win1_7.index t (0 : Fin 2) * 10000 + 10000; rw [e0]; omega
  | ⟨1, _⟩ => show win1_7.index t (1 : Fin 2) * 64 ≤ (i 1).val ∧ (i 1).val < win1_7.index t (1 : Fin 2) * 64 + 64; rw [e1]; omega

theorem arrAt1_7 (c : Dev nD) : (dat1 (F := Ideal) V c).arrAt 7 cfg1.N
    = Cert.Spec.specB (V c main_v25) (fun j => V c main_v38 (ix2 0 j)) (fun j => V c main_v39 (ix2 0 j))
        (fun j => V c main_v40 (ix2 0 j)) (fun j => V c main_v41 (ix2 0 j)) (V c main_v35) (fun j => V c main_v42 (ix2 0 j)) :=
  (dat1 (F := Ideal) V c).arrAt_eq_of_cover 7 (specAt1 V c) (fun t _ => flushed1_7_eq V c t) covered1_7

end Cert.KernelIdeal.HF

end
-- ==== Proof.KValL0.lean ====
import proofs.«405318_j78374563217910_3_alg».proof.Proof.KValBase
import proofs.«405318_j78374563217910_3_alg».proof.Proof.KHostCall
import proofs.«405318_j78374563217910_3_alg».proof.Proof.ValI0
import proofs.«405318_j78374563217910_3_alg».proof.Proof.ValI1

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)

local notation "⟪" r "⟫" => (Proc.devRef (τ := τ) (sig := sig) Proc.tc r)

variable (m : (ℓ : Loc nD τ sig) → Buf (Elt Ideal) ℓ) (ρ : Dev nD → PrngReg) (c : Dev nD)

set_option quotPrecheck false
local notation "⟦a0⟧" => (m ((c : Thread nD τ).loc main_arg0))
local notation "⟦a1⟧" => (m ((c : Thread nD τ).loc main_arg1))
local notation "⟦a2⟧" => (m ((c : Thread nD τ).loc main_arg2))
local notation "⟦a3⟧" => (m ((c : Thread nD τ).loc main_arg3))
local notation "⟦a4⟧" => (m ((c : Thread nD τ).loc main_arg4))
local notation "⟦a5⟧" => (m ((c : Thread nD τ).loc main_arg5))
local notation "⟦a6⟧" => (m ((c : Thread nD τ).loc main_arg6))
local notation "⟦a7⟧" => (m ((c : Thread nD τ).loc main_arg7))
local notation "⟦a8⟧" => (m ((c : Thread nD τ).loc main_arg8))
local notation "⟦a9⟧" => (m ((c : Thread nD τ).loc main_arg9))
local notation "⟦a10⟧" => (m ((c : Thread nD τ).loc main_arg10))
local notation "⟦a11⟧" => (m ((c : Thread nD τ).loc main_arg11))
local notation "⟦a12⟧" => (m ((c : Thread nD τ).loc main_arg12))
local notation "⟦a13⟧" => (m ((c : Thread nD τ).loc main_arg13))
local notation "⟦a14⟧" => (m ((c : Thread nD τ).loc main_arg14))
local notation "⟦a15⟧" => (m ((c : Thread nD τ).loc main_arg15))
local notation "⟦src⟧" => (srcK ⟦a14⟧)
local notation "⟦dst⟧" => (dstK ⟦a14⟧)

local notation "⟦hin⟧" => ⟦a0⟧

local notation "⟦lin⟧" => (linK ⟦a1⟧ (sliceWe0 ⟦a2⟧) (sliceV0 ⟦a3⟧))

local notation "⟦take⟧" => (takeK ⟦hin⟧ ⟦src⟧)

local notation "⟦sum⟧" => (addf ⟦take⟧ ⟦lin⟧ : FVec Ideal S800000x64 .f32)

local notation "⟦agg⟧" => (aggK ⟦dst⟧ (msgK ⟦hin⟧ ⟦src⟧ ⟦a1⟧ (sliceWe0 ⟦a2⟧) (sliceV0 ⟦a3⟧)))

local notation "⟦z⟧" => (Cert.Spec.specA ⟦hin⟧ ⟦agg⟧ (sliceM0 ⟦a4⟧) (fun j => rowK (sliceV0 ⟦a5⟧) (ix2 0 j)))

theorem L0_lin : W1 m ρ c ⟪main_v11⟫ = ⟦lin⟧ := by
  refine (hostOps0_v11 (W0 m ρ c)).trans ?_
  rw [W0_arg1 m ρ c, W0_arg2 m ρ c, W0_arg3 m ρ c]
theorem L0_take : W2 m ρ c ⟪main_v12⟫ = ⟦take⟧ := by
  refine (hostOps0_1_v12 (W1 m ρ c)).trans ?_
  rw [W1_arg0 m ρ c, W1_v1 m ρ c]
theorem L0_sum : W3 m ρ c ⟪main_v13⟫ = ⟦sum⟧ := by
  refine (hostOps0_2_v13 (W2 m ρ c)).trans ?_
  rw [L0_take m ρ c, (W2_of m ρ c main_v11 (by decide)), L0_lin m ρ c]
theorem L0_relu : W4 m ρ c ⟪main_v14⟫ = reluK ⟦sum⟧ := by
  refine (hostOps0_3_v14 (W3 m ρ c)).trans ?_
  rw [L0_sum m ρ c]
theorem L0_agg : W5 m ρ c ⟪main_v19⟫ = ⟦agg⟧ := by
  refine (hostOps0_4_v19 (W4 m ρ c)).trans ?_
  rw [W4_v3 m ρ c, L0_relu m ρ c]
  rfl
theorem L0_w1 : W5 m ρ c ⟪main_v21⟫ = (sliceM0 ⟦a4⟧) := by
  refine (hostOps0_4_v21 (W4 m ρ c)).trans ?_
  rw [W4_arg4 m ρ c]
theorem L0_b1 : W5 m ρ c ⟪main_v24⟫ = rowK (sliceV0 ⟦a5⟧) := by
  refine (hostOps0_4_v24 (W4 m ρ c)).trans ?_
  rw [W4_arg5 m ρ c]

theorem L0_z : W6 m ρ c ⟪main_v25⟫ = ⟦z⟧ := by
  refine (W6_arr m ρ c 4).trans ((arrAt0_4 (V5 m ρ) c).trans ?_)
  show Cert.Spec.specA (W5 m ρ c ⟪main_arg0⟫) (W5 m ρ c ⟪main_v19⟫) (W5 m ρ c ⟪main_v21⟫) (fun j => W5 m ρ c ⟪main_v24⟫ (ix2 0 j)) = _
  rw [W5_arg0 m ρ c, L0_agg m ρ c, L0_w1 m ρ c, L0_b1 m ρ c]

theorem L0_mu : W7 m ρ c ⟪main_v28⟫ = muK ⟦z⟧ := by
  refine (hostOps1_v28 (W6 m ρ c)).trans ?_
  rw [L0_z m ρ c]
theorem L0_var : W8 m ρ c ⟪main_v29⟫ = varK ⟦z⟧ := by
  refine (hostOps1_1_v29 (W7 m ρ c)).trans ?_
  rw [(W7_of m ρ c main_v25 (by decide)), L0_z m ρ c, show W7 m ρ c ⟪main_c⟫ = constantI S_ 32 0#32 from hostOps1_c (W6 m ρ c)]
  rfl

theorem L0_out : W10 m ρ c ⟪main_v43⟫ = layerK ⟦hin⟧ ⟦src⟧ ⟦dst⟧ ⟦a1⟧ (sliceWe0 ⟦a2⟧) (sliceV0 ⟦a3⟧) (sliceM0 ⟦a4⟧) (sliceV0 ⟦a5⟧) (sliceV0 ⟦a6⟧) (sliceV0 ⟦a7⟧) (sliceM0 ⟦a8⟧) (sliceV0 ⟦a9⟧) := by
  refine (W10_arr m ρ c 7).trans ((arrAt1_7 (V9 m ρ) c).trans ?_)
  show Cert.Spec.specB (W9 m ρ c ⟪main_v25⟫) (fun j => W9 m ρ c ⟪main_v38⟫ (ix2 0 j)) (fun j => W9 m ρ c ⟪main_v39⟫ (ix2 0 j)) (fun j => W9 m ρ c ⟪main_v40⟫ (ix2 0 j)) (fun j => W9 m ρ c ⟪main_v41⟫ (ix2 0 j)) (W9 m ρ c ⟪main_v35⟫) (fun j => W9 m ρ c ⟪main_v42⟫ (ix2 0 j)) = _
  rw [show W9 m ρ c ⟪main_v25⟫ = ⟦z⟧ from ((W9_of m ρ c main_v25 (by decide)).trans <|
    (W8_of m ρ c main_v25 (by decide)).trans <|
    (W7_of m ρ c main_v25 (by decide))).trans (L0_z m ρ c),
    show W9 m ρ c ⟪main_v38⟫ = rowK (muK ⟦z⟧) from (hostOps1_2_v38 (W8 m ρ c)).trans (congrArg rowK (((W8_of m ρ c main_v28 (by decide))).trans (L0_mu m ρ c))),
    show W9 m ρ c ⟪main_v39⟫ = rowK (varK ⟦z⟧) from (hostOps1_2_v39 (W8 m ρ c)).trans (congrArg rowK (L0_var m ρ c)),
    show W9 m ρ c ⟪main_v40⟫ = rowK (sliceV0 ⟦a6⟧) from (hostOps1_2_v40 (W8 m ρ c)).trans (by rw [W8_arg6 m ρ c]),
    show W9 m ρ c ⟪main_v41⟫ = rowK (sliceV0 ⟦a7⟧) from (hostOps1_2_v41 (W8 m ρ c)).trans (by rw [W8_arg7 m ρ c]),
    show W9 m ρ c ⟪main_v35⟫ = (sliceM0 ⟦a8⟧) from (hostOps1_2_v35 (W8 m ρ c)).trans (by rw [W8_arg8 m ρ c]),
    show W9 m ρ c ⟪main_v42⟫ = rowK (sliceV0 ⟦a9⟧) from (hostOps1_2_v42 (W8 m ρ c)).trans (by rw [W8_arg9 m ρ c])]
  rfl

end Cert.KernelIdeal.HV

end
-- ==== Proof.KHost1.lean ====
import proofs.«405318_j78374563217910_3_alg».proof.Proof.Gen.KernelIdeal.Regions
import proofs.«405318_j78374563217910_3_alg».proof.Proof.KNet

set_option maxRecDepth 2024

noncomputable section

namespace Cert.KernelIdeal.HV

open Idealize.ShloMosaic Idealize.ShloMosaic.ValueIdx
open Cert.KernelIdeal Cert.KernelIdeal.Gen

local notation "⟪" r "⟫" => (Proc.devRef (τ := τ) (sig := sig) Proc.tc r)

variable (W : Valuation τ sig (Elt Ideal))

theorem hostOps2_v51 : StableHlo.after (hostOps2 (F := Ideal)) W ⟪main_v51⟫ = linK (W ⟪main_arg1⟫) (sliceWe1 (W ⟪main_arg2⟫)) (sliceV1 (W ⟪main_arg3⟫)) := by
  after_results <;> rfl
theorem hostOps2_2_v53 : StableHlo.after (hostOps2_2 (F := Ideal)) W ⟪main_v53⟫ = (addf (W ⟪main_v52⟫ : FVec Ideal S800000x64 .f32) (W ⟪main_v51⟫) : FVec Ideal S800000x64 .f32) := by
  after_results <;> rfl
theorem hostOps2_3_v54 : StableHlo.after (hostOps2_3 (F := Ideal)) W ⟪main_v54⟫ = reluK (W ⟪main_v53⟫) := by
  after_results <;> (try simp only [StableHlo.TRef.ofBuf, StableHlo.TRef.toBuf, cast_eq]) <;> rfl
theorem hostOps2_4_v59 : StableHlo.after (hostOps2_4 (F := Ideal)) W ⟪main_v59⟫ = aggK (W ⟪main_v3⟫) (roundK (W ⟪main_v54⟫)) := by
  after_results <;> rfl
theorem hostOps2_4_v61 : StableHlo.after (hostOps2_4 (F := Ideal)) W ⟪main_v61⟫ = sliceM1 (W ⟪main_arg4⟫) := by
  after_results <;> rfl
theorem hostOps2_4_v64 : StableHlo.after (hostOps2_4 (F := Ideal)) W ⟪main_v64⟫ = rowK (sliceV1 (W ⟪main_arg5⟫)) := by
  after_results <;> rfl

theorem hostOps3_v68 : StableHlo.after (hostOps3 (F := Ideal)) W ⟪main_v68⟫ = muK (W ⟪main_v65⟫) := by
  after_results <;> rfl
theorem hostOps3_c_5 : StableHlo.after (hostOps3 (F := Ideal)) W ⟪main_c_5⟫ = constantI S_ 32 0#32 := by
  after_results <;> rfl
theorem hostOps3_2_v75 : StableHlo.after (hostOps3_2 (F := Ideal)) W ⟪main_v75⟫ = sliceM1 (W ⟪main_arg8⟫) := by
  after_results <;> rfl
theorem hostOps3_2_v78 : StableHlo.after (hostOps3_2 (F := Ideal)) W ⟪main_v78⟫ = rowK (W ⟪main_v68⟫) := by
  after_results <;> rfl
theorem hostOps3_2_v79 : StableHlo.after (hostOps3_2 (F := Ideal)) W ⟪main_v79⟫ = rowK (W ⟪main_v69⟫) := by
  after_results <;> rfl
theorem hostOps3_2_v80 : StableHlo.after (hostOps3_2 (F := Ideal)) W ⟪main_v80⟫ = rowK (sliceV1 (W ⟪main_arg6⟫)) := by
  after_results <;> rfl
theorem hostOps3_2_v81 : StableHlo.after (hostOps3_2 (F := Ideal)) W ⟪main_v81⟫ = rowK (sliceV1 (W ⟪main_arg7⟫)) := by
  after_results <;> rfl
theorem hostOps3_2_v82 : StableHlo.after (hostOps3_2 (F := Ideal)) W ⟪main_v82⟫ = rowK (sliceV1 (W ⟪main_arg9⟫)) := by
  after_results <;> rfl

end Cert.KernelIdeal.HV

end
-- ==== Proof.ValI2.lean ====
import proofs.«405318_j78374563217910_3_alg».proof.Proof.RegI2
import proofs.«405318_j78374563217910_3_alg».proof.Proof.SpecA
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem pay2_apply (x0 x1 : Vec Ideal S10000x64 .f32) (x2 : Vec Ideal S64x64 .f32) (x3 : Vec Ideal S1x64 .f32)
    (p : Fin 10000) (q : Fin 64) :
    k2_pay1 (F := Ideal) x0 x1 x2 x3 (ix2 p q)
      = (∑ k : Fin 64, (x0 (ix2 p k) + x1 (ix2 p k)) * x2 (ix2 k q)) + x3 (ix2 (0 : Fin 1) q) := by
  unfold k2_pay1
  simp only [shapeCast_self]
  rw [addf_apply, broadcastTo_1b_ab_apply, matmul_zero_eq_dotGeneral]
  congr 1
  exact (StackMember.dotGeneral_plain_apply none _ _ p q).trans
    (Finset.sum_congr rfl fun k _ => by rw [truncf_apply, truncf_apply, addf_apply])

theorem hz2 : (![0, 0] : Fin 2 → Nat) = fun _ => 0 := funext fun a => by fin_cases a <;> rfl

theorem idx_facts2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 :=
  (by decide +kernel : ∀ t : Fin grid2.N, _)

theorem idx_onto2 : ∀ q0 : Fin 5, ∃ t : Fin cfg2.N, win2_4.index t = ![q0.val, 0] :=
  (by decide +kernel : ∀ q0 : Fin 5, ∃ t : Fin grid2.N, win2_4.index t = ![q0.val, 0])

theorem flushed2_4 (c : Dev nD) (t : Fin cfg2.N) :
    (dat2 (F := Ideal) V c).flushed 4 t = ((cfg2.win 4).blk t).view.read (Elt Ideal)
      (Cert.Spec.specA (V c main_v43) (V c main_v59) (V c main_v61) (fun j => V c main_v64 (ix2 (0 : Fin 1) j))) := by
  show (cfg2.win 4).cut (grid2.coords t) ((dat2 V c).after 4 t) = _
  rw [after2_4]
  unfold out2_4
  rw [View.canon_unit_zero hz2]
  simp only [View.ld_unit_zero (S := S10000x64) hz2, View.ld_unit_zero (S := S64x64) hz2, View.ld_unit_zero (S := S1x64) hz2]
  obtain ⟨e00, e01, e10, e11, e20, e21, e30, e31, e41⟩ := idx_facts2 t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (iblk2 V c 2 t) (iblk2 V c 3 t) (ix2 p q)
    = Cert.Spec.specA (V c main_v43) (V c main_v59) (V c main_v61) (fun j => V c main_v64 (ix2 (0 : Fin 1) j))
        (((cfg2.win 4).blk t).view.emb (ix2 p q))
  set i := ((cfg2.win 4).blk t).view.emb (ix2 p q)
  rw [pay2_apply]
  unfold Cert.Spec.specA
  have h3 : ((cfg2.win 3).blk t).view.emb (ix2 (0 : Fin 1) q) = ix2 (0 : Fin 1) (i 1) :=
    Shape.idx_ext₂ (by show win2_3.index t (0 : Fin 2) * 1 + 1 * 0 = 0; omega)
      (by show win2_3.index t (1 : Fin 2) * 64 + 1 * q.val = win2_4.index t (1 : Fin 2) * 64 + 1 * q.val; omega)
  refine congrArg₂ (fun x y : EReal => x + y) (Finset.sum_congr rfl fun k _ => ?_) ?_
  · have h0 : ((cfg2.win 0).blk t).view.emb (ix2 p k) = ix2 (i 0) k :=
      Shape.idx_ext₂ (by show win2_0.index t (0 : Fin 2) * 10000 + 1 * p.val = win2_4.index t (0 : Fin 2) * 10000 + 1 * p.val; omega)
        (by show win2_0.index t (1 : Fin 2) * 64 + 1 * k.val = k.val; omega)
    have h1 : ((cfg2.win 1).blk t).view.emb (ix2 p k) = ix2 (i 0) k :=
      Shape.idx_ext₂ (by show win2_1.index t (0 : Fin 2) * 10000 + 1 * p.val = win2_4.index t (0 : Fin 2) * 10000 + 1 * p.val; omega)
        (by show win2_1.index t (1 : Fin 2) * 64 + 1 * k.val = k.val; omega)
    have h2 : ((cfg2.win 2).blk t).view.emb (ix2 k q) = ix2 k (i 1) :=
      Shape.idx_ext₂ (by show win2_2.index t (0 : Fin 2) * 64 + 1 * k.val = k.val; omega)
        (by show win2_2.index t (1 : Fin 2) * 64 + 1 * q.val = win2_4.index t (1 : Fin 2) * 64 + 1 * q.val; omega)
    refine congrArg₂ (fun x y : EReal => x * y) (congrArg₂ (fun x y : EReal => x + y) ?_ ?_) ?_
    · exact congrArg (V c main_v43) h0
    · exact congrArg (V c main_v59) h1
    · exact congrArg (V c main_v61) h2
  · exact congrArg (V c main_v64) h3

theorem covered2_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := idx_onto2 ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  show i ∈ ((View.whole main_v65).slice (win2_4.rect t)).set
  rw [View.set_slice_whole, Rect.mem_set_unit]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

theorem arrAt2_4 (c : Dev nD) :
    (dat2 (F := Ideal) V c).arrAt 4 cfg2.N
      = Cert.Spec.specA (V c main_v43) (V c main_v59) (V c main_v61) (fun j => V c main_v64 (ix2 (0 : Fin 1) j)) :=
  (dat2 (F := Ideal) V c).arrAt_eq_of_cover 4 _ (fun t _ => flushed2_4 V c t) covered2_4

end Cert.KernelIdeal.HV

end
-- ==== Proof.ValI3.lean ====
import proofs.«405318_j78374563217910_3_alg».proof.Proof.RegI3
import proofs.«405318_j78374563217910_3_alg».proof.Proof.SpecB
import Idealize.ShloMosaic.Lib.Pipeline.Value
import Idealize.ShloMosaic.Lib.ValueLayout
import Idealize.ShloMosaic.PureOps.Ideal.Laws

noncomputable section

open scoped BigOperators

namespace Cert.KernelIdeal.HF

open Cert.KernelIdeal Cert.KernelIdeal.Gen
open Idealize.ShloMosaic Idealize.ShloMosaic.TcCoe Idealize.ShloMosaic.ValueIdx Idealize.SL.Sem
open Idealize.ShloMosaic.Pipeline (Dat)

private theorem rsqrtB_apply {s : Shape} {φ : FTy} (v : FVec Ideal s φ) (i : s.Idx) : rsqrt v i = Ideal.rsqrt (v i) := rfl

private theorem matmulB_apply {φ₁ φ₂ : FTy} (prec : Option ContractPrecision) (A : FVec Ideal S10000x64 φ₁) (B : FVec Ideal S64x64 φ₂)
    (p : Fin 10000) (q : Fin 64) :
    FloatOps.matmul dot_S10000x64_S64x64_S10000x64_1_0_0_1_n_n prec A B (constant S10000x64 .f32 0x00000000#32) (ix2 p q)
      = ∑ k : Fin 64, A (ix2 p k) * B (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have c2 := contrEquiv1_symm_val dot_S10000x64_S64x64_S10000x64_1_0_0_1_n_n 64 rfl rfl k
  rw [show dot_S10000x64_S64x64_S10000x64_1_0_0_1_n_n.lhsIdx (ix2 p q) ((contrEquiv1 _ 64 rfl rfl).symm k) = ix2 p k from Shape.idx_ext₂ rfl c2,
    show dot_S10000x64_S64x64_S10000x64_1_0_0_1_n_n.rhsIdx (ix2 p q) ((contrEquiv1 _ 64 rfl rfl).symm k) = ix2 k q from Shape.idx_ext₂ c2 rfl]

theorem pay3_apply (x0 : Vec Ideal S10000x64 .f32) (x1 x2 x3 x4 : Vec Ideal S1x64 .f32) (x5 : Vec Ideal S64x64 .f32)
    (x6 : Vec Ideal S1x64 .f32) (p : Fin 10000) (q : Fin 64) :
    k3_pay1 (F := Ideal) x0 x1 x2 x3 x4 x5 x6 (ix2 p q)
      = max ((∑ k : Fin 64, max ((((x0 (ix2 p k) - x1 (ix2 0 k)) * Ideal.rsqrt (x2 (ix2 0 k) + Ideal.ofBits .f32 0x3727C5AC#32))
          * x3 (ix2 0 k)) + x4 (ix2 0 k)) 0 * x5 (ix2 k q)) + x6 (ix2 0 q)) 0 := by
  unfold k3_pay1
  simp only [shapeCast_self]
  simp only [matmul]
  rw [maximumf_apply, addf_apply, matmulB_apply]
  simp only [truncf_apply, maximumf_apply, addf_apply, mulf_apply, subf_apply, broadcast_apply, broadcastTo_1b_ab_apply, rsqrtB_apply,
    Ideal.ofBits_def, Ideal.ofBits_zero_f32]

variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

def rowB3 (t : Fin cfg3.N) (p : Fin 10000) : Fin 50000 := ⟨t.val * 10000 + p.val, by have := lt_of_lt_of_eq t.isLt N_3; omega⟩

theorem iblk3_0_apply (c : Dev nD) (t : Fin cfg3.N) (p : Fin 10000) (k : Fin 64) :
    iblk3 V c 0 t (ix2 p k) = V c main_v65 (ix2 (rowB3 t p) k) := by
  obtain ⟨e0, e1, -⟩ := idx_facts3 t
  exact congrArg _ (Shape.idx_ext₂ ((win3_0.rect_emb_val t _ (0 : Fin 2)).trans (by rw [e0]; rfl)) (win3_0.rect_emb_val_of_index_zero t (1 : Fin 2) e1 _))

theorem iblk3_whole (c : Dev nD) (t : Fin cfg3.N) : iblk3 V c 1 t = V c main_v78 ∧ iblk3 V c 2 t = V c main_v79 ∧ iblk3 V c 3 t = V c main_v80
    ∧ iblk3 V c 4 t = V c main_v81 ∧ iblk3 V c 5 t = V c main_v75 ∧ iblk3 V c 6 t = V c main_v82 := by
  obtain ⟨-, -, a1, b1, a2, b2, a3, b3, a4, b4, a5, b5, a6, b6, -⟩ := idx_facts3 t
  refine ⟨?_, ?_, ?_, ?_, ?_, ?_⟩ <;> exact funext fun y => congrArg _ (Shape.idx_ext₂
    (Pipeline.Window.rect_emb_val_of_index_zero _ t (0 : Fin 2) (by assumption) y) (Pipeline.Window.rect_emb_val_of_index_zero _ t (1 : Fin 2) (by assumption) y))

theorem embOut3_apply (t : Fin cfg3.N) (p : Fin 10000) (q : Fin 64) :
    ((cfg3.win 7).blk t).view.emb (ix2 p q) = ix2 (rowB3 t p) q := by
  obtain ⟨-, -, -, -, -, -, -, -, -, -, -, -, -, -, e0, e1⟩ := idx_facts3 t
  exact Shape.idx_ext₂ ((win3_7.rect_emb_val t _ (0 : Fin 2)).trans (by rw [e0]; rfl)) (win3_7.rect_emb_val_of_index_zero t (1 : Fin 2) e1 _)

abbrev specAt3 (c : Dev nD) : FVec Ideal ⟨2, ![50000, 64]⟩ .f32 :=
  Cert.Spec.specB (V c main_v65) (fun j => V c main_v78 (ix2 0 j)) (fun j => V c main_v79 (ix2 0 j))
    (fun j => V c main_v80 (ix2 0 j)) (fun j => V c main_v81 (ix2 0 j)) (V c main_v75) (fun j => V c main_v82 (ix2 0 j))

theorem flushed3_7_eq (c : Dev nD) (t : Fin cfg3.N) :
    (dat3 (F := Ideal) V c).flushed 7 t = ((cfg3.win 7).blk t).view.read (Elt Ideal) (specAt3 V c) := by
  obtain ⟨h1, h2, h3, h4, h5, h6⟩ := iblk3_whole V c t
  show (cfg3.win 7).cut (grid3.coords t) ((dat3 V c).after 7 t) = _
  rw [after3_7]
  unfold out3_7
  rw [View.canon_unit_zero hz3]
  simp only [View.ld_unit_zero (S := S10000x64) hz3, View.ld_unit_zero (S := S1x64) hz3, View.ld_unit_zero (S := S64x64) hz3]
  funext j
  obtain ⟨p, q, rfl⟩ : ∃ (p : Fin 10000) (q : Fin 64), j = ix2 p q := ⟨j 0, j 1, eq_ix2 j⟩
  change _ = specAt3 V c (((cfg3.win 7).blk t).view.emb (ix2 p q))
  rw [embOut3_apply]
  refine (pay3_apply _ _ _ _ _ _ _ p q).trans ?_
  simp only [iblk3_0_apply, h1, h2, h3, h4, h5, h6]
  rfl

theorem covered3_7 (i : S50000x64.Idx) :
    ∃ t : Fin cfg3.N, (cfg3.win 7).flush t = true ∧ i ∈ ((cfg3.win 7).blk t).view.set := by
  have h0 : (i 0).val < 50000 := (i 0).isLt
  have h1 : (i 1).val < 64 := (i 1).isLt
  have hN : cfg3.N = 5 := N_3
  let t : Fin cfg3.N := ⟨(i 0).val / 10000, by rw [hN]; omega⟩
  obtain ⟨-, -, -, -, -, -, -, -, -, -, -, -, -, -, (e0 : win3_7.index t (0 : Fin 2) = (i 0).val / 10000), e1⟩ := idx_facts3 t
  refine ⟨t, flush3_7 t, ?_⟩
  show i ∈ ((View.whole main_v83).slice (win3_7.rect t)).set
  rw [View.set_slice_whole, Rect.mem_set_unit]
  intro a
  match a with
  | ⟨0, _⟩ => show win3_7.index t (0 : Fin 2) * 10000 ≤ (i 0).val ∧ (i 0).val < win3_7.index t (0 : Fin 2) * 10000 + 10000; rw [e0]; omega
  | ⟨1, _⟩ => show win3_7.index t (1 : Fin 2) * 64 ≤ (i 1).val ∧ (i 1).val < win3_7.index t (1 : Fin 2) * 64 + 64; rw [e1]; omega

theorem arrAt3_7 (c : Dev nD) : (dat3 (F := Ideal) V c).arrAt 7 cfg3.N
    = Cert.Spec.specB (V c main_v65) (fun j => V c main_v78 (ix2 0 j)) (fun j => V c main_v79 (ix2 0 j))
        (fun j => V c main_v80 (ix2 0 j)) (fun j => V c main_v81 (ix2 0 j)) (V c main_v75) (fun j => V c main_v82 (ix2 0 j)) :=
  (dat3 (F := Ideal) V c).arrAt_eq_of_cover 7 (specAt3 V c) (fun t _ => flushed3_7_eq V c t) covered3_7

end Cert.KernelIdeal.HF

end
-- ==== Proof.KValL1.lean ====
import proofs.«405318_j78374563217910_3_alg».proof.Proof.KValBase
import proofs.«405318_j78374563217910_3_alg».proof.Proof.KHost1
import proofs.«405318_j78374563217910_3_alg».proof.Proof.KHostCall
import proofs.«405318_j78374563217910_3_alg».proof.Proof.ValI2
import proofs.«405318_j78374563217910_3_alg».proof.Proof.ValI3

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)

local notation "⟪" r "⟫" => (Proc.devRef (τ := τ) (sig := sig) Proc.tc r)

variable (m : (ℓ : Loc nD τ sig) → Buf (Elt Ideal) ℓ) (ρ : Dev nD → PrngReg) (c : Dev nD)

set_option quotPrecheck false
local notation "⟦a0⟧" => (m ((c : Thread nD τ).loc main_arg0))
local notation "⟦a1⟧" => (m ((c : Thread nD τ).loc main_arg1))
local notation "⟦a2⟧" => (m ((c : Thread nD τ).loc main_arg2))
local notation "⟦a3⟧" => (m ((c : Thread nD τ).loc main_arg3))
local notation "⟦a4⟧" => (m ((c : Thread nD τ).loc main_arg4))
local notation "⟦a5⟧" => (m ((c : Thread nD τ).loc main_arg5))
local notation "⟦a6⟧" => (m ((c : Thread nD τ).loc main_arg6))
local notation "⟦a7⟧" => (m ((c : Thread nD τ).loc main_arg7))
local notation "⟦a8⟧" => (m ((c : Thread nD τ).loc main_arg8))
local notation "⟦a9⟧" => (m ((c : Thread nD τ).loc main_arg9))
local notation "⟦a10⟧" => (m ((c : Thread nD τ).loc main_arg10))
local notation "⟦a11⟧" => (m ((c : Thread nD τ).loc main_arg11))
local notation "⟦a12⟧" => (m ((c : Thread nD τ).loc main_arg12))
local notation "⟦a13⟧" => (m ((c : Thread nD τ).loc main_arg13))
local notation "⟦a14⟧" => (m ((c : Thread nD τ).loc main_arg14))
local notation "⟦a15⟧" => (m ((c : Thread nD τ).loc main_arg15))
local notation "⟦src⟧" => (srcK ⟦a14⟧)
local notation "⟦dst⟧" => (dstK ⟦a14⟧)

local notation "⟦hin⟧" => (W10 m ρ c ⟪main_v43⟫)

local notation "⟦lin⟧" => (linK ⟦a1⟧ (sliceWe1 ⟦a2⟧) (sliceV1 ⟦a3⟧))

local notation "⟦take⟧" => (takeK ⟦hin⟧ ⟦src⟧)

local notation "⟦sum⟧" => (addf ⟦take⟧ ⟦lin⟧ : FVec Ideal S800000x64 .f32)

local notation "⟦agg⟧" => (aggK ⟦dst⟧ (msgK ⟦hin⟧ ⟦src⟧ ⟦a1⟧ (sliceWe1 ⟦a2⟧) (sliceV1 ⟦a3⟧)))

local notation "⟦z⟧" => (Cert.Spec.specA ⟦hin⟧ ⟦agg⟧ (sliceM1 ⟦a4⟧) (fun j => rowK (sliceV1 ⟦a5⟧) (ix2 0 j)))

theorem L1_hin11 : W11 m ρ c ⟪main_v43⟫ = ⟦hin⟧ :=
  (W11_of m ρ c main_v43 (by decide))

theorem L1_hin15 : W15 m ρ c ⟪main_v43⟫ = ⟦hin⟧ :=
  (W15_of m ρ c main_v43 (by decide)).trans <|
    (W14_of m ρ c main_v43 (by decide)).trans <|
    (W13_of m ρ c main_v43 (by decide)).trans <|
    (W12_of m ρ c main_v43 (by decide)).trans <|
    (L1_hin11 m ρ c)
theorem L1_lin : W11 m ρ c ⟪main_v51⟫ = ⟦lin⟧ := by
  refine (hostOps2_v51 (W10 m ρ c)).trans ?_
  rw [W10_arg1 m ρ c, W10_arg2 m ρ c, W10_arg3 m ρ c]
theorem L1_take : W12 m ρ c ⟪main_v52⟫ = ⟦take⟧ := by
  refine (hostOps2_1_v52 (W11 m ρ c)).trans ?_
  rw [L1_hin11 m ρ c, W11_v1 m ρ c]
theorem L1_sum : W13 m ρ c ⟪main_v53⟫ = ⟦sum⟧ := by
  refine (hostOps2_2_v53 (W12 m ρ c)).trans ?_
  rw [L1_take m ρ c, (W12_of m ρ c main_v51 (by decide)), L1_lin m ρ c]
theorem L1_relu : W14 m ρ c ⟪main_v54⟫ = reluK ⟦sum⟧ := by
  refine (hostOps2_3_v54 (W13 m ρ c)).trans ?_
  rw [L1_sum m ρ c]
theorem L1_agg : W15 m ρ c ⟪main_v59⟫ = ⟦agg⟧ := by
  refine (hostOps2_4_v59 (W14 m ρ c)).trans ?_
  rw [W14_v3 m ρ c, L1_relu m ρ c]
  rfl
theorem L1_w1 : W15 m ρ c ⟪main_v61⟫ = (sliceM1 ⟦a4⟧) := by
  refine (hostOps2_4_v61 (W14 m ρ c)).trans ?_
  rw [W14_arg4 m ρ c]
theorem L1_b1 : W15 m ρ c ⟪main_v64⟫ = rowK (sliceV1 ⟦a5⟧) := by
  refine (hostOps2_4_v64 (W14 m ρ c)).trans ?_
  rw [W14_arg5 m ρ c]

theorem L1_z : W16 m ρ c ⟪main_v65⟫ = ⟦z⟧ := by
  refine (W16_arr m ρ c 4).trans ((arrAt2_4 (V15 m ρ) c).trans ?_)
  show Cert.Spec.specA (W15 m ρ c ⟪main_v43⟫) (W15 m ρ c ⟪main_v59⟫) (W15 m ρ c ⟪main_v61⟫) (fun j => W15 m ρ c ⟪main_v64⟫ (ix2 0 j)) = _
  rw [L1_hin15 m ρ c, L1_agg m ρ c, L1_w1 m ρ c, L1_b1 m ρ c]

theorem L1_mu : W17 m ρ c ⟪main_v68⟫ = muK ⟦z⟧ := by
  refine (hostOps3_v68 (W16 m ρ c)).trans ?_
  rw [L1_z m ρ c]
theorem L1_var : W18 m ρ c ⟪main_v69⟫ = varK ⟦z⟧ := by
  refine (hostOps3_1_v69 (W17 m ρ c)).trans ?_
  rw [(W17_of m ρ c main_v65 (by decide)), L1_z m ρ c, show W17 m ρ c ⟪main_c_5⟫ = constantI S_ 32 0#32 from hostOps3_c_5 (W16 m ρ c)]
  rfl

theorem L1_out : W20 m ρ c ⟪main_v83⟫ = layerK ⟦hin⟧ ⟦src⟧ ⟦dst⟧ ⟦a1⟧ (sliceWe1 ⟦a2⟧) (sliceV1 ⟦a3⟧) (sliceM1 ⟦a4⟧) (sliceV1 ⟦a5⟧) (sliceV1 ⟦a6⟧) (sliceV1 ⟦a7⟧) (sliceM1 ⟦a8⟧) (sliceV1 ⟦a9⟧) := by
  refine (W20_arr m ρ c 7).trans ((arrAt3_7 (V19 m ρ) c).trans ?_)
  show Cert.Spec.specB (W19 m ρ c ⟪main_v65⟫) (fun j => W19 m ρ c ⟪main_v78⟫ (ix2 0 j)) (fun j => W19 m ρ c ⟪main_v79⟫ (ix2 0 j)) (fun j => W19 m ρ c ⟪main_v80⟫ (ix2 0 j)) (fun j => W19 m ρ c ⟪main_v81⟫ (ix2 0 j)) (W19 m ρ c ⟪main_v75⟫) (fun j => W19 m ρ c ⟪main_v82⟫ (ix2 0 j)) = _
  rw [show W19 m ρ c ⟪main_v65⟫ = ⟦z⟧ from ((W19_of m ρ c main_v65 (by decide)).trans <|
    (W18_of m ρ c main_v65 (by decide)).trans <|
    (W17_of m ρ c main_v65 (by decide))).trans (L1_z m ρ c),
    show W19 m ρ c ⟪main_v78⟫ = rowK (muK ⟦z⟧) from (hostOps3_2_v78 (W18 m ρ c)).trans (congrArg rowK (((W18_of m ρ c main_v68 (by decide))).trans (L1_mu m ρ c))),
    show W19 m ρ c ⟪main_v79⟫ = rowK (varK ⟦z⟧) from (hostOps3_2_v79 (W18 m ρ c)).trans (congrArg rowK (L1_var m ρ c)),
    show W19 m ρ c ⟪main_v80⟫ = rowK (sliceV1 ⟦a6⟧) from (hostOps3_2_v80 (W18 m ρ c)).trans (by rw [W18_arg6 m ρ c]),
    show W19 m ρ c ⟪main_v81⟫ = rowK (sliceV1 ⟦a7⟧) from (hostOps3_2_v81 (W18 m ρ c)).trans (by rw [W18_arg7 m ρ c]),
    show W19 m ρ c ⟪main_v75⟫ = (sliceM1 ⟦a8⟧) from (hostOps3_2_v75 (W18 m ρ c)).trans (by rw [W18_arg8 m ρ c]),
    show W19 m ρ c ⟪main_v82⟫ = rowK (sliceV1 ⟦a9⟧) from (hostOps3_2_v82 (W18 m ρ c)).trans (by rw [W18_arg9 m ρ c])]
  rfl

end Cert.KernelIdeal.HV

end
-- ==== Proof.KHost2.lean ====
import proofs.«405318_j78374563217910_3_alg».proof.Proof.Gen.KernelIdeal.Regions
import proofs.«405318_j78374563217910_3_alg».proof.Proof.KNet

set_option maxRecDepth 2024

noncomputable section

namespace Cert.KernelIdeal.HV

open Idealize.ShloMosaic Idealize.ShloMosaic.ValueIdx
open Cert.KernelIdeal Cert.KernelIdeal.Gen

local notation "⟪" r "⟫" => (Proc.devRef (τ := τ) (sig := sig) Proc.tc r)

variable (W : Valuation τ sig (Elt Ideal))

theorem hostOps4_v91 : StableHlo.after (hostOps4 (F := Ideal)) W ⟪main_v91⟫ = linK (W ⟪main_arg1⟫) (sliceWe2 (W ⟪main_arg2⟫)) (sliceV2 (W ⟪main_arg3⟫)) := by
  after_results <;> rfl
theorem hostOps4_2_v93 : StableHlo.after (hostOps4_2 (F := Ideal)) W ⟪main_v93⟫ = (addf (W ⟪main_v92⟫ : FVec Ideal S800000x64 .f32) (W ⟪main_v91⟫) : FVec Ideal S800000x64 .f32) := by
  after_results <;> rfl
theorem hostOps4_3_v94 : StableHlo.after (hostOps4_3 (F := Ideal)) W ⟪main_v94⟫ = reluK (W ⟪main_v93⟫) := by
  after_results <;> (try simp only [StableHlo.TRef.ofBuf, StableHlo.TRef.toBuf, cast_eq]) <;> rfl
theorem hostOps4_4_v99 : StableHlo.after (hostOps4_4 (F := Ideal)) W ⟪main_v99⟫ = aggK (W ⟪main_v3⟫) (roundK (W ⟪main_v94⟫)) := by
  after_results <;> rfl
theorem hostOps4_4_v101 : StableHlo.after (hostOps4_4 (F := Ideal)) W ⟪main_v101⟫ = sliceM2 (W ⟪main_arg4⟫) := by
  after_results <;> rfl
theorem hostOps4_4_v104 : StableHlo.after (hostOps4_4 (F := Ideal)) W ⟪main_v104⟫ = rowK (sliceV2 (W ⟪main_arg5⟫)) := by
  after_results <;> rfl

theorem hostOps5_v108 : StableHlo.after (hostOps5 (F := Ideal)) W ⟪main_v108⟫ = muK (W ⟪main_v105⟫) := by
  after_results <;> rfl
theorem hostOps5_c_9 : StableHlo.after (hostOps5 (F := Ideal)) W ⟪main_c_9⟫ = constantI S_ 32 0#32 := by
  after_results <;> rfl
theorem hostOps5_2_v115 : StableHlo.after (hostOps5_2 (F := Ideal)) W ⟪main_v115⟫ = sliceM2 (W ⟪main_arg8⟫) := by
  after_results <;> rfl
theorem hostOps5_2_v118 : StableHlo.after (hostOps5_2 (F := Ideal)) W ⟪main_v118⟫ = rowK (W ⟪main_v108⟫) := by
  after_results <;> rfl
theorem hostOps5_2_v119 : StableHlo.after (hostOps5_2 (F := Ideal)) W ⟪main_v119⟫ = rowK (W ⟪main_v109⟫) := by
  after_results <;> rfl
theorem hostOps5_2_v120 : StableHlo.after (hostOps5_2 (F := Ideal)) W ⟪main_v120⟫ = rowK (sliceV2 (W ⟪main_arg6⟫)) := by
  after_results <;> rfl
theorem hostOps5_2_v121 : StableHlo.after (hostOps5_2 (F := Ideal)) W ⟪main_v121⟫ = rowK (sliceV2 (W ⟪main_arg7⟫)) := by
  after_results <;> rfl
theorem hostOps5_2_v122 : StableHlo.after (hostOps5_2 (F := Ideal)) W ⟪main_v122⟫ = rowK (sliceV2 (W ⟪main_arg9⟫)) := by
  after_results <;> rfl

end Cert.KernelIdeal.HV

end
-- ==== Proof.ValI4.lean ====
import proofs.«405318_j78374563217910_3_alg».proof.Proof.RegI4
import proofs.«405318_j78374563217910_3_alg».proof.Proof.SpecA
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem pay4_apply (x0 x1 : Vec Ideal S10000x64 .f32) (x2 : Vec Ideal S64x64 .f32) (x3 : Vec Ideal S1x64 .f32)
    (p : Fin 10000) (q : Fin 64) :
    k4_pay1 (F := Ideal) x0 x1 x2 x3 (ix2 p q)
      = (∑ k : Fin 64, (x0 (ix2 p k) + x1 (ix2 p k)) * x2 (ix2 k q)) + x3 (ix2 (0 : Fin 1) q) := by
  unfold k4_pay1
  simp only [shapeCast_self]
  rw [addf_apply, broadcastTo_1b_ab_apply, matmul_zero_eq_dotGeneral]
  congr 1
  exact (StackMember.dotGeneral_plain_apply none _ _ p q).trans
    (Finset.sum_congr rfl fun k _ => by rw [truncf_apply, truncf_apply, addf_apply])

theorem hz4 : (![0, 0] : Fin 2 → Nat) = fun _ => 0 := funext fun a => by fin_cases a <;> rfl

theorem idx_facts4 : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (1 : Fin 2) = 0 :=
  (by decide +kernel : ∀ t : Fin grid4.N, _)

theorem idx_onto4 : ∀ q0 : Fin 5, ∃ t : Fin cfg4.N, win4_4.index t = ![q0.val, 0] :=
  (by decide +kernel : ∀ q0 : Fin 5, ∃ t : Fin grid4.N, win4_4.index t = ![q0.val, 0])

theorem flushed4_4 (c : Dev nD) (t : Fin cfg4.N) :
    (dat4 (F := Ideal) V c).flushed 4 t = ((cfg4.win 4).blk t).view.read (Elt Ideal)
      (Cert.Spec.specA (V c main_v83) (V c main_v99) (V c main_v101) (fun j => V c main_v104 (ix2 (0 : Fin 1) j))) := by
  show (cfg4.win 4).cut (grid4.coords t) ((dat4 V c).after 4 t) = _
  rw [after4_4]
  unfold out4_4
  rw [View.canon_unit_zero hz4]
  simp only [View.ld_unit_zero (S := S10000x64) hz4, View.ld_unit_zero (S := S64x64) hz4, View.ld_unit_zero (S := S1x64) hz4]
  obtain ⟨e00, e01, e10, e11, e20, e21, e30, e31, e41⟩ := idx_facts4 t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (iblk4 V c 2 t) (iblk4 V c 3 t) (ix2 p q)
    = Cert.Spec.specA (V c main_v83) (V c main_v99) (V c main_v101) (fun j => V c main_v104 (ix2 (0 : Fin 1) j))
        (((cfg4.win 4).blk t).view.emb (ix2 p q))
  set i := ((cfg4.win 4).blk t).view.emb (ix2 p q)
  rw [pay4_apply]
  unfold Cert.Spec.specA
  have h3 : ((cfg4.win 3).blk t).view.emb (ix2 (0 : Fin 1) q) = ix2 (0 : Fin 1) (i 1) :=
    Shape.idx_ext₂ (by show win4_3.index t (0 : Fin 2) * 1 + 1 * 0 = 0; omega)
      (by show win4_3.index t (1 : Fin 2) * 64 + 1 * q.val = win4_4.index t (1 : Fin 2) * 64 + 1 * q.val; omega)
  refine congrArg₂ (fun x y : EReal => x + y) (Finset.sum_congr rfl fun k _ => ?_) ?_
  · have h0 : ((cfg4.win 0).blk t).view.emb (ix2 p k) = ix2 (i 0) k :=
      Shape.idx_ext₂ (by show win4_0.index t (0 : Fin 2) * 10000 + 1 * p.val = win4_4.index t (0 : Fin 2) * 10000 + 1 * p.val; omega)
        (by show win4_0.index t (1 : Fin 2) * 64 + 1 * k.val = k.val; omega)
    have h1 : ((cfg4.win 1).blk t).view.emb (ix2 p k) = ix2 (i 0) k :=
      Shape.idx_ext₂ (by show win4_1.index t (0 : Fin 2) * 10000 + 1 * p.val = win4_4.index t (0 : Fin 2) * 10000 + 1 * p.val; omega)
        (by show win4_1.index t (1 : Fin 2) * 64 + 1 * k.val = k.val; omega)
    have h2 : ((cfg4.win 2).blk t).view.emb (ix2 k q) = ix2 k (i 1) :=
      Shape.idx_ext₂ (by show win4_2.index t (0 : Fin 2) * 64 + 1 * k.val = k.val; omega)
        (by show win4_2.index t (1 : Fin 2) * 64 + 1 * q.val = win4_4.index t (1 : Fin 2) * 64 + 1 * q.val; omega)
    refine congrArg₂ (fun x y : EReal => x * y) (congrArg₂ (fun x y : EReal => x + y) ?_ ?_) ?_
    · exact congrArg (V c main_v83) h0
    · exact congrArg (V c main_v99) h1
    · exact congrArg (V c main_v101) h2
  · exact congrArg (V c main_v104) h3

theorem covered4_4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ := idx_onto4 ⟨(i 0).val / 10000, by omega⟩
  have q0 : win4_4.index t (0 : Fin 2) = (i 0).val / 10000 := congrFun ht 0
  have q1 : win4_4.index t (1 : Fin 2) = 0 := congrFun ht 1
  refine ⟨t, flush4_4 t, ?_⟩
  show i ∈ ((View.whole main_v105).slice (win4_4.rect t)).set
  rw [View.set_slice_whole, Rect.mem_set_unit]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 64 ≤ (i 1).val ∧ (i 1).val < win4_4.index t (1 : Fin 2) * 64 + 64; omega

theorem arrAt4_4 (c : Dev nD) :
    (dat4 (F := Ideal) V c).arrAt 4 cfg4.N
      = Cert.Spec.specA (V c main_v83) (V c main_v99) (V c main_v101) (fun j => V c main_v104 (ix2 (0 : Fin 1) j)) :=
  (dat4 (F := Ideal) V c).arrAt_eq_of_cover 4 _ (fun t _ => flushed4_4 V c t) covered4_4

end Cert.KernelIdeal.HV

end
-- ==== Proof.ValI5.lean ====
import proofs.«405318_j78374563217910_3_alg».proof.Proof.RegI5
import proofs.«405318_j78374563217910_3_alg».proof.Proof.SpecB
import Idealize.ShloMosaic.Lib.Pipeline.Value
import Idealize.ShloMosaic.Lib.ValueLayout
import Idealize.ShloMosaic.PureOps.Ideal.Laws

noncomputable section

open scoped BigOperators

namespace Cert.KernelIdeal.HF

open Cert.KernelIdeal Cert.KernelIdeal.Gen
open Idealize.ShloMosaic Idealize.ShloMosaic.TcCoe Idealize.ShloMosaic.ValueIdx Idealize.SL.Sem
open Idealize.ShloMosaic.Pipeline (Dat)

private theorem rsqrtB_apply {s : Shape} {φ : FTy} (v : FVec Ideal s φ) (i : s.Idx) : rsqrt v i = Ideal.rsqrt (v i) := rfl

private theorem matmulB_apply {φ₁ φ₂ : FTy} (prec : Option ContractPrecision) (A : FVec Ideal S10000x64 φ₁) (B : FVec Ideal S64x64 φ₂)
    (p : Fin 10000) (q : Fin 64) :
    FloatOps.matmul dot_S10000x64_S64x64_S10000x64_1_0_0_1_n_n prec A B (constant S10000x64 .f32 0x00000000#32) (ix2 p q)
      = ∑ k : Fin 64, A (ix2 p k) * B (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have c2 := contrEquiv1_symm_val dot_S10000x64_S64x64_S10000x64_1_0_0_1_n_n 64 rfl rfl k
  rw [show dot_S10000x64_S64x64_S10000x64_1_0_0_1_n_n.lhsIdx (ix2 p q) ((contrEquiv1 _ 64 rfl rfl).symm k) = ix2 p k from Shape.idx_ext₂ rfl c2,
    show dot_S10000x64_S64x64_S10000x64_1_0_0_1_n_n.rhsIdx (ix2 p q) ((contrEquiv1 _ 64 rfl rfl).symm k) = ix2 k q from Shape.idx_ext₂ c2 rfl]

theorem pay5_apply (x0 : Vec Ideal S10000x64 .f32) (x1 x2 x3 x4 : Vec Ideal S1x64 .f32) (x5 : Vec Ideal S64x64 .f32)
    (x6 : Vec Ideal S1x64 .f32) (p : Fin 10000) (q : Fin 64) :
    k5_pay1 (F := Ideal) x0 x1 x2 x3 x4 x5 x6 (ix2 p q)
      = max ((∑ k : Fin 64, max ((((x0 (ix2 p k) - x1 (ix2 0 k)) * Ideal.rsqrt (x2 (ix2 0 k) + Ideal.ofBits .f32 0x3727C5AC#32))
          * x3 (ix2 0 k)) + x4 (ix2 0 k)) 0 * x5 (ix2 k q)) + x6 (ix2 0 q)) 0 := by
  unfold k5_pay1
  simp only [shapeCast_self]
  simp only [matmul]
  rw [maximumf_apply, addf_apply, matmulB_apply]
  simp only [truncf_apply, maximumf_apply, addf_apply, mulf_apply, subf_apply, broadcast_apply, broadcastTo_1b_ab_apply, rsqrtB_apply,
    Ideal.ofBits_def, Ideal.ofBits_zero_f32]

variable (V : (c : Dev nD) → (b : Ref sig .tc) → Buf (Elt Ideal) ((c : Thread nD τ).loc b))

theorem hz5 : (![0, 0] : Fin 2 → Nat) = fun _ => 0 := funext fun a => by fin_cases a <;> rfl

theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

def rowB5 (t : Fin cfg5.N) (p : Fin 10000) : Fin 50000 := ⟨t.val * 10000 + p.val, by have := lt_of_lt_of_eq t.isLt N_5; omega⟩

theorem iblk5_0_apply (c : Dev nD) (t : Fin cfg5.N) (p : Fin 10000) (k : Fin 64) :
    iblk5 V c 0 t (ix2 p k) = V c main_v105 (ix2 (rowB5 t p) k) := by
  obtain ⟨e0, e1, -⟩ := idx_facts5 t
  exact congrArg _ (Shape.idx_ext₂ ((win5_0.rect_emb_val t _ (0 : Fin 2)).trans (by rw [e0]; rfl)) (win5_0.rect_emb_val_of_index_zero t (1 : Fin 2) e1 _))

theorem iblk5_whole (c : Dev nD) (t : Fin cfg5.N) : iblk5 V c 1 t = V c main_v118 ∧ iblk5 V c 2 t = V c main_v119 ∧ iblk5 V c 3 t = V c main_v120
    ∧ iblk5 V c 4 t = V c main_v121 ∧ iblk5 V c 5 t = V c main_v115 ∧ iblk5 V c 6 t = V c main_v122 := by
  obtain ⟨-, -, a1, b1, a2, b2, a3, b3, a4, b4, a5, b5, a6, b6, -⟩ := idx_facts5 t
  refine ⟨?_, ?_, ?_, ?_, ?_, ?_⟩ <;> exact funext fun y => congrArg _ (Shape.idx_ext₂
    (Pipeline.Window.rect_emb_val_of_index_zero _ t (0 : Fin 2) (by assumption) y) (Pipeline.Window.rect_emb_val_of_index_zero _ t (1 : Fin 2) (by assumption) y))

theorem embOut5_apply (t : Fin cfg5.N) (p : Fin 10000) (q : Fin 64) :
    ((cfg5.win 7).blk t).view.emb (ix2 p q) = ix2 (rowB5 t p) q := by
  obtain ⟨-, -, -, -, -, -, -, -, -, -, -, -, -, -, e0, e1⟩ := idx_facts5 t
  exact Shape.idx_ext₂ ((win5_7.rect_emb_val t _ (0 : Fin 2)).trans (by rw [e0]; rfl)) (win5_7.rect_emb_val_of_index_zero t (1 : Fin 2) e1 _)

abbrev specAt5 (c : Dev nD) : FVec Ideal ⟨2, ![50000, 64]⟩ .f32 :=
  Cert.Spec.specB (V c main_v105) (fun j => V c main_v118 (ix2 0 j)) (fun j => V c main_v119 (ix2 0 j))
    (fun j => V c main_v120 (ix2 0 j)) (fun j => V c main_v121 (ix2 0 j)) (V c main_v115) (fun j => V c main_v122 (ix2 0 j))

theorem flushed5_7_eq (c : Dev nD) (t : Fin cfg5.N) :
    (dat5 (F := Ideal) V c).flushed 7 t = ((cfg5.win 7).blk t).view.read (Elt Ideal) (specAt5 V c) := by
  obtain ⟨h1, h2, h3, h4, h5, h6⟩ := iblk5_whole V c t
  show (cfg5.win 7).cut (grid5.coords t) ((dat5 V c).after 7 t) = _
  rw [after5_7]
  unfold out5_7
  rw [View.canon_unit_zero hz5]
  simp only [View.ld_unit_zero (S := S10000x64) hz5, View.ld_unit_zero (S := S1x64) hz5, View.ld_unit_zero (S := S64x64) hz5]
  funext j
  obtain ⟨p, q, rfl⟩ : ∃ (p : Fin 10000) (q : Fin 64), j = ix2 p q := ⟨j 0, j 1, eq_ix2 j⟩
  change _ = specAt5 V c (((cfg5.win 7).blk t).view.emb (ix2 p q))
  rw [embOut5_apply]
  refine (pay5_apply _ _ _ _ _ _ _ p q).trans ?_
  simp only [iblk5_0_apply, h1, h2, h3, h4, h5, h6]
  rfl

theorem covered5_7 (i : S50000x64.Idx) :
    ∃ t : Fin cfg5.N, (cfg5.win 7).flush t = true ∧ i ∈ ((cfg5.win 7).blk t).view.set := by
  have h0 : (i 0).val < 50000 := (i 0).isLt
  have h1 : (i 1).val < 64 := (i 1).isLt
  have hN : cfg5.N = 5 := N_5
  let t : Fin cfg5.N := ⟨(i 0).val / 10000, by rw [hN]; omega⟩
  obtain ⟨-, -, -, -, -, -, -, -, -, -, -, -, -, -, (e0 : win5_7.index t (0 : Fin 2) = (i 0).val / 10000), e1⟩ := idx_facts5 t
  refine ⟨t, flush5_7 t, ?_⟩
  show i ∈ ((View.whole main_v123).slice (win5_7.rect t)).set
  rw [View.set_slice_whole, Rect.mem_set_unit]
  intro a
  match a with
  | ⟨0, _⟩ => show win5_7.index t (0 : Fin 2) * 10000 ≤ (i 0).val ∧ (i 0).val < win5_7.index t (0 : Fin 2) * 10000 + 10000; rw [e0]; omega
  | ⟨1, _⟩ => show win5_7.index t (1 : Fin 2) * 64 ≤ (i 1).val ∧ (i 1).val < win5_7.index t (1 : Fin 2) * 64 + 64; rw [e1]; omega

theorem arrAt5_7 (c : Dev nD) : (dat5 (F := Ideal) V c).arrAt 7 cfg5.N
    = Cert.Spec.specB (V c main_v105) (fun j => V c main_v118 (ix2 0 j)) (fun j => V c main_v119 (ix2 0 j))
        (fun j => V c main_v120 (ix2 0 j)) (fun j => V c main_v121 (ix2 0 j)) (V c main_v115) (fun j => V c main_v122 (ix2 0 j)) :=
  (dat5 (F := Ideal) V c).arrAt_eq_of_cover 7 (specAt5 V c) (fun t _ => flushed5_7_eq V c t) covered5_7

end Cert.KernelIdeal.HF

end
-- ==== Proof.KValL2.lean ====
import proofs.«405318_j78374563217910_3_alg».proof.Proof.KValBase
import proofs.«405318_j78374563217910_3_alg».proof.Proof.KHost2
import proofs.«405318_j78374563217910_3_alg».proof.Proof.KHostCall
import proofs.«405318_j78374563217910_3_alg».proof.Proof.ValI4
import proofs.«405318_j78374563217910_3_alg».proof.Proof.ValI5

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)

local notation "⟪" r "⟫" => (Proc.devRef (τ := τ) (sig := sig) Proc.tc r)

variable (m : (ℓ : Loc nD τ sig) → Buf (Elt Ideal) ℓ) (ρ : Dev nD → PrngReg) (c : Dev nD)

set_option quotPrecheck false
local notation "⟦a0⟧" => (m ((c : Thread nD τ).loc main_arg0))
local notation "⟦a1⟧" => (m ((c : Thread nD τ).loc main_arg1))
local notation "⟦a2⟧" => (m ((c : Thread nD τ).loc main_arg2))
local notation "⟦a3⟧" => (m ((c : Thread nD τ).loc main_arg3))
local notation "⟦a4⟧" => (m ((c : Thread nD τ).loc main_arg4))
local notation "⟦a5⟧" => (m ((c : Thread nD τ).loc main_arg5))
local notation "⟦a6⟧" => (m ((c : Thread nD τ).loc main_arg6))
local notation "⟦a7⟧" => (m ((c : Thread nD τ).loc main_arg7))
local notation "⟦a8⟧" => (m ((c : Thread nD τ).loc main_arg8))
local notation "⟦a9⟧" => (m ((c : Thread nD τ).loc main_arg9))
local notation "⟦a10⟧" => (m ((c : Thread nD τ).loc main_arg10))
local notation "⟦a11⟧" => (m ((c : Thread nD τ).loc main_arg11))
local notation "⟦a12⟧" => (m ((c : Thread nD τ).loc main_arg12))
local notation "⟦a13⟧" => (m ((c : Thread nD τ).loc main_arg13))
local notation "⟦a14⟧" => (m ((c : Thread nD τ).loc main_arg14))
local notation "⟦a15⟧" => (m ((c : Thread nD τ).loc main_arg15))
local notation "⟦src⟧" => (srcK ⟦a14⟧)
local notation "⟦dst⟧" => (dstK ⟦a14⟧)

local notation "⟦hin⟧" => (W20 m ρ c ⟪main_v83⟫)

local notation "⟦lin⟧" => (linK ⟦a1⟧ (sliceWe2 ⟦a2⟧) (sliceV2 ⟦a3⟧))

local notation "⟦take⟧" => (takeK ⟦hin⟧ ⟦src⟧)

local notation "⟦sum⟧" => (addf ⟦take⟧ ⟦lin⟧ : FVec Ideal S800000x64 .f32)

local notation "⟦agg⟧" => (aggK ⟦dst⟧ (msgK ⟦hin⟧ ⟦src⟧ ⟦a1⟧ (sliceWe2 ⟦a2⟧) (sliceV2 ⟦a3⟧)))

local notation "⟦z⟧" => (Cert.Spec.specA ⟦hin⟧ ⟦agg⟧ (sliceM2 ⟦a4⟧) (fun j => rowK (sliceV2 ⟦a5⟧) (ix2 0 j)))

theorem L2_hin21 : W21 m ρ c ⟪main_v83⟫ = ⟦hin⟧ :=
  (W21_of m ρ c main_v83 (by decide))

theorem L2_hin25 : W25 m ρ c ⟪main_v83⟫ = ⟦hin⟧ :=
  (W25_of m ρ c main_v83 (by decide)).trans <|
    (W24_of m ρ c main_v83 (by decide)).trans <|
    (W23_of m ρ c main_v83 (by decide)).trans <|
    (W22_of m ρ c main_v83 (by decide)).trans <|
    (L2_hin21 m ρ c)
theorem L2_lin : W21 m ρ c ⟪main_v91⟫ = ⟦lin⟧ := by
  refine (hostOps4_v91 (W20 m ρ c)).trans ?_
  rw [W20_arg1 m ρ c, W20_arg2 m ρ c, W20_arg3 m ρ c]
theorem L2_take : W22 m ρ c ⟪main_v92⟫ = ⟦take⟧ := by
  refine (hostOps4_1_v92 (W21 m ρ c)).trans ?_
  rw [L2_hin21 m ρ c, W21_v1 m ρ c]
theorem L2_sum : W23 m ρ c ⟪main_v93⟫ = ⟦sum⟧ := by
  refine (hostOps4_2_v93 (W22 m ρ c)).trans ?_
  rw [L2_take m ρ c, (W22_of m ρ c main_v91 (by decide)), L2_lin m ρ c]
theorem L2_relu : W24 m ρ c ⟪main_v94⟫ = reluK ⟦sum⟧ := by
  refine (hostOps4_3_v94 (W23 m ρ c)).trans ?_
  rw [L2_sum m ρ c]
theorem L2_agg : W25 m ρ c ⟪main_v99⟫ = ⟦agg⟧ := by
  refine (hostOps4_4_v99 (W24 m ρ c)).trans ?_
  rw [W24_v3 m ρ c, L2_relu m ρ c]
  rfl
theorem L2_w1 : W25 m ρ c ⟪main_v101⟫ = (sliceM2 ⟦a4⟧) := by
  refine (hostOps4_4_v101 (W24 m ρ c)).trans ?_
  rw [W24_arg4 m ρ c]
theorem L2_b1 : W25 m ρ c ⟪main_v104⟫ = rowK (sliceV2 ⟦a5⟧) := by
  refine (hostOps4_4_v104 (W24 m ρ c)).trans ?_
  rw [W24_arg5 m ρ c]

theorem L2_z : W26 m ρ c ⟪main_v105⟫ = ⟦z⟧ := by
  refine (W26_arr m ρ c 4).trans ((arrAt4_4 (V25 m ρ) c).trans ?_)
  show Cert.Spec.specA (W25 m ρ c ⟪main_v83⟫) (W25 m ρ c ⟪main_v99⟫) (W25 m ρ c ⟪main_v101⟫) (fun j => W25 m ρ c ⟪main_v104⟫ (ix2 0 j)) = _
  rw [L2_hin25 m ρ c, L2_agg m ρ c, L2_w1 m ρ c, L2_b1 m ρ c]

theorem L2_mu : W27 m ρ c ⟪main_v108⟫ = muK ⟦z⟧ := by
  refine (hostOps5_v108 (W26 m ρ c)).trans ?_
  rw [L2_z m ρ c]
theorem L2_var : W28 m ρ c ⟪main_v109⟫ = varK ⟦z⟧ := by
  refine (hostOps5_1_v109 (W27 m ρ c)).trans ?_
  rw [(W27_of m ρ c main_v105 (by decide)), L2_z m ρ c, show W27 m ρ c ⟪main_c_9⟫ = constantI S_ 32 0#32 from hostOps5_c_9 (W26 m ρ c)]
  rfl

theorem L2_out : W30 m ρ c ⟪main_v123⟫ = layerK ⟦hin⟧ ⟦src⟧ ⟦dst⟧ ⟦a1⟧ (sliceWe2 ⟦a2⟧) (sliceV2 ⟦a3⟧) (sliceM2 ⟦a4⟧) (sliceV2 ⟦a5⟧) (sliceV2 ⟦a6⟧) (sliceV2 ⟦a7⟧) (sliceM2 ⟦a8⟧) (sliceV2 ⟦a9⟧) := by
  refine (W30_arr m ρ c 7).trans ((arrAt5_7 (V29 m ρ) c).trans ?_)
  show Cert.Spec.specB (W29 m ρ c ⟪main_v105⟫) (fun j => W29 m ρ c ⟪main_v118⟫ (ix2 0 j)) (fun j => W29 m ρ c ⟪main_v119⟫ (ix2 0 j)) (fun j => W29 m ρ c ⟪main_v120⟫ (ix2 0 j)) (fun j => W29 m ρ c ⟪main_v121⟫ (ix2 0 j)) (W29 m ρ c ⟪main_v115⟫) (fun j => W29 m ρ c ⟪main_v122⟫ (ix2 0 j)) = _
  rw [show W29 m ρ c ⟪main_v105⟫ = ⟦z⟧ from ((W29_of m ρ c main_v105 (by decide)).trans <|
    (W28_of m ρ c main_v105 (by decide)).trans <|
    (W27_of m ρ c main_v105 (by decide))).trans (L2_z m ρ c),
    show W29 m ρ c ⟪main_v118⟫ = rowK (muK ⟦z⟧) from (hostOps5_2_v118 (W28 m ρ c)).trans (congrArg rowK (((W28_of m ρ c main_v108 (by decide))).trans (L2_mu m ρ c))),
    show W29 m ρ c ⟪main_v119⟫ = rowK (varK ⟦z⟧) from (hostOps5_2_v119 (W28 m ρ c)).trans (congrArg rowK (L2_var m ρ c)),
    show W29 m ρ c ⟪main_v120⟫ = rowK (sliceV2 ⟦a6⟧) from (hostOps5_2_v120 (W28 m ρ c)).trans (by rw [W28_arg6 m ρ c]),
    show W29 m ρ c ⟪main_v121⟫ = rowK (sliceV2 ⟦a7⟧) from (hostOps5_2_v121 (W28 m ρ c)).trans (by rw [W28_arg7 m ρ c]),
    show W29 m ρ c ⟪main_v115⟫ = (sliceM2 ⟦a8⟧) from (hostOps5_2_v115 (W28 m ρ c)).trans (by rw [W28_arg8 m ρ c]),
    show W29 m ρ c ⟪main_v122⟫ = rowK (sliceV2 ⟦a9⟧) from (hostOps5_2_v122 (W28 m ρ c)).trans (by rw [W28_arg9 m ρ c])]
  rfl

end Cert.KernelIdeal.HV

end
-- ==== Proof.ValI6.lean ====
import proofs.«405318_j78374563217910_3_alg».proof.Proof.RegI6
import proofs.«405318_j78374563217910_3_alg».proof.Proof.SpecC
import Idealize.ShloMosaic.Lib.Pipeline.Value
import Idealize.ShloMosaic.Lib.ValueLayout
import Idealize.ShloMosaic.Lib.StackMember
import Idealize.ShloMosaic.PureOps.Ideal.Laws

set_option maxRecDepth 16384

noncomputable section

open scoped BigOperators

namespace Cert.KernelIdeal.HV

open Cert.KernelIdeal Cert.KernelIdeal.Gen Cert.KernelIdeal.HF Cert.Spec
open Idealize.ShloMosaic Idealize.ShloMosaic.TcCoe Idealize.ShloMosaic.ValueIdx Idealize.ShloMosaic.StackMember
open Idealize.SL Idealize.SL.Sem
open Idealize.ShloMosaic.Pipeline (Dat Cfg Window)

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply]
  exact (Ideal.dotGeneral_apply (DotDims.plain m k n) prec default A B (ix2 a b)).symm.trans (dotGeneral_plain_apply prec A B a b)

theorem rowMax_apply (v : FVec Ideal S512x10 .f32) (h : S512x10.Reduces [1] S512) (hφ : FTy.f32 = FTy.f32 ∨ FTy.f32 = FTy.bf16)
    (hacc : (0xFF800000#32 : BitVec 32) = 0xFF800000#32) (g : Fin 512) :
    multiReduction (F := Ideal) .maximumf [1] S512 v 0xFF800000#32 h hφ hacc (ix1 g)
      = (Finset.univ : Finset (Fin 10)).fold max (Ideal.ofBits .f32 0xFF800000#32) (fun f => v (ix2 g f)) := by
  refine (Ideal.multiReduction_maximumf_single v 0xFF800000#32 h hφ hacc (ix1 g)).trans ?_
  have e : (v ∘ h.lift (ix1 g)) = fun f : Fin 10 => v (ix2 g f) := by
    funext f
    refine congrArg v (funext fun a => Fin.ext ?_)
    match a with
    | ⟨0, _⟩ => rfl
    | ⟨1, _⟩ => rfl
  rw [e]; rfl

theorem rowSum_apply (v : FVec Ideal S512x10 .f32) (h : S512x10.Reduces [1] S512) (hφ : FTy.f32 = FTy.f32 ∨ FTy.f32 = FTy.bf16)
    (hacc : (0x00000000#32 : BitVec 32) = 0x00000000#32) (g : Fin 512) :
    multiReduction (F := Ideal) .add [1] S512 v 0x00000000#32 h hφ hacc (ix1 g) = ∑ f : Fin 10, v (ix2 g f) := by
  refine (Ideal.multiReduction_add_single v 0x00000000#32 h hφ hacc (ix1 g)).trans ?_
  refine Finset.sum_congr rfl fun f _ => congrArg v (funext fun a => Fin.ext ?_)
  match a with
  | ⟨0, _⟩ => rfl
  | ⟨1, _⟩ => rfl

theorem exp6_apply {s : Shape} {φ : FTy} (v : FVec Ideal s φ) (i : s.Idx) : exp v i = Ideal.exp (v i) := rfl
theorem log6_apply {s : Shape} {φ : FTy} (v : FVec Ideal s φ) (i : s.Idx) : log v i = Ideal.log (v i) := rfl

theorem dot6A_eq : dot_S512x192_S192x192_S512x192_1_0_0_1_n_n = DotDims.plain 512 192 192 := rfl
theorem dot6B_eq : dot_S512x192_S192x10_S512x10_1_0_0_1_n_n = DotDims.plain 512 192 10 := rfl

theorem pay6_apply (x0 : FVec Ideal S512x192 .f32) (x1 : FVec Ideal S192x192 .f32) (x2 : FVec Ideal S1x192 .f32)
    (x3 : FVec Ideal S192x10 .f32) (x4 : FVec Ideal S1x10 .f32) (g : Fin 512) (f : Fin 10) :
    k6_pay1 (F := Ideal) x0 x1 x2 x3 x4 (ix2 g f)
      = specC x0 x1 (fun j => x2 (ix2 (0 : Fin 1) j)) x3 (fun j => x4 (ix2 (0 : Fin 1) j)) (ix2 g f) := by
  unfold k6_pay1
  rw [dot6A_eq, dot6B_eq]
  simp only [subf_apply, addf_apply, maximumf_apply, truncf_apply, shapeCast_self, broadcast_apply, exp6_apply, log6_apply,
    broadcastTo_1b_ab_apply, broadcastTo_a1_ab_apply, shapeCast_a_a1_apply,
    matmul_plain_zero_apply, Ideal.ofBits_def, Ideal.ofBits_zero_f32]
  rw [rowSum_apply, rowMax_apply]
  simp only [subf_apply, addf_apply, maximumf_apply, truncf_apply, shapeCast_self, broadcast_apply, exp6_apply, log6_apply,
    broadcastTo_1b_ab_apply, broadcastTo_a1_ab_apply, shapeCast_a_a1_apply,
    matmul_plain_zero_apply, Ideal.ofBits_def, Ideal.ofBits_zero_f32]
  rw [rowMax_apply]
  simp only [subf_apply, addf_apply, maximumf_apply, truncf_apply, shapeCast_self, broadcast_apply, exp6_apply, log6_apply,
    broadcastTo_1b_ab_apply, broadcastTo_a1_ab_apply, shapeCast_a_a1_apply,
    matmul_plain_zero_apply, Ideal.ofBits_def, Ideal.ofBits_zero_f32]
  rfl

variable (V : (c : Dev nD) → (b : Ref sig .tc) → Buf (Elt Ideal) ((c : Thread nD τ).loc b))

theorem hz6 : (![0, 0] : Fin 2 → Nat) = fun _ => 0 := funext fun a => by fin_cases a <;> rfl

theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

theorem iblk6_0_eq (c : Dev nD) (t : Fin cfg6.N) : (iblk6 V c 0 t : S512x192.Idx → EReal) = V c main_v145 := by
  obtain ⟨e0, e1, -⟩ := idx_facts6 t
  funext y
  show V c main_v145 (((cfg6.win 0).blk t).view.emb y) = V c main_v145 y
  refine congrArg _ (funext fun a => Fin.ext ?_)
  match a with
  | ⟨0, _⟩ => show win6_0.index t (0 : Fin 2) * 512 + 1 * (y 0).val = (y 0).val; omega
  | ⟨1, _⟩ => show win6_0.index t (1 : Fin 2) * 192 + 1 * (y 1).val = (y 1).val; omega
theorem iblk6_1_eq (c : Dev nD) (t : Fin cfg6.N) : (iblk6 V c 1 t : S192x192.Idx → EReal) = V c main_arg10 := by
  obtain ⟨-, -, e0, e1, -⟩ := idx_facts6 t
  funext y
  show V c main_arg10 (((cfg6.win 1).blk t).view.emb y) = V c main_arg10 y
  refine congrArg _ (funext fun a => Fin.ext ?_)
  match a with
  | ⟨0, _⟩ => show win6_1.index t (0 : Fin 2) * 192 + 1 * (y 0).val = (y 0).val; omega
  | ⟨1, _⟩ => show win6_1.index t (1 : Fin 2) * 192 + 1 * (y 1).val = (y 1).val; omega
theorem iblk6_2_eq (c : Dev nD) (t : Fin cfg6.N) : (iblk6 V c 2 t : S1x192.Idx → EReal) = V c main_v146 := by
  obtain ⟨-, -, -, -, e0, e1, -⟩ := idx_facts6 t
  funext y
  show V c main_v146 (((cfg6.win 2).blk t).view.emb y) = V c main_v146 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 192 + 1 * (y 1).val = (y 1).val; omega
theorem iblk6_3_eq (c : Dev nD) (t : Fin cfg6.N) : (iblk6 V c 3 t : S192x10.Idx → EReal) = V c main_arg12 := by
  obtain ⟨-, -, -, -, -, -, e0, e1, -⟩ := idx_facts6 t
  funext y
  show V c main_arg12 (((cfg6.win 3).blk t).view.emb y) = V c main_arg12 y
  refine congrArg _ (funext fun a => Fin.ext ?_)
  match a with
  | ⟨0, _⟩ => show win6_3.index t (0 : Fin 2) * 192 + 1 * (y 0).val = (y 0).val; omega
  | ⟨1, _⟩ => show win6_3.index t (1 : Fin 2) * 10 + 1 * (y 1).val = (y 1).val; omega
theorem iblk6_4_eq (c : Dev nD) (t : Fin cfg6.N) : (iblk6 V c 4 t : S1x10.Idx → EReal) = V c main_v147 := by
  obtain ⟨-, -, -, -, -, -, -, -, e0, e1, -⟩ := idx_facts6 t
  funext y
  show V c main_v147 (((cfg6.win 4).blk t).view.emb y) = V c main_v147 y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 10 + 1 * (y 1).val = (y 1).val; omega

theorem emb6_5 (t : Fin cfg6.N) (g : Fin 512) (f : Fin 10) : ((cfg6.win 5).blk t).view.emb (ix2 g f) = ix2 g f := by
  obtain ⟨-, -, -, -, -, -, -, -, -, -, e0, e1⟩ := idx_facts6 t
  funext a; apply Fin.ext
  match a with
  | ⟨0, _⟩ => show win6_5.index t (0 : Fin 2) * 512 + 1 * g.val = g.val; omega
  | ⟨1, _⟩ => show win6_5.index t (1 : Fin 2) * 10 + 1 * f.val = f.val; omega

theorem flushed6_5_eq (c : Dev nD) (t : Fin cfg6.N) :
    (dat6 (F := Ideal) V c).flushed 5 t = ((cfg6.win 5).blk t).view.read (Elt Ideal)
      (specC (V c main_v145) (V c main_arg10) (fun j => V c main_v146 (ix2 0 j)) (V c main_arg12) (fun j => V c main_v147 (ix2 0 j))) := by
  show (cfg6.win 5).cut (grid6.coords t) ((dat6 V c).after 5 t) = _
  rw [after6_5]
  unfold out6_5
  rw [View.canon_unit_zero hz6]
  simp only [View.ld_unit_zero (S := S512x192) hz6, View.ld_unit_zero (S := S192x192) hz6, View.ld_unit_zero (S := S1x192) hz6,
    View.ld_unit_zero (S := S192x10) hz6, View.ld_unit_zero (S := S1x10) hz6]
  funext j
  obtain ⟨g, f, rfl⟩ : ∃ (g : Fin 512) (f : Fin 10), j = ix2 g f := ⟨j 0, j 1, eq_ix2 j⟩
  show k6_pay1 (F := Ideal) (iblk6 V c 0 t) (iblk6 V c 1 t) (iblk6 V c 2 t) (iblk6 V c 3 t) (iblk6 V c 4 t) (ix2 g f)
    = specC (V c main_v145) (V c main_arg10) (fun j => V c main_v146 (ix2 0 j)) (V c main_arg12) (fun j => V c main_v147 (ix2 0 j))
        (((cfg6.win 5).blk t).view.emb (ix2 g f))
  rw [emb6_5, iblk6_0_eq, iblk6_1_eq, iblk6_2_eq, iblk6_3_eq, iblk6_4_eq]
  exact pay6_apply _ _ _ _ _ g f

theorem mem_blk6_5 (t : Fin cfg6.N) (i : S512x10.Idx) :
    i ∈ ((cfg6.win 5).blk t).view.set ↔ ∀ a : Fin 2, win6_5.index t a * S512x10.size a ≤ (i a).val ∧ (i a).val < win6_5.index t a * S512x10.size a + S512x10.size a := by
  show i ∈ ((View.whole main_v148).slice (win6_5.rect t)).set ↔ _
  rw [View.set_slice_whole, Rect.mem_set_unit]
  exact Iff.rfl

theorem arrAt6_5 (c : Dev nD) : (dat6 (F := Ideal) V c).arrAt 5 cfg6.N
    = Cert.Spec.specC (V c main_v145) (V c main_arg10) (fun j => V c main_v146 (ix2 0 j)) (V c main_arg12) (fun j => V c main_v147 (ix2 0 j)) :=
  (dat6 (F := Ideal) V c).arrAt_eq_of_cover 5 _ (fun t _ => flushed6_5_eq V c t) (fun i => by
    obtain ⟨-, -, -, -, -, -, -, -, -, -, e0, e1⟩ := idx_facts6 t6_0
    refine ⟨t6_0, flush6_5 t6_0, ?_⟩
    rw [mem_blk6_5]
    intro a
    match a with
    | ⟨0, _⟩ =>
      show win6_5.index t6_0 (0 : Fin 2) * 512 ≤ (i 0).val ∧ (i 0).val < win6_5.index t6_0 (0 : Fin 2) * 512 + 512
      have hi : (i 0).val < 512 := (i 0).isLt
      omega
    | ⟨1, _⟩ =>
      show win6_5.index t6_0 (1 : Fin 2) * 10 ≤ (i 1).val ∧ (i 1).val < win6_5.index t6_0 (1 : Fin 2) * 10 + 10
      have hi : (i 1).val < 10 := (i 1).isLt
      omega)

end Cert.KernelIdeal.HV

end
-- ==== Proof.KHost6.lean ====
import proofs.«405318_j78374563217910_3_alg».proof.Proof.Gen.KernelIdeal.Regions
import proofs.«405318_j78374563217910_3_alg».proof.Proof.KNet
import proofs.«405318_j78374563217910_3_alg».proof.Proof.LibTakeRows

set_option maxRecDepth 2024

noncomputable section

namespace Cert.KernelIdeal.HV

open Idealize.ShloMosaic Idealize.ShloMosaic.ValueIdx
open Cert.KernelIdeal Cert.KernelIdeal.Gen

local notation "⟪" r "⟫" => (Proc.devRef (τ := τ) (sig := sig) Proc.tc r)

theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

section Pieces
variable {F : FTy → Type} [FloatOps F]

abbrev ops6A : List (HloOp τ sig (Elt F)) :=
  [ StableHlo.nullary main_cst_10 (constant S_ .f32 0x3F800000#32),
    StableHlo.unary main_cst_10 main_v124 (broadcastInDim S50000x1 ![] bcast_S_S50000x1 : (⟨S_, .f32⟩ : BufTy).Contents (Elt F) → (⟨S50000x1, .f32⟩ : BufTy).Contents (Elt F)),
    StableHlo.nullary main_cst_11 (constant S_ .f32 0x00000000#32),
    StableHlo.unary main_cst_11 main_v125 (broadcastInDim S512x1 ![] bcast_S_S512x1 : (⟨S_, .f32⟩ : BufTy).Contents (Elt F) → (⟨S512x1, .f32⟩ : BufTy).Contents (Elt F)),
    StableHlo.unary main_arg15 main_v126 (broadcastInDim S50000x1 ![0] bcast_S50000_S50000x1_0 : (⟨S50000, .i32⟩ : BufTy).Contents (Elt F) → (⟨S50000x1, .i32⟩ : BufTy).Contents (Elt F)),
    StableHlo.ternary main_v125 main_v126 main_v124 main_v127 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    StableHlo.nullary main_cst_12 (constant S_ .f32 0x3F800000#32),
    StableHlo.unary main_cst_12 main_v128 (broadcastInDim S512x1 ![] bcast_S_S512x1 : (⟨S_, .f32⟩ : BufTy).Contents (Elt F) → (⟨S512x1, .f32⟩ : BufTy).Contents (Elt F)),
    StableHlo.binary main_v127 main_v128 main_v129 (maximumf : (⟨S512x1, .f32⟩ : BufTy).Contents (Elt F) → (⟨S512x1, .f32⟩ : BufTy).Contents (Elt F) → (⟨S512x1, .f32⟩ : BufTy).Contents (Elt F)) ]

abbrev ops6B : List (HloOp τ sig (Elt F)) :=
  [ StableHlo.nullary main_cst_13 (constant S_ .f32 0x00000000#32),
    StableHlo.unary main_cst_13 main_v130 (broadcastInDim S512x64 ![] bcast_S_S512x64 : (⟨S_, .f32⟩ : BufTy).Contents (Elt F) → (⟨S512x64, .f32⟩ : BufTy).Contents (Elt F)),
    StableHlo.unary main_arg15 main_v131 (broadcastInDim S50000x1 ![0] bcast_S50000_S50000x1_0 : (⟨S50000, .i32⟩ : BufTy).Contents (Elt F) → (⟨S50000x1, .i32⟩ : BufTy).Contents (Elt F)),
    StableHlo.ternary main_v130 main_v131 main_v43 main_v132 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.unary main_v129 main_v133 (broadcastInDim S512x64 ![0, 1] bcast_S512x1_S512x64_0_1 : (⟨S512x1, .f32⟩ : BufTy).Contents (Elt F) → (⟨S512x64, .f32⟩ : BufTy).Contents (Elt F)),
    StableHlo.binary main_v132 main_v133 main_v134 (Host.divf : (⟨S512x64, .f32⟩ : BufTy).Contents (Elt F) → (⟨S512x64, .f32⟩ : BufTy).Contents (Elt F) → (⟨S512x64, .f32⟩ : BufTy).Contents (Elt F)) ]

abbrev ops6C : List (HloOp τ sig (Elt F)) :=
  [ StableHlo.nullary main_cst_14 (constant S_ .f32 0x00000000#32),
    StableHlo.unary main_cst_14 main_v135 (broadcastInDim S512x64 ![] bcast_S_S512x64 : (⟨S_, .f32⟩ : BufTy).Contents (Elt F) → (⟨S512x64, .f32⟩ : BufTy).Contents (Elt F)),
    StableHlo.unary main_arg15 main_v136 (broadcastInDim S50000x1 ![0] bcast_S50000_S50000x1_0 : (⟨S50000, .i32⟩ : BufTy).Contents (Elt F) → (⟨S50000x1, .i32⟩ : BufTy).Contents (Elt F)),
    StableHlo.ternary main_v135 main_v136 main_v83 main_v137 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.unary main_v129 main_v138 (broadcastInDim S512x64 ![0, 1] bcast_S512x1_S512x64_0_1 : (⟨S512x1, .f32⟩ : BufTy).Contents (Elt F) → (⟨S512x64, .f32⟩ : BufTy).Contents (Elt F)),
    StableHlo.binary main_v137 main_v138 main_v139 (Host.divf : (⟨S512x64, .f32⟩ : BufTy).Contents (Elt F) → (⟨S512x64, .f32⟩ : BufTy).Contents (Elt F) → (⟨S512x64, .f32⟩ : BufTy).Contents (Elt F)) ]

abbrev ops6D : List (HloOp τ sig (Elt F)) :=
  [ StableHlo.nullary main_cst_15 (constant S_ .f32 0x00000000#32),
    StableHlo.unary main_cst_15 main_v140 (broadcastInDim S512x64 ![] bcast_S_S512x64 : (⟨S_, .f32⟩ : BufTy).Contents (Elt F) → (⟨S512x64, .f32⟩ : BufTy).Contents (Elt F)),
    StableHlo.unary main_arg15 main_v141 (broadcastInDim S50000x1 ![0] bcast_S50000_S50000x1_0 : (⟨S50000, .i32⟩ : BufTy).Contents (Elt F) → (⟨S50000x1, .i32⟩ : BufTy).Contents (Elt F)),
    StableHlo.ternary main_v140 main_v141 main_v123 main_v142 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.unary main_v129 main_v143 (broadcastInDim S512x64 ![0, 1] bcast_S512x1_S512x64_0_1 : (⟨S512x1, .f32⟩ : BufTy).Contents (Elt F) → (⟨S512x64, .f32⟩ : BufTy).Contents (Elt F)),
    StableHlo.binary main_v142 main_v143 main_v144 (Host.divf : (⟨S512x64, .f32⟩ : BufTy).Contents (Elt F) → (⟨S512x64, .f32⟩ : BufTy).Contents (Elt F) → (⟨S512x64, .f32⟩ : BufTy).Contents (Elt F)) ]

abbrev ops6E : List (HloOp τ sig (Elt F)) :=
  [ StableHlo.nary ![main_v134, main_v139, main_v144] main_v145 (fun u => concatenate S512x192 1 [⟨S512x64, u 0⟩, ⟨S512x64, u 1⟩, ⟨S512x64, u 2⟩] concatenates_S512x64_S512x64_S512x64_S512x192_d1),
    StableHlo.reshape main_arg11 main_v146 rfl shapeCasts_S192_S1x192,
    StableHlo.reshape main_arg13 main_v147 rfl shapeCasts_S10_S1x10 ]

theorem hostOps6_cut : (hostOps6 : List (HloOp τ sig (Elt F))) = ops6A ++ (ops6B ++ (ops6C ++ (ops6D ++ ops6E))) := rfl

abbrev ops6A_W : List (Ref sig .tc) := [main_cst_10, main_v124, main_cst_11, main_v125, main_v126, main_v127, main_cst_12, main_v128, main_v129]
abbrev ops6B_W : List (Ref sig .tc) := [main_cst_13, main_v130, main_v131, main_v132, main_v133, main_v134]
abbrev ops6C_W : List (Ref sig .tc) := [main_cst_14, main_v135, main_v136, main_v137, main_v138, main_v139]
abbrev ops6D_W : List (Ref sig .tc) := [main_cst_15, main_v140, main_v141, main_v142, main_v143, main_v144]
abbrev ops6E_W : List (Ref sig .tc) := [main_v145, main_v146, main_v147]

local macro "writes_in" : tactic =>
  `(tactic| (simp only [StableHlo.nullary_writes, StableHlo.unary_writes, StableHlo.binary_writes, StableHlo.ternary_writes,
      StableHlo.reshape_writes, StableHlo.nary_writes, Finset.singleton_subset_iff, List.mem_toFinset]
             exact List.mem_map_of_mem (by decide)))

theorem ops6A_writes : (ops6A : List (HloOp τ sig (Elt F))).Forall fun op => op.writes ⊆ (ops6A_W.map (Proc.devRef (τ := τ) .tc)).toFinset := by
  simp only [List.Forall]; refine ⟨?_, ?_, ?_, ?_, ?_, ?_, ?_, ?_, ?_⟩ <;> writes_in
theorem ops6B_writes : (ops6B : List (HloOp τ sig (Elt F))).Forall fun op => op.writes ⊆ (ops6B_W.map (Proc.devRef (τ := τ) .tc)).toFinset := by
  simp only [List.Forall]; refine ⟨?_, ?_, ?_, ?_, ?_, ?_⟩ <;> writes_in
theorem ops6C_writes : (ops6C : List (HloOp τ sig (Elt F))).Forall fun op => op.writes ⊆ (ops6C_W.map (Proc.devRef (τ := τ) .tc)).toFinset := by
  simp only [List.Forall]; refine ⟨?_, ?_, ?_, ?_, ?_, ?_⟩ <;> writes_in
theorem ops6D_writes : (ops6D : List (HloOp τ sig (Elt F))).Forall fun op => op.writes ⊆ (ops6D_W.map (Proc.devRef (τ := τ) .tc)).toFinset := by
  simp only [List.Forall]; refine ⟨?_, ?_, ?_, ?_, ?_, ?_⟩ <;> writes_in
theorem ops6E_writes : (ops6E : List (HloOp τ sig (Elt F))).Forall fun op => op.writes ⊆ (ops6E_W.map (Proc.devRef (τ := τ) .tc)).toFinset := by
  simp only [List.Forall]; refine ⟨?_, ?_, ?_⟩ <;> writes_in

end Pieces

theorem ops6A_keep (r : Ref sig .tc) (X : Valuation τ sig (Elt Ideal)) (hr : r ∉ ops6A_W) : StableHlo.after ops6A X ⟪r⟫ = X ⟪r⟫ :=
  StableHlo.after_of_writes_sub ops6A X ops6A_writes hr
theorem ops6B_keep (r : Ref sig .tc) (X : Valuation τ sig (Elt Ideal)) (hr : r ∉ ops6B_W) : StableHlo.after ops6B X ⟪r⟫ = X ⟪r⟫ :=
  StableHlo.after_of_writes_sub ops6B X ops6B_writes hr
theorem ops6C_keep (r : Ref sig .tc) (X : Valuation τ sig (Elt Ideal)) (hr : r ∉ ops6C_W) : StableHlo.after ops6C X ⟪r⟫ = X ⟪r⟫ :=
  StableHlo.after_of_writes_sub ops6C X ops6C_writes hr
theorem ops6D_keep (r : Ref sig .tc) (X : Valuation τ sig (Elt Ideal)) (hr : r ∉ ops6D_W) : StableHlo.after ops6D X ⟪r⟫ = X ⟪r⟫ :=
  StableHlo.after_of_writes_sub ops6D X ops6D_writes hr
theorem ops6E_keep (r : Ref sig .tc) (X : Valuation τ sig (Elt Ideal)) (hr : r ∉ ops6E_W) : StableHlo.after ops6E X ⟪r⟫ = X ⟪r⟫ :=
  StableHlo.after_of_writes_sub ops6E X ops6E_writes hr

def meanOverK (h : FVec Ideal S50000x64 .f32) (batch : IVec S50000 32) (cnt : FVec Ideal S512x1 .f32) : FVec Ideal S512x64 .f32 :=
  Host.divf
    (Host.scatterAdd scatter_S512x64_S50000x1_S50000x64_1_0_0_1
      (broadcastInDim S512x64 ![] bcast_S_S512x64 (constant (F := Ideal) S_ .f32 0x00000000#32))
      (batchColK batch) h)
    (broadcastInDim S512x64 ![0, 1] bcast_S512x1_S512x64_0_1 cnt)

theorem meanK_eq (h : FVec Ideal S50000x64 .f32) (batch : IVec S50000 32) : meanK h batch = meanOverK h batch (countK batch) := rfl

variable (X : Valuation τ sig (Elt Ideal))

theorem ops6A_v129 : StableHlo.after ops6A X ⟪main_v129⟫ = countK (X ⟪main_arg15⟫) := by
  after_results; rfl
theorem ops6B_v134 : StableHlo.after ops6B X ⟪main_v134⟫ = meanOverK (X ⟪main_v43⟫) (X ⟪main_arg15⟫) (X ⟪main_v129⟫) := by
  after_results; rfl
theorem ops6C_v139 : StableHlo.after ops6C X ⟪main_v139⟫ = meanOverK (X ⟪main_v83⟫) (X ⟪main_arg15⟫) (X ⟪main_v129⟫) := by
  after_results; rfl
theorem ops6D_v144 : StableHlo.after ops6D X ⟪main_v144⟫ = meanOverK (X ⟪main_v123⟫) (X ⟪main_arg15⟫) (X ⟪main_v129⟫) := by
  after_results; rfl
theorem ops6E_v145 : StableHlo.after ops6E X ⟪main_v145⟫
    = concatenate S512x192 1 [⟨S512x64, X ⟪main_v134⟫⟩, ⟨S512x64, X ⟪main_v139⟫⟩, ⟨S512x64, X ⟪main_v144⟫⟩]
        concatenates_S512x64_S512x64_S512x64_S512x192_d1 := by
  simp only [StableHlo.after_cons, StableHlo.after_nil]
  rw [StableHlo.reshape_result_ne (h := by decide), StableHlo.reshape_result_ne (h := by decide), nary3_result]
  rfl
theorem ops6E_v146 : StableHlo.after ops6E X ⟪main_v146⟫ = rowK192 (X ⟪main_arg11⟫) := by
  after_results; rfl
theorem ops6E_v147 : StableHlo.after ops6E X ⟪main_v147⟫ = rowK10 (X ⟪main_arg13⟫) := by
  after_results; rfl

variable (W : Valuation τ sig (Elt Ideal))

theorem hostOps6_after : StableHlo.after (hostOps6 (F := Ideal)) W
    = StableHlo.after ops6E (StableHlo.after ops6D (StableHlo.after ops6C (StableHlo.after ops6B (StableHlo.after ops6A W)))) := by
  rw [hostOps6_cut, Cert.Proof.TakeRows.after_append, Cert.Proof.TakeRows.after_append, Cert.Proof.TakeRows.after_append,
    Cert.Proof.TakeRows.after_append]

theorem upTo6D_v129 : StableHlo.after ops6D (StableHlo.after ops6C (StableHlo.after ops6B (StableHlo.after ops6A W))) ⟪main_v129⟫
    = countK (W ⟪main_arg15⟫) := by
  rw [ops6D_keep main_v129 _ (by decide), ops6C_keep main_v129 _ (by decide), ops6B_keep main_v129 _ (by decide), ops6A_v129]

theorem upTo6D_v134 : StableHlo.after ops6D (StableHlo.after ops6C (StableHlo.after ops6B (StableHlo.after ops6A W))) ⟪main_v134⟫
    = meanK (W ⟪main_v43⟫) (W ⟪main_arg15⟫) := by
  rw [ops6D_keep main_v134 _ (by decide), ops6C_keep main_v134 _ (by decide), ops6B_v134,
    ops6A_keep main_v43 _ (by decide), ops6A_keep main_arg15 _ (by decide), ops6A_v129, meanK_eq]

theorem upTo6D_v139 : StableHlo.after ops6D (StableHlo.after ops6C (StableHlo.after ops6B (StableHlo.after ops6A W))) ⟪main_v139⟫
    = meanK (W ⟪main_v83⟫) (W ⟪main_arg15⟫) := by
  rw [ops6D_keep main_v139 _ (by decide), ops6C_v139,
    ops6B_keep main_v83 _ (by decide), ops6B_keep main_arg15 _ (by decide), ops6B_keep main_v129 _ (by decide),
    ops6A_keep main_v83 _ (by decide), ops6A_keep main_arg15 _ (by decide), ops6A_v129, meanK_eq]

theorem upTo6D_v144 : StableHlo.after ops6D (StableHlo.after ops6C (StableHlo.after ops6B (StableHlo.after ops6A W))) ⟪main_v144⟫
    = meanK (W ⟪main_v123⟫) (W ⟪main_arg15⟫) := by
  rw [ops6D_v144,
    ops6C_keep main_v123 _ (by decide), ops6C_keep main_arg15 _ (by decide), ops6C_keep main_v129 _ (by decide),
    ops6B_keep main_v123 _ (by decide), ops6B_keep main_arg15 _ (by decide), ops6B_keep main_v129 _ (by decide),
    ops6A_keep main_v123 _ (by decide), ops6A_keep main_arg15 _ (by decide), ops6A_v129, meanK_eq]

theorem hostOps6_v146 : StableHlo.after (hostOps6 (F := Ideal)) W ⟪main_v146⟫ = rowK192 (W ⟪main_arg11⟫) := by
  rw [hostOps6_after, ops6E_v146, ops6D_keep main_arg11 _ (by decide), ops6C_keep main_arg11 _ (by decide),
    ops6B_keep main_arg11 _ (by decide), ops6A_keep main_arg11 _ (by decide)]
theorem hostOps6_v147 : StableHlo.after (hostOps6 (F := Ideal)) W ⟪main_v147⟫ = rowK10 (W ⟪main_arg13⟫) := by
  rw [hostOps6_after, ops6E_v147, ops6D_keep main_arg13 _ (by decide), ops6C_keep main_arg13 _ (by decide),
    ops6B_keep main_arg13 _ (by decide), ops6A_keep main_arg13 _ (by decide)]

theorem hostOps6_v129 : StableHlo.after (hostOps6 (F := Ideal)) W ⟪main_v129⟫ = countK (W ⟪main_arg15⟫) := by
  rw [hostOps6_after, ops6E_keep main_v129 _ (by decide), upTo6D_v129]
theorem hostOps6_v134 : StableHlo.after (hostOps6 (F := Ideal)) W ⟪main_v134⟫ = meanK (W ⟪main_v43⟫) (W ⟪main_arg15⟫) := by
  rw [hostOps6_after, ops6E_keep main_v134 _ (by decide), upTo6D_v134]
theorem hostOps6_v139 : StableHlo.after (hostOps6 (F := Ideal)) W ⟪main_v139⟫ = meanK (W ⟪main_v83⟫) (W ⟪main_arg15⟫) := by
  rw [hostOps6_after, ops6E_keep main_v139 _ (by decide), upTo6D_v139]
theorem hostOps6_v144 : StableHlo.after (hostOps6 (F := Ideal)) W ⟪main_v144⟫ = meanK (W ⟪main_v123⟫) (W ⟪main_arg15⟫) := by
  rw [hostOps6_after, ops6E_keep main_v144 _ (by decide), upTo6D_v144]

theorem hostOps6_v145 : StableHlo.after (hostOps6 (F := Ideal)) W ⟪main_v145⟫
    = poolK (W ⟪main_v43⟫) (W ⟪main_v83⟫) (W ⟪main_v123⟫) (W ⟪main_arg15⟫) := by
  rw [hostOps6_after, ops6E_v145, upTo6D_v134, upTo6D_v139, upTo6D_v144]
  rfl

end Cert.KernelIdeal.HV

end
-- ==== Proof.KValTail.lean ====
import proofs.«405318_j78374563217910_3_alg».proof.Proof.RunIW
import proofs.«405318_j78374563217910_3_alg».proof.Proof.ValI6
import proofs.«405318_j78374563217910_3_alg».proof.Proof.KNet
import proofs.«405318_j78374563217910_3_alg».proof.Proof.KHost6
import proofs.«405318_j78374563217910_3_alg».proof.Proof.Gen.KernelIdeal.Regions

set_option maxRecDepth 16384

noncomputable section

namespace Cert.KernelIdeal.HV

open Cert.KernelIdeal Cert.KernelIdeal.Gen Cert.KernelIdeal.HF Cert.Spec
open Idealize.ShloMosaic Idealize.ShloMosaic.TcCoe Idealize.ShloMosaic.ValueIdx
open Idealize.SL Idealize.SL.Sem
open Idealize.ShloMosaic.Pipeline (Dat)

local notation "⟪" r "⟫" => (Proc.devRef (τ := τ) (sig := sig) Proc.tc r)

variable (m : (ℓ : Loc nD τ sig) → Buf (Elt Ideal) ℓ) (ρ : Dev nD → PrngReg)

theorem tail_value (c : Dev nD) :
    W32 m ρ c ⟪main_v148⟫
      = Cert.Spec.specC (poolK (W30 m ρ c ⟪main_v43⟫) (W30 m ρ c ⟪main_v83⟫) (W30 m ρ c ⟪main_v123⟫) (W30 m ρ c ⟪main_arg15⟫))
          (W30 m ρ c ⟪main_arg10⟫) (fun j => rowK192 (W30 m ρ c ⟪main_arg11⟫) (ix2 0 j))
          (W30 m ρ c ⟪main_arg12⟫) (fun j => rowK10 (W30 m ρ c ⟪main_arg13⟫) (ix2 0 j)) := by
  have hout : W32 m ρ c ⟪main_v148⟫ = (dat6 (V31 m ρ) c).arrAt 5 cfg6.N := W32_arr m ρ c 5
  have e145 : V31 m ρ c main_v145
      = poolK (W30 m ρ c ⟪main_v43⟫) (W30 m ρ c ⟪main_v83⟫) (W30 m ρ c ⟪main_v123⟫) (W30 m ρ c ⟪main_arg15⟫) := hostOps6_v145 (W30 m ρ c)
  have e146 : V31 m ρ c main_v146 = rowK192 (W30 m ρ c ⟪main_arg11⟫) := hostOps6_v146 (W30 m ρ c)
  have e147 : V31 m ρ c main_v147 = rowK10 (W30 m ρ c ⟪main_arg13⟫) := hostOps6_v147 (W30 m ρ c)
  have e10 : V31 m ρ c main_arg10 = W30 m ρ c ⟪main_arg10⟫ := W31_of m ρ c main_arg10 (by decide)
  have e12 : V31 m ρ c main_arg12 = W30 m ρ c ⟪main_arg12⟫ := W31_of m ρ c main_arg12 (by decide)
  rw [hout, arrAt6_5 (V31 m ρ) c, e145, e146, e147, e10, e12]

end Cert.KernelIdeal.HV

end
-- ==== Proof.KVal.lean ====
import proofs.«405318_j78374563217910_3_alg».proof.Proof.KValL0
import proofs.«405318_j78374563217910_3_alg».proof.Proof.KValL1
import proofs.«405318_j78374563217910_3_alg».proof.Proof.KValL2
import proofs.«405318_j78374563217910_3_alg».proof.Proof.KValTail

set_option maxRecDepth 16384

noncomputable section

namespace Cert.KernelIdeal.HV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)

local notation "⟪" r "⟫" => (Proc.devRef (τ := τ) (sig := sig) Proc.tc r)

variable (m : (ℓ : Loc nD τ sig) → Buf (Elt Ideal) ℓ) (ρ : Dev nD → PrngReg) (c : Dev nD)

set_option quotPrecheck false
local notation "⟦a0⟧" => (m ((c : Thread nD τ).loc main_arg0))
local notation "⟦a1⟧" => (m ((c : Thread nD τ).loc main_arg1))
local notation "⟦a2⟧" => (m ((c : Thread nD τ).loc main_arg2))
local notation "⟦a3⟧" => (m ((c : Thread nD τ).loc main_arg3))
local notation "⟦a4⟧" => (m ((c : Thread nD τ).loc main_arg4))
local notation "⟦a5⟧" => (m ((c : Thread nD τ).loc main_arg5))
local notation "⟦a6⟧" => (m ((c : Thread nD τ).loc main_arg6))
local notation "⟦a7⟧" => (m ((c : Thread nD τ).loc main_arg7))
local notation "⟦a8⟧" => (m ((c : Thread nD τ).loc main_arg8))
local notation "⟦a9⟧" => (m ((c : Thread nD τ).loc main_arg9))
local notation "⟦a10⟧" => (m ((c : Thread nD τ).loc main_arg10))
local notation "⟦a11⟧" => (m ((c : Thread nD τ).loc main_arg11))
local notation "⟦a12⟧" => (m ((c : Thread nD τ).loc main_arg12))
local notation "⟦a13⟧" => (m ((c : Thread nD τ).loc main_arg13))
local notation "⟦a14⟧" => (m ((c : Thread nD τ).loc main_arg14))
local notation "⟦a15⟧" => (m ((c : Thread nD τ).loc main_arg15))
local notation "⟦src⟧" => (srcK ⟦a14⟧)
local notation "⟦dst⟧" => (dstK ⟦a14⟧)

theorem W30_v43 : W30 m ρ c ⟪main_v43⟫ = W10 m ρ c ⟪main_v43⟫ :=
  (W30_of_ne m ρ c main_v43 (by decide)).trans <|
    (W29_of m ρ c main_v43 (by decide)).trans <|
    (W28_of m ρ c main_v43 (by decide)).trans <|
    (W27_of m ρ c main_v43 (by decide)).trans <|
    (W26_of_ne m ρ c main_v43 (by decide)).trans <|
    (W25_of m ρ c main_v43 (by decide)).trans <|
    (W24_of m ρ c main_v43 (by decide)).trans <|
    (W23_of m ρ c main_v43 (by decide)).trans <|
    (W22_of m ρ c main_v43 (by decide)).trans <|
    (W21_of m ρ c main_v43 (by decide)).trans <|
    (W20_of_ne m ρ c main_v43 (by decide)).trans <|
    (W19_of m ρ c main_v43 (by decide)).trans <|
    (W18_of m ρ c main_v43 (by decide)).trans <|
    (W17_of m ρ c main_v43 (by decide)).trans <|
    ((W16_arr m ρ c 0).trans (((dat2 (V15 m ρ) c).arrAt_in 0 rfl _).trans (A_eq2 (V15 m ρ) c 0))).trans <|
    (W15_of m ρ c main_v43 (by decide)).trans <|
    (W14_of m ρ c main_v43 (by decide)).trans <|
    (W13_of m ρ c main_v43 (by decide)).trans <|
    (W12_of m ρ c main_v43 (by decide)).trans <|
    (W11_of m ρ c main_v43 (by decide))

theorem W30_v83 : W30 m ρ c ⟪main_v83⟫ = W20 m ρ c ⟪main_v83⟫ :=
  (W30_of_ne m ρ c main_v83 (by decide)).trans <|
    (W29_of m ρ c main_v83 (by decide)).trans <|
    (W28_of m ρ c main_v83 (by decide)).trans <|
    (W27_of m ρ c main_v83 (by decide)).trans <|
    ((W26_arr m ρ c 0).trans (((dat4 (V25 m ρ) c).arrAt_in 0 rfl _).trans (A_eq4 (V25 m ρ) c 0))).trans <|
    (W25_of m ρ c main_v83 (by decide)).trans <|
    (W24_of m ρ c main_v83 (by decide)).trans <|
    (W23_of m ρ c main_v83 (by decide)).trans <|
    (W22_of m ρ c main_v83 (by decide)).trans <|
    (W21_of m ρ c main_v83 (by decide))

theorem kernel_value : W32 m ρ c ⟪main_v148⟫
    = netK ⟦a0⟧ ⟦a1⟧ ⟦a2⟧ ⟦a3⟧ ⟦a4⟧ ⟦a5⟧ ⟦a6⟧ ⟦a7⟧ ⟦a8⟧ ⟦a9⟧ ⟦a10⟧ ⟦a11⟧ ⟦a12⟧ ⟦a13⟧ ⟦a14⟧ ⟦a15⟧ := by
  refine (tail_value m ρ c).trans ?_
  rw [W30_v43 m ρ c, W30_v83 m ρ c, L2_out m ρ c, L1_out m ρ c, L0_out m ρ c,
    W30_arg15 m ρ c, W30_arg10 m ρ c, W30_arg11 m ρ c, W30_arg12 m ρ c, W30_arg13 m ρ c]
  rfl

end Cert.KernelIdeal.HV

end
-- ==== Proof.RefOps0.lean ====
import proofs.«405318_j78374563217910_3_alg».proof.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Facts₀ Facts

variable {F : FTy → Type} [FloatOps F] [Facts]

local macro "writes_one" : tactic =>
  `(tactic| (simp only [nullary_writes, unary_writes, binary_writes, ternary_writes, quaternary_writes, reshape_writes, binaryIndexed_writes, nary_writes, unaryIndexed_writes, Finset.singleton_subset_iff, List.mem_toFinset]
             exact List.mem_map_of_mem (by decide)))

abbrev ck0 : List (HloOp τ sig (Elt F)) :=
  [ StableHlo.unary main_arg14 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg14 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

theorem ck0_sub : (ck0 : List (HloOp τ sig (Elt F))).Forall fun op => op.bufs ⊆ tcRefs τ sig :=
  ⟨unary_bufs_sub .., reshape_bufs_sub .., unary_bufs_sub .., reshape_bufs_sub ..⟩

theorem ck0_fresh : (ck0 : List (HloOp τ sig (Elt F))).Forall fun op => op.fresh = ∅ :=
  ⟨rfl, rfl, rfl, rfl⟩

abbrev ck0_W : List (Ref sig .tc) := [main_v0, main_v1, main_v2, main_v3]

theorem ck0_writes : (ck0 : List (HloOp τ sig (Elt F))).Forall fun op => op.writes ⊆ (ck0_W.map (Proc.devRef (τ := τ) .tc)).toFinset := by
  simp only [List.Forall]
  exact ⟨(by writes_one), (by writes_one), (by writes_one), (by writes_one)⟩

abbrev ck1 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg2 main_v11 ((extractStridedSlice S1x16x64 ![0, 0, 0] · slices_S3x16x64_S1x16x64_0_0_0) : (⟨S3x16x64, .f32⟩ : BufTy).Contents (Elt F) → (⟨S1x16x64, .f32⟩ : BufTy).Contents (Elt F)),
    StableHlo.reshape main_v11 main_v12 rfl shapeCasts_S1x16x64_S16x64,
    StableHlo.binary main_arg1 main_v12 main_v13 ((fun l r => Host.dotGeneral dot_S800000x16_S16x64_S800000x64_1_0_0_1_n_n none l r) : (⟨S800000x16, .f32⟩ : BufTy).Contents (Elt F) → (⟨S16x64, .f32⟩ : BufTy).Contents (Elt F) → (⟨S800000x64, .f32⟩ : BufTy).Contents (Elt F)),
    StableHlo.binary main_v10 main_v13 main_v14 (addf : (⟨S800000x64, .f32⟩ : BufTy).Contents (Elt F) → (⟨S800000x64, .f32⟩ : BufTy).Contents (Elt F) → (⟨S800000x64, .f32⟩ : BufTy).Contents (Elt F)),
    StableHlo.unary main_arg3 main_v15 ((extractStridedSlice S1x64 ![0, 0] · slices_S3x64_S1x64_0_0) : (⟨S3x64, .f32⟩ : BufTy).Contents (Elt F) → (⟨S1x64, .f32⟩ : BufTy).Contents (Elt F)),
    StableHlo.reshape main_v15 main_v16 rfl shapeCasts_S1x64_S64,
    StableHlo.unary main_v16 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S800000x64 ![0, 1] bcast_S1x64_S800000x64_0_1 : (⟨S1x64, .f32⟩ : BufTy).Contents (Elt F) → (⟨S800000x64, .f32⟩ : BufTy).Contents (Elt F)),
    StableHlo.binary main_v14 main_v18 main_v19 (addf : (⟨S800000x64, .f32⟩ : BufTy).Contents (Elt F) → (⟨S800000x64, .f32⟩ : BufTy).Contents (Elt F) → (⟨S800000x64, .f32⟩ : BufTy).Contents (Elt F)),
    StableHlo.TRef.nullary main_call0.cst (constant S_ .f32 0x00000000#32),
    StableHlo.TRef.unary main_call0.cst main_call0.v0 (broadcastInDim S800000x64 ![] bcast_S_S800000x64),
    StableHlo.TRef.binary (.of main_v19 : StableHlo.TRef sig ⟨S800000x64, .f32⟩) main_call0.v0 main_call0.v1 maximumf ]

theorem ck1_sub : (ck1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

theorem ck1_fresh : (ck1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

abbrev ck1_W : List (Ref sig .tc) := [main_c, main_v4, main_v5, main_c_0, main_v6, main_v7, main_v8, main_v9, main_v10, main_v11, main_v12, main_v13, main_v14, main_v15, main_v16, main_v17, main_v18, main_v19, main_call0_cst, main_call0_v0, main_v20]

theorem ck1_writes : (ck1 : List (HloOp τ sig (Elt F))).Forall fun op => op.writes ⊆ (ck1_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck2 : List (HloOp τ sig (Elt F)) :=
  [ StableHlo.nullary main_cst (constant S_ .f32 0x00000000#32),
    StableHlo.unary main_cst main_v21 (broadcastInDim S50000x64 ![] bcast_S_S50000x64 : (⟨S_, .f32⟩ : BufTy).Contents (Elt F) → (⟨S50000x64, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ck2_sub : (ck2 : List (HloOp τ sig (Elt F))).Forall fun op => op.bufs ⊆ tcRefs τ sig :=
  ⟨nullary_bufs_sub .., unary_bufs_sub .., unary_bufs_sub .., ternary_bufs_sub ..⟩

theorem ck2_fresh : (ck2 : List (HloOp τ sig (Elt F))).Forall fun op => op.fresh = ∅ :=
  ⟨rfl, rfl, rfl, rfl⟩

abbrev ck2_W : List (Ref sig .tc) := [main_cst, main_v21, main_v22, main_v23]

theorem ck2_writes : (ck2 : List (HloOp τ sig (Elt F))).Forall fun op => op.writes ⊆ (ck2_W.map (Proc.devRef (τ := τ) .tc)).toFinset := by
  simp only [List.Forall]
  exact ⟨(by writes_one), (by writes_one), (by writes_one), (by writes_one)⟩

abbrev ck3 : List (HloOp τ sig (Elt F)) :=
  [ StableHlo.binary main_arg0 main_v23 main_v24 (addf : (⟨S50000x64, .f32⟩ : BufTy).Contents (Elt F) → (⟨S50000x64, .f32⟩ : BufTy).Contents (Elt F) → (⟨S50000x64, .f32⟩ : BufTy).Contents (Elt F)),
    StableHlo.unary main_arg4 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.binary main_v24 main_v26 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v28 ((extractStridedSlice S1x64 ![0, 0] · slices_S3x64_S1x64_0_0) : (⟨S3x64, .f32⟩ : BufTy).Contents (Elt F) → (⟨S1x64, .f32⟩ : BufTy).Contents (Elt F)),
    StableHlo.reshape main_v28 main_v29 rfl shapeCasts_S1x64_S64,
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v31 main_v32 (addf : (⟨S50000x64, .f32⟩ : BufTy).Contents (Elt F) → (⟨S50000x64, .f32⟩ : BufTy).Contents (Elt F) → (⟨S50000x64, .f32⟩ : BufTy).Contents (Elt F)) ]

theorem ck3_sub : (ck3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem ck3_fresh : (ck3 : List (HloOp τ sig (Elt F))).Forall fun op => op.fresh = ∅ :=
  ⟨rfl, rfl, rfl, rfl, rfl, rfl, rfl, rfl, rfl⟩

abbrev ck3_W : List (Ref sig .tc) := [main_v24, main_v25, main_v26, main_v27, main_v28, main_v29, main_v30, main_v31, main_v32]

theorem ck3_writes : (ck3 : List (HloOp τ sig (Elt F))).Forall fun op => op.writes ⊆ (ck3_W.map (Proc.devRef (τ := τ) .tc)).toFinset := by
  simp only [List.Forall]
  exact ⟨(by writes_one), (by writes_one), (by writes_one), (by writes_one), (by writes_one), (by writes_one), (by writes_one), (by writes_one), (by writes_one)⟩

abbrev ck4 : List (HloOp τ sig (Elt F)) :=
  [ StableHlo.nullary main_cst_1 (constant S_ .f32 0x00000000#32),
    StableHlo.binary main_v32 main_cst_1 main_v33 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v34 (broadcastInDim S64 ![] bcast_S_S64 : (⟨S_, .f32⟩ : BufTy).Contents (Elt F) → (⟨S64, .f32⟩ : BufTy).Contents (Elt F)),
    StableHlo.binary main_v33 main_v34 main_v35 (Host.divf : (⟨S64, .f32⟩ : BufTy).Contents (Elt F) → (⟨S64, .f32⟩ : BufTy).Contents (Elt F) → (⟨S64, .f32⟩ : BufTy).Contents (Elt F)) ]

theorem ck4_sub : (ck4 : List (HloOp τ sig (Elt F))).Forall fun op => op.bufs ⊆ tcRefs τ sig :=
  ⟨nullary_bufs_sub .., binary_bufs_sub .., nullary_bufs_sub .., unary_bufs_sub .., binary_bufs_sub ..⟩

theorem ck4_fresh : (ck4 : List (HloOp τ sig (Elt F))).Forall fun op => op.fresh = ∅ :=
  ⟨rfl, rfl, rfl, rfl, rfl⟩

abbrev ck4_W : List (Ref sig .tc) := [main_cst_1, main_v33, main_cst_2, main_v34, main_v35]

theorem ck4_writes : (ck4 : List (HloOp τ sig (Elt F))).Forall fun op => op.writes ⊆ (ck4_W.map (Proc.devRef (τ := τ) .tc)).toFinset := by
  simp only [List.Forall]
  exact ⟨(by writes_one), (by writes_one), (by writes_one), (by writes_one), (by writes_one)⟩

abbrev ck5 : List (HloOp τ sig (Elt F)) :=
  [ StableHlo.nullary main_c_3 (constantI S_ 32 0#32),
    StableHlo.TRef.nullary main_call1.cst (constant S_ .f32 0x00000000#32),
    StableHlo.TRef.binary (.of main_v32 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v32 : StableHlo.TRef sig ⟨S50000x64, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1_call0.v0 id,
    StableHlo.TRef.unary main_call1_call0.v0 main_call1_call0.v1 (broadcastInDim S64 ![] bcast_S_S64),
    StableHlo.TRef.ternary main_call1.v12 main_call1.v11 main_call1_call0.v1 main_call1_call0.v2 (fun p a b => select (broadcastInDim S64 ![] bcast_S_S64 p) a b) ]

theorem ck5_sub : (ck5 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem ck5_fresh : (ck5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev ck5_W : List (Ref sig .tc) := [main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v36]

theorem ck5_writes : (ck5 : List (HloOp τ sig (Elt F))).Forall fun op => op.writes ⊆ (ck5_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck6 : List (HloOp τ sig (Elt F)) :=
  [ StableHlo.unary main_v35 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S50000x64 ![0, 1] bcast_S1x64_S50000x64_0_1 : (⟨S1x64, .f32⟩ : BufTy).Contents (Elt F) → (⟨S50000x64, .f32⟩ : BufTy).Contents (Elt F)),
    StableHlo.binary main_v32 main_v38 main_v39 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v40 (broadcastInDim S64 ![] bcast_S_S64 : (⟨S_, .f32⟩ : BufTy).Contents (Elt F) → (⟨S64, .f32⟩ : BufTy).Contents (Elt F)),
    StableHlo.binary main_v36 main_v40 main_v41 (addf : (⟨S64, .f32⟩ : BufTy).Contents (Elt F) → (⟨S64, .f32⟩ : BufTy).Contents (Elt F) → (⟨S64, .f32⟩ : BufTy).Contents (Elt F)),
    StableHlo.unary main_v41 main_v42 (Host.rsqrt : (⟨S64, .f32⟩ : BufTy).Contents (Elt F) → (⟨S64, .f32⟩ : BufTy).Contents (Elt F)),
    StableHlo.unary main_v42 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S50000x64 ![0, 1] bcast_S1x64_S50000x64_0_1 : (⟨S1x64, .f32⟩ : BufTy).Contents (Elt F) → (⟨S50000x64, .f32⟩ : BufTy).Contents (Elt F)),
    StableHlo.binary main_v39 main_v44 main_v45 (mulf : (⟨S50000x64, .f32⟩ : BufTy).Contents (Elt F) → (⟨S50000x64, .f32⟩ : BufTy).Contents (Elt F) → (⟨S50000x64, .f32⟩ : BufTy).Contents (Elt F)),
    StableHlo.unary main_arg6 main_v46 ((extractStridedSlice S1x64 ![0, 0] · slices_S3x64_S1x64_0_0) : (⟨S3x64, .f32⟩ : BufTy).Contents (Elt F) → (⟨S1x64, .f32⟩ : BufTy).Contents (Elt F)),
    StableHlo.reshape main_v46 main_v47 rfl shapeCasts_S1x64_S64,
    StableHlo.unary main_v47 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v45 main_v49 main_v50 (mulf : (⟨S50000x64, .f32⟩ : BufTy).Contents (Elt F) → (⟨S50000x64, .f32⟩ : BufTy).Contents (Elt F) → (⟨S50000x64, .f32⟩ : BufTy).Contents (Elt F)),
    StableHlo.unary main_arg7 main_v51 ((extractStridedSlice S1x64 ![0, 0] · slices_S3x64_S1x64_0_0) : (⟨S3x64, .f32⟩ : BufTy).Contents (Elt F) → (⟨S1x64, .f32⟩ : BufTy).Contents (Elt F)),
    StableHlo.reshape main_v51 main_v52 rfl shapeCasts_S1x64_S64 ]

theorem ck6_sub : (ck6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub ..⟩

theorem ck6_fresh : (ck6 : List (HloOp τ sig (Elt F))).Forall fun op => op.fresh = ∅ :=
  ⟨rfl, rfl, rfl, rfl, rfl, rfl, rfl, rfl, rfl, rfl, rfl, rfl, rfl, rfl, rfl, rfl, rfl⟩

abbrev ck6_W : List (Ref sig .tc) := [main_v37, main_v38, main_v39, main_cst_4, main_v40, main_v41, main_v42, main_v43, main_v44, main_v45, main_v46, main_v47, main_v48, main_v49, main_v50, main_v51, main_v52]

theorem ck6_writes : (ck6 : List (HloOp τ sig (Elt F))).Forall fun op => op.writes ⊆ (ck6_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ops0 : List (HloOp τ sig (Elt F)) :=
  ck0 ++ (ck1 ++ (ck2 ++ (ck3 ++ (ck4 ++ (ck5 ++ (ck6))))))

theorem ops0_sub : (ops0 : List (HloOp τ sig (Elt F))).Forall fun op => op.bufs ⊆ tcRefs τ sig :=
  List.forall_iff_forall_mem.mpr fun op h => by
    simp only [ops0, List.mem_append] at h
    rcases h with h | h | h | h | h | h | h
    exacts [List.forall_iff_forall_mem.mp ck0_sub op h, List.forall_iff_forall_mem.mp ck1_sub op h, List.forall_iff_forall_mem.mp ck2_sub op h, List.forall_iff_forall_mem.mp ck3_sub op h, List.forall_iff_forall_mem.mp ck4_sub op h, List.forall_iff_forall_mem.mp ck5_sub op h, List.forall_iff_forall_mem.mp ck6_sub op h]

theorem ops0_fresh : ∀ op ∈ (ops0 : List (HloOp τ sig (Elt F))), op.fresh = ∅ := fun op h => by
    simp only [ops0, List.mem_append] at h
    rcases h with h | h | h | h | h | h | h
    exacts [List.forall_iff_forall_mem.mp ck0_fresh op h, List.forall_iff_forall_mem.mp ck1_fresh op h, List.forall_iff_forall_mem.mp ck2_fresh op h, List.forall_iff_forall_mem.mp ck3_fresh op h, List.forall_iff_forall_mem.mp ck4_fresh op h, List.forall_iff_forall_mem.mp ck5_fresh op h, List.forall_iff_forall_mem.mp ck6_fresh op h]

set_option maxRecDepth 8192 in
set_option maxHeartbeats 4000000 in

theorem main_part0_eq (c : Dev nD) : main_part0 (F := F) c = seq ops0 := rfl

end Cert.ReferenceIdeal.HRun

end
-- ==== Proof.RefOps1.lean ====
import proofs.«405318_j78374563217910_3_alg».proof.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Facts₀ Facts

variable {F : FTy → Type} [FloatOps F] [Facts]

local macro "writes_one" : tactic =>
  `(tactic| (simp only [nullary_writes, unary_writes, binary_writes, ternary_writes, quaternary_writes, reshape_writes, binaryIndexed_writes, nary_writes, unaryIndexed_writes, Finset.singleton_subset_iff, List.mem_toFinset]
             exact List.mem_map_of_mem (by decide)))

abbrev ck7 : List (HloOp τ sig (Elt F)) :=
  [ StableHlo.unary main_v52 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S50000x64 ![0, 1] bcast_S1x64_S50000x64_0_1 : (⟨S1x64, .f32⟩ : BufTy).Contents (Elt F) → (⟨S50000x64, .f32⟩ : BufTy).Contents (Elt F)),
    StableHlo.binary main_v50 main_v54 main_v55 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v55 : StableHlo.TRef sig ⟨S50000x64, .f32⟩) main_call2.v0 main_call2.v1 maximumf,
    StableHlo.unary main_arg8 main_v57 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v57 main_v58 rfl shapeCasts_S1x64x64_S64x64,
    StableHlo.binary main_v56 main_v58 main_v59 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v60 ((extractStridedSlice S1x64 ![0, 0] · slices_S3x64_S1x64_0_0) : (⟨S3x64, .f32⟩ : BufTy).Contents (Elt F) → (⟨S1x64, .f32⟩ : BufTy).Contents (Elt F)),
    StableHlo.reshape main_v60 main_v61 rfl shapeCasts_S1x64_S64,
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v63 main_v64 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v64 : StableHlo.TRef sig ⟨S50000x64, .f32⟩) main_call3.v0 main_call3.v1 maximumf ]

theorem ck7_sub : (ck7 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ck7_fresh : (ck7 : List (HloOp τ sig (Elt F))).Forall fun op => op.fresh = ∅ :=
  ⟨rfl, rfl, rfl, rfl, rfl, rfl, rfl, rfl, rfl, rfl, rfl, rfl, rfl, rfl, rfl, rfl, rfl⟩

abbrev ck7_W : List (Ref sig .tc) := [main_v53, main_v54, main_v55, main_call2_cst, main_call2_v0, main_v56, main_v57, main_v58, main_v59, main_v60, main_v61, main_v62, main_v63, main_v64, main_call3_cst, main_call3_v0, main_v65]

theorem ck7_writes : (ck7 : List (HloOp τ sig (Elt F))).Forall fun op => op.writes ⊆ (ck7_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck8 : List (HloOp τ sig (Elt F)) :=
  [ StableHlo.nullary main_c_5 (constantI S_ 32 0#32),
    StableHlo.unary main_c_5 main_v66 (broadcastInDim S800000 ![] bcast_S_S800000 : (⟨S_, .i32⟩ : BufTy).Contents (Elt F) → (⟨S800000, .i32⟩ : BufTy).Contents (Elt F)),
    StableHlo.binary main_v1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v68 (broadcastInDim S800000 ![] bcast_S_S800000 : (⟨S_, .i32⟩ : BufTy).Contents (Elt F) → (⟨S800000, .i32⟩ : BufTy).Contents (Elt F)),
    StableHlo.binary main_v1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v65 main_v71 main_v72 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg2 main_v73 ((extractStridedSlice S1x16x64 ![1, 0, 0] · slices_S3x16x64_S1x16x64_1_0_0) : (⟨S3x16x64, .f32⟩ : BufTy).Contents (Elt F) → (⟨S1x16x64, .f32⟩ : BufTy).Contents (Elt F)),
    StableHlo.reshape main_v73 main_v74 rfl shapeCasts_S1x16x64_S16x64,
    StableHlo.binary main_arg1 main_v74 main_v75 ((fun l r => Host.dotGeneral dot_S800000x16_S16x64_S800000x64_1_0_0_1_n_n none l r) : (⟨S800000x16, .f32⟩ : BufTy).Contents (Elt F) → (⟨S16x64, .f32⟩ : BufTy).Contents (Elt F) → (⟨S800000x64, .f32⟩ : BufTy).Contents (Elt F)),
    StableHlo.binary main_v72 main_v75 main_v76 (addf : (⟨S800000x64, .f32⟩ : BufTy).Contents (Elt F) → (⟨S800000x64, .f32⟩ : BufTy).Contents (Elt F) → (⟨S800000x64, .f32⟩ : BufTy).Contents (Elt F)),
    StableHlo.unary main_arg3 main_v77 ((extractStridedSlice S1x64 ![1, 0] · slices_S3x64_S1x64_1_0) : (⟨S3x64, .f32⟩ : BufTy).Contents (Elt F) → (⟨S1x64, .f32⟩ : BufTy).Contents (Elt F)),
    StableHlo.reshape main_v77 main_v78 rfl shapeCasts_S1x64_S64,
    StableHlo.unary main_v78 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S800000x64 ![0, 1] bcast_S1x64_S800000x64_0_1 : (⟨S1x64, .f32⟩ : BufTy).Contents (Elt F) → (⟨S800000x64, .f32⟩ : BufTy).Contents (Elt F)),
    StableHlo.binary main_v76 main_v80 main_v81 (addf : (⟨S800000x64, .f32⟩ : BufTy).Contents (Elt F) → (⟨S800000x64, .f32⟩ : BufTy).Contents (Elt F) → (⟨S800000x64, .f32⟩ : BufTy).Contents (Elt F)),
    StableHlo.TRef.nullary main_call4.cst (constant S_ .f32 0x00000000#32),
    StableHlo.TRef.unary main_call4.cst main_call4.v0 (broadcastInDim S800000x64 ![] bcast_S_S800000x64),
    StableHlo.TRef.binary (.of main_v81 : StableHlo.TRef sig ⟨S800000x64, .f32⟩) main_call4.v0 main_call4.v1 maximumf ]

theorem ck8_sub : (ck8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

theorem ck8_fresh : (ck8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

abbrev ck8_W : List (Ref sig .tc) := [main_c_5, main_v66, main_v67, main_c_6, main_v68, main_v69, main_v70, main_v71, main_v72, main_v73, main_v74, main_v75, main_v76, main_v77, main_v78, main_v79, main_v80, main_v81, main_call4_cst, main_call4_v0, main_v82]

theorem ck8_writes : (ck8 : List (HloOp τ sig (Elt F))).Forall fun op => op.writes ⊆ (ck8_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck9 : List (HloOp τ sig (Elt F)) :=
  [ StableHlo.nullary main_cst_7 (constant S_ .f32 0x00000000#32),
    StableHlo.unary main_cst_7 main_v83 (broadcastInDim S50000x64 ![] bcast_S_S50000x64 : (⟨S_, .f32⟩ : BufTy).Contents (Elt F) → (⟨S50000x64, .f32⟩ : BufTy).Contents (Elt F)),
    StableHlo.unary main_v3 main_v84 (broadcastInDim S800000x1 ![0] bcast_S800000_S800000x1_0 : (⟨S800000, .i32⟩ : BufTy).Contents (Elt F) → (⟨S800000x1, .i32⟩ : BufTy).Contents (Elt F)),
    StableHlo.ternary main_v83 main_v84 main_v82 main_v85 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ck9_sub : (ck9 : List (HloOp τ sig (Elt F))).Forall fun op => op.bufs ⊆ tcRefs τ sig :=
  ⟨nullary_bufs_sub .., unary_bufs_sub .., unary_bufs_sub .., ternary_bufs_sub ..⟩

theorem ck9_fresh : (ck9 : List (HloOp τ sig (Elt F))).Forall fun op => op.fresh = ∅ :=
  ⟨rfl, rfl, rfl, rfl⟩

abbrev ck9_W : List (Ref sig .tc) := [main_cst_7, main_v83, main_v84, main_v85]

theorem ck9_writes : (ck9 : List (HloOp τ sig (Elt F))).Forall fun op => op.writes ⊆ (ck9_W.map (Proc.devRef (τ := τ) .tc)).toFinset := by
  simp only [List.Forall]
  exact ⟨(by writes_one), (by writes_one), (by writes_one), (by writes_one)⟩

abbrev ck10 : List (HloOp τ sig (Elt F)) :=
  [ StableHlo.binary main_v65 main_v85 main_v86 (addf : (⟨S50000x64, .f32⟩ : BufTy).Contents (Elt F) → (⟨S50000x64, .f32⟩ : BufTy).Contents (Elt F) → (⟨S50000x64, .f32⟩ : BufTy).Contents (Elt F)),
    StableHlo.unary main_arg4 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.binary main_v86 main_v88 main_v89 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v90 ((extractStridedSlice S1x64 ![1, 0] · slices_S3x64_S1x64_1_0) : (⟨S3x64, .f32⟩ : BufTy).Contents (Elt F) → (⟨S1x64, .f32⟩ : BufTy).Contents (Elt F)),
    StableHlo.reshape main_v90 main_v91 rfl shapeCasts_S1x64_S64,
    StableHlo.unary main_v91 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v93 main_v94 (addf : (⟨S50000x64, .f32⟩ : BufTy).Contents (Elt F) → (⟨S50000x64, .f32⟩ : BufTy).Contents (Elt F) → (⟨S50000x64, .f32⟩ : BufTy).Contents (Elt F)) ]

theorem ck10_sub : (ck10 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem ck10_fresh : (ck10 : List (HloOp τ sig (Elt F))).Forall fun op => op.fresh = ∅ :=
  ⟨rfl, rfl, rfl, rfl, rfl, rfl, rfl, rfl, rfl⟩

abbrev ck10_W : List (Ref sig .tc) := [main_v86, main_v87, main_v88, main_v89, main_v90, main_v91, main_v92, main_v93, main_v94]

theorem ck10_writes : (ck10 : List (HloOp τ sig (Elt F))).Forall fun op => op.writes ⊆ (ck10_W.map (Proc.devRef (τ := τ) .tc)).toFinset := by
  simp only [List.Forall]
  exact ⟨(by writes_one), (by writes_one), (by writes_one), (by writes_one), (by writes_one), (by writes_one), (by writes_one), (by writes_one), (by writes_one)⟩

abbrev ck11 : List (HloOp τ sig (Elt F)) :=
  [ StableHlo.nullary main_cst_8 (constant S_ .f32 0x00000000#32),
    StableHlo.binary main_v94 main_cst_8 main_v95 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)) ]

theorem ck11_sub : (ck11 : List (HloOp τ sig (Elt F))).Forall fun op => op.bufs ⊆ tcRefs τ sig :=
  ⟨nullary_bufs_sub .., binary_bufs_sub .., nullary_bufs_sub .., unary_bufs_sub .., binary_bufs_sub ..⟩

theorem ck11_fresh : (ck11 : List (HloOp τ sig (Elt F))).Forall fun op => op.fresh = ∅ :=
  ⟨rfl, rfl, rfl, rfl, rfl⟩

abbrev ck11_W : List (Ref sig .tc) := [main_cst_8, main_v95, main_cst_9, main_v96, main_v97]

theorem ck11_writes : (ck11 : List (HloOp τ sig (Elt F))).Forall fun op => op.writes ⊆ (ck11_W.map (Proc.devRef (τ := τ) .tc)).toFinset := by
  simp only [List.Forall]
  exact ⟨(by writes_one), (by writes_one), (by writes_one), (by writes_one), (by writes_one)⟩

abbrev ck12 : List (HloOp τ sig (Elt F)) :=
  [ StableHlo.nullary main_c_10 (constantI S_ 32 0#32),
    StableHlo.TRef.nullary main_call5.cst (constant S_ .f32 0x00000000#32),
    StableHlo.TRef.binary (.of main_v94 : StableHlo.TRef sig ⟨S50000x64, .f32⟩) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v94 : StableHlo.TRef sig ⟨S50000x64, .f32⟩) main_call5.v4 main_call5.v5 subf,
    StableHlo.TRef.binary main_call5.v5 main_call5.v5 main_call5.v6 mulf,
    StableHlo.TRef.unary (.of main_c_10 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5_call0.v0 id,
    StableHlo.TRef.unary main_call5_call0.v0 main_call5_call0.v1 (broadcastInDim S64 ![] bcast_S_S64),
    StableHlo.TRef.ternary main_call5.v12 main_call5.v11 main_call5_call0.v1 main_call5_call0.v2 (fun p a b => select (broadcastInDim S64 ![] bcast_S_S64 p) a b) ]

theorem ck12_sub : (ck12 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem ck12_fresh : (ck12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev ck12_W : List (Ref sig .tc) := [main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v98]

theorem ck12_writes : (ck12 : List (HloOp τ sig (Elt F))).Forall fun op => op.writes ⊆ (ck12_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck13 : List (HloOp τ sig (Elt F)) :=
  [ StableHlo.unary main_v97 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v94 main_v100 main_v101 (subf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v102 (broadcastInDim S64 ![] bcast_S_S64 : (⟨S_, .f32⟩ : BufTy).Contents (Elt F) → (⟨S64, .f32⟩ : BufTy).Contents (Elt F)),
    StableHlo.binary main_v98 main_v102 main_v103 (addf : (⟨S64, .f32⟩ : BufTy).Contents (Elt F) → (⟨S64, .f32⟩ : BufTy).Contents (Elt F) → (⟨S64, .f32⟩ : BufTy).Contents (Elt F)),
    StableHlo.unary main_v103 main_v104 (Host.rsqrt : (⟨S64, .f32⟩ : BufTy).Contents (Elt F) → (⟨S64, .f32⟩ : BufTy).Contents (Elt F)),
    StableHlo.unary main_v104 main_v105 (broadcastInDim S1x64 ![1] bcast_S64_S1x64_1 : (⟨S64, .f32⟩ : BufTy).Contents (Elt F) → (⟨S1x64, .f32⟩ : BufTy).Contents (Elt F)) ]

theorem ck13_sub : (ck13 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub ..⟩

theorem ck13_fresh : (ck13 : List (HloOp τ sig (Elt F))).Forall fun op => op.fresh = ∅ :=
  ⟨rfl, rfl, rfl, rfl, rfl, rfl, rfl, rfl⟩

abbrev ck13_W : List (Ref sig .tc) := [main_v99, main_v100, main_v101, main_cst_11, main_v102, main_v103, main_v104, main_v105]

theorem ck13_writes : (ck13 : List (HloOp τ sig (Elt F))).Forall fun op => op.writes ⊆ (ck13_W.map (Proc.devRef (τ := τ) .tc)).toFinset := by
  simp only [List.Forall]
  exact ⟨(by writes_one), (by writes_one), (by writes_one), (by writes_one), (by writes_one), (by writes_one), (by writes_one), (by writes_one)⟩

abbrev ops1 : List (HloOp τ sig (Elt F)) :=
  ck7 ++ (ck8 ++ (ck9 ++ (ck10 ++ (ck11 ++ (ck12 ++ (ck13))))))

theorem ops1_sub : (ops1 : List (HloOp τ sig (Elt F))).Forall fun op => op.bufs ⊆ tcRefs τ sig :=
  List.forall_iff_forall_mem.mpr fun op h => by
    simp only [ops1, List.mem_append] at h
    rcases h with h | h | h | h | h | h | h
    exacts [List.forall_iff_forall_mem.mp ck7_sub op h, List.forall_iff_forall_mem.mp ck8_sub op h, List.forall_iff_forall_mem.mp ck9_sub op h, List.forall_iff_forall_mem.mp ck10_sub op h, List.forall_iff_forall_mem.mp ck11_sub op h, List.forall_iff_forall_mem.mp ck12_sub op h, List.forall_iff_forall_mem.mp ck13_sub op h]

theorem ops1_fresh : ∀ op ∈ (ops1 : List (HloOp τ sig (Elt F))), op.fresh = ∅ := fun op h => by
    simp only [ops1, List.mem_append] at h
    rcases h with h | h | h | h | h | h | h
    exacts [List.forall_iff_forall_mem.mp ck7_fresh op h, List.forall_iff_forall_mem.mp ck8_fresh op h, List.forall_iff_forall_mem.mp ck9_fresh op h, List.forall_iff_forall_mem.mp ck10_fresh op h, List.forall_iff_forall_mem.mp ck11_fresh op h, List.forall_iff_forall_mem.mp ck12_fresh op h, List.forall_iff_forall_mem.mp ck13_fresh op h]

set_option maxRecDepth 8192 in
set_option maxHeartbeats 4000000 in

theorem main_part1_eq (c : Dev nD) : main_part1 (F := F) c = seq ops1 := rfl

end Cert.ReferenceIdeal.HRun

end
-- ==== Proof.RefOps2.lean ====
import proofs.«405318_j78374563217910_3_alg».proof.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Facts₀ Facts

variable {F : FTy → Type} [FloatOps F] [Facts]

local macro "writes_one" : tactic =>
  `(tactic| (simp only [nullary_writes, unary_writes, binary_writes, ternary_writes, quaternary_writes, reshape_writes, binaryIndexed_writes, nary_writes, unaryIndexed_writes, Finset.singleton_subset_iff, List.mem_toFinset]
             exact List.mem_map_of_mem (by decide)))

abbrev ck14 : List (HloOp τ sig (Elt F)) :=
  [ StableHlo.unary main_v105 main_v106 (broadcastInDim S50000x64 ![0, 1] bcast_S1x64_S50000x64_0_1 : (⟨S1x64, .f32⟩ : BufTy).Contents (Elt F) → (⟨S50000x64, .f32⟩ : BufTy).Contents (Elt F)),
    StableHlo.binary main_v101 main_v106 main_v107 (mulf : (⟨S50000x64, .f32⟩ : BufTy).Contents (Elt F) → (⟨S50000x64, .f32⟩ : BufTy).Contents (Elt F) → (⟨S50000x64, .f32⟩ : BufTy).Contents (Elt F)),
    StableHlo.unary main_arg6 main_v108 ((extractStridedSlice S1x64 ![1, 0] · slices_S3x64_S1x64_1_0) : (⟨S3x64, .f32⟩ : BufTy).Contents (Elt F) → (⟨S1x64, .f32⟩ : BufTy).Contents (Elt F)),
    StableHlo.reshape main_v108 main_v109 rfl shapeCasts_S1x64_S64,
    StableHlo.unary main_v109 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v111 main_v112 (mulf : (⟨S50000x64, .f32⟩ : BufTy).Contents (Elt F) → (⟨S50000x64, .f32⟩ : BufTy).Contents (Elt F) → (⟨S50000x64, .f32⟩ : BufTy).Contents (Elt F)),
    StableHlo.unary main_arg7 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v116 main_v117 (addf : (⟨S50000x64, .f32⟩ : BufTy).Contents (Elt F) → (⟨S50000x64, .f32⟩ : BufTy).Contents (Elt F) → (⟨S50000x64, .f32⟩ : BufTy).Contents (Elt F)),
    StableHlo.TRef.nullary main_call6.cst (constant S_ .f32 0x00000000#32),
    StableHlo.TRef.unary main_call6.cst main_call6.v0 (broadcastInDim S50000x64 ![] bcast_S_S50000x64),
    StableHlo.TRef.binary (.of main_v117 : StableHlo.TRef sig ⟨S50000x64, .f32⟩) main_call6.v0 main_call6.v1 maximumf,
    StableHlo.unary main_arg8 main_v119 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v119 main_v120 rfl shapeCasts_S1x64x64_S64x64,
    StableHlo.binary main_v118 main_v120 main_v121 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S50000x64 ![0, 1] bcast_S1x64_S50000x64_0_1 : (⟨S1x64, .f32⟩ : BufTy).Contents (Elt F) → (⟨S50000x64, .f32⟩ : BufTy).Contents (Elt F)),
    StableHlo.binary main_v121 main_v125 main_v126 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v126 : StableHlo.TRef sig ⟨S50000x64, .f32⟩) main_call7.v0 main_call7.v1 maximumf ]

theorem ck14_sub : (ck14 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ck14_fresh : (ck14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ck14_W : List (Ref sig .tc) := [main_v106, main_v107, main_v108, main_v109, main_v110, main_v111, main_v112, main_v113, main_v114, main_v115, main_v116, main_v117, main_call6_cst, main_call6_v0, main_v118, main_v119, main_v120, main_v121, main_v122, main_v123, main_v124, main_v125, main_v126, main_call7_cst, main_call7_v0, main_v127]

theorem ck14_writes : (ck14 : List (HloOp τ sig (Elt F))).Forall fun op => op.writes ⊆ (ck14_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck15 : List (HloOp τ sig (Elt F)) :=
  [ StableHlo.nullary main_c_12 (constantI S_ 32 0#32),
    StableHlo.unary main_c_12 main_v128 (broadcastInDim S800000 ![] bcast_S_S800000 : (⟨S_, .i32⟩ : BufTy).Contents (Elt F) → (⟨S800000, .i32⟩ : BufTy).Contents (Elt F)),
    StableHlo.binary main_v1 main_v128 main_v129 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v130 (broadcastInDim S800000 ![] bcast_S_S800000 : (⟨S_, .i32⟩ : BufTy).Contents (Elt F) → (⟨S800000, .i32⟩ : BufTy).Contents (Elt F)),
    StableHlo.binary main_v1 main_v130 main_v131 (addi : (⟨S800000, .i32⟩ : BufTy).Contents (Elt F) → (⟨S800000, .i32⟩ : BufTy).Contents (Elt F) → (⟨S800000, .i32⟩ : BufTy).Contents (Elt F)),
    StableHlo.ternary main_v129 main_v131 main_v1 main_v132 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v132 main_v133 (broadcastInDim S800000x1 ![0] bcast_S800000_S800000x1_0 : (⟨S800000, .i32⟩ : BufTy).Contents (Elt F) → (⟨S800000x1, .i32⟩ : BufTy).Contents (Elt F)),
    StableHlo.binary main_v127 main_v133 main_v134 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg2 main_v135 ((extractStridedSlice S1x16x64 ![2, 0, 0] · slices_S3x16x64_S1x16x64_2_0_0) : (⟨S3x16x64, .f32⟩ : BufTy).Contents (Elt F) → (⟨S1x16x64, .f32⟩ : BufTy).Contents (Elt F)),
    StableHlo.reshape main_v135 main_v136 rfl shapeCasts_S1x16x64_S16x64,
    StableHlo.binary main_arg1 main_v136 main_v137 ((fun l r => Host.dotGeneral dot_S800000x16_S16x64_S800000x64_1_0_0_1_n_n none l r) : (⟨S800000x16, .f32⟩ : BufTy).Contents (Elt F) → (⟨S16x64, .f32⟩ : BufTy).Contents (Elt F) → (⟨S800000x64, .f32⟩ : BufTy).Contents (Elt F)),
    StableHlo.binary main_v134 main_v137 main_v138 (addf : (⟨S800000x64, .f32⟩ : BufTy).Contents (Elt F) → (⟨S800000x64, .f32⟩ : BufTy).Contents (Elt F) → (⟨S800000x64, .f32⟩ : BufTy).Contents (Elt F)),
    StableHlo.unary main_arg3 main_v139 ((extractStridedSlice S1x64 ![2, 0] · slices_S3x64_S1x64_2_0) : (⟨S3x64, .f32⟩ : BufTy).Contents (Elt F) → (⟨S1x64, .f32⟩ : BufTy).Contents (Elt F)),
    StableHlo.reshape main_v139 main_v140 rfl shapeCasts_S1x64_S64,
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S800000x64 ![0, 1] bcast_S1x64_S800000x64_0_1 : (⟨S1x64, .f32⟩ : BufTy).Contents (Elt F) → (⟨S800000x64, .f32⟩ : BufTy).Contents (Elt F)),
    StableHlo.binary main_v138 main_v142 main_v143 (addf : (⟨S800000x64, .f32⟩ : BufTy).Contents (Elt F) → (⟨S800000x64, .f32⟩ : BufTy).Contents (Elt F) → (⟨S800000x64, .f32⟩ : BufTy).Contents (Elt F)),
    StableHlo.TRef.nullary main_call8.cst (constant S_ .f32 0x00000000#32),
    StableHlo.TRef.unary main_call8.cst main_call8.v0 (broadcastInDim S800000x64 ![] bcast_S_S800000x64),
    StableHlo.TRef.binary (.of main_v143 : StableHlo.TRef sig ⟨S800000x64, .f32⟩) main_call8.v0 main_call8.v1 maximumf ]

theorem ck15_sub : (ck15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

theorem ck15_fresh : (ck15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

abbrev ck15_W : List (Ref sig .tc) := [main_c_12, main_v128, main_v129, main_c_13, main_v130, main_v131, main_v132, main_v133, main_v134, main_v135, main_v136, main_v137, main_v138, main_v139, main_v140, main_v141, main_v142, main_v143, main_call8_cst, main_call8_v0, main_v144]

theorem ck15_writes : (ck15 : List (HloOp τ sig (Elt F))).Forall fun op => op.writes ⊆ (ck15_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck16 : List (HloOp τ sig (Elt F)) :=
  [ StableHlo.nullary main_cst_14 (constant S_ .f32 0x00000000#32),
    StableHlo.unary main_cst_14 main_v145 (broadcastInDim S50000x64 ![] bcast_S_S50000x64 : (⟨S_, .f32⟩ : BufTy).Contents (Elt F) → (⟨S50000x64, .f32⟩ : BufTy).Contents (Elt F)),
    StableHlo.unary main_v3 main_v146 (broadcastInDim S800000x1 ![0] bcast_S800000_S800000x1_0 : (⟨S800000, .i32⟩ : BufTy).Contents (Elt F) → (⟨S800000x1, .i32⟩ : BufTy).Contents (Elt F)),
    StableHlo.ternary main_v145 main_v146 main_v144 main_v147 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ck16_sub : (ck16 : List (HloOp τ sig (Elt F))).Forall fun op => op.bufs ⊆ tcRefs τ sig :=
  ⟨nullary_bufs_sub .., unary_bufs_sub .., unary_bufs_sub .., ternary_bufs_sub ..⟩

theorem ck16_fresh : (ck16 : List (HloOp τ sig (Elt F))).Forall fun op => op.fresh = ∅ :=
  ⟨rfl, rfl, rfl, rfl⟩

abbrev ck16_W : List (Ref sig .tc) := [main_cst_14, main_v145, main_v146, main_v147]

theorem ck16_writes : (ck16 : List (HloOp τ sig (Elt F))).Forall fun op => op.writes ⊆ (ck16_W.map (Proc.devRef (τ := τ) .tc)).toFinset := by
  simp only [List.Forall]
  exact ⟨(by writes_one), (by writes_one), (by writes_one), (by writes_one)⟩

abbrev ck17 : List (HloOp τ sig (Elt F)) :=
  [ StableHlo.binary main_v127 main_v147 main_v148 (addf : (⟨S50000x64, .f32⟩ : BufTy).Contents (Elt F) → (⟨S50000x64, .f32⟩ : BufTy).Contents (Elt F) → (⟨S50000x64, .f32⟩ : BufTy).Contents (Elt F)),
    StableHlo.unary main_arg4 main_v149 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v149 main_v150 rfl shapeCasts_S1x64x64_S64x64,
    StableHlo.binary main_v148 main_v150 main_v151 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v152 ((extractStridedSlice S1x64 ![2, 0] · slices_S3x64_S1x64_2_0) : (⟨S3x64, .f32⟩ : BufTy).Contents (Elt F) → (⟨S1x64, .f32⟩ : BufTy).Contents (Elt F)),
    StableHlo.reshape main_v152 main_v153 rfl shapeCasts_S1x64_S64,
    StableHlo.unary main_v153 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S50000x64 ![0, 1] bcast_S1x64_S50000x64_0_1 : (⟨S1x64, .f32⟩ : BufTy).Contents (Elt F) → (⟨S50000x64, .f32⟩ : BufTy).Contents (Elt F)),
    StableHlo.binary main_v151 main_v155 main_v156 (addf : (⟨S50000x64, .f32⟩ : BufTy).Contents (Elt F) → (⟨S50000x64, .f32⟩ : BufTy).Contents (Elt F) → (⟨S50000x64, .f32⟩ : BufTy).Contents (Elt F)) ]

theorem ck17_sub : (ck17 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem ck17_fresh : (ck17 : List (HloOp τ sig (Elt F))).Forall fun op => op.fresh = ∅ :=
  ⟨rfl, rfl, rfl, rfl, rfl, rfl, rfl, rfl, rfl⟩

abbrev ck17_W : List (Ref sig .tc) := [main_v148, main_v149, main_v150, main_v151, main_v152, main_v153, main_v154, main_v155, main_v156]

theorem ck17_writes : (ck17 : List (HloOp τ sig (Elt F))).Forall fun op => op.writes ⊆ (ck17_W.map (Proc.devRef (τ := τ) .tc)).toFinset := by
  simp only [List.Forall]
  exact ⟨(by writes_one), (by writes_one), (by writes_one), (by writes_one), (by writes_one), (by writes_one), (by writes_one), (by writes_one), (by writes_one)⟩

abbrev ck18 : List (HloOp τ sig (Elt F)) :=
  [ StableHlo.nullary main_cst_15 (constant S_ .f32 0x00000000#32),
    StableHlo.binary main_v156 main_cst_15 main_v157 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v158 (broadcastInDim S64 ![] bcast_S_S64 : (⟨S_, .f32⟩ : BufTy).Contents (Elt F) → (⟨S64, .f32⟩ : BufTy).Contents (Elt F)),
    StableHlo.binary main_v157 main_v158 main_v159 (Host.divf : (⟨S64, .f32⟩ : BufTy).Contents (Elt F) → (⟨S64, .f32⟩ : BufTy).Contents (Elt F) → (⟨S64, .f32⟩ : BufTy).Contents (Elt F)) ]

theorem ck18_sub : (ck18 : List (HloOp τ sig (Elt F))).Forall fun op => op.bufs ⊆ tcRefs τ sig :=
  ⟨nullary_bufs_sub .., binary_bufs_sub .., nullary_bufs_sub .., unary_bufs_sub .., binary_bufs_sub ..⟩

theorem ck18_fresh : (ck18 : List (HloOp τ sig (Elt F))).Forall fun op => op.fresh = ∅ :=
  ⟨rfl, rfl, rfl, rfl, rfl⟩

abbrev ck18_W : List (Ref sig .tc) := [main_cst_15, main_v157, main_cst_16, main_v158, main_v159]

theorem ck18_writes : (ck18 : List (HloOp τ sig (Elt F))).Forall fun op => op.writes ⊆ (ck18_W.map (Proc.devRef (τ := τ) .tc)).toFinset := by
  simp only [List.Forall]
  exact ⟨(by writes_one), (by writes_one), (by writes_one), (by writes_one), (by writes_one)⟩

abbrev ck19 : List (HloOp τ sig (Elt F)) :=
  [ StableHlo.nullary main_c_17 (constantI S_ 32 0#32) ]

theorem ck19_sub : (ck19 : List (HloOp τ sig (Elt F))).Forall fun op => op.bufs ⊆ tcRefs τ sig :=
  nullary_bufs_sub ..

theorem ck19_fresh : (ck19 : List (HloOp τ sig (Elt F))).Forall fun op => op.fresh = ∅ :=
  rfl

abbrev ck19_W : List (Ref sig .tc) := [main_c_17]

theorem ck19_writes : (ck19 : List (HloOp τ sig (Elt F))).Forall fun op => op.writes ⊆ (ck19_W.map (Proc.devRef (τ := τ) .tc)).toFinset := by
  simp only [List.Forall]
  exact (by writes_one)

abbrev ops2 : List (HloOp τ sig (Elt F)) :=
  ck14 ++ (ck15 ++ (ck16 ++ (ck17 ++ (ck18 ++ (ck19)))))

theorem ops2_sub : (ops2 : List (HloOp τ sig (Elt F))).Forall fun op => op.bufs ⊆ tcRefs τ sig :=
  List.forall_iff_forall_mem.mpr fun op h => by
    simp only [ops2, List.mem_append] at h
    rcases h with h | h | h | h | h | h
    exacts [List.forall_iff_forall_mem.mp ck14_sub op h, List.forall_iff_forall_mem.mp ck15_sub op h, List.forall_iff_forall_mem.mp ck16_sub op h, List.forall_iff_forall_mem.mp ck17_sub op h, List.forall_iff_forall_mem.mp ck18_sub op h, List.forall_iff_forall_mem.mp ck19_sub op h]

theorem ops2_fresh : ∀ op ∈ (ops2 : List (HloOp τ sig (Elt F))), op.fresh = ∅ := fun op h => by
    simp only [ops2, List.mem_append] at h
    rcases h with h | h | h | h | h | h
    exacts [List.forall_iff_forall_mem.mp ck14_fresh op h, List.forall_iff_forall_mem.mp ck15_fresh op h, List.forall_iff_forall_mem.mp ck16_fresh op h, List.forall_iff_forall_mem.mp ck17_fresh op h, List.forall_iff_forall_mem.mp ck18_fresh op h, List.forall_iff_forall_mem.mp ck19_fresh op h]

set_option maxRecDepth 8192 in
set_option maxHeartbeats 4000000 in

theorem main_part2_eq (c : Dev nD) : main_part2 (F := F) c = seq ops2 := rfl

end Cert.ReferenceIdeal.HRun

end
-- ==== Proof.RefOps3.lean ====
import proofs.«405318_j78374563217910_3_alg».proof.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Facts₀ Facts

variable {F : FTy → Type} [FloatOps F] [Facts]

local macro "writes_one" : tactic =>
  `(tactic| (simp only [nullary_writes, unary_writes, binary_writes, ternary_writes, quaternary_writes, reshape_writes, binaryIndexed_writes, nary_writes, unaryIndexed_writes, Finset.singleton_subset_iff, List.mem_toFinset]
             exact List.mem_map_of_mem (by decide)))

abbrev ck20 : List (HloOp τ sig (Elt F)) :=
  [ StableHlo.TRef.nullary main_call9.cst (constant S_ .f32 0x00000000#32),
    StableHlo.TRef.binary (.of main_v156 : StableHlo.TRef sig ⟨S50000x64, .f32⟩) main_call9.cst main_call9.v0 (fun x v => Host.reduceAdd x v reducesTo_S50000x64_S64_d0 h_S_),
    StableHlo.TRef.unary main_call9.v0 main_call9.v1 (broadcastInDim S1x64 ![1] bcast_S64_S1x64_1),
    StableHlo.TRef.nullary main_call9.cst_0 (constant S_ .f32 0x47435000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S50000x64 ![0, 1] bcast_S1x64_S50000x64_0_1),
    StableHlo.TRef.binary (.of main_v156 : StableHlo.TRef sig ⟨S50000x64, .f32⟩) main_call9.v4 main_call9.v5 subf,
    StableHlo.TRef.binary main_call9.v5 main_call9.v5 main_call9.v6 mulf,
    StableHlo.TRef.unary (.of main_c_17 : StableHlo.TRef sig ⟨S_, .i32⟩) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9_call0.v0 id,
    StableHlo.TRef.unary main_call9_call0.v0 main_call9_call0.v1 (broadcastInDim S64 ![] bcast_S_S64),
    StableHlo.TRef.ternary main_call9.v12 main_call9.v11 main_call9_call0.v1 main_call9_call0.v2 (fun p a b => select (broadcastInDim S64 ![] bcast_S_S64 p) a b) ]

theorem ck20_sub : (ck20 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem ck20_fresh : (ck20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev ck20_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v160]

theorem ck20_writes : (ck20 : List (HloOp τ sig (Elt F))).Forall fun op => op.writes ⊆ (ck20_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck21 : List (HloOp τ sig (Elt F)) :=
  [ StableHlo.unary main_v159 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S50000x64 ![0, 1] bcast_S1x64_S50000x64_0_1 : (⟨S1x64, .f32⟩ : BufTy).Contents (Elt F) → (⟨S50000x64, .f32⟩ : BufTy).Contents (Elt F)),
    StableHlo.binary main_v156 main_v162 main_v163 (subf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v164 (broadcastInDim S64 ![] bcast_S_S64 : (⟨S_, .f32⟩ : BufTy).Contents (Elt F) → (⟨S64, .f32⟩ : BufTy).Contents (Elt F)),
    StableHlo.binary main_v160 main_v164 main_v165 (addf : (⟨S64, .f32⟩ : BufTy).Contents (Elt F) → (⟨S64, .f32⟩ : BufTy).Contents (Elt F) → (⟨S64, .f32⟩ : BufTy).Contents (Elt F)),
    StableHlo.unary main_v165 main_v166 (Host.rsqrt : (⟨S64, .f32⟩ : BufTy).Contents (Elt F) → (⟨S64, .f32⟩ : BufTy).Contents (Elt F)),
    StableHlo.unary main_v166 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S50000x64 ![0, 1] bcast_S1x64_S50000x64_0_1 : (⟨S1x64, .f32⟩ : BufTy).Contents (Elt F) → (⟨S50000x64, .f32⟩ : BufTy).Contents (Elt F)),
    StableHlo.binary main_v163 main_v168 main_v169 (mulf : (⟨S50000x64, .f32⟩ : BufTy).Contents (Elt F) → (⟨S50000x64, .f32⟩ : BufTy).Contents (Elt F) → (⟨S50000x64, .f32⟩ : BufTy).Contents (Elt F)),
    StableHlo.unary main_arg6 main_v170 ((extractStridedSlice S1x64 ![2, 0] · slices_S3x64_S1x64_2_0) : (⟨S3x64, .f32⟩ : BufTy).Contents (Elt F) → (⟨S1x64, .f32⟩ : BufTy).Contents (Elt F)),
    StableHlo.reshape main_v170 main_v171 rfl shapeCasts_S1x64_S64,
    StableHlo.unary main_v171 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S50000x64 ![0, 1] bcast_S1x64_S50000x64_0_1 : (⟨S1x64, .f32⟩ : BufTy).Contents (Elt F) → (⟨S50000x64, .f32⟩ : BufTy).Contents (Elt F)),
    StableHlo.binary main_v169 main_v173 main_v174 (mulf : (⟨S50000x64, .f32⟩ : BufTy).Contents (Elt F) → (⟨S50000x64, .f32⟩ : BufTy).Contents (Elt F) → (⟨S50000x64, .f32⟩ : BufTy).Contents (Elt F)),
    StableHlo.unary main_arg7 main_v175 ((extractStridedSlice S1x64 ![2, 0] · slices_S3x64_S1x64_2_0) : (⟨S3x64, .f32⟩ : BufTy).Contents (Elt F) → (⟨S1x64, .f32⟩ : BufTy).Contents (Elt F)),
    StableHlo.reshape main_v175 main_v176 rfl shapeCasts_S1x64_S64,
    StableHlo.unary main_v176 main_v177 (broadcastInDim S1x64 ![1] bcast_S64_S1x64_1 : (⟨S64, .f32⟩ : BufTy).Contents (Elt F) → (⟨S1x64, .f32⟩ : BufTy).Contents (Elt F)),
    StableHlo.unary main_v177 main_v178 (broadcastInDim S50000x64 ![0, 1] bcast_S1x64_S50000x64_0_1 : (⟨S1x64, .f32⟩ : BufTy).Contents (Elt F) → (⟨S50000x64, .f32⟩ : BufTy).Contents (Elt F)),
    StableHlo.binary main_v174 main_v178 main_v179 (addf : (⟨S50000x64, .f32⟩ : BufTy).Contents (Elt F) → (⟨S50000x64, .f32⟩ : BufTy).Contents (Elt F) → (⟨S50000x64, .f32⟩ : BufTy).Contents (Elt F)),
    StableHlo.TRef.nullary main_call10.cst (constant S_ .f32 0x00000000#32),
    StableHlo.TRef.unary main_call10.cst main_call10.v0 (broadcastInDim S50000x64 ![] bcast_S_S50000x64),
    StableHlo.TRef.binary (.of main_v179 : StableHlo.TRef sig ⟨S50000x64, .f32⟩) main_call10.v0 main_call10.v1 maximumf,
    StableHlo.unary main_arg8 main_v181 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v181 main_v182 rfl shapeCasts_S1x64x64_S64x64,
    StableHlo.binary main_v180 main_v182 main_v183 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v184 ((extractStridedSlice S1x64 ![2, 0] · slices_S3x64_S1x64_2_0) : (⟨S3x64, .f32⟩ : BufTy).Contents (Elt F) → (⟨S1x64, .f32⟩ : BufTy).Contents (Elt F)),
    StableHlo.reshape main_v184 main_v185 rfl shapeCasts_S1x64_S64,
    StableHlo.unary main_v185 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v187 main_v188 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v188 : StableHlo.TRef sig ⟨S50000x64, .f32⟩) main_call11.v0 main_call11.v1 maximumf ]

theorem ck21_sub : (ck21 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ck21_fresh : (ck21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ck21_W : List (Ref sig .tc) := [main_v161, main_v162, main_v163, main_cst_18, main_v164, main_v165, main_v166, main_v167, main_v168, main_v169, main_v170, main_v171, main_v172, main_v173, main_v174, main_v175, main_v176, main_v177, main_v178, main_v179, main_call10_cst, main_call10_v0, main_v180, main_v181, main_v182, main_v183, main_v184, main_v185, main_v186, main_v187, main_v188, main_call11_cst, main_call11_v0, main_v189]

theorem ck21_writes : (ck21 : List (HloOp τ sig (Elt F))).Forall fun op => op.writes ⊆ (ck21_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ck22 : List (HloOp τ sig (Elt F)) :=
  [ StableHlo.nullary main_cst_19 (constant S_ .f32 0x3F800000#32),
    StableHlo.unary main_cst_19 main_v190 (broadcastInDim S50000x1 ![] bcast_S_S50000x1 : (⟨S_, .f32⟩ : BufTy).Contents (Elt F) → (⟨S50000x1, .f32⟩ : BufTy).Contents (Elt F)),
    StableHlo.nullary main_cst_20 (constant S_ .f32 0x00000000#32),
    StableHlo.unary main_cst_20 main_v191 (broadcastInDim S512x1 ![] bcast_S_S512x1 : (⟨S_, .f32⟩ : BufTy).Contents (Elt F) → (⟨S512x1, .f32⟩ : BufTy).Contents (Elt F)),
    StableHlo.unary main_arg15 main_v192 (broadcastInDim S50000x1 ![0] bcast_S50000_S50000x1_0 : (⟨S50000, .i32⟩ : BufTy).Contents (Elt F) → (⟨S50000x1, .i32⟩ : BufTy).Contents (Elt F)),
    StableHlo.ternary main_v191 main_v192 main_v190 main_v193 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)) ]

theorem ck22_sub : (ck22 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩

theorem ck22_fresh : (ck22 : List (HloOp τ sig (Elt F))).Forall fun op => op.fresh = ∅ :=
  ⟨rfl, rfl, rfl, rfl, rfl, rfl⟩

abbrev ck22_W : List (Ref sig .tc) := [main_cst_19, main_v190, main_cst_20, main_v191, main_v192, main_v193]

theorem ck22_writes : (ck22 : List (HloOp τ sig (Elt F))).Forall fun op => op.writes ⊆ (ck22_W.map (Proc.devRef (τ := τ) .tc)).toFinset := by
  simp only [List.Forall]
  exact ⟨(by writes_one), (by writes_one), (by writes_one), (by writes_one), (by writes_one), (by writes_one)⟩

abbrev ck23 : List (HloOp τ sig (Elt F)) :=
  [ StableHlo.nullary main_cst_21 (constant S_ .f32 0x00000000#32),
    StableHlo.unary main_cst_21 main_v194 (broadcastInDim S512x64 ![] bcast_S_S512x64 : (⟨S_, .f32⟩ : BufTy).Contents (Elt F) → (⟨S512x64, .f32⟩ : BufTy).Contents (Elt F)),
    StableHlo.unary main_arg15 main_v195 (broadcastInDim S50000x1 ![0] bcast_S50000_S50000x1_0 : (⟨S50000, .i32⟩ : BufTy).Contents (Elt F) → (⟨S50000x1, .i32⟩ : BufTy).Contents (Elt F)),
    StableHlo.ternary main_v194 main_v195 main_v65 main_v196 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_22 (constant S_ .f32 0x3F800000#32),
    StableHlo.unary main_cst_22 main_v197 (broadcastInDim S512x1 ![] bcast_S_S512x1 : (⟨S_, .f32⟩ : BufTy).Contents (Elt F) → (⟨S512x1, .f32⟩ : BufTy).Contents (Elt F)),
    StableHlo.binary main_v193 main_v197 main_v198 (maximumf : (⟨S512x1, .f32⟩ : BufTy).Contents (Elt F) → (⟨S512x1, .f32⟩ : BufTy).Contents (Elt F) → (⟨S512x1, .f32⟩ : BufTy).Contents (Elt F)),
    StableHlo.unary main_v198 main_v199 (broadcastInDim S512x64 ![0, 1] bcast_S512x1_S512x64_0_1 : (⟨S512x1, .f32⟩ : BufTy).Contents (Elt F) → (⟨S512x64, .f32⟩ : BufTy).Contents (Elt F)),
    StableHlo.binary main_v196 main_v199 main_v200 (Host.divf : (⟨S512x64, .f32⟩ : BufTy).Contents (Elt F) → (⟨S512x64, .f32⟩ : BufTy).Contents (Elt F) → (⟨S512x64, .f32⟩ : BufTy).Contents (Elt F)),
    StableHlo.nullary main_cst_23 (constant S_ .f32 0x00000000#32),
    StableHlo.unary main_cst_23 main_v201 (broadcastInDim S512x64 ![] bcast_S_S512x64 : (⟨S_, .f32⟩ : BufTy).Contents (Elt F) → (⟨S512x64, .f32⟩ : BufTy).Contents (Elt F)),
    StableHlo.unary main_arg15 main_v202 (broadcastInDim S50000x1 ![0] bcast_S50000_S50000x1_0 : (⟨S50000, .i32⟩ : BufTy).Contents (Elt F) → (⟨S50000x1, .i32⟩ : BufTy).Contents (Elt F)),
    StableHlo.ternary main_v201 main_v202 main_v127 main_v203 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_24 (constant S_ .f32 0x3F800000#32),
    StableHlo.unary main_cst_24 main_v204 (broadcastInDim S512x1 ![] bcast_S_S512x1 : (⟨S_, .f32⟩ : BufTy).Contents (Elt F) → (⟨S512x1, .f32⟩ : BufTy).Contents (Elt F)),
    StableHlo.binary main_v193 main_v204 main_v205 (maximumf : (⟨S512x1, .f32⟩ : BufTy).Contents (Elt F) → (⟨S512x1, .f32⟩ : BufTy).Contents (Elt F) → (⟨S512x1, .f32⟩ : BufTy).Contents (Elt F)),
    StableHlo.unary main_v205 main_v206 (broadcastInDim S512x64 ![0, 1] bcast_S512x1_S512x64_0_1 : (⟨S512x1, .f32⟩ : BufTy).Contents (Elt F) → (⟨S512x64, .f32⟩ : BufTy).Contents (Elt F)),
    StableHlo.binary main_v203 main_v206 main_v207 (Host.divf : (⟨S512x64, .f32⟩ : BufTy).Contents (Elt F) → (⟨S512x64, .f32⟩ : BufTy).Contents (Elt F) → (⟨S512x64, .f32⟩ : BufTy).Contents (Elt F)),
    StableHlo.nullary main_cst_25 (constant S_ .f32 0x00000000#32),
    StableHlo.unary main_cst_25 main_v208 (broadcastInDim S512x64 ![] bcast_S_S512x64 : (⟨S_, .f32⟩ : BufTy).Contents (Elt F) → (⟨S512x64, .f32⟩ : BufTy).Contents (Elt F)),
    StableHlo.unary main_arg15 main_v209 (broadcastInDim S50000x1 ![0] bcast_S50000_S50000x1_0 : (⟨S50000, .i32⟩ : BufTy).Contents (Elt F) → (⟨S50000x1, .i32⟩ : BufTy).Contents (Elt F)),
    StableHlo.ternary main_v208 main_v209 main_v189 main_v210 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_26 (constant S_ .f32 0x3F800000#32) ]

theorem ck23_sub : (ck23 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., unary_bufs_sub .., ternary_bufs_sub .., nullary_bufs_sub ..⟩

theorem ck23_fresh : (ck23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev ck23_W : List (Ref sig .tc) := [main_cst_21, main_v194, main_v195, main_v196, main_cst_22, main_v197, main_v198, main_v199, main_v200, main_cst_23, main_v201, main_v202, main_v203, main_cst_24, main_v204, main_v205, main_v206, main_v207, main_cst_25, main_v208, main_v209, main_v210, main_cst_26]

theorem ck23_writes : (ck23 : List (HloOp τ sig (Elt F))).Forall fun op => op.writes ⊆ (ck23_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ops3 : List (HloOp τ sig (Elt F)) :=
  ck20 ++ (ck21 ++ (ck22 ++ (ck23)))

theorem ops3_sub : (ops3 : List (HloOp τ sig (Elt F))).Forall fun op => op.bufs ⊆ tcRefs τ sig :=
  List.forall_iff_forall_mem.mpr fun op h => by
    simp only [ops3, List.mem_append] at h
    rcases h with h | h | h | h
    exacts [List.forall_iff_forall_mem.mp ck20_sub op h, List.forall_iff_forall_mem.mp ck21_sub op h, List.forall_iff_forall_mem.mp ck22_sub op h, List.forall_iff_forall_mem.mp ck23_sub op h]

theorem ops3_fresh : ∀ op ∈ (ops3 : List (HloOp τ sig (Elt F))), op.fresh = ∅ := fun op h => by
    simp only [ops3, List.mem_append] at h
    rcases h with h | h | h | h
    exacts [List.forall_iff_forall_mem.mp ck20_fresh op h, List.forall_iff_forall_mem.mp ck21_fresh op h, List.forall_iff_forall_mem.mp ck22_fresh op h, List.forall_iff_forall_mem.mp ck23_fresh op h]

set_option maxRecDepth 8192 in
set_option maxHeartbeats 4000000 in

theorem main_part3_eq (c : Dev nD) : main_part3 (F := F) c = seq ops3 := rfl

end Cert.ReferenceIdeal.HRun

end
-- ==== Proof.RefOps4.lean ====
import proofs.«405318_j78374563217910_3_alg».proof.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Facts₀ Facts

variable {F : FTy → Type} [FloatOps F] [Facts]

local macro "writes_one" : tactic =>
  `(tactic| (simp only [nullary_writes, unary_writes, binary_writes, ternary_writes, quaternary_writes, reshape_writes, binaryIndexed_writes, nary_writes, unaryIndexed_writes, Finset.singleton_subset_iff, List.mem_toFinset]
             exact List.mem_map_of_mem (by decide)))

abbrev ck24 : List (HloOp τ sig (Elt F)) :=
  [ StableHlo.unary main_cst_26 main_v211 (broadcastInDim S512x1 ![] bcast_S_S512x1 : (⟨S_, .f32⟩ : BufTy).Contents (Elt F) → (⟨S512x1, .f32⟩ : BufTy).Contents (Elt F)),
    StableHlo.binary main_v193 main_v211 main_v212 (maximumf : (⟨S512x1, .f32⟩ : BufTy).Contents (Elt F) → (⟨S512x1, .f32⟩ : BufTy).Contents (Elt F) → (⟨S512x1, .f32⟩ : BufTy).Contents (Elt F)),
    StableHlo.unary main_v212 main_v213 (broadcastInDim S512x64 ![0, 1] bcast_S512x1_S512x64_0_1 : (⟨S512x1, .f32⟩ : BufTy).Contents (Elt F) → (⟨S512x64, .f32⟩ : BufTy).Contents (Elt F)),
    StableHlo.binary main_v210 main_v213 main_v214 (Host.divf : (⟨S512x64, .f32⟩ : BufTy).Contents (Elt F) → (⟨S512x64, .f32⟩ : BufTy).Contents (Elt F) → (⟨S512x64, .f32⟩ : BufTy).Contents (Elt F)) ]

theorem ck24_sub : (ck24 : List (HloOp τ sig (Elt F))).Forall fun op => op.bufs ⊆ tcRefs τ sig :=
  ⟨unary_bufs_sub .., binary_bufs_sub .., unary_bufs_sub .., binary_bufs_sub ..⟩

theorem ck24_fresh : (ck24 : List (HloOp τ sig (Elt F))).Forall fun op => op.fresh = ∅ :=
  ⟨rfl, rfl, rfl, rfl⟩

abbrev ck24_W : List (Ref sig .tc) := [main_v211, main_v212, main_v213, main_v214]

theorem ck24_writes : (ck24 : List (HloOp τ sig (Elt F))).Forall fun op => op.writes ⊆ (ck24_W.map (Proc.devRef (τ := τ) .tc)).toFinset := by
  simp only [List.Forall]
  exact ⟨(by writes_one), (by writes_one), (by writes_one), (by writes_one)⟩

abbrev ck25 : List (HloOp τ sig (Elt F)) :=
  [ StableHlo.nary ![main_v200, main_v207, main_v214] main_v215 (fun u => concatenate S512x192 1 [⟨S512x64, u 0⟩, ⟨S512x64, u 1⟩, ⟨S512x64, u 2⟩] concatenates_S512x64_S512x64_S512x64_S512x192_d1) ]

theorem ck25_sub : (ck25 : List (HloOp τ sig (Elt F))).Forall fun op => op.bufs ⊆ tcRefs τ sig :=
  nary_bufs_sub ..

theorem ck25_fresh : (ck25 : List (HloOp τ sig (Elt F))).Forall fun op => op.fresh = ∅ :=
  rfl

abbrev ck25_W : List (Ref sig .tc) := [main_v215]

theorem ck25_writes : (ck25 : List (HloOp τ sig (Elt F))).Forall fun op => op.writes ⊆ (ck25_W.map (Proc.devRef (τ := τ) .tc)).toFinset := by
  simp only [List.Forall]
  exact (by writes_one)

abbrev ck26 : List (HloOp τ sig (Elt F)) :=
  [ StableHlo.binary main_v215 main_arg10 main_v216 ((fun l r => Host.dotGeneral dot_S512x192_S192x192_S512x192_1_0_0_1_n_n none l r) : (⟨S512x192, .f32⟩ : BufTy).Contents (Elt F) → (⟨S192x192, .f32⟩ : BufTy).Contents (Elt F) → (⟨S512x192, .f32⟩ : BufTy).Contents (Elt F)),
    StableHlo.unary main_arg11 main_v217 (broadcastInDim S1x192 ![1] bcast_S192_S1x192_1 : (⟨S192, .f32⟩ : BufTy).Contents (Elt F) → (⟨S1x192, .f32⟩ : BufTy).Contents (Elt F)),
    StableHlo.unary main_v217 main_v218 (broadcastInDim S512x192 ![0, 1] bcast_S1x192_S512x192_0_1 : (⟨S1x192, .f32⟩ : BufTy).Contents (Elt F) → (⟨S512x192, .f32⟩ : BufTy).Contents (Elt F)),
    StableHlo.binary main_v216 main_v218 main_v219 (addf : (⟨S512x192, .f32⟩ : BufTy).Contents (Elt F) → (⟨S512x192, .f32⟩ : BufTy).Contents (Elt F) → (⟨S512x192, .f32⟩ : BufTy).Contents (Elt F)),
    StableHlo.TRef.nullary main_call12.cst (constant S_ .f32 0x00000000#32),
    StableHlo.TRef.unary main_call12.cst main_call12.v0 (broadcastInDim S512x192 ![] bcast_S_S512x192),
    StableHlo.TRef.binary (.of main_v219 : StableHlo.TRef sig ⟨S512x192, .f32⟩) main_call12.v0 main_call12.v1 maximumf,
    StableHlo.binary main_v220 main_arg12 main_v221 ((fun l r => Host.dotGeneral dot_S512x192_S192x10_S512x10_1_0_0_1_n_n none l r) : (⟨S512x192, .f32⟩ : BufTy).Contents (Elt F) → (⟨S192x10, .f32⟩ : BufTy).Contents (Elt F) → (⟨S512x10, .f32⟩ : BufTy).Contents (Elt F)),
    StableHlo.unary main_arg13 main_v222 (broadcastInDim S1x10 ![1] bcast_S10_S1x10_1 : (⟨S10, .f32⟩ : BufTy).Contents (Elt F) → (⟨S1x10, .f32⟩ : BufTy).Contents (Elt F)),
    StableHlo.unary main_v222 main_v223 (broadcastInDim S512x10 ![0, 1] bcast_S1x10_S512x10_0_1 : (⟨S1x10, .f32⟩ : BufTy).Contents (Elt F) → (⟨S512x10, .f32⟩ : BufTy).Contents (Elt F)),
    StableHlo.binary main_v221 main_v223 main_v224 (addf : (⟨S512x10, .f32⟩ : BufTy).Contents (Elt F) → (⟨S512x10, .f32⟩ : BufTy).Contents (Elt F) → (⟨S512x10, .f32⟩ : BufTy).Contents (Elt F)),
    StableHlo.TRef.nullary main_call13.cst (constant S_ .f32 0xFF800000#32),
    StableHlo.TRef.binary (.of main_v224 : StableHlo.TRef sig ⟨S512x10, .f32⟩) main_call13.cst main_call13.v0 (fun x v => Host.reduce FloatOps.maximumf x v reducesTo_S512x10_S512_d1 h_S_),
    StableHlo.TRef.nullary main_call13.cst_0 (constant S_ .f32 0xFF800000#32),
    StableHlo.TRef.unary main_call13.cst_0 main_call13.v1 (broadcastInDim S512 ![] bcast_S_S512),
    StableHlo.TRef.binary main_call13.v1 main_call13.v0 main_call13.v2 maximumf,
    StableHlo.TRef.unary main_call13.v2 main_call13.v3 (broadcastInDim S512x1 ![0] bcast_S512_S512x1_0),
    StableHlo.TRef.unary main_call13.v3 main_call13.v4 (broadcastInDim S512x10 ![0, 1] bcast_S512x1_S512x10_0_1),
    StableHlo.TRef.binary (.of main_v224 : StableHlo.TRef sig ⟨S512x10, .f32⟩) main_call13.v4 main_call13.v5 subf,
    StableHlo.TRef.unary main_call13.v5 main_call13.v6 Host.exp,
    StableHlo.TRef.nullary main_call13.cst_1 (constant S_ .f32 0x00000000#32),
    StableHlo.TRef.binary main_call13.v6 main_call13.cst_1 main_call13.v7 (fun x v => Host.reduceAdd x v reducesTo_S512x10_S512_d1 h_S_),
    StableHlo.TRef.unary main_call13.v7 main_call13.v8 (broadcastInDim S512x1 ![0] bcast_S512_S512x1_0),
    StableHlo.TRef.unary main_call13.v8 main_call13.v9 Host.log,
    StableHlo.TRef.unary main_call13.v9 main_call13.v10 (broadcastInDim S512x10 ![0, 1] bcast_S512x1_S512x10_0_1),
    StableHlo.TRef.binary main_call13.v5 main_call13.v10 main_call13.v11 subf ]

theorem ck26_sub : (ck26 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ck26_fresh : (ck26 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ck26_W : List (Ref sig .tc) := [main_v216, main_v217, main_v218, main_v219, main_call12_cst, main_call12_v0, main_v220, main_v221, main_v222, main_v223, main_v224, main_call13_cst, main_call13_v0, main_call13_cst_0, main_call13_v1, main_call13_v2, main_call13_v3, main_call13_v4, main_call13_v5, main_call13_v6, main_call13_cst_1, main_call13_v7, main_call13_v8, main_call13_v9, main_call13_v10, main_v225]

theorem ck26_writes : (ck26 : List (HloOp τ sig (Elt F))).Forall fun op => op.writes ⊆ (ck26_W.map (Proc.devRef (τ := τ) .tc)).toFinset := by
  simp only [List.Forall]
  exact ⟨(by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one), (by writes_one)⟩

abbrev ops4 : List (HloOp τ sig (Elt F)) :=
  ck24 ++ (ck25 ++ (ck26))

theorem ops4_sub : (ops4 : List (HloOp τ sig (Elt F))).Forall fun op => op.bufs ⊆ tcRefs τ sig :=
  List.forall_iff_forall_mem.mpr fun op h => by
    simp only [ops4, List.mem_append] at h
    rcases h with h | h | h
    exacts [List.forall_iff_forall_mem.mp ck24_sub op h, List.forall_iff_forall_mem.mp ck25_sub op h, List.forall_iff_forall_mem.mp ck26_sub op h]

theorem ops4_fresh : ∀ op ∈ (ops4 : List (HloOp τ sig (Elt F))), op.fresh = ∅ := fun op h => by
    simp only [ops4, List.mem_append] at h
    rcases h with h | h | h
    exacts [List.forall_iff_forall_mem.mp ck24_fresh op h, List.forall_iff_forall_mem.mp ck25_fresh op h, List.forall_iff_forall_mem.mp ck26_fresh op h]

set_option maxRecDepth 8192 in
set_option maxHeartbeats 4000000 in

theorem main_part4_eq (c : Dev nD) : main_part4 (F := F) c = seq ops4 := rfl

end Cert.ReferenceIdeal.HRun

end
-- ==== Proof.RefRun.lean ====
import proofs.«405318_j78374563217910_3_alg».proof.Proof.RefOps0
import proofs.«405318_j78374563217910_3_alg».proof.Proof.RefOps1
import proofs.«405318_j78374563217910_3_alg».proof.Proof.RefOps2
import proofs.«405318_j78374563217910_3_alg».proof.Proof.RefOps3
import proofs.«405318_j78374563217910_3_alg».proof.Proof.RefOps4

noncomputable section

namespace Cert.ReferenceIdeal.HRun

open Cert.ReferenceIdeal Idealize.ShloMosaic Idealize.ShloMosaic.TcCoe Idealize.SL.Sem Idealize.ShloMosaic.StableHlo
open Facts₀ Facts

variable {F : FTy → Type} [FloatOps F] [Facts]

abbrev ops : List (HloOp τ sig (Elt F)) :=
  ops0 ++ (ops1 ++ (ops2 ++ (ops3 ++ ops4)))

set_option maxRecDepth 8192 in

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_five {α : Type} {a : α} {l₀ l₁ l₂ l₃ l₄ : List α} (h : a ∈ l₀ ++ (l₁ ++ (l₂ ++ (l₃ ++ l₄)))) :
    a ∈ l₀ ∨ a ∈ l₁ ∨ a ∈ l₂ ∨ a ∈ l₃ ∨ a ∈ l₄ := by
  simpa only [List.mem_append] using h

theorem ops_sub : (ops : List (HloOp τ sig (Elt F))).Forall fun op => op.bufs ⊆ tcRefs τ sig :=
  List.forall_iff_forall_mem.mpr fun op h => by
    rcases mem_five h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

theorem ops_fresh : ∀ op ∈ (ops : List (HloOp τ sig (Elt F))), op.fresh = ∅ := fun op h => by
  rcases mem_five h with h | h | h | h | h
  exacts [ops0_fresh op h, ops1_fresh op h, ops2_fresh op h, ops3_fresh op h, ops4_fresh op h]

theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HRun

end
-- ==== Proof.RefVal0.lean ====
import proofs.«405318_j78374563217910_3_alg».proof.Proof.RefRun

noncomputable section

namespace Cert.ReferenceIdeal.HV

open Cert.ReferenceIdeal Cert.ReferenceIdeal.HRun Idealize.ShloMosaic Idealize.ShloMosaic.TcCoe Idealize.SL.Sem Idealize.ShloMosaic.StableHlo
open Facts₀ Facts

variable {F : FTy → Type} [FloatOps F] [Facts]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Pieces that write only references of index at least `lo` keep every reference below `lo`. -/
theorem keep_of (l : List (List (HloOp τ sig (Elt F)) × List (Ref sig .tc) × Nat)) {lo : Nat}
    (hw : ∀ p ∈ l, p.1.Forall fun op => op.writes ⊆ (p.2.1.map (Proc.devRef (τ := τ) .tc)).toFinset)
    (hlo : ∀ p ∈ l, ∀ r ∈ p.2.1, lo ≤ r.idx.val) (W : Valuation τ sig (Elt F)) (r : Ref sig .tc) (hr : r.idx.val < lo) :
    after (l.flatMap (·.1)) W (Proc.devRef .tc r) = W (Proc.devRef .tc r) := by
  induction l generalizing W with
  | nil => rfl
  | cons p l ih =>
    rw [List.flatMap_cons, after_append, ih (fun q hq => hw q (List.mem_cons_of_mem _ hq)) (fun q hq => hlo q (List.mem_cons_of_mem _ hq)),
      after_of_writes_sub p.1 W (hw p (List.mem_cons_self ..)) fun hm => Nat.not_le.mpr hr (hlo p (List.mem_cons_self ..) r hm)]

/-- Running a list of pieces is running its first part, then the rest from there. -/
theorem split_of (l₁ l₂ : List (List (HloOp τ sig (Elt F)) × List (Ref sig .tc) × Nat)) (V : Valuation τ sig (Elt F)) :
    after ((l₁ ++ l₂).flatMap (·.1)) V = after (l₂.flatMap (·.1)) (l₁.foldl (fun W p => after p.1 W) V) := by
  induction l₁ generalizing V with
  | nil => rfl
  | cons p l ih => rw [List.cons_append, List.flatMap_cons, after_append, ih]; rfl

def cks : List (List (HloOp τ sig (Elt F))) :=
  [ck0, ck1, ck2, ck3, ck4, ck5, ck6, ck7, ck8, ck9, ck10, ck11, ck12, ck13,
    ck14, ck15, ck16, ck17, ck18, ck19, ck20, ck21, ck22, ck23, ck24, ck25, ck26]

def tab : List (List (Ref sig .tc) × Nat) :=
  [(ck0_W, 16), (ck1_W, 20), (ck2_W, 41), (ck3_W, 45), (ck4_W, 54), (ck5_W, 59), (ck6_W, 82), (ck7_W, 99),
    (ck8_W, 116), (ck9_W, 137), (ck10_W, 141), (ck11_W, 150), (ck12_W, 155), (ck13_W, 178), (ck14_W, 186), (ck15_W, 212),
    (ck16_W, 233), (ck17_W, 237), (ck18_W, 246), (ck19_W, 251), (ck20_W, 252), (ck21_W, 274), (ck22_W, 308), (ck23_W, 314),
    (ck24_W, 337), (ck25_W, 341), (ck26_W, 342)]

theorem ck0_lo : ∀ r ∈ ck0_W, 16 ≤ r.idx.val := by decide
theorem ck1_lo : ∀ r ∈ ck1_W, 20 ≤ r.idx.val := by decide
theorem ck2_lo : ∀ r ∈ ck2_W, 41 ≤ r.idx.val := by decide
theorem ck3_lo : ∀ r ∈ ck3_W, 45 ≤ r.idx.val := by decide
theorem ck4_lo : ∀ r ∈ ck4_W, 54 ≤ r.idx.val := by decide
theorem ck5_lo : ∀ r ∈ ck5_W, 59 ≤ r.idx.val := by decide
theorem ck6_lo : ∀ r ∈ ck6_W, 82 ≤ r.idx.val := by decide
theorem ck7_lo : ∀ r ∈ ck7_W, 99 ≤ r.idx.val := by decide
theorem ck8_lo : ∀ r ∈ ck8_W, 116 ≤ r.idx.val := by decide
theorem ck9_lo : ∀ r ∈ ck9_W, 137 ≤ r.idx.val := by decide
theorem ck10_lo : ∀ r ∈ ck10_W, 141 ≤ r.idx.val := by decide
theorem ck11_lo : ∀ r ∈ ck11_W, 150 ≤ r.idx.val := by decide
theorem ck12_lo : ∀ r ∈ ck12_W, 155 ≤ r.idx.val := by decide
theorem ck13_lo : ∀ r ∈ ck13_W, 178 ≤ r.idx.val := by decide
theorem ck14_lo : ∀ r ∈ ck14_W, 186 ≤ r.idx.val := by decide
theorem ck15_lo : ∀ r ∈ ck15_W, 212 ≤ r.idx.val := by decide
theorem ck16_lo : ∀ r ∈ ck16_W, 233 ≤ r.idx.val := by decide
theorem ck17_lo : ∀ r ∈ ck17_W, 237 ≤ r.idx.val := by decide
theorem ck18_lo : ∀ r ∈ ck18_W, 246 ≤ r.idx.val := by decide
theorem ck19_lo : ∀ r ∈ ck19_W, 251 ≤ r.idx.val := by decide
theorem ck20_lo : ∀ r ∈ ck20_W, 252 ≤ r.idx.val := by decide
theorem ck21_lo : ∀ r ∈ ck21_W, 274 ≤ r.idx.val := by decide
theorem ck22_lo : ∀ r ∈ ck22_W, 308 ≤ r.idx.val := by decide
theorem ck23_lo : ∀ r ∈ ck23_W, 314 ≤ r.idx.val := by decide
theorem ck24_lo : ∀ r ∈ ck24_W, 337 ≤ r.idx.val := by decide
theorem ck25_lo : ∀ r ∈ ck25_W, 341 ≤ r.idx.val := by decide
theorem ck26_lo : ∀ r ∈ ck26_W, 342 ≤ r.idx.val := by decide

theorem tab_lo : tab.Forall fun q => ∀ r ∈ q.1, q.2 ≤ r.idx.val := by
  simp only [tab, List.Forall]
  exact ⟨ck0_lo, ck1_lo, ck2_lo, ck3_lo, ck4_lo, ck5_lo, ck6_lo, ck7_lo, ck8_lo, ck9_lo, ck10_lo, ck11_lo, ck12_lo, ck13_lo,
    ck14_lo, ck15_lo, ck16_lo, ck17_lo, ck18_lo, ck19_lo, ck20_lo, ck21_lo, ck22_lo, ck23_lo, ck24_lo, ck25_lo, ck26_lo⟩

theorem cks_writes : ∀ p ∈ (cks (F := F)).zip tab, p.1.Forall fun op => op.writes ⊆ (p.2.1.map (Proc.devRef (τ := τ) .tc)).toFinset := by
  simp only [cks, tab, List.zip_cons_cons, List.zip_nil_right, List.forall_mem_cons, List.not_mem_nil, false_imp_iff, implies_true, and_true]
  exact ⟨ck0_writes, ck1_writes, ck2_writes, ck3_writes, ck4_writes, ck5_writes, ck6_writes, ck7_writes, ck8_writes,
    ck9_writes, ck10_writes, ck11_writes, ck12_writes, ck13_writes, ck14_writes, ck15_writes, ck16_writes, ck17_writes,
    ck18_writes, ck19_writes, ck20_writes, ck21_writes, ck22_writes, ck23_writes, ck24_writes, ck25_writes, ck26_writes⟩

theorem ops_eq : (ops : List (HloOp τ sig (Elt F))) = (cks.zip tab).flatMap (·.1) := by
  simp only [ops, ops0, ops1, ops2, ops3, ops4, cks, tab, List.zip_cons_cons, List.zip_nil_right, List.flatMap_cons, List.flatMap_nil,
    List.append_assoc, List.append_nil]

/-- A reference below the bounds of all pieces from the `i`-th on ends at what the first `i` pieces leave in it. -/
theorem fin_pre (i : Nat) {lo : Nat} (h : ∀ q ∈ tab.drop i, lo ≤ q.2) (V : Valuation τ sig (Elt F)) (r : Ref sig .tc)
    (hr : r.idx.val < lo) :
    after ops V (Proc.devRef .tc r) = ((cks.zip tab).take i).foldl (fun W p => after p.1 W) V (Proc.devRef .tc r) := by
  have hs := split_of ((cks.zip tab).take i) ((cks.zip tab).drop i) V
  rw [List.take_append_drop] at hs
  have hq : ∀ p ∈ ((cks (F := F)).zip tab).drop i, p.2 ∈ tab.drop i := fun p hp => by
    have := List.mem_map_of_mem (f := (·.2)) hp
    rwa [List.map_drop, show ((cks (F := F)).zip tab).map (·.2) = tab from rfl] at this
  rw [ops_eq, hs, keep_of _ (fun p hp => cks_writes p (List.mem_of_mem_drop hp))
    (fun p hp r hr => (h _ (hq p hp)).trans (List.forall_iff_forall_mem.mp tab_lo _ (List.mem_of_mem_drop (hq p hp)) r hr)) _ r hr]

def P0 (V : Valuation τ sig (Elt F)) : Valuation τ sig (Elt F) := V
def P1 (V : Valuation τ sig (Elt F)) : Valuation τ sig (Elt F) := after ck0 (P0 V)
def P2 (V : Valuation τ sig (Elt F)) : Valuation τ sig (Elt F) := after ck1 (P1 V)
def P3 (V : Valuation τ sig (Elt F)) : Valuation τ sig (Elt F) := after ck2 (P2 V)
def P4 (V : Valuation τ sig (Elt F)) : Valuation τ sig (Elt F) := after ck3 (P3 V)
def P5 (V : Valuation τ sig (Elt F)) : Valuation τ sig (Elt F) := after ck4 (P4 V)
def P6 (V : Valuation τ sig (Elt F)) : Valuation τ sig (Elt F) := after ck5 (P5 V)
def P7 (V : Valuation τ sig (Elt F)) : Valuation τ sig (Elt F) := after ck6 (P6 V)
def P8 (V : Valuation τ sig (Elt F)) : Valuation τ sig (Elt F) := after ck7 (P7 V)
def P9 (V : Valuation τ sig (Elt F)) : Valuation τ sig (Elt F) := after ck8 (P8 V)
def P10 (V : Valuation τ sig (Elt F)) : Valuation τ sig (Elt F) := after ck9 (P9 V)
def P11 (V : Valuation τ sig (Elt F)) : Valuation τ sig (Elt F) := after ck10 (P10 V)
def P12 (V : Valuation τ sig (Elt F)) : Valuation τ sig (Elt F) := after ck11 (P11 V)
def P13 (V : Valuation τ sig (Elt F)) : Valuation τ sig (Elt F) := after ck12 (P12 V)
def P14 (V : Valuation τ sig (Elt F)) : Valuation τ sig (Elt F) := after ck13 (P13 V)
def P15 (V : Valuation τ sig (Elt F)) : Valuation τ sig (Elt F) := after ck14 (P14 V)
def P16 (V : Valuation τ sig (Elt F)) : Valuation τ sig (Elt F) := after ck15 (P15 V)
def P17 (V : Valuation τ sig (Elt F)) : Valuation τ sig (Elt F) := after ck16 (P16 V)
def P18 (V : Valuation τ sig (Elt F)) : Valuation τ sig (Elt F) := after ck17 (P17 V)
def P19 (V : Valuation τ sig (Elt F)) : Valuation τ sig (Elt F) := after ck18 (P18 V)
def P20 (V : Valuation τ sig (Elt F)) : Valuation τ sig (Elt F) := after ck19 (P19 V)
def P21 (V : Valuation τ sig (Elt F)) : Valuation τ sig (Elt F) := after ck20 (P20 V)
def P22 (V : Valuation τ sig (Elt F)) : Valuation τ sig (Elt F) := after ck21 (P21 V)
def P23 (V : Valuation τ sig (Elt F)) : Valuation τ sig (Elt F) := after ck22 (P22 V)
def P24 (V : Valuation τ sig (Elt F)) : Valuation τ sig (Elt F) := after ck23 (P23 V)
def P25 (V : Valuation τ sig (Elt F)) : Valuation τ sig (Elt F) := after ck24 (P24 V)
def P26 (V : Valuation τ sig (Elt F)) : Valuation τ sig (Elt F) := after ck25 (P25 V)
def P27 (V : Valuation τ sig (Elt F)) : Valuation τ sig (Elt F) := after ck26 (P26 V)

theorem finPre0 (V : Valuation τ sig (Elt F)) (r : Ref sig .tc) (hr : r.idx.val < 16) :
    after ops V (Proc.devRef .tc r) = P0 V (Proc.devRef .tc r) :=
  fin_pre 0 (by decide) V r hr
theorem finIn0 (V : Valuation τ sig (Elt F)) (r : Ref sig .tc) (hr : r.idx.val < 20) :
    after ops V (Proc.devRef .tc r) = after ck0 (P0 V) (Proc.devRef .tc r) :=
  fin_pre 1 (by decide) V r hr
theorem finPre1 (V : Valuation τ sig (Elt F)) (r : Ref sig .tc) (hr : r.idx.val < 20) :
    after ops V (Proc.devRef .tc r) = P1 V (Proc.devRef .tc r) :=
  fin_pre 1 (by decide) V r hr
theorem finIn1 (V : Valuation τ sig (Elt F)) (r : Ref sig .tc) (hr : r.idx.val < 41) :
    after ops V (Proc.devRef .tc r) = after ck1 (P1 V) (Proc.devRef .tc r) :=
  fin_pre 2 (by decide) V r hr
theorem finPre2 (V : Valuation τ sig (Elt F)) (r : Ref sig .tc) (hr : r.idx.val < 41) :
    after ops V (Proc.devRef .tc r) = P2 V (Proc.devRef .tc r) :=
  fin_pre 2 (by decide) V r hr
theorem finIn2 (V : Valuation τ sig (Elt F)) (r : Ref sig .tc) (hr : r.idx.val < 45) :
    after ops V (Proc.devRef .tc r) = after ck2 (P2 V) (Proc.devRef .tc r) :=
  fin_pre 3 (by decide) V r hr
theorem finPre3 (V : Valuation τ sig (Elt F)) (r : Ref sig .tc) (hr : r.idx.val < 45) :
    after ops V (Proc.devRef .tc r) = P3 V (Proc.devRef .tc r) :=
  fin_pre 3 (by decide) V r hr
theorem finIn3 (V : Valuation τ sig (Elt F)) (r : Ref sig .tc) (hr : r.idx.val < 54) :
    after ops V (Proc.devRef .tc r) = after ck3 (P3 V) (Proc.devRef .tc r) :=
  fin_pre 4 (by decide) V r hr
theorem finPre4 (V : Valuation τ sig (Elt F)) (r : Ref sig .tc) (hr : r.idx.val < 54) :
    after ops V (Proc.devRef .tc r) = P4 V (Proc.devRef .tc r) :=
  fin_pre 4 (by decide) V r hr
theorem finIn4 (V : Valuation τ sig (Elt F)) (r : Ref sig .tc) (hr : r.idx.val < 59) :
    after ops V (Proc.devRef .tc r) = after ck4 (P4 V) (Proc.devRef .tc r) :=
  fin_pre 5 (by decide) V r hr
theorem finPre5 (V : Valuation τ sig (Elt F)) (r : Ref sig .tc) (hr : r.idx.val < 59) :
    after ops V (Proc.devRef .tc r) = P5 V (Proc.devRef .tc r) :=
  fin_pre 5 (by decide) V r hr
theorem finIn5 (V : Valuation τ sig (Elt F)) (r : Ref sig .tc) (hr : r.idx.val < 82) :
    after ops V (Proc.devRef .tc r) = after ck5 (P5 V) (Proc.devRef .tc r) :=
  fin_pre 6 (by decide) V r hr
theorem finPre6 (V : Valuation τ sig (Elt F)) (r : Ref sig .tc) (hr : r.idx.val < 82) :
    after ops V (Proc.devRef .tc r) = P6 V (Proc.devRef .tc r) :=
  fin_pre 6 (by decide) V r hr
theorem finIn6 (V : Valuation τ sig (Elt F)) (r : Ref sig .tc) (hr : r.idx.val < 99) :
    after ops V (Proc.devRef .tc r) = after ck6 (P6 V) (Proc.devRef .tc r) :=
  fin_pre 7 (by decide) V r hr
theorem finPre7 (V : Valuation τ sig (Elt F)) (r : Ref sig .tc) (hr : r.idx.val < 99) :
    after ops V (Proc.devRef .tc r) = P7 V (Proc.devRef .tc r) :=
  fin_pre 7 (by decide) V r hr
theorem finIn7 (V : Valuation τ sig (Elt F)) (r : Ref sig .tc) (hr : r.idx.val < 116) :
    after ops V (Proc.devRef .tc r) = after ck7 (P7 V) (Proc.devRef .tc r) :=
  fin_pre 8 (by decide) V r hr
theorem finPre8 (V : Valuation τ sig (Elt F)) (r : Ref sig .tc) (hr : r.idx.val < 116) :
    after ops V (Proc.devRef .tc r) = P8 V (Proc.devRef .tc r) :=
  fin_pre 8 (by decide) V r hr
theorem finIn8 (V : Valuation τ sig (Elt F)) (r : Ref sig .tc) (hr : r.idx.val < 137) :
    after ops V (Proc.devRef .tc r) = after ck8 (P8 V) (Proc.devRef .tc r) :=
  fin_pre 9 (by decide) V r hr
theorem finPre9 (V : Valuation τ sig (Elt F)) (r : Ref sig .tc) (hr : r.idx.val < 137) :
    after ops V (Proc.devRef .tc r) = P9 V (Proc.devRef .tc r) :=
  fin_pre 9 (by decide) V r hr
theorem finIn9 (V : Valuation τ sig (Elt F)) (r : Ref sig .tc) (hr : r.idx.val < 141) :
    after ops V (Proc.devRef .tc r) = after ck9 (P9 V) (Proc.devRef .tc r) :=
  fin_pre 10 (by decide) V r hr
theorem finPre10 (V : Valuation τ sig (Elt F)) (r : Ref sig .tc) (hr : r.idx.val < 141) :
    after ops V (Proc.devRef .tc r) = P10 V (Proc.devRef .tc r) :=
  fin_pre 10 (by decide) V r hr
theorem finIn10 (V : Valuation τ sig (Elt F)) (r : Ref sig .tc) (hr : r.idx.val < 150) :
    after ops V (Proc.devRef .tc r) = after ck10 (P10 V) (Proc.devRef .tc r) :=
  fin_pre 11 (by decide) V r hr
theorem finPre11 (V : Valuation τ sig (Elt F)) (r : Ref sig .tc) (hr : r.idx.val < 150) :
    after ops V (Proc.devRef .tc r) = P11 V (Proc.devRef .tc r) :=
  fin_pre 11 (by decide) V r hr
theorem finIn11 (V : Valuation τ sig (Elt F)) (r : Ref sig .tc) (hr : r.idx.val < 155) :
    after ops V (Proc.devRef .tc r) = after ck11 (P11 V) (Proc.devRef .tc r) :=
  fin_pre 12 (by decide) V r hr
theorem finPre12 (V : Valuation τ sig (Elt F)) (r : Ref sig .tc) (hr : r.idx.val < 155) :
    after ops V (Proc.devRef .tc r) = P12 V (Proc.devRef .tc r) :=
  fin_pre 12 (by decide) V r hr
theorem finIn12 (V : Valuation τ sig (Elt F)) (r : Ref sig .tc) (hr : r.idx.val < 178) :
    after ops V (Proc.devRef .tc r) = after ck12 (P12 V) (Proc.devRef .tc r) :=
  fin_pre 13 (by decide) V r hr
theorem finPre13 (V : Valuation τ sig (Elt F)) (r : Ref sig .tc) (hr : r.idx.val < 178) :
    after ops V (Proc.devRef .tc r) = P13 V (Proc.devRef .tc r) :=
  fin_pre 13 (by decide) V r hr
theorem finIn13 (V : Valuation τ sig (Elt F)) (r : Ref sig .tc) (hr : r.idx.val < 186) :
    after ops V (Proc.devRef .tc r) = after ck13 (P13 V) (Proc.devRef .tc r) :=
  fin_pre 14 (by decide) V r hr
theorem finPre14 (V : Valuation τ sig (Elt F)) (r : Ref sig .tc) (hr : r.idx.val < 186) :
    after ops V (Proc.devRef .tc r) = P14 V (Proc.devRef .tc r) :=
  fin_pre 14 (by decide) V r hr
theorem finIn14 (V : Valuation τ sig (Elt F)) (r : Ref sig .tc) (hr : r.idx.val < 212) :
    after ops V (Proc.devRef .tc r) = after ck14 (P14 V) (Proc.devRef .tc r) :=
  fin_pre 15 (by decide) V r hr
theorem finPre15 (V : Valuation τ sig (Elt F)) (r : Ref sig .tc) (hr : r.idx.val < 212) :
    after ops V (Proc.devRef .tc r) = P15 V (Proc.devRef .tc r) :=
  fin_pre 15 (by decide) V r hr
theorem finIn15 (V : Valuation τ sig (Elt F)) (r : Ref sig .tc) (hr : r.idx.val < 233) :
    after ops V (Proc.devRef .tc r) = after ck15 (P15 V) (Proc.devRef .tc r) :=
  fin_pre 16 (by decide) V r hr
theorem finPre16 (V : Valuation τ sig (Elt F)) (r : Ref sig .tc) (hr : r.idx.val < 233) :
    after ops V (Proc.devRef .tc r) = P16 V (Proc.devRef .tc r) :=
  fin_pre 16 (by decide) V r hr
theorem finIn16 (V : Valuation τ sig (Elt F)) (r : Ref sig .tc) (hr : r.idx.val < 237) :
    after ops V (Proc.devRef .tc r) = after ck16 (P16 V) (Proc.devRef .tc r) :=
  fin_pre 17 (by decide) V r hr
theorem finPre17 (V : Valuation τ sig (Elt F)) (r : Ref sig .tc) (hr : r.idx.val < 237) :
    after ops V (Proc.devRef .tc r) = P17 V (Proc.devRef .tc r) :=
  fin_pre 17 (by decide) V r hr
theorem finIn17 (V : Valuation τ sig (Elt F)) (r : Ref sig .tc) (hr : r.idx.val < 246) :
    after ops V (Proc.devRef .tc r) = after ck17 (P17 V) (Proc.devRef .tc r) :=
  fin_pre 18 (by decide) V r hr
theorem finPre18 (V : Valuation τ sig (Elt F)) (r : Ref sig .tc) (hr : r.idx.val < 246) :
    after ops V (Proc.devRef .tc r) = P18 V (Proc.devRef .tc r) :=
  fin_pre 18 (by decide) V r hr
theorem finIn18 (V : Valuation τ sig (Elt F)) (r : Ref sig .tc) (hr : r.idx.val < 251) :
    after ops V (Proc.devRef .tc r) = after ck18 (P18 V) (Proc.devRef .tc r) :=
  fin_pre 19 (by decide) V r hr
theorem finPre19 (V : Valuation τ sig (Elt F)) (r : Ref sig .tc) (hr : r.idx.val < 251) :
    after ops V (Proc.devRef .tc r) = P19 V (Proc.devRef .tc r) :=
  fin_pre 19 (by decide) V r hr
theorem finIn19 (V : Valuation τ sig (Elt F)) (r : Ref sig .tc) (hr : r.idx.val < 252) :
    after ops V (Proc.devRef .tc r) = after ck19 (P19 V) (Proc.devRef .tc r) :=
  fin_pre 20 (by decide) V r hr
theorem finPre20 (V : Valuation τ sig (Elt F)) (r : Ref sig .tc) (hr : r.idx.val < 252) :
    after ops V (Proc.devRef .tc r) = P20 V (Proc.devRef .tc r) :=
  fin_pre 20 (by decide) V r hr
theorem finIn20 (V : Valuation τ sig (Elt F)) (r : Ref sig .tc) (hr : r.idx.val < 274) :
    after ops V (Proc.devRef .tc r) = after ck20 (P20 V) (Proc.devRef .tc r) :=
  fin_pre 21 (by decide) V r hr
theorem finPre21 (V : Valuation τ sig (Elt F)) (r : Ref sig .tc) (hr : r.idx.val < 274) :
    after ops V (Proc.devRef .tc r) = P21 V (Proc.devRef .tc r) :=
  fin_pre 21 (by decide) V r hr
theorem finIn21 (V : Valuation τ sig (Elt F)) (r : Ref sig .tc) (hr : r.idx.val < 308) :
    after ops V (Proc.devRef .tc r) = after ck21 (P21 V) (Proc.devRef .tc r) :=
  fin_pre 22 (by decide) V r hr
theorem finPre22 (V : Valuation τ sig (Elt F)) (r : Ref sig .tc) (hr : r.idx.val < 308) :
    after ops V (Proc.devRef .tc r) = P22 V (Proc.devRef .tc r) :=
  fin_pre 22 (by decide) V r hr
theorem finIn22 (V : Valuation τ sig (Elt F)) (r : Ref sig .tc) (hr : r.idx.val < 314) :
    after ops V (Proc.devRef .tc r) = after ck22 (P22 V) (Proc.devRef .tc r) :=
  fin_pre 23 (by decide) V r hr
theorem finPre23 (V : Valuation τ sig (Elt F)) (r : Ref sig .tc) (hr : r.idx.val < 314) :
    after ops V (Proc.devRef .tc r) = P23 V (Proc.devRef .tc r) :=
  fin_pre 23 (by decide) V r hr
theorem finIn23 (V : Valuation τ sig (Elt F)) (r : Ref sig .tc) (hr : r.idx.val < 337) :
    after ops V (Proc.devRef .tc r) = after ck23 (P23 V) (Proc.devRef .tc r) :=
  fin_pre 24 (by decide) V r hr
theorem finPre24 (V : Valuation τ sig (Elt F)) (r : Ref sig .tc) (hr : r.idx.val < 337) :
    after ops V (Proc.devRef .tc r) = P24 V (Proc.devRef .tc r) :=
  fin_pre 24 (by decide) V r hr
theorem finIn24 (V : Valuation τ sig (Elt F)) (r : Ref sig .tc) (hr : r.idx.val < 341) :
    after ops V (Proc.devRef .tc r) = after ck24 (P24 V) (Proc.devRef .tc r) :=
  fin_pre 25 (by decide) V r hr
theorem finPre25 (V : Valuation τ sig (Elt F)) (r : Ref sig .tc) (hr : r.idx.val < 341) :
    after ops V (Proc.devRef .tc r) = P25 V (Proc.devRef .tc r) :=
  fin_pre 25 (by decide) V r hr
theorem finIn25 (V : Valuation τ sig (Elt F)) (r : Ref sig .tc) (hr : r.idx.val < 342) :
    after ops V (Proc.devRef .tc r) = after ck25 (P25 V) (Proc.devRef .tc r) :=
  fin_pre 26 (by decide) V r hr
theorem finPre26 (V : Valuation τ sig (Elt F)) (r : Ref sig .tc) (hr : r.idx.val < 342) :
    after ops V (Proc.devRef .tc r) = P26 V (Proc.devRef .tc r) :=
  fin_pre 26 (by decide) V r hr
theorem finIn26 (V : Valuation τ sig (Elt F)) (r : Ref sig .tc) (hr : r.idx.val < 368) :
    after ops V (Proc.devRef .tc r) = after ck26 (P26 V) (Proc.devRef .tc r) :=
  fin_pre 27 (by decide) V r hr

end Cert.ReferenceIdeal.HV

end
-- ==== Proof.RefNet.lean ====
import proofs.«405318_j78374563217910_3_alg».proof.ReferenceIdeal

noncomputable section

namespace Cert.ReferenceIdeal.HV

open Idealize.ShloMosaic Idealize.SL.Sem Cert.ReferenceIdeal
open Facts₀ Facts

variable {F : FTy → Type} [FloatOps F] [Facts]

def msgR (h : (⟨S50000x64, .f32⟩ : BufTy).Contents (Elt F)) (src : (⟨S800000, .i32⟩ : BufTy).Contents (Elt F)) (ea : (⟨S800000x16, .f32⟩ : BufTy).Contents (Elt F)) (We : (⟨S16x64, .f32⟩ : BufTy).Contents (Elt F)) (be : (⟨S64, .f32⟩ : BufTy).Contents (Elt F)) :
    (⟨S800000x64, .f32⟩ : BufTy).Contents (Elt F) :=
  ((maximumf : (⟨S800000x64, .f32⟩ : BufTy).Contents (Elt F) → (⟨S800000x64, .f32⟩ : BufTy).Contents (Elt F) → (⟨S800000x64, .f32⟩ : BufTy).Contents (Elt F)) ((addf : (⟨S800000x64, .f32⟩ : BufTy).Contents (Elt F) → (⟨S800000x64, .f32⟩ : BufTy).Contents (Elt F) → (⟨S800000x64, .f32⟩ : BufTy).Contents (Elt F)) ((addf : (⟨S800000x64, .f32⟩ : BufTy).Contents (Elt F) → (⟨S800000x64, .f32⟩ : BufTy).Contents (Elt F) → (⟨S800000x64, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) h ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) ((constantI S_ 32 0#32) : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) ((constantI S_ 32 50000#32) : (⟨S_, .i32⟩ : BufTy).Contents (Elt F)))) src))) (((fun l r => Host.dotGeneral dot_S800000x16_S16x64_S800000x64_1_0_0_1_n_n none l r) : (⟨S800000x16, .f32⟩ : BufTy).Contents (Elt F) → (⟨S16x64, .f32⟩ : BufTy).Contents (Elt F) → (⟨S800000x64, .f32⟩ : BufTy).Contents (Elt F)) ea We)) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) be))) (((broadcastInDim S800000x64 ![] bcast_S_S800000x64) : (⟨S_, .f32⟩ : BufTy).Contents (Elt F) → (⟨S800000x64, .f32⟩ : BufTy).Contents (Elt F)) ((constant S_ .f32 0x00000000#32) : (⟨S_, .f32⟩ : BufTy).Contents (Elt F))))

def aggR (dst : (⟨S800000, .i32⟩ : BufTy).Contents (Elt F)) (msg : (⟨S800000x64, .f32⟩ : BufTy).Contents (Elt F)) :
    (⟨S50000x64, .f32⟩ : BufTy).Contents (Elt F) :=
  (((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant S_ .f32 0x00000000#32) : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) dst) msg)

def muR (z : (⟨S50000x64, .f32⟩ : BufTy).Contents (Elt F)) :
    (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) z ((constant S_ .f32 0x00000000#32) : (⟨S_, .f32⟩ : BufTy).Contents (Elt F))) ((broadcastInDim S64 ![] bcast_S_S64 : (⟨S_, .f32⟩ : BufTy).Contents (Elt F) → (⟨S64, .f32⟩ : BufTy).Contents (Elt F)) ((constant S_ .f32 0x47435000#32) : (⟨S_, .f32⟩ : BufTy).Contents (Elt F))))

def varR (z : (⟨S50000x64, .f32⟩ : BufTy).Contents (Elt F)) :
    (⟨S64, .f32⟩ : BufTy).Contents (Elt F) :=
  (((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47435000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))) ((constant S_ .f32 0x00000000#32) : (⟨S_, .f32⟩ : BufTy).Contents (Elt F))) ((Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) z (((broadcastInDim S50000x64 ![0, 1] bcast_S1x64_S50000x64_0_1) : (⟨S1x64, .f32⟩ : BufTy).Contents (Elt F) → (⟨S50000x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) z ((constant S_ .f32 0x00000000#32) : (⟨S_, .f32⟩ : BufTy).Contents (Elt F)))) (((broadcastInDim S1x64 ![] bcast_S_S1x64) : (⟨S_, .f32⟩ : BufTy).Contents (Elt F) → (⟨S1x64, .f32⟩ : BufTy).Contents (Elt F)) ((constant S_ .f32 0x47435000#32) : (⟨S_, .f32⟩ : BufTy).Contents (Elt F)))))) ((subf : (⟨S50000x64, .f32⟩ : BufTy).Contents (Elt F) → (⟨S50000x64, .f32⟩ : BufTy).Contents (Elt F) → (⟨S50000x64, .f32⟩ : BufTy).Contents (Elt F)) z (((broadcastInDim S50000x64 ![0, 1] bcast_S1x64_S50000x64_0_1) : (⟨S1x64, .f32⟩ : BufTy).Contents (Elt F) → (⟨S50000x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) z ((constant S_ .f32 0x00000000#32) : (⟨S_, .f32⟩ : BufTy).Contents (Elt F)))) (((broadcastInDim S1x64 ![] bcast_S_S1x64) : (⟨S_, .f32⟩ : BufTy).Contents (Elt F) → (⟨S1x64, .f32⟩ : BufTy).Contents (Elt F)) ((constant S_ .f32 0x47435000#32) : (⟨S_, .f32⟩ : BufTy).Contents (Elt F))))))) ((constant S_ .f32 0x00000000#32) : (⟨S_, .f32⟩ : BufTy).Contents (Elt F))) (((broadcastInDim S64 ![] bcast_S_S64) : (⟨S_, .f32⟩ : BufTy).Contents (Elt F) → (⟨S64, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47435000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))))) (((broadcastInDim S64 ![] bcast_S_S64) : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

def cntR (batch : (⟨S50000, .i32⟩ : BufTy).Contents (Elt F)) :
    (⟨S512x1, .f32⟩ : BufTy).Contents (Elt F) :=
  (((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)) ((broadcastInDim S512x1 ![] bcast_S_S512x1 : (⟨S_, .f32⟩ : BufTy).Contents (Elt F) → (⟨S512x1, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) ((broadcastInDim S50000x1 ![] bcast_S_S50000x1 : (⟨S_, .f32⟩ : BufTy).Contents (Elt F) → (⟨S50000x1, .f32⟩ : BufTy).Contents (Elt F)) ((constant S_ .f32 0x3F800000#32) : (⟨S_, .f32⟩ : BufTy).Contents (Elt F))))

def poolR (h1 : (⟨S50000x64, .f32⟩ : BufTy).Contents (Elt F)) (h2 : (⟨S50000x64, .f32⟩ : BufTy).Contents (Elt F)) (h3 : (⟨S50000x64, .f32⟩ : BufTy).Contents (Elt F)) (batch : (⟨S50000, .i32⟩ : BufTy).Contents (Elt F)) :
    (⟨S512x192, .f32⟩ : BufTy).Contents (Elt F) :=
  (concatenate S512x192 1 [⟨S512x64, ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) h1) ((broadcastInDim S512x64 ![0, 1] bcast_S512x1_S512x64_0_1 : (⟨S512x1, .f32⟩ : BufTy).Contents (Elt F) → (⟨S512x64, .f32⟩ : BufTy).Contents (Elt F)) ((maximumf : (⟨S512x1, .f32⟩ : BufTy).Contents (Elt F) → (⟨S512x1, .f32⟩ : BufTy).Contents (Elt F) → (⟨S512x1, .f32⟩ : BufTy).Contents (Elt F)) (((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)) ((broadcastInDim S512x1 ![] bcast_S_S512x1 : (⟨S_, .f32⟩ : BufTy).Contents (Elt F) → (⟨S512x1, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) ((broadcastInDim S50000x1 ![] bcast_S_S50000x1 : (⟨S_, .f32⟩ : BufTy).Contents (Elt F) → (⟨S50000x1, .f32⟩ : BufTy).Contents (Elt F)) ((constant S_ .f32 0x3F800000#32) : (⟨S_, .f32⟩ : BufTy).Contents (Elt F)))) ((broadcastInDim S512x1 ![] bcast_S_S512x1 : (⟨S_, .f32⟩ : BufTy).Contents (Elt F) → (⟨S512x1, .f32⟩ : BufTy).Contents (Elt F)) ((constant S_ .f32 0x3F800000#32) : (⟨S_, .f32⟩ : BufTy).Contents (Elt F))))))⟩, ⟨S512x64, ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) h2) ((broadcastInDim S512x64 ![0, 1] bcast_S512x1_S512x64_0_1 : (⟨S512x1, .f32⟩ : BufTy).Contents (Elt F) → (⟨S512x64, .f32⟩ : BufTy).Contents (Elt F)) ((maximumf : (⟨S512x1, .f32⟩ : BufTy).Contents (Elt F) → (⟨S512x1, .f32⟩ : BufTy).Contents (Elt F) → (⟨S512x1, .f32⟩ : BufTy).Contents (Elt F)) (((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)) ((broadcastInDim S512x1 ![] bcast_S_S512x1 : (⟨S_, .f32⟩ : BufTy).Contents (Elt F) → (⟨S512x1, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) ((broadcastInDim S50000x1 ![] bcast_S_S50000x1 : (⟨S_, .f32⟩ : BufTy).Contents (Elt F) → (⟨S50000x1, .f32⟩ : BufTy).Contents (Elt F)) ((constant S_ .f32 0x3F800000#32) : (⟨S_, .f32⟩ : BufTy).Contents (Elt F)))) ((broadcastInDim S512x1 ![] bcast_S_S512x1 : (⟨S_, .f32⟩ : BufTy).Contents (Elt F) → (⟨S512x1, .f32⟩ : BufTy).Contents (Elt F)) ((constant S_ .f32 0x3F800000#32) : (⟨S_, .f32⟩ : BufTy).Contents (Elt F))))))⟩, ⟨S512x64, ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) h3) ((broadcastInDim S512x64 ![0, 1] bcast_S512x1_S512x64_0_1 : (⟨S512x1, .f32⟩ : BufTy).Contents (Elt F) → (⟨S512x64, .f32⟩ : BufTy).Contents (Elt F)) ((maximumf : (⟨S512x1, .f32⟩ : BufTy).Contents (Elt F) → (⟨S512x1, .f32⟩ : BufTy).Contents (Elt F) → (⟨S512x1, .f32⟩ : BufTy).Contents (Elt F)) (((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)) ((broadcastInDim S512x1 ![] bcast_S_S512x1 : (⟨S_, .f32⟩ : BufTy).Contents (Elt F) → (⟨S512x1, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) ((broadcastInDim S50000x1 ![] bcast_S_S50000x1 : (⟨S_, .f32⟩ : BufTy).Contents (Elt F) → (⟨S50000x1, .f32⟩ : BufTy).Contents (Elt F)) ((constant S_ .f32 0x3F800000#32) : (⟨S_, .f32⟩ : BufTy).Contents (Elt F)))) ((broadcastInDim S512x1 ![] bcast_S_S512x1 : (⟨S_, .f32⟩ : BufTy).Contents (Elt F) → (⟨S512x1, .f32⟩ : BufTy).Contents (Elt F)) ((constant S_ .f32 0x3F800000#32) : (⟨S_, .f32⟩ : BufTy).Contents (Elt F))))))⟩] concatenates_S512x64_S512x64_S512x64_S512x192_d1)

end Cert.ReferenceIdeal.HV

end
-- ==== Proof.RefNetB.lean ====
import proofs.«405318_j78374563217910_3_alg».proof.Proof.RefNet

noncomputable section

namespace Cert.ReferenceIdeal.HV

open Idealize.ShloMosaic Idealize.SL.Sem Cert.ReferenceIdeal
open Facts₀ Facts

variable {F : FTy → Type} [FloatOps F] [Facts]

def zR (h : (⟨S50000x64, .f32⟩ : BufTy).Contents (Elt F)) (a : (⟨S50000x64, .f32⟩ : BufTy).Contents (Elt F)) (w : (⟨S64x64, .f32⟩ : BufTy).Contents (Elt F)) (b : (⟨S64, .f32⟩ : BufTy).Contents (Elt F)) :
    (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) h a) w) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))

def outR (z : (⟨S50000x64, .f32⟩ : BufTy).Contents (Elt F)) (mu : (⟨S64, .f32⟩ : BufTy).Contents (Elt F)) (vr : (⟨S64, .f32⟩ : BufTy).Contents (Elt F)) (g : (⟨S64, .f32⟩ : BufTy).Contents (Elt F)) (bb : (⟨S64, .f32⟩ : BufTy).Contents (Elt F)) (w : (⟨S64x64, .f32⟩ : BufTy).Contents (Elt F)) (b : (⟨S64, .f32⟩ : BufTy).Contents (Elt F)) :
    (⟨S50000x64, .f32⟩ : BufTy).Contents (Elt F) :=
  ((maximumf : (⟨S50000x64, .f32⟩ : BufTy).Contents (Elt F) → (⟨S50000x64, .f32⟩ : BufTy).Contents (Elt F) → (⟨S50000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf : (⟨S50000x64, .f32⟩ : BufTy).Contents (Elt F) → (⟨S50000x64, .f32⟩ : BufTy).Contents (Elt F) → (⟨S50000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) z ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) mu))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) vr ((broadcastInDim S64 ![] bcast_S_S64 : (⟨S_, .f32⟩ : BufTy).Contents (Elt F) → (⟨S64, .f32⟩ : BufTy).Contents (Elt F)) ((constant S_ .f32 0x3727C5AC#32) : (⟨S_, .f32⟩ : BufTy).Contents (Elt F)))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) g))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) bb))) (((broadcastInDim S50000x64 ![] bcast_S_S50000x64) : (⟨S_, .f32⟩ : BufTy).Contents (Elt F) → (⟨S50000x64, .f32⟩ : BufTy).Contents (Elt F)) ((constant S_ .f32 0x00000000#32) : (⟨S_, .f32⟩ : BufTy).Contents (Elt F)))) w) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) (((broadcastInDim S50000x64 ![] bcast_S_S50000x64) : (⟨S_, .f32⟩ : BufTy).Contents (Elt F) → (⟨S50000x64, .f32⟩ : BufTy).Contents (Elt F)) ((constant S_ .f32 0x00000000#32) : (⟨S_, .f32⟩ : BufTy).Contents (Elt F))))

def poolOne (h : (⟨S50000x64, .f32⟩ : BufTy).Contents (Elt F)) (cnt : (⟨S512x1, .f32⟩ : BufTy).Contents (Elt F)) (batch : (⟨S50000, .i32⟩ : BufTy).Contents (Elt F)) :
    (⟨S512x64, .f32⟩ : BufTy).Contents (Elt F) :=
  ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) batch) h) ((broadcastInDim S512x64 ![0, 1] bcast_S512x1_S512x64_0_1 : (⟨S512x1, .f32⟩ : BufTy).Contents (Elt F) → (⟨S512x64, .f32⟩ : BufTy).Contents (Elt F)) ((maximumf : (⟨S512x1, .f32⟩ : BufTy).Contents (Elt F) → (⟨S512x1, .f32⟩ : BufTy).Contents (Elt F) → (⟨S512x1, .f32⟩ : BufTy).Contents (Elt F)) cnt ((broadcastInDim S512x1 ![] bcast_S_S512x1 : (⟨S_, .f32⟩ : BufTy).Contents (Elt F) → (⟨S512x1, .f32⟩ : BufTy).Contents (Elt F)) ((constant S_ .f32 0x3F800000#32) : (⟨S_, .f32⟩ : BufTy).Contents (Elt F))))))

def finR (hc : (⟨S512x192, .f32⟩ : BufTy).Contents (Elt F)) (w1 : (⟨S192x192, .f32⟩ : BufTy).Contents (Elt F)) (b1 : (⟨S192, .f32⟩ : BufTy).Contents (Elt F)) (w2 : (⟨S192x10, .f32⟩ : BufTy).Contents (Elt F)) (b2 : (⟨S10, .f32⟩ : BufTy).Contents (Elt F)) :
    (⟨S512x10, .f32⟩ : BufTy).Contents (Elt F) :=
  ((subf : (⟨S512x10, .f32⟩ : BufTy).Contents (Elt F) → (⟨S512x10, .f32⟩ : BufTy).Contents (Elt F) → (⟨S512x10, .f32⟩ : BufTy).Contents (Elt F)) ((subf : (⟨S512x10, .f32⟩ : BufTy).Contents (Elt F) → (⟨S512x10, .f32⟩ : BufTy).Contents (Elt F) → (⟨S512x10, .f32⟩ : BufTy).Contents (Elt F)) ((addf : (⟨S512x10, .f32⟩ : BufTy).Contents (Elt F) → (⟨S512x10, .f32⟩ : BufTy).Contents (Elt F) → (⟨S512x10, .f32⟩ : BufTy).Contents (Elt F)) (((fun l r => Host.dotGeneral dot_S512x192_S192x10_S512x10_1_0_0_1_n_n none l r) : (⟨S512x192, .f32⟩ : BufTy).Contents (Elt F) → (⟨S192x10, .f32⟩ : BufTy).Contents (Elt F) → (⟨S512x10, .f32⟩ : BufTy).Contents (Elt F)) ((maximumf : (⟨S512x192, .f32⟩ : BufTy).Contents (Elt F) → (⟨S512x192, .f32⟩ : BufTy).Contents (Elt F) → (⟨S512x192, .f32⟩ : BufTy).Contents (Elt F)) ((addf : (⟨S512x192, .f32⟩ : BufTy).Contents (Elt F) → (⟨S512x192, .f32⟩ : BufTy).Contents (Elt F) → (⟨S512x192, .f32⟩ : BufTy).Contents (Elt F)) (((fun l r => Host.dotGeneral dot_S512x192_S192x192_S512x192_1_0_0_1_n_n none l r) : (⟨S512x192, .f32⟩ : BufTy).Contents (Elt F) → (⟨S192x192, .f32⟩ : BufTy).Contents (Elt F) → (⟨S512x192, .f32⟩ : BufTy).Contents (Elt F)) hc w1) ((broadcastInDim S512x192 ![0, 1] bcast_S1x192_S512x192_0_1 : (⟨S1x192, .f32⟩ : BufTy).Contents (Elt F) → (⟨S512x192, .f32⟩ : BufTy).Contents (Elt F)) ((broadcastInDim S1x192 ![1] bcast_S192_S1x192_1 : (⟨S192, .f32⟩ : BufTy).Contents (Elt F) → (⟨S1x192, .f32⟩ : BufTy).Contents (Elt F)) b1))) (((broadcastInDim S512x192 ![] bcast_S_S512x192) : (⟨S_, .f32⟩ : BufTy).Contents (Elt F) → (⟨S512x192, .f32⟩ : BufTy).Contents (Elt F)) ((constant S_ .f32 0x00000000#32) : (⟨S_, .f32⟩ : BufTy).Contents (Elt F)))) w2) ((broadcastInDim S512x10 ![0, 1] bcast_S1x10_S512x10_0_1 : (⟨S1x10, .f32⟩ : BufTy).Contents (Elt F) → (⟨S512x10, .f32⟩ : BufTy).Contents (Elt F)) ((broadcastInDim S1x10 ![1] bcast_S10_S1x10_1 : (⟨S10, .f32⟩ : BufTy).Contents (Elt F) → (⟨S1x10, .f32⟩ : BufTy).Contents (Elt F)) b2))) (((broadcastInDim S512x10 ![0, 1] bcast_S512x1_S512x10_0_1) : (⟨S512x1, .f32⟩ : BufTy).Contents (Elt F) → (⟨S512x10, .f32⟩ : BufTy).Contents (Elt F)) (((broadcastInDim S512x1 ![0] bcast_S512_S512x1_0) : (⟨S512, .f32⟩ : BufTy).Contents (Elt F) → (⟨S512x1, .f32⟩ : BufTy).Contents (Elt F)) ((maximumf : (⟨S512, .f32⟩ : BufTy).Contents (Elt F) → (⟨S512, .f32⟩ : BufTy).Contents (Elt F) → (⟨S512, .f32⟩ : BufTy).Contents (Elt F)) (((broadcastInDim S512 ![] bcast_S_S512) : (⟨S_, .f32⟩ : BufTy).Contents (Elt F) → (⟨S512, .f32⟩ : BufTy).Contents (Elt F)) ((constant S_ .f32 0xFF800000#32) : (⟨S_, .f32⟩ : BufTy).Contents (Elt F))) (((fun x v => Host.reduce FloatOps.maximumf x v reducesTo_S512x10_S512_d1 h_S_) : (⟨S512x10, .f32⟩ : BufTy).Contents (Elt F) → (⟨S_, .f32⟩ : BufTy).Contents (Elt F) → (⟨S512, .f32⟩ : BufTy).Contents (Elt F)) ((addf : (⟨S512x10, .f32⟩ : BufTy).Contents (Elt F) → (⟨S512x10, .f32⟩ : BufTy).Contents (Elt F) → (⟨S512x10, .f32⟩ : BufTy).Contents (Elt F)) (((fun l r => Host.dotGeneral dot_S512x192_S192x10_S512x10_1_0_0_1_n_n none l r) : (⟨S512x192, .f32⟩ : BufTy).Contents (Elt F) → (⟨S192x10, .f32⟩ : BufTy).Contents (Elt F) → (⟨S512x10, .f32⟩ : BufTy).Contents (Elt F)) ((maximumf : (⟨S512x192, .f32⟩ : BufTy).Contents (Elt F) → (⟨S512x192, .f32⟩ : BufTy).Contents (Elt F) → (⟨S512x192, .f32⟩ : BufTy).Contents (Elt F)) ((addf : (⟨S512x192, .f32⟩ : BufTy).Contents (Elt F) → (⟨S512x192, .f32⟩ : BufTy).Contents (Elt F) → (⟨S512x192, .f32⟩ : BufTy).Contents (Elt F)) (((fun l r => Host.dotGeneral dot_S512x192_S192x192_S512x192_1_0_0_1_n_n none l r) : (⟨S512x192, .f32⟩ : BufTy).Contents (Elt F) → (⟨S192x192, .f32⟩ : BufTy).Contents (Elt F) → (⟨S512x192, .f32⟩ : BufTy).Contents (Elt F)) hc w1) ((broadcastInDim S512x192 ![0, 1] bcast_S1x192_S512x192_0_1 : (⟨S1x192, .f32⟩ : BufTy).Contents (Elt F) → (⟨S512x192, .f32⟩ : BufTy).Contents (Elt F)) ((broadcastInDim S1x192 ![1] bcast_S192_S1x192_1 : (⟨S192, .f32⟩ : BufTy).Contents (Elt F) → (⟨S1x192, .f32⟩ : BufTy).Contents (Elt F)) b1))) (((broadcastInDim S512x192 ![] bcast_S_S512x192) : (⟨S_, .f32⟩ : BufTy).Contents (Elt F) → (⟨S512x192, .f32⟩ : BufTy).Contents (Elt F)) ((constant S_ .f32 0x00000000#32) : (⟨S_, .f32⟩ : BufTy).Contents (Elt F)))) w2) ((broadcastInDim S512x10 ![0, 1] bcast_S1x10_S512x10_0_1 : (⟨S1x10, .f32⟩ : BufTy).Contents (Elt F) → (⟨S512x10, .f32⟩ : BufTy).Contents (Elt F)) ((broadcastInDim S1x10 ![1] bcast_S10_S1x10_1 : (⟨S10, .f32⟩ : BufTy).Contents (Elt F) → (⟨S1x10, .f32⟩ : BufTy).Contents (Elt F)) b2))) ((constant S_ .f32 0xFF800000#32) : (⟨S_, .f32⟩ : BufTy).Contents (Elt F))))))) (((broadcastInDim S512x10 ![0, 1] bcast_S512x1_S512x10_0_1) : (⟨S512x1, .f32⟩ : BufTy).Contents (Elt F) → (⟨S512x10, .f32⟩ : BufTy).Contents (Elt F)) ((Host.log : (⟨S512x1, .f32⟩ : BufTy).Contents (Elt F) → (⟨S512x1, .f32⟩ : BufTy).Contents (Elt F)) (((broadcastInDim S512x1 ![0] bcast_S512_S512x1_0) : (⟨S512, .f32⟩ : BufTy).Contents (Elt F) → (⟨S512x1, .f32⟩ : BufTy).Contents (Elt F)) (((fun x v => Host.reduceAdd x v reducesTo_S512x10_S512_d1 h_S_) : (⟨S512x10, .f32⟩ : BufTy).Contents (Elt F) → (⟨S_, .f32⟩ : BufTy).Contents (Elt F) → (⟨S512, .f32⟩ : BufTy).Contents (Elt F)) ((Host.exp : (⟨S512x10, .f32⟩ : BufTy).Contents (Elt F) → (⟨S512x10, .f32⟩ : BufTy).Contents (Elt F)) ((subf : (⟨S512x10, .f32⟩ : BufTy).Contents (Elt F) → (⟨S512x10, .f32⟩ : BufTy).Contents (Elt F) → (⟨S512x10, .f32⟩ : BufTy).Contents (Elt F)) ((addf : (⟨S512x10, .f32⟩ : BufTy).Contents (Elt F) → (⟨S512x10, .f32⟩ : BufTy).Contents (Elt F) → (⟨S512x10, .f32⟩ : BufTy).Contents (Elt F)) (((fun l r => Host.dotGeneral dot_S512x192_S192x10_S512x10_1_0_0_1_n_n none l r) : (⟨S512x192, .f32⟩ : BufTy).Contents (Elt F) → (⟨S192x10, .f32⟩ : BufTy).Contents (Elt F) → (⟨S512x10, .f32⟩ : BufTy).Contents (Elt F)) ((maximumf : (⟨S512x192, .f32⟩ : BufTy).Contents (Elt F) → (⟨S512x192, .f32⟩ : BufTy).Contents (Elt F) → (⟨S512x192, .f32⟩ : BufTy).Contents (Elt F)) ((addf : (⟨S512x192, .f32⟩ : BufTy).Contents (Elt F) → (⟨S512x192, .f32⟩ : BufTy).Contents (Elt F) → (⟨S512x192, .f32⟩ : BufTy).Contents (Elt F)) (((fun l r => Host.dotGeneral dot_S512x192_S192x192_S512x192_1_0_0_1_n_n none l r) : (⟨S512x192, .f32⟩ : BufTy).Contents (Elt F) → (⟨S192x192, .f32⟩ : BufTy).Contents (Elt F) → (⟨S512x192, .f32⟩ : BufTy).Contents (Elt F)) hc w1) ((broadcastInDim S512x192 ![0, 1] bcast_S1x192_S512x192_0_1 : (⟨S1x192, .f32⟩ : BufTy).Contents (Elt F) → (⟨S512x192, .f32⟩ : BufTy).Contents (Elt F)) ((broadcastInDim S1x192 ![1] bcast_S192_S1x192_1 : (⟨S192, .f32⟩ : BufTy).Contents (Elt F) → (⟨S1x192, .f32⟩ : BufTy).Contents (Elt F)) b1))) (((broadcastInDim S512x192 ![] bcast_S_S512x192) : (⟨S_, .f32⟩ : BufTy).Contents (Elt F) → (⟨S512x192, .f32⟩ : BufTy).Contents (Elt F)) ((constant S_ .f32 0x00000000#32) : (⟨S_, .f32⟩ : BufTy).Contents (Elt F)))) w2) ((broadcastInDim S512x10 ![0, 1] bcast_S1x10_S512x10_0_1 : (⟨S1x10, .f32⟩ : BufTy).Contents (Elt F) → (⟨S512x10, .f32⟩ : BufTy).Contents (Elt F)) ((broadcastInDim S1x10 ![1] bcast_S10_S1x10_1 : (⟨S10, .f32⟩ : BufTy).Contents (Elt F) → (⟨S1x10, .f32⟩ : BufTy).Contents (Elt F)) b2))) (((broadcastInDim S512x10 ![0, 1] bcast_S512x1_S512x10_0_1) : (⟨S512x1, .f32⟩ : BufTy).Contents (Elt F) → (⟨S512x10, .f32⟩ : BufTy).Contents (Elt F)) (((broadcastInDim S512x1 ![0] bcast_S512_S512x1_0) : (⟨S512, .f32⟩ : BufTy).Contents (Elt F) → (⟨S512x1, .f32⟩ : BufTy).Contents (Elt F)) ((maximumf : (⟨S512, .f32⟩ : BufTy).Contents (Elt F) → (⟨S512, .f32⟩ : BufTy).Contents (Elt F) → (⟨S512, .f32⟩ : BufTy).Contents (Elt F)) (((broadcastInDim S512 ![] bcast_S_S512) : (⟨S_, .f32⟩ : BufTy).Contents (Elt F) → (⟨S512, .f32⟩ : BufTy).Contents (Elt F)) ((constant S_ .f32 0xFF800000#32) : (⟨S_, .f32⟩ : BufTy).Contents (Elt F))) (((fun x v => Host.reduce FloatOps.maximumf x v reducesTo_S512x10_S512_d1 h_S_) : (⟨S512x10, .f32⟩ : BufTy).Contents (Elt F) → (⟨S_, .f32⟩ : BufTy).Contents (Elt F) → (⟨S512, .f32⟩ : BufTy).Contents (Elt F)) ((addf : (⟨S512x10, .f32⟩ : BufTy).Contents (Elt F) → (⟨S512x10, .f32⟩ : BufTy).Contents (Elt F) → (⟨S512x10, .f32⟩ : BufTy).Contents (Elt F)) (((fun l r => Host.dotGeneral dot_S512x192_S192x10_S512x10_1_0_0_1_n_n none l r) : (⟨S512x192, .f32⟩ : BufTy).Contents (Elt F) → (⟨S192x10, .f32⟩ : BufTy).Contents (Elt F) → (⟨S512x10, .f32⟩ : BufTy).Contents (Elt F)) ((maximumf : (⟨S512x192, .f32⟩ : BufTy).Contents (Elt F) → (⟨S512x192, .f32⟩ : BufTy).Contents (Elt F) → (⟨S512x192, .f32⟩ : BufTy).Contents (Elt F)) ((addf : (⟨S512x192, .f32⟩ : BufTy).Contents (Elt F) → (⟨S512x192, .f32⟩ : BufTy).Contents (Elt F) → (⟨S512x192, .f32⟩ : BufTy).Contents (Elt F)) (((fun l r => Host.dotGeneral dot_S512x192_S192x192_S512x192_1_0_0_1_n_n none l r) : (⟨S512x192, .f32⟩ : BufTy).Contents (Elt F) → (⟨S192x192, .f32⟩ : BufTy).Contents (Elt F) → (⟨S512x192, .f32⟩ : BufTy).Contents (Elt F)) hc w1) ((broadcastInDim S512x192 ![0, 1] bcast_S1x192_S512x192_0_1 : (⟨S1x192, .f32⟩ : BufTy).Contents (Elt F) → (⟨S512x192, .f32⟩ : BufTy).Contents (Elt F)) ((broadcastInDim S1x192 ![1] bcast_S192_S1x192_1 : (⟨S192, .f32⟩ : BufTy).Contents (Elt F) → (⟨S1x192, .f32⟩ : BufTy).Contents (Elt F)) b1))) (((broadcastInDim S512x192 ![] bcast_S_S512x192) : (⟨S_, .f32⟩ : BufTy).Contents (Elt F) → (⟨S512x192, .f32⟩ : BufTy).Contents (Elt F)) ((constant S_ .f32 0x00000000#32) : (⟨S_, .f32⟩ : BufTy).Contents (Elt F)))) w2) ((broadcastInDim S512x10 ![0, 1] bcast_S1x10_S512x10_0_1 : (⟨S1x10, .f32⟩ : BufTy).Contents (Elt F) → (⟨S512x10, .f32⟩ : BufTy).Contents (Elt F)) ((broadcastInDim S1x10 ![1] bcast_S10_S1x10_1 : (⟨S10, .f32⟩ : BufTy).Contents (Elt F) → (⟨S1x10, .f32⟩ : BufTy).Contents (Elt F)) b2))) ((constant S_ .f32 0xFF800000#32) : (⟨S_, .f32⟩ : BufTy).Contents (Elt F)))))))) ((constant S_ .f32 0x00000000#32) : (⟨S_, .f32⟩ : BufTy).Contents (Elt F)))))))

theorem poolR_eq (h1 : (⟨S50000x64, .f32⟩ : BufTy).Contents (Elt F)) (h2 : (⟨S50000x64, .f32⟩ : BufTy).Contents (Elt F)) (h3 : (⟨S50000x64, .f32⟩ : BufTy).Contents (Elt F)) (batch : (⟨S50000, .i32⟩ : BufTy).Contents (Elt F)) :
    poolR h1 h2 h3 batch =
      (concatenate S512x192 1 [⟨S512x64, poolOne h1 (cntR batch) batch⟩, ⟨S512x64, poolOne h2 (cntR batch) batch⟩, ⟨S512x64, poolOne h3 (cntR batch) batch⟩] concatenates_S512x64_S512x64_S512x64_S512x192_d1) := rfl

end Cert.ReferenceIdeal.HV

end
-- ==== Proof.RefVal1.lean ====
import proofs.«405318_j78374563217910_3_alg».proof.Proof.RefOps0
import proofs.«405318_j78374563217910_3_alg».proof.Proof.RefOps1
import proofs.«405318_j78374563217910_3_alg».proof.Proof.RefNetB

noncomputable section

namespace Cert.ReferenceIdeal.HV

open Cert.ReferenceIdeal Cert.ReferenceIdeal.HRun Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
theorem ck_src (W : Valuation τ sig (Elt F)) :
    after ck0 W (Proc.devRef .tc main_v1) =
      (((shapeCast S800000 · shapeCasts_S1x800000_S800000) : (⟨S1x800000, .i32⟩ : BufTy).Contents (Elt F) → (⟨S800000, .i32⟩ : BufTy).Contents (Elt F)) (((extractStridedSlice S1x800000 ![0, 0] · slices_S2x800000_S1x800000_0_0) : (⟨S2x800000, .i32⟩ : BufTy).Contents (Elt F) → (⟨S1x800000, .i32⟩ : BufTy).Contents (Elt F)) (W (Proc.devRef .tc main_arg14)))) := by
  simp only [ck0]
  after_results_simp
  rfl

set_option maxRecDepth 8192 in
set_option maxHeartbeats 2000000 in
theorem ck_dst (W : Valuation τ sig (Elt F)) :
    after ck0 W (Proc.devRef .tc main_v3) =
      (((shapeCast S800000 · shapeCasts_S1x800000_S800000) : (⟨S1x800000, .i32⟩ : BufTy).Contents (Elt F) → (⟨S800000, .i32⟩ : BufTy).Contents (Elt F)) (((extractStridedSlice S1x800000 ![1, 0] · slices_S2x800000_S1x800000_1_0) : (⟨S2x800000, .i32⟩ : BufTy).Contents (Elt F) → (⟨S1x800000, .i32⟩ : BufTy).Contents (Elt F)) (W (Proc.devRef .tc main_arg14)))) := by
  simp only [ck0]
  after_results_simp
  rfl

set_option maxRecDepth 8192 in
set_option maxHeartbeats 2000000 in
theorem ck_We_0 (W : Valuation τ sig (Elt F)) :
    after ck1 W (Proc.devRef .tc main_v12) =
      (((shapeCast S16x64 · shapeCasts_S1x16x64_S16x64) : (⟨S1x16x64, .f32⟩ : BufTy).Contents (Elt F) → (⟨S16x64, .f32⟩ : BufTy).Contents (Elt F)) (((extractStridedSlice S1x16x64 ![0, 0, 0] · slices_S3x16x64_S1x16x64_0_0_0) : (⟨S3x16x64, .f32⟩ : BufTy).Contents (Elt F) → (⟨S1x16x64, .f32⟩ : BufTy).Contents (Elt F)) (W (Proc.devRef .tc main_arg2)))) := by
  simp only [ck1]
  after_results_simp
  rfl

set_option maxRecDepth 8192 in
set_option maxHeartbeats 2000000 in
theorem ck_be_0 (W : Valuation τ sig (Elt F)) :
    after ck1 W (Proc.devRef .tc main_v16) =
      (((shapeCast S64 · shapeCasts_S1x64_S64) : (⟨S1x64, .f32⟩ : BufTy).Contents (Elt F) → (⟨S64, .f32⟩ : BufTy).Contents (Elt F)) (((extractStridedSlice S1x64 ![0, 0] · slices_S3x64_S1x64_0_0) : (⟨S3x64, .f32⟩ : BufTy).Contents (Elt F) → (⟨S1x64, .f32⟩ : BufTy).Contents (Elt F)) (W (Proc.devRef .tc main_arg3)))) := by
  simp only [ck1]
  after_results_simp
  rfl

set_option maxRecDepth 8192 in
set_option maxHeartbeats 2000000 in
theorem ck_W1_0 (W : Valuation τ sig (Elt F)) :
    after ck3 W (Proc.devRef .tc main_v26) =
      (((shapeCast S64x64 · shapeCasts_S1x64x64_S64x64) : (⟨S1x64x64, .f32⟩ : BufTy).Contents (Elt F) → (⟨S64x64, .f32⟩ : BufTy).Contents (Elt F)) (((extractStridedSlice S1x64x64 ![0, 0, 0] · slices_S3x64x64_S1x64x64_0_0_0) : (⟨S3x64x64, .f32⟩ : BufTy).Contents (Elt F) → (⟨S1x64x64, .f32⟩ : BufTy).Contents (Elt F)) (W (Proc.devRef .tc main_arg4)))) := by
  simp only [ck3]
  after_results_simp
  rfl

set_option maxRecDepth 8192 in
set_option maxHeartbeats 2000000 in
theorem ck_b1_0 (W : Valuation τ sig (Elt F)) :
    after ck3 W (Proc.devRef .tc main_v29) =
      (((shapeCast S64 · shapeCasts_S1x64_S64) : (⟨S1x64, .f32⟩ : BufTy).Contents (Elt F) → (⟨S64, .f32⟩ : BufTy).Contents (Elt F)) (((extractStridedSlice S1x64 ![0, 0] · slices_S3x64_S1x64_0_0) : (⟨S3x64, .f32⟩ : BufTy).Contents (Elt F) → (⟨S1x64, .f32⟩ : BufTy).Contents (Elt F)) (W (Proc.devRef .tc main_arg5)))) := by
  simp only [ck3]
  after_results_simp
  rfl

set_option maxRecDepth 8192 in
set_option maxHeartbeats 2000000 in
theorem ck_g_0 (W : Valuation τ sig (Elt F)) :
    after ck6 W (Proc.devRef .tc main_v47) =
      (((shapeCast S64 · shapeCasts_S1x64_S64) : (⟨S1x64, .f32⟩ : BufTy).Contents (Elt F) → (⟨S64, .f32⟩ : BufTy).Contents (Elt F)) (((extractStridedSlice S1x64 ![0, 0] · slices_S3x64_S1x64_0_0) : (⟨S3x64, .f32⟩ : BufTy).Contents (Elt F) → (⟨S1x64, .f32⟩ : BufTy).Contents (Elt F)) (W (Proc.devRef .tc main_arg6)))) := by
  simp only [ck6]
  after_results_simp
  rfl

set_option maxRecDepth 8192 in
set_option maxHeartbeats 2000000 in
theorem ck_bb_0 (W : Valuation τ sig (Elt F)) :
    after ck6 W (Proc.devRef .tc main_v52) =
      (((shapeCast S64 · shapeCasts_S1x64_S64) : (⟨S1x64, .f32⟩ : BufTy).Contents (Elt F) → (⟨S64, .f32⟩ : BufTy).Contents (Elt F)) (((extractStridedSlice S1x64 ![0, 0] · slices_S3x64_S1x64_0_0) : (⟨S3x64, .f32⟩ : BufTy).Contents (Elt F) → (⟨S1x64, .f32⟩ : BufTy).Contents (Elt F)) (W (Proc.devRef .tc main_arg7)))) := by
  simp only [ck6]
  after_results_simp
  rfl

set_option maxRecDepth 8192 in
set_option maxHeartbeats 2000000 in
theorem ck_W2_0 (W : Valuation τ sig (Elt F)) :
    after ck7 W (Proc.devRef .tc main_v58) =
      (((shapeCast S64x64 · shapeCasts_S1x64x64_S64x64) : (⟨S1x64x64, .f32⟩ : BufTy).Contents (Elt F) → (⟨S64x64, .f32⟩ : BufTy).Contents (Elt F)) (((extractStridedSlice S1x64x64 ![0, 0, 0] · slices_S3x64x64_S1x64x64_0_0_0) : (⟨S3x64x64, .f32⟩ : BufTy).Contents (Elt F) → (⟨S1x64x64, .f32⟩ : BufTy).Contents (Elt F)) (W (Proc.devRef .tc main_arg8)))) := by
  simp only [ck7]
  after_results_simp
  rfl

set_option maxRecDepth 8192 in
set_option maxHeartbeats 2000000 in
theorem ck_b2_0 (W : Valuation τ sig (Elt F)) :
    after ck7 W (Proc.devRef .tc main_v61) =
      (((shapeCast S64 · shapeCasts_S1x64_S64) : (⟨S1x64, .f32⟩ : BufTy).Contents (Elt F) → (⟨S64, .f32⟩ : BufTy).Contents (Elt F)) (((extractStridedSlice S1x64 ![0, 0] · slices_S3x64_S1x64_0_0) : (⟨S3x64, .f32⟩ : BufTy).Contents (Elt F) → (⟨S1x64, .f32⟩ : BufTy).Contents (Elt F)) (W (Proc.devRef .tc main_arg9)))) := by
  simp only [ck7]
  after_results_simp
  rfl

set_option maxRecDepth 8192 in
set_option maxHeartbeats 2000000 in
theorem ck_msg_0 (W : Valuation τ sig (Elt F)) :
    after ck1 W (Proc.devRef .tc main_v20) =
      msgR (W (Proc.devRef .tc main_arg0)) (W (Proc.devRef .tc main_v1)) (W (Proc.devRef .tc main_arg1)) (after ck1 W (Proc.devRef .tc main_v12)) (after ck1 W (Proc.devRef .tc main_v16)) := by
  simp only [ck1]
  after_results_simp
  rfl

set_option maxRecDepth 8192 in
set_option maxHeartbeats 2000000 in
theorem ck_agg_0 (W : Valuation τ sig (Elt F)) :
    after ck2 W (Proc.devRef .tc main_v23) =
      aggR (W (Proc.devRef .tc main_v3)) (W (Proc.devRef .tc main_v20)) := by
  simp only [ck2]
  after_results_simp
  rfl

set_option maxRecDepth 8192 in
set_option maxHeartbeats 2000000 in
theorem ck_z_0 (W : Valuation τ sig (Elt F)) :
    after ck3 W (Proc.devRef .tc main_v32) =
      zR (W (Proc.devRef .tc main_arg0)) (W (Proc.devRef .tc main_v23)) (after ck3 W (Proc.devRef .tc main_v26)) (after ck3 W (Proc.devRef .tc main_v29)) := by
  simp only [ck3]
  after_results_simp
  rfl

set_option maxRecDepth 8192 in
set_option maxHeartbeats 2000000 in
theorem ck_mu_0 (W : Valuation τ sig (Elt F)) :
    after ck4 W (Proc.devRef .tc main_v35) =
      muR (W (Proc.devRef .tc main_v32)) := by
  simp only [ck4]
  after_results_simp
  rfl

set_option maxRecDepth 8192 in
set_option maxHeartbeats 2000000 in
theorem ck_var_0 (W : Valuation τ sig (Elt F)) :
    after ck5 W (Proc.devRef .tc main_v36) =
      varR (W (Proc.devRef .tc main_v32)) := by
  simp only [ck5]
  after_results_simp
  rfl

set_option maxRecDepth 8192 in
set_option maxHeartbeats 2000000 in
theorem ck_out_0 (W : Valuation τ sig (Elt F)) :
    after ck7 (after ck6 (W)) (Proc.devRef .tc main_v65) =
      outR (W (Proc.devRef .tc main_v32)) (W (Proc.devRef .tc main_v35)) (W (Proc.devRef .tc main_v36)) (after ck7 (after ck6 (W)) (Proc.devRef .tc main_v47)) (after ck7 (after ck6 (W)) (Proc.devRef .tc main_v52)) (after ck7 (after ck6 (W)) (Proc.devRef .tc main_v58)) (after ck7 (after ck6 (W)) (Proc.devRef .tc main_v61)) := by
  simp only [ck6, ck7]
  after_results_simp
  rfl

end Cert.ReferenceIdeal.HV

end
-- ==== Proof.RefVal2.lean ====
import proofs.«405318_j78374563217910_3_alg».proof.Proof.RefOps1
import proofs.«405318_j78374563217910_3_alg».proof.Proof.RefOps2
import proofs.«405318_j78374563217910_3_alg».proof.Proof.RefNetB

noncomputable section

namespace Cert.ReferenceIdeal.HV

open Cert.ReferenceIdeal Cert.ReferenceIdeal.HRun Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
theorem ck_We_1 (W : Valuation τ sig (Elt F)) :
    after ck8 W (Proc.devRef .tc main_v74) =
      (((shapeCast S16x64 · shapeCasts_S1x16x64_S16x64) : (⟨S1x16x64, .f32⟩ : BufTy).Contents (Elt F) → (⟨S16x64, .f32⟩ : BufTy).Contents (Elt F)) (((extractStridedSlice S1x16x64 ![1, 0, 0] · slices_S3x16x64_S1x16x64_1_0_0) : (⟨S3x16x64, .f32⟩ : BufTy).Contents (Elt F) → (⟨S1x16x64, .f32⟩ : BufTy).Contents (Elt F)) (W (Proc.devRef .tc main_arg2)))) := by
  simp only [ck8]
  after_results_simp
  rfl

set_option maxRecDepth 8192 in
set_option maxHeartbeats 2000000 in
theorem ck_be_1 (W : Valuation τ sig (Elt F)) :
    after ck8 W (Proc.devRef .tc main_v78) =
      (((shapeCast S64 · shapeCasts_S1x64_S64) : (⟨S1x64, .f32⟩ : BufTy).Contents (Elt F) → (⟨S64, .f32⟩ : BufTy).Contents (Elt F)) (((extractStridedSlice S1x64 ![1, 0] · slices_S3x64_S1x64_1_0) : (⟨S3x64, .f32⟩ : BufTy).Contents (Elt F) → (⟨S1x64, .f32⟩ : BufTy).Contents (Elt F)) (W (Proc.devRef .tc main_arg3)))) := by
  simp only [ck8]
  after_results_simp
  rfl

set_option maxRecDepth 8192 in
set_option maxHeartbeats 2000000 in
theorem ck_W1_1 (W : Valuation τ sig (Elt F)) :
    after ck10 W (Proc.devRef .tc main_v88) =
      (((shapeCast S64x64 · shapeCasts_S1x64x64_S64x64) : (⟨S1x64x64, .f32⟩ : BufTy).Contents (Elt F) → (⟨S64x64, .f32⟩ : BufTy).Contents (Elt F)) (((extractStridedSlice S1x64x64 ![1, 0, 0] · slices_S3x64x64_S1x64x64_1_0_0) : (⟨S3x64x64, .f32⟩ : BufTy).Contents (Elt F) → (⟨S1x64x64, .f32⟩ : BufTy).Contents (Elt F)) (W (Proc.devRef .tc main_arg4)))) := by
  simp only [ck10]
  after_results_simp
  rfl

set_option maxRecDepth 8192 in
set_option maxHeartbeats 2000000 in
theorem ck_b1_1 (W : Valuation τ sig (Elt F)) :
    after ck10 W (Proc.devRef .tc main_v91) =
      (((shapeCast S64 · shapeCasts_S1x64_S64) : (⟨S1x64, .f32⟩ : BufTy).Contents (Elt F) → (⟨S64, .f32⟩ : BufTy).Contents (Elt F)) (((extractStridedSlice S1x64 ![1, 0] · slices_S3x64_S1x64_1_0) : (⟨S3x64, .f32⟩ : BufTy).Contents (Elt F) → (⟨S1x64, .f32⟩ : BufTy).Contents (Elt F)) (W (Proc.devRef .tc main_arg5)))) := by
  simp only [ck10]
  after_results_simp
  rfl

set_option maxRecDepth 8192 in
set_option maxHeartbeats 2000000 in
theorem ck_g_1 (W : Valuation τ sig (Elt F)) :
    after ck14 W (Proc.devRef .tc main_v109) =
      (((shapeCast S64 · shapeCasts_S1x64_S64) : (⟨S1x64, .f32⟩ : BufTy).Contents (Elt F) → (⟨S64, .f32⟩ : BufTy).Contents (Elt F)) (((extractStridedSlice S1x64 ![1, 0] · slices_S3x64_S1x64_1_0) : (⟨S3x64, .f32⟩ : BufTy).Contents (Elt F) → (⟨S1x64, .f32⟩ : BufTy).Contents (Elt F)) (W (Proc.devRef .tc main_arg6)))) := by
  simp only [ck14]
  after_results_simp
  rfl

set_option maxRecDepth 8192 in
set_option maxHeartbeats 2000000 in
theorem ck_bb_1 (W : Valuation τ sig (Elt F)) :
    after ck14 W (Proc.devRef .tc main_v114) =
      (((shapeCast S64 · shapeCasts_S1x64_S64) : (⟨S1x64, .f32⟩ : BufTy).Contents (Elt F) → (⟨S64, .f32⟩ : BufTy).Contents (Elt F)) (((extractStridedSlice S1x64 ![1, 0] · slices_S3x64_S1x64_1_0) : (⟨S3x64, .f32⟩ : BufTy).Contents (Elt F) → (⟨S1x64, .f32⟩ : BufTy).Contents (Elt F)) (W (Proc.devRef .tc main_arg7)))) := by
  simp only [ck14]
  after_results_simp
  rfl

set_option maxRecDepth 8192 in
set_option maxHeartbeats 2000000 in
theorem ck_W2_1 (W : Valuation τ sig (Elt F)) :
    after ck14 W (Proc.devRef .tc main_v120) =
      (((shapeCast S64x64 · shapeCasts_S1x64x64_S64x64) : (⟨S1x64x64, .f32⟩ : BufTy).Contents (Elt F) → (⟨S64x64, .f32⟩ : BufTy).Contents (Elt F)) (((extractStridedSlice S1x64x64 ![1, 0, 0] · slices_S3x64x64_S1x64x64_1_0_0) : (⟨S3x64x64, .f32⟩ : BufTy).Contents (Elt F) → (⟨S1x64x64, .f32⟩ : BufTy).Contents (Elt F)) (W (Proc.devRef .tc main_arg8)))) := by
  simp only [ck14]
  after_results_simp
  rfl

set_option maxRecDepth 8192 in
set_option maxHeartbeats 2000000 in
theorem ck_b2_1 (W : Valuation τ sig (Elt F)) :
    after ck14 W (Proc.devRef .tc main_v123) =
      (((shapeCast S64 · shapeCasts_S1x64_S64) : (⟨S1x64, .f32⟩ : BufTy).Contents (Elt F) → (⟨S64, .f32⟩ : BufTy).Contents (Elt F)) (((extractStridedSlice S1x64 ![1, 0] · slices_S3x64_S1x64_1_0) : (⟨S3x64, .f32⟩ : BufTy).Contents (Elt F) → (⟨S1x64, .f32⟩ : BufTy).Contents (Elt F)) (W (Proc.devRef .tc main_arg9)))) := by
  simp only [ck14]
  after_results_simp
  rfl

set_option maxRecDepth 8192 in
set_option maxHeartbeats 2000000 in
theorem ck_msg_1 (W : Valuation τ sig (Elt F)) :
    after ck8 W (Proc.devRef .tc main_v82) =
      msgR (W (Proc.devRef .tc main_v65)) (W (Proc.devRef .tc main_v1)) (W (Proc.devRef .tc main_arg1)) (after ck8 W (Proc.devRef .tc main_v74)) (after ck8 W (Proc.devRef .tc main_v78)) := by
  simp only [ck8]
  after_results_simp
  rfl

set_option maxRecDepth 8192 in
set_option maxHeartbeats 2000000 in
theorem ck_agg_1 (W : Valuation τ sig (Elt F)) :
    after ck9 W (Proc.devRef .tc main_v85) =
      aggR (W (Proc.devRef .tc main_v3)) (W (Proc.devRef .tc main_v82)) := by
  simp only [ck9]
  after_results_simp
  rfl

set_option maxRecDepth 8192 in
set_option maxHeartbeats 2000000 in
theorem ck_z_1 (W : Valuation τ sig (Elt F)) :
    after ck10 W (Proc.devRef .tc main_v94) =
      zR (W (Proc.devRef .tc main_v65)) (W (Proc.devRef .tc main_v85)) (after ck10 W (Proc.devRef .tc main_v88)) (after ck10 W (Proc.devRef .tc main_v91)) := by
  simp only [ck10]
  after_results_simp
  rfl

set_option maxRecDepth 8192 in
set_option maxHeartbeats 2000000 in
theorem ck_mu_1 (W : Valuation τ sig (Elt F)) :
    after ck11 W (Proc.devRef .tc main_v97) =
      muR (W (Proc.devRef .tc main_v94)) := by
  simp only [ck11]
  after_results_simp
  rfl

set_option maxRecDepth 8192 in
set_option maxHeartbeats 2000000 in
theorem ck_var_1 (W : Valuation τ sig (Elt F)) :
    after ck12 W (Proc.devRef .tc main_v98) =
      varR (W (Proc.devRef .tc main_v94)) := by
  simp only [ck12]
  after_results_simp
  rfl

set_option maxRecDepth 8192 in
set_option maxHeartbeats 2000000 in
theorem ck_out_1 (W : Valuation τ sig (Elt F)) :
    after ck14 (after ck13 (W)) (Proc.devRef .tc main_v127) =
      outR (W (Proc.devRef .tc main_v94)) (W (Proc.devRef .tc main_v97)) (W (Proc.devRef .tc main_v98)) (after ck14 (after ck13 (W)) (Proc.devRef .tc main_v109)) (after ck14 (after ck13 (W)) (Proc.devRef .tc main_v114)) (after ck14 (after ck13 (W)) (Proc.devRef .tc main_v120)) (after ck14 (after ck13 (W)) (Proc.devRef .tc main_v123)) := by
  simp only [ck13, ck14]
  after_results_simp
  rfl

end Cert.ReferenceIdeal.HV

end
-- ==== Proof.RefVal3.lean ====
import proofs.«405318_j78374563217910_3_alg».proof.Proof.RefOps2
import proofs.«405318_j78374563217910_3_alg».proof.Proof.RefOps3
import proofs.«405318_j78374563217910_3_alg».proof.Proof.RefNetB

noncomputable section

namespace Cert.ReferenceIdeal.HV

open Cert.ReferenceIdeal Cert.ReferenceIdeal.HRun Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
theorem ck_We_2 (W : Valuation τ sig (Elt F)) :
    after ck15 W (Proc.devRef .tc main_v136) =
      (((shapeCast S16x64 · shapeCasts_S1x16x64_S16x64) : (⟨S1x16x64, .f32⟩ : BufTy).Contents (Elt F) → (⟨S16x64, .f32⟩ : BufTy).Contents (Elt F)) (((extractStridedSlice S1x16x64 ![2, 0, 0] · slices_S3x16x64_S1x16x64_2_0_0) : (⟨S3x16x64, .f32⟩ : BufTy).Contents (Elt F) → (⟨S1x16x64, .f32⟩ : BufTy).Contents (Elt F)) (W (Proc.devRef .tc main_arg2)))) := by
  simp only [ck15]
  after_results_simp
  rfl

set_option maxRecDepth 8192 in
set_option maxHeartbeats 2000000 in
theorem ck_be_2 (W : Valuation τ sig (Elt F)) :
    after ck15 W (Proc.devRef .tc main_v140) =
      (((shapeCast S64 · shapeCasts_S1x64_S64) : (⟨S1x64, .f32⟩ : BufTy).Contents (Elt F) → (⟨S64, .f32⟩ : BufTy).Contents (Elt F)) (((extractStridedSlice S1x64 ![2, 0] · slices_S3x64_S1x64_2_0) : (⟨S3x64, .f32⟩ : BufTy).Contents (Elt F) → (⟨S1x64, .f32⟩ : BufTy).Contents (Elt F)) (W (Proc.devRef .tc main_arg3)))) := by
  simp only [ck15]
  after_results_simp
  rfl

set_option maxRecDepth 8192 in
set_option maxHeartbeats 2000000 in
theorem ck_W1_2 (W : Valuation τ sig (Elt F)) :
    after ck17 W (Proc.devRef .tc main_v150) =
      (((shapeCast S64x64 · shapeCasts_S1x64x64_S64x64) : (⟨S1x64x64, .f32⟩ : BufTy).Contents (Elt F) → (⟨S64x64, .f32⟩ : BufTy).Contents (Elt F)) (((extractStridedSlice S1x64x64 ![2, 0, 0] · slices_S3x64x64_S1x64x64_2_0_0) : (⟨S3x64x64, .f32⟩ : BufTy).Contents (Elt F) → (⟨S1x64x64, .f32⟩ : BufTy).Contents (Elt F)) (W (Proc.devRef .tc main_arg4)))) := by
  simp only [ck17]
  after_results_simp
  rfl

set_option maxRecDepth 8192 in
set_option maxHeartbeats 2000000 in
theorem ck_b1_2 (W : Valuation τ sig (Elt F)) :
    after ck17 W (Proc.devRef .tc main_v153) =
      (((shapeCast S64 · shapeCasts_S1x64_S64) : (⟨S1x64, .f32⟩ : BufTy).Contents (Elt F) → (⟨S64, .f32⟩ : BufTy).Contents (Elt F)) (((extractStridedSlice S1x64 ![2, 0] · slices_S3x64_S1x64_2_0) : (⟨S3x64, .f32⟩ : BufTy).Contents (Elt F) → (⟨S1x64, .f32⟩ : BufTy).Contents (Elt F)) (W (Proc.devRef .tc main_arg5)))) := by
  simp only [ck17]
  after_results_simp
  rfl

set_option maxRecDepth 8192 in
set_option maxHeartbeats 2000000 in
theorem ck_g_2 (W : Valuation τ sig (Elt F)) :
    after ck21 W (Proc.devRef .tc main_v171) =
      (((shapeCast S64 · shapeCasts_S1x64_S64) : (⟨S1x64, .f32⟩ : BufTy).Contents (Elt F) → (⟨S64, .f32⟩ : BufTy).Contents (Elt F)) (((extractStridedSlice S1x64 ![2, 0] · slices_S3x64_S1x64_2_0) : (⟨S3x64, .f32⟩ : BufTy).Contents (Elt F) → (⟨S1x64, .f32⟩ : BufTy).Contents (Elt F)) (W (Proc.devRef .tc main_arg6)))) := by
  simp only [ck21]
  after_results_simp
  rfl

set_option maxRecDepth 8192 in
set_option maxHeartbeats 2000000 in
theorem ck_bb_2 (W : Valuation τ sig (Elt F)) :
    after ck21 W (Proc.devRef .tc main_v176) =
      (((shapeCast S64 · shapeCasts_S1x64_S64) : (⟨S1x64, .f32⟩ : BufTy).Contents (Elt F) → (⟨S64, .f32⟩ : BufTy).Contents (Elt F)) (((extractStridedSlice S1x64 ![2, 0] · slices_S3x64_S1x64_2_0) : (⟨S3x64, .f32⟩ : BufTy).Contents (Elt F) → (⟨S1x64, .f32⟩ : BufTy).Contents (Elt F)) (W (Proc.devRef .tc main_arg7)))) := by
  simp only [ck21]
  after_results_simp
  rfl

set_option maxRecDepth 8192 in
set_option maxHeartbeats 2000000 in
theorem ck_W2_2 (W : Valuation τ sig (Elt F)) :
    after ck21 W (Proc.devRef .tc main_v182) =
      (((shapeCast S64x64 · shapeCasts_S1x64x64_S64x64) : (⟨S1x64x64, .f32⟩ : BufTy).Contents (Elt F) → (⟨S64x64, .f32⟩ : BufTy).Contents (Elt F)) (((extractStridedSlice S1x64x64 ![2, 0, 0] · slices_S3x64x64_S1x64x64_2_0_0) : (⟨S3x64x64, .f32⟩ : BufTy).Contents (Elt F) → (⟨S1x64x64, .f32⟩ : BufTy).Contents (Elt F)) (W (Proc.devRef .tc main_arg8)))) := by
  simp only [ck21]
  after_results_simp
  rfl

set_option maxRecDepth 8192 in
set_option maxHeartbeats 2000000 in
theorem ck_b2_2 (W : Valuation τ sig (Elt F)) :
    after ck21 W (Proc.devRef .tc main_v185) =
      (((shapeCast S64 · shapeCasts_S1x64_S64) : (⟨S1x64, .f32⟩ : BufTy).Contents (Elt F) → (⟨S64, .f32⟩ : BufTy).Contents (Elt F)) (((extractStridedSlice S1x64 ![2, 0] · slices_S3x64_S1x64_2_0) : (⟨S3x64, .f32⟩ : BufTy).Contents (Elt F) → (⟨S1x64, .f32⟩ : BufTy).Contents (Elt F)) (W (Proc.devRef .tc main_arg9)))) := by
  simp only [ck21]
  after_results_simp
  rfl

set_option maxRecDepth 8192 in
set_option maxHeartbeats 2000000 in
theorem ck_msg_2 (W : Valuation τ sig (Elt F)) :
    after ck15 W (Proc.devRef .tc main_v144) =
      msgR (W (Proc.devRef .tc main_v127)) (W (Proc.devRef .tc main_v1)) (W (Proc.devRef .tc main_arg1)) (after ck15 W (Proc.devRef .tc main_v136)) (after ck15 W (Proc.devRef .tc main_v140)) := by
  simp only [ck15]
  after_results_simp
  rfl

set_option maxRecDepth 8192 in
set_option maxHeartbeats 2000000 in
theorem ck_agg_2 (W : Valuation τ sig (Elt F)) :
    after ck16 W (Proc.devRef .tc main_v147) =
      aggR (W (Proc.devRef .tc main_v3)) (W (Proc.devRef .tc main_v144)) := by
  simp only [ck16]
  after_results_simp
  rfl

set_option maxRecDepth 8192 in
set_option maxHeartbeats 2000000 in
theorem ck_z_2 (W : Valuation τ sig (Elt F)) :
    after ck17 W (Proc.devRef .tc main_v156) =
      zR (W (Proc.devRef .tc main_v127)) (W (Proc.devRef .tc main_v147)) (after ck17 W (Proc.devRef .tc main_v150)) (after ck17 W (Proc.devRef .tc main_v153)) := by
  simp only [ck17]
  after_results_simp
  rfl

set_option maxRecDepth 8192 in
set_option maxHeartbeats 2000000 in
theorem ck_mu_2 (W : Valuation τ sig (Elt F)) :
    after ck18 W (Proc.devRef .tc main_v159) =
      muR (W (Proc.devRef .tc main_v156)) := by
  simp only [ck18]
  after_results_simp
  rfl

set_option maxRecDepth 8192 in
set_option maxHeartbeats 2000000 in
theorem ck_var_2 (W : Valuation τ sig (Elt F)) :
    after ck20 (after ck19 (W)) (Proc.devRef .tc main_v160) =
      varR (W (Proc.devRef .tc main_v156)) := by
  simp only [ck19, ck20]
  after_results_simp
  rfl

set_option maxRecDepth 8192 in
set_option maxHeartbeats 2000000 in
theorem ck_out_2 (W : Valuation τ sig (Elt F)) :
    after ck21 W (Proc.devRef .tc main_v189) =
      outR (W (Proc.devRef .tc main_v156)) (W (Proc.devRef .tc main_v159)) (W (Proc.devRef .tc main_v160)) (after ck21 W (Proc.devRef .tc main_v171)) (after ck21 W (Proc.devRef .tc main_v176)) (after ck21 W (Proc.devRef .tc main_v182)) (after ck21 W (Proc.devRef .tc main_v185)) := by
  simp only [ck21]
  after_results_simp
  rfl

end Cert.ReferenceIdeal.HV

end
-- ==== Proof.RefVal4.lean ====
import proofs.«405318_j78374563217910_3_alg».proof.Proof.RefOps3
import proofs.«405318_j78374563217910_3_alg».proof.Proof.RefOps4
import proofs.«405318_j78374563217910_3_alg».proof.Proof.RefNetB

noncomputable section

namespace Cert.ReferenceIdeal.HV

open Cert.ReferenceIdeal Cert.ReferenceIdeal.HRun Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
theorem ck_cnt (W : Valuation τ sig (Elt F)) :
    after ck22 W (Proc.devRef .tc main_v193) =
      cntR (W (Proc.devRef .tc main_arg15)) := by
  simp only [ck22]
  after_results_simp
  rfl

set_option maxRecDepth 8192 in
set_option maxHeartbeats 2000000 in
theorem ck_pool_1 (W : Valuation τ sig (Elt F)) :
    after ck23 W (Proc.devRef .tc main_v200) =
      poolOne (W (Proc.devRef .tc main_v65)) (W (Proc.devRef .tc main_v193)) (W (Proc.devRef .tc main_arg15)) := by
  simp only [ck23]
  after_results_simp
  rfl

set_option maxRecDepth 8192 in
set_option maxHeartbeats 2000000 in
theorem ck_pool_2 (W : Valuation τ sig (Elt F)) :
    after ck23 W (Proc.devRef .tc main_v207) =
      poolOne (W (Proc.devRef .tc main_v127)) (W (Proc.devRef .tc main_v193)) (W (Proc.devRef .tc main_arg15)) := by
  simp only [ck23]
  after_results_simp
  rfl

set_option maxRecDepth 8192 in
set_option maxHeartbeats 2000000 in
theorem ck_pool_3 (W : Valuation τ sig (Elt F)) :
    after ck24 (after ck23 (W)) (Proc.devRef .tc main_v214) =
      poolOne (W (Proc.devRef .tc main_v189)) (W (Proc.devRef .tc main_v193)) (W (Proc.devRef .tc main_arg15)) := by
  simp only [ck23, ck24]
  after_results_simp
  rfl

set_option maxRecDepth 8192 in
set_option maxHeartbeats 2000000 in
theorem ck_cat (W : Valuation τ sig (Elt F)) :
    after ck25 W (Proc.devRef .tc main_v215) =
      (concatenate S512x192 1 [⟨S512x64, (W (Proc.devRef .tc main_v200))⟩, ⟨S512x64, (W (Proc.devRef .tc main_v207))⟩, ⟨S512x64, (W (Proc.devRef .tc main_v214))⟩] concatenates_S512x64_S512x64_S512x64_S512x192_d1) := by
  simp only [ck25]
  after_results_simp
  rfl

set_option maxRecDepth 8192 in
set_option maxHeartbeats 2000000 in
theorem ck_fin (W : Valuation τ sig (Elt F)) :
    after ck26 W (Proc.devRef .tc main_v225) =
      finR (W (Proc.devRef .tc main_v215)) (W (Proc.devRef .tc main_arg10)) (W (Proc.devRef .tc main_arg11)) (W (Proc.devRef .tc main_arg12)) (W (Proc.devRef .tc main_arg13)) := by
  simp only [ck26]
  after_results_simp
  rfl

end Cert.ReferenceIdeal.HV

end
-- ==== Proof.RefA.lean ====
import proofs.«405318_j78374563217910_3_alg».proof.ReferenceIdeal
import proofs.«405318_j78374563217910_3_alg».proof.Proof.SpecA
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

namespace Cert.ReferenceIdeal.HV

open Cert.ReferenceIdeal
open Idealize.ShloMosaic Idealize.ShloMosaic.ValueIdx

variable [Facts₀]
open Facts₀

def refChainA (h a : FVec Ideal S50000x64 .f32) (w : FVec Ideal S64x64 .f32) (bv : FVec Ideal S64 .f32) :
    FVec Ideal S50000x64 .f32 :=
  addf (F := Ideal) (Host.dotGeneral (F := Ideal) dot_S50000x64_S64x64_S50000x64_1_0_0_1_n_n none (addf (F := Ideal) h a) w)
    (broadcastInDim S50000x64 ![0, 1] bcast_S1x64_S50000x64_0_1 (broadcastInDim S1x64 ![1] bcast_S64_S1x64_1 bv))

theorem bias_row_apply (bv : FVec Ideal S64 .f32) (q : Fin 64) :
    broadcastInDim S1x64 ![1] bcast_S64_S1x64_1 bv (ix2 (0 : Fin 1) q) = bv (ix1 q) := by
  refine broadcastInDim_apply ![1] bcast_S64_S1x64_1 bv (ix2 (0 : Fin 1) q) (ix1 q) ?_
  intro a
  match a with
  | ⟨0, _⟩ => rfl

theorem refA_eq (h a : FVec Ideal S50000x64 .f32) (w : FVec Ideal S64x64 .f32) (bv : FVec Ideal S64 .f32) :
    refChainA h a w bv = Cert.Spec.specA h a w (fun j => bv (ix1 j)) := by
  funext i
  obtain ⟨p, q, rfl⟩ : ∃ (p : Fin 50000) (q : Fin 64), i = ix2 p q := ⟨i 0, i 1, eq_ix2 i⟩
  unfold refChainA Cert.Spec.specA
  rw [addf_apply, broadcastInDim_oneRow_apply, bias_row_apply]
  congr 1
  exact (StackMember.dotGeneral_plain_apply none _ _ p q).trans
    (Finset.sum_congr rfl fun k _ => by rw [addf_apply])

end Cert.ReferenceIdeal.HV

end
-- ==== Proof.RefB.lean ====
import proofs.«405318_j78374563217910_3_alg».proof.ReferenceIdeal
import proofs.«405318_j78374563217910_3_alg».proof.Proof.SpecB
import Idealize.ShloMosaic.Lib.Pipeline.Value
import Idealize.ShloMosaic.Lib.ValueIdx
import Idealize.ShloMosaic.Lib.KernelVsHost
import Idealize.ShloMosaic.Lib.StackMember
import Idealize.ShloMosaic.Lib.StableHlo.Predicate
import Idealize.ShloMosaic.PureOps.Ideal.Laws

noncomputable section

open scoped BigOperators

namespace Cert.ReferenceIdeal.HV

open Cert.ReferenceIdeal
open Idealize.ShloMosaic Idealize.ShloMosaic.ValueIdx

variable [Facts₀]
open Facts₀

def refChainB (z : FVec Ideal S50000x64 .f32) (muv varv gv bv : FVec Ideal S64 .f32) (w : FVec Ideal S64x64 .f32)
    (b2v : FVec Ideal S64 .f32) : FVec Ideal S50000x64 .f32 :=
  let v37 : FVec Ideal S1x64 .f32 := broadcastInDim S1x64 ![1] bcast_S64_S1x64_1 muv
  let v38 : FVec Ideal S50000x64 .f32 := broadcastInDim S50000x64 ![0, 1] bcast_S1x64_S50000x64_0_1 v37
  let v39 : FVec Ideal S50000x64 .f32 := subf z v38
  let cst_4 : FVec Ideal S_ .f32 := constant (F := Ideal) S_ .f32 0x3727C5AC#32
  let v40 : FVec Ideal S64 .f32 := broadcastInDim S64 ![] bcast_S_S64 cst_4
  let v41 : FVec Ideal S64 .f32 := addf varv v40
  let v42 : FVec Ideal S64 .f32 := Host.rsqrt v41
  let v43 : FVec Ideal S1x64 .f32 := broadcastInDim S1x64 ![1] bcast_S64_S1x64_1 v42
  let v44 : FVec Ideal S50000x64 .f32 := broadcastInDim S50000x64 ![0, 1] bcast_S1x64_S50000x64_0_1 v43
  let v45 : FVec Ideal S50000x64 .f32 := mulf v39 v44
  let v48 : FVec Ideal S1x64 .f32 := broadcastInDim S1x64 ![1] bcast_S64_S1x64_1 gv
  let v49 : FVec Ideal S50000x64 .f32 := broadcastInDim S50000x64 ![0, 1] bcast_S1x64_S50000x64_0_1 v48
  let v50 : FVec Ideal S50000x64 .f32 := mulf v45 v49
  let v53 : FVec Ideal S1x64 .f32 := broadcastInDim S1x64 ![1] bcast_S64_S1x64_1 bv
  let v54 : FVec Ideal S50000x64 .f32 := broadcastInDim S50000x64 ![0, 1] bcast_S1x64_S50000x64_0_1 v53
  let v55 : FVec Ideal S50000x64 .f32 := addf v50 v54
  let rcst : FVec Ideal S_ .f32 := constant (F := Ideal) S_ .f32 0x00000000#32
  let r0 : FVec Ideal S50000x64 .f32 := broadcastInDim S50000x64 ![] bcast_S_S50000x64 rcst
  let v56 : FVec Ideal S50000x64 .f32 := maximumf v55 r0
  let v59 : FVec Ideal S50000x64 .f32 := Host.dotGeneral dot_S50000x64_S64x64_S50000x64_1_0_0_1_n_n none v56 w
  let v62 : FVec Ideal S1x64 .f32 := broadcastInDim S1x64 ![1] bcast_S64_S1x64_1 b2v
  let v63 : FVec Ideal S50000x64 .f32 := broadcastInDim S50000x64 ![0, 1] bcast_S1x64_S50000x64_0_1 v62
  let v64 : FVec Ideal S50000x64 .f32 := addf v59 v63
  let rcst' : FVec Ideal S_ .f32 := constant (F := Ideal) S_ .f32 0x00000000#32
  let r0' : FVec Ideal S50000x64 .f32 := broadcastInDim S50000x64 ![] bcast_S_S50000x64 rcst'
  maximumf v64 r0'

private theorem rowOf_apply (v : FVec Ideal S64 .f32) (q : Fin 64) :
    broadcastInDim S1x64 ![1] bcast_S64_S1x64_1 v (ix2 (0 : Fin 1) q) = v (ix1 q) := by
  refine broadcastInDim_apply ![1] bcast_S64_S1x64_1 v (ix2 (0 : Fin 1) q) (ix1 q) ?_
  intro a
  match a with
  | ⟨0, _⟩ => rfl

private theorem rows_apply (v : FVec Ideal S64 .f32) (p : Fin 50000) (q : Fin 64) :
    broadcastInDim S50000x64 ![0, 1] bcast_S1x64_S50000x64_0_1 (broadcastInDim S1x64 ![1] bcast_S64_S1x64_1 v) (ix2 p q) = v (ix1 q) := by
  rw [broadcastInDim_oneRow_apply, rowOf_apply]

private theorem splat64_apply (b : BitVec 32) (j : S64.Idx) :
    broadcastInDim S64 ![] bcast_S_S64 (constant (F := Ideal) S_ .f32 b) j = Ideal.ofBits .f32 b := by
  unfold broadcastInDim; rfl

private theorem splatAll_apply (b : BitVec 32) (j : S50000x64.Idx) :
    broadcastInDim S50000x64 ![] bcast_S_S50000x64 (constant (F := Ideal) S_ .f32 b) j = Ideal.ofBits .f32 b := by
  unfold broadcastInDim; rfl

private theorem hostRsqrt_apply {s : Shape} {φ : FTy} (v : FVec Ideal s φ) (i : s.Idx) : Host.rsqrt v i = Ideal.rsqrt (v i) := rfl

private theorem dotB_apply (A : FVec Ideal S50000x64 .f32) (B : FVec Ideal S64x64 .f32) (p : Fin 50000) (q : Fin 64) :
    Host.dotGeneral (F := Ideal) dot_S50000x64_S64x64_S50000x64_1_0_0_1_n_n none A B (ix2 p q) = ∑ k : Fin 64, A (ix2 p k) * B (ix2 k q) :=
  StackMember.dotGeneral_plain_apply none A B p q

theorem refB_eq (z : FVec Ideal S50000x64 .f32) (muv varv gv bv : FVec Ideal S64 .f32) (w : FVec Ideal S64x64 .f32)
    (b2v : FVec Ideal S64 .f32) :
    refChainB z muv varv gv bv w b2v
      = Cert.Spec.specB z (fun j => muv (ix1 j)) (fun j => varv (ix1 j)) (fun j => gv (ix1 j)) (fun j => bv (ix1 j)) w (fun j => b2v (ix1 j)) := by
  funext i
  obtain ⟨p, q, rfl⟩ : ∃ (p : Fin 50000) (q : Fin 64), i = ix2 p q := ⟨i 0, i 1, eq_ix2 i⟩
  unfold refChainB Cert.Spec.specB
  dsimp only
  rw [maximumf_apply, addf_apply, dotB_apply, rows_apply, splatAll_apply, Ideal.ofBits_zero_f32]
  refine congrArg (fun s => max (s + b2v (ix1 q)) 0) (Finset.sum_congr rfl fun k _ => ?_)
  rw [maximumf_apply, addf_apply, mulf_apply, mulf_apply, subf_apply, rows_apply, rows_apply, rows_apply, rows_apply,
    splatAll_apply, hostRsqrt_apply, addf_apply, splat64_apply, Ideal.ofBits_zero_f32]

end Cert.ReferenceIdeal.HV

end
-- ==== Proof.RefC.lean ====
import proofs.«405318_j78374563217910_3_alg».proof.ReferenceIdeal
import proofs.«405318_j78374563217910_3_alg».proof.Proof.SpecC
import Idealize.ShloMosaic.Lib.Pipeline.Value
import Idealize.ShloMosaic.Lib.ValueLayout
import Idealize.ShloMosaic.Lib.StackMember
import Idealize.ShloMosaic.Lib.IdealHost
import Idealize.ShloMosaic.PureOps.Ideal.Laws
import Mathlib.Data.Finset.Fold

noncomputable section

open scoped BigOperators

namespace Cert.ReferenceIdeal.HV

open Cert.ReferenceIdeal Cert.Spec
open Idealize.ShloMosaic Idealize.ShloMosaic.ValueIdx Idealize.ShloMosaic.StackMember

variable [Facts]
open Facts₀ Facts

def refChainC (hc : FVec Ideal S512x192 .f32) (w1 : FVec Ideal S192x192 .f32) (b1v : FVec Ideal S192 .f32)
    (w2 : FVec Ideal S192x10 .f32) (b2v : FVec Ideal S10 .f32) : FVec Ideal S512x10 .f32 :=
  let v216 : FVec Ideal S512x192 .f32 := Host.dotGeneral dot_S512x192_S192x192_S512x192_1_0_0_1_n_n none hc w1
  let v217 : FVec Ideal S1x192 .f32 := broadcastInDim S1x192 ![1] bcast_S192_S1x192_1 b1v
  let v218 : FVec Ideal S512x192 .f32 := broadcastInDim S512x192 ![0, 1] bcast_S1x192_S512x192_0_1 v217
  let v219 : FVec Ideal S512x192 .f32 := addf v216 v218
  let rcst : FVec Ideal S_ .f32 := constant (F := Ideal) S_ .f32 0x00000000#32
  let r0 : FVec Ideal S512x192 .f32 := broadcastInDim S512x192 ![] bcast_S_S512x192 rcst
  let v220 : FVec Ideal S512x192 .f32 := maximumf v219 r0
  let v221 : FVec Ideal S512x10 .f32 := Host.dotGeneral dot_S512x192_S192x10_S512x10_1_0_0_1_n_n none v220 w2
  let v222 : FVec Ideal S1x10 .f32 := broadcastInDim S1x10 ![1] bcast_S10_S1x10_1 b2v
  let v223 : FVec Ideal S512x10 .f32 := broadcastInDim S512x10 ![0, 1] bcast_S1x10_S512x10_0_1 v222
  let v224 : FVec Ideal S512x10 .f32 := addf v221 v223
  let cst : FVec Ideal S_ .f32 := constant (F := Ideal) S_ .f32 0xFF800000#32
  let l0 : FVec Ideal S512 .f32 := Host.reduce FloatOps.maximumf v224 cst reducesTo_S512x10_S512_d1 h_S_
  let cst_0 : FVec Ideal S_ .f32 := constant (F := Ideal) S_ .f32 0xFF800000#32
  let l1 : FVec Ideal S512 .f32 := broadcastInDim S512 ![] bcast_S_S512 cst_0
  let l2 : FVec Ideal S512 .f32 := maximumf l1 l0
  let l3 : FVec Ideal S512x1 .f32 := broadcastInDim S512x1 ![0] bcast_S512_S512x1_0 l2
  let l4 : FVec Ideal S512x10 .f32 := broadcastInDim S512x10 ![0, 1] bcast_S512x1_S512x10_0_1 l3
  let l5 : FVec Ideal S512x10 .f32 := subf v224 l4
  let l6 : FVec Ideal S512x10 .f32 := Host.exp l5
  let cst_1 : FVec Ideal S_ .f32 := constant (F := Ideal) S_ .f32 0x00000000#32
  let l7 : FVec Ideal S512 .f32 := Host.reduceAdd l6 cst_1 reducesTo_S512x10_S512_d1 h_S_
  let l8 : FVec Ideal S512x1 .f32 := broadcastInDim S512x1 ![0] bcast_S512_S512x1_0 l7
  let l9 : FVec Ideal S512x1 .f32 := Host.log l8
  let l10 : FVec Ideal S512x10 .f32 := broadcastInDim S512x10 ![0, 1] bcast_S512x1_S512x10_0_1 l9
  subf l5 l10

section Layout
variable {α : Type}

theorem broadcastInDim_b_1b_apply {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

theorem broadcastInDim_a_a1_apply {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else _
    simp

end Layout

theorem bias1_apply (b1v : FVec Ideal S192 .f32) (g : Fin 512) (k : Fin 192) :
    broadcastInDim S512x192 ![0, 1] bcast_S1x192_S512x192_0_1 (broadcastInDim S1x192 ![1] bcast_S192_S1x192_1 b1v) (ix2 g k)
      = b1v (ix1 k) :=
  (broadcastInDim_oneRow_apply _ _ g k).trans (broadcastInDim_b_1b_apply _ b1v 0 k)

theorem bias2_apply (b2v : FVec Ideal S10 .f32) (g : Fin 512) (f : Fin 10) :
    broadcastInDim S512x10 ![0, 1] bcast_S1x10_S512x10_0_1 (broadcastInDim S1x10 ![1] bcast_S10_S1x10_1 b2v) (ix2 g f)
      = b2v (ix1 f) :=
  (broadcastInDim_oneRow_apply _ _ g f).trans (broadcastInDim_b_1b_apply _ b2v 0 f)

theorem splat192_apply (x : FVec Ideal S_ .f32) (g : Fin 512) (k : Fin 192) :
    broadcastInDim S512x192 ![] bcast_S_S512x192 x (ix2 g k) = x ix0 :=
  broadcastInDim_scalar_apply _ x _

theorem splat512_apply (x : FVec Ideal S_ .f32) (g : Fin 512) :
    broadcastInDim S512 ![] bcast_S_S512 x (ix1 g) = x ix0 :=
  broadcastInDim_scalar_apply _ x _

theorem col_apply (x : FVec Ideal S512 .f32) (g : Fin 512) (f : Fin 10) :
    broadcastInDim S512x10 ![0, 1] bcast_S512x1_S512x10_0_1 (broadcastInDim S512x1 ![0] bcast_S512_S512x1_0 x) (ix2 g f)
      = x (ix1 g) :=
  (broadcastInDim_a1_ab_apply _ _ g f).trans (broadcastInDim_a_a1_apply _ x g 0)

theorem colLog_apply (x : FVec Ideal S512 .f32) (g : Fin 512) (f : Fin 10) :
    broadcastInDim S512x10 ![0, 1] bcast_S512x1_S512x10_0_1 (Host.log (broadcastInDim S512x1 ![0] bcast_S512_S512x1_0 x)) (ix2 g f)
      = Ideal.log (x (ix1 g)) :=
  (broadcastInDim_a1_ab_apply _ _ g f).trans (congrArg Ideal.log (broadcastInDim_a_a1_apply _ x g 0))

theorem hostRowMax_apply (v : FVec Ideal S512x10 .f32) (init : S_.Idx → Ideal .f32) (g : Fin 512) :
    Host.reduce FloatOps.maximumf v init reducesTo_S512x10_S512_d1 h_S_ (ix1 g)
      = (Finset.univ : Finset (Fin 10)).fold max (init (Shape.Idx.first h_S_)) (fun f => v (ix2 g f)) := by
  have h : S512x10.Reduces [1] S512 := by decide
  refine (Host.reduce_eq_fold_single FloatOps.maximumf v init reducesTo_S512x10_S512_d1 h h_S_ (ix1 g)).trans ?_
  have e : (v ∘ h.lift (ix1 g)) = fun f : Fin 10 => v (ix2 g f) := by
    funext f
    refine congrArg v (funext fun a => Fin.ext ?_)
    match a with
    | ⟨0, _⟩ => rfl
    | ⟨1, _⟩ => rfl
  rw [e]; rfl

theorem hostRowSum_apply (v : FVec Ideal S512x10 .f32) (init : S_.Idx → Ideal .f32) (g : Fin 512) :
    Host.reduceAdd v init reducesTo_S512x10_S512_d1 h_S_ (ix1 g) = init (Shape.Idx.first h_S_) + ∑ f : Fin 10, v (ix2 g f) := by
  have h : S512x10.Reduces [1] S512 := by decide
  rw [hostReduceAdd_apply, Ideal.hostReduceAdd_single reducesTo_S512x10_S512_d1 h]
  refine congrArg (init (Shape.Idx.first h_S_) + ·) (Finset.sum_congr rfl fun f _ => congrArg v (funext fun a => Fin.ext ?_))
  match a with
  | ⟨0, _⟩ => rfl
  | ⟨1, _⟩ => rfl

theorem max_fold_self {ι : Type} (s : Finset ι) (b : EReal) (F : ι → EReal) : max b (s.fold max b F) = s.fold max b F :=
  max_eq_right ((Finset.le_fold_max (c := b)).mpr (Or.inl le_rfl))

theorem hostExp_apply {s : Shape} {φ : FTy} (v : FVec Ideal s φ) (i : s.Idx) : Host.exp v i = Ideal.exp (v i) := rfl

theorem dotA_eq : dot_S512x192_S192x192_S512x192_1_0_0_1_n_n = DotDims.plain 512 192 192 := rfl
theorem dotB_eq : dot_S512x192_S192x10_S512x10_1_0_0_1_n_n = DotDims.plain 512 192 10 := rfl

def hidR (hc : FVec Ideal S512x192 .f32) (w1 : FVec Ideal S192x192 .f32) (b1v : FVec Ideal S192 .f32) : FVec Ideal S512x192 .f32 :=
  maximumf
    (addf (Host.dotGeneral dot_S512x192_S192x192_S512x192_1_0_0_1_n_n none hc w1)
      (broadcastInDim S512x192 ![0, 1] bcast_S1x192_S512x192_0_1 (broadcastInDim S1x192 ![1] bcast_S192_S1x192_1 b1v)))
    (broadcastInDim S512x192 ![] bcast_S_S512x192 (constant (F := Ideal) S_ .f32 0x00000000#32))

def logitsR (h : FVec Ideal S512x192 .f32) (w2 : FVec Ideal S192x10 .f32) (b2v : FVec Ideal S10 .f32) : FVec Ideal S512x10 .f32 :=
  addf (Host.dotGeneral dot_S512x192_S192x10_S512x10_1_0_0_1_n_n none h w2)
    (broadcastInDim S512x10 ![0, 1] bcast_S1x10_S512x10_0_1 (broadcastInDim S1x10 ![1] bcast_S10_S1x10_1 b2v))

def rowMaxR (x : FVec Ideal S512x10 .f32) : FVec Ideal S512 .f32 :=
  maximumf (broadcastInDim S512 ![] bcast_S_S512 (constant (F := Ideal) S_ .f32 0xFF800000#32))
    (Host.reduce FloatOps.maximumf x (constant (F := Ideal) S_ .f32 0xFF800000#32) reducesTo_S512x10_S512_d1 h_S_)

def shiftedR (x : FVec Ideal S512x10 .f32) : FVec Ideal S512x10 .f32 :=
  subf x (broadcastInDim S512x10 ![0, 1] bcast_S512x1_S512x10_0_1 (broadcastInDim S512x1 ![0] bcast_S512_S512x1_0 (rowMaxR x)))

def logSoftmaxR (x : FVec Ideal S512x10 .f32) : FVec Ideal S512x10 .f32 :=
  subf (shiftedR x)
    (broadcastInDim S512x10 ![0, 1] bcast_S512x1_S512x10_0_1
      (Host.log (broadcastInDim S512x1 ![0] bcast_S512_S512x1_0
        (Host.reduceAdd (Host.exp (shiftedR x)) (constant (F := Ideal) S_ .f32 0x00000000#32) reducesTo_S512x10_S512_d1 h_S_))))

theorem refChainC_eq (hc : FVec Ideal S512x192 .f32) (w1 : FVec Ideal S192x192 .f32) (b1v : FVec Ideal S192 .f32)
    (w2 : FVec Ideal S192x10 .f32) (b2v : FVec Ideal S10 .f32) :
    refChainC hc w1 b1v w2 b2v = logSoftmaxR (logitsR (hidR hc w1 b1v) w2 b2v) := rfl

theorem hidR_apply (hc : FVec Ideal S512x192 .f32) (w1 : FVec Ideal S192x192 .f32) (b1v : FVec Ideal S192 .f32)
    (g : Fin 512) (k : Fin 192) : hidR hc w1 b1v (ix2 g k) = hiddenC hc w1 (fun j => b1v (ix1 j)) g k := by
  show max (Host.dotGeneral dot_S512x192_S192x192_S512x192_1_0_0_1_n_n none hc w1 (ix2 g k)
      + broadcastInDim S512x192 ![0, 1] bcast_S1x192_S512x192_0_1 (broadcastInDim S1x192 ![1] bcast_S192_S1x192_1 b1v) (ix2 g k))
    (broadcastInDim S512x192 ![] bcast_S_S512x192 (constant (F := Ideal) S_ .f32 0x00000000#32) (ix2 g k)) = _
  rw [bias1_apply, splat192_apply, constant_apply, Ideal.ofBits_zero_f32, dotA_eq, dotGeneral_plain_apply]
  rfl

theorem logitsR_apply (hc : FVec Ideal S512x192 .f32) (w1 : FVec Ideal S192x192 .f32) (b1v : FVec Ideal S192 .f32)
    (w2 : FVec Ideal S192x10 .f32) (b2v : FVec Ideal S10 .f32) (g : Fin 512) (f : Fin 10) :
    logitsR (hidR hc w1 b1v) w2 b2v (ix2 g f) = logitsC hc w1 (fun j => b1v (ix1 j)) w2 (fun j => b2v (ix1 j)) g f := by
  show Host.dotGeneral dot_S512x192_S192x10_S512x10_1_0_0_1_n_n none (hidR hc w1 b1v) w2 (ix2 g f)
      + broadcastInDim S512x10 ![0, 1] bcast_S1x10_S512x10_0_1 (broadcastInDim S1x10 ![1] bcast_S10_S1x10_1 b2v) (ix2 g f) = _
  rw [bias2_apply, dotB_eq, dotGeneral_plain_apply]
  simp only [hidR_apply]
  rfl

theorem rowMaxR_apply (x : FVec Ideal S512x10 .f32) (g : Fin 512) :
    rowMaxR x (ix1 g) = (Finset.univ : Finset (Fin 10)).fold max (Ideal.ofBits .f32 0xFF800000#32) (fun f => x (ix2 g f)) := by
  show max (broadcastInDim S512 ![] bcast_S_S512 (constant (F := Ideal) S_ .f32 0xFF800000#32) (ix1 g))
    (Host.reduce FloatOps.maximumf x (constant (F := Ideal) S_ .f32 0xFF800000#32) reducesTo_S512x10_S512_d1 h_S_ (ix1 g)) = _
  rw [splat512_apply, hostRowMax_apply, constant_apply, constant_apply]
  exact max_fold_self _ _ _

theorem shiftedR_apply (x : FVec Ideal S512x10 .f32) (g : Fin 512) (f : Fin 10) :
    shiftedR x (ix2 g f) = x (ix2 g f) - (Finset.univ : Finset (Fin 10)).fold max (Ideal.ofBits .f32 0xFF800000#32) (fun f' => x (ix2 g f')) := by
  show x (ix2 g f) - broadcastInDim S512x10 ![0, 1] bcast_S512x1_S512x10_0_1 (broadcastInDim S512x1 ![0] bcast_S512_S512x1_0 (rowMaxR x)) (ix2 g f) = _
  rw [col_apply, rowMaxR_apply]

theorem logSoftmaxR_apply (x : FVec Ideal S512x10 .f32) (g : Fin 512) (f : Fin 10) :
    logSoftmaxR x (ix2 g f)
      = (x (ix2 g f) - (Finset.univ : Finset (Fin 10)).fold max (Ideal.ofBits .f32 0xFF800000#32) (fun f' => x (ix2 g f')))
        - Ideal.log (∑ f' : Fin 10, Ideal.exp (x (ix2 g f') - (Finset.univ : Finset (Fin 10)).fold max (Ideal.ofBits .f32 0xFF800000#32) (fun f'' => x (ix2 g f'')))) := by
  show shiftedR x (ix2 g f) - broadcastInDim S512x10 ![0, 1] bcast_S512x1_S512x10_0_1
      (Host.log (broadcastInDim S512x1 ![0] bcast_S512_S512x1_0
        (Host.reduceAdd (Host.exp (shiftedR x)) (constant (F := Ideal) S_ .f32 0x00000000#32) reducesTo_S512x10_S512_d1 h_S_))) (ix2 g f) = _
  rw [colLog_apply, hostRowSum_apply, constant_apply, Ideal.ofBits_zero_f32, zero_add, shiftedR_apply]
  simp only [hostExp_apply, shiftedR_apply]

theorem refC_eq (hc : FVec Ideal S512x192 .f32) (w1 : FVec Ideal S192x192 .f32) (b1v : FVec Ideal S192 .f32)
    (w2 : FVec Ideal S192x10 .f32) (b2v : FVec Ideal S10 .f32) :
    refChainC hc w1 b1v w2 b2v = Cert.Spec.specC hc w1 (fun j => b1v (ix1 j)) w2 (fun j => b2v (ix1 j)) := by
  rw [refChainC_eq]
  funext j
  obtain ⟨g, f, rfl⟩ : ∃ (g : Fin 512) (f : Fin 10), j = ix2 g f := ⟨j 0, j 1, eq_ix2 j⟩
  rw [logSoftmaxR_apply]
  simp only [logitsR_apply]
  rfl

end Cert.ReferenceIdeal.HV

end
-- ==== Proof.RefNet2.lean ====
import proofs.«405318_j78374563217910_3_alg».proof.Proof.RefNet
import proofs.«405318_j78374563217910_3_alg».proof.Proof.RefA
import proofs.«405318_j78374563217910_3_alg».proof.Proof.RefB
import proofs.«405318_j78374563217910_3_alg».proof.Proof.RefC

noncomputable section

namespace Cert.ReferenceIdeal.HV

open Idealize.ShloMosaic Idealize.ShloMosaic.ValueIdx
open Cert.ReferenceIdeal Cert.ReferenceIdeal.Facts₀

variable [Facts]

def srcR (ei : IVec S2x800000 32) : IVec S800000 32 :=
  fun i => shapeCast S800000 (extractStridedSlice S1x800000 ![0, 0] ei slices_S2x800000_S1x800000_0_0) shapeCasts_S1x800000_S800000 i

def dstR (ei : IVec S2x800000 32) : IVec S800000 32 :=
  fun i => shapeCast S800000 (extractStridedSlice S1x800000 ![1, 0] ei slices_S2x800000_S1x800000_1_0) shapeCasts_S1x800000_S800000 i

def sliceWe0R (We : FVec Ideal S3x16x64 .f32) : FVec Ideal S16x64 .f32 :=
  fun i => shapeCast S16x64 (extractStridedSlice S1x16x64 ![0, 0, 0] We slices_S3x16x64_S1x16x64_0_0_0) shapeCasts_S1x16x64_S16x64 i

def sliceWe1R (We : FVec Ideal S3x16x64 .f32) : FVec Ideal S16x64 .f32 :=
  fun i => shapeCast S16x64 (extractStridedSlice S1x16x64 ![1, 0, 0] We slices_S3x16x64_S1x16x64_1_0_0) shapeCasts_S1x16x64_S16x64 i

def sliceWe2R (We : FVec Ideal S3x16x64 .f32) : FVec Ideal S16x64 .f32 :=
  fun i => shapeCast S16x64 (extractStridedSlice S1x16x64 ![2, 0, 0] We slices_S3x16x64_S1x16x64_2_0_0) shapeCasts_S1x16x64_S16x64 i

def sliceV0R (b : FVec Ideal S3x64 .f32) : FVec Ideal S64 .f32 :=
  fun i => shapeCast S64 (extractStridedSlice S1x64 ![0, 0] b slices_S3x64_S1x64_0_0) shapeCasts_S1x64_S64 i

def sliceV1R (b : FVec Ideal S3x64 .f32) : FVec Ideal S64 .f32 :=
  fun i => shapeCast S64 (extractStridedSlice S1x64 ![1, 0] b slices_S3x64_S1x64_1_0) shapeCasts_S1x64_S64 i

def sliceV2R (b : FVec Ideal S3x64 .f32) : FVec Ideal S64 .f32 :=
  fun i => shapeCast S64 (extractStridedSlice S1x64 ![2, 0] b slices_S3x64_S1x64_2_0) shapeCasts_S1x64_S64 i

def sliceM0R (w : FVec Ideal S3x64x64 .f32) : FVec Ideal S64x64 .f32 :=
  fun i => shapeCast S64x64 (extractStridedSlice S1x64x64 ![0, 0, 0] w slices_S3x64x64_S1x64x64_0_0_0) shapeCasts_S1x64x64_S64x64 i

def sliceM1R (w : FVec Ideal S3x64x64 .f32) : FVec Ideal S64x64 .f32 :=
  fun i => shapeCast S64x64 (extractStridedSlice S1x64x64 ![1, 0, 0] w slices_S3x64x64_S1x64x64_1_0_0) shapeCasts_S1x64x64_S64x64 i

def sliceM2R (w : FVec Ideal S3x64x64 .f32) : FVec Ideal S64x64 .f32 :=
  fun i => shapeCast S64x64 (extractStridedSlice S1x64x64 ![2, 0, 0] w slices_S3x64x64_S1x64x64_2_0_0) shapeCasts_S1x64x64_S64x64 i

def layerR (h : FVec Ideal S50000x64 .f32) (src dst : IVec S800000 32) (ea : FVec Ideal S800000x16 .f32)
    (We_i : FVec Ideal S16x64 .f32) (be_i : FVec Ideal S64 .f32) (W1_i : FVec Ideal S64x64 .f32) (b1_i : FVec Ideal S64 .f32)
    (g_i bb_i : FVec Ideal S64 .f32) (W2_i : FVec Ideal S64x64 .f32) (b2_i : FVec Ideal S64 .f32) : FVec Ideal S50000x64 .f32 :=
  let z : FVec Ideal S50000x64 .f32 := refChainA h (aggR (F := Ideal) dst (msgR (F := Ideal) h src ea We_i be_i)) W1_i b1_i
  refChainB z (muR (F := Ideal) z) (varR (F := Ideal) z) g_i bb_i W2_i b2_i

def netR (x : FVec Ideal S50000x64 .f32) (ea : FVec Ideal S800000x16 .f32) (We : FVec Ideal S3x16x64 .f32)
    (be : FVec Ideal S3x64 .f32) (W1 : FVec Ideal S3x64x64 .f32) (b1 g bb : FVec Ideal S3x64 .f32)
    (W2 : FVec Ideal S3x64x64 .f32) (b2 : FVec Ideal S3x64 .f32) (l1W : FVec Ideal S192x192 .f32) (l1b : FVec Ideal S192 .f32)
    (l2W : FVec Ideal S192x10 .f32) (l2b : FVec Ideal S10 .f32) (ei : IVec S2x800000 32) (batch : IVec S50000 32) :
    FVec Ideal S512x10 .f32 :=
  let h1 := layerR x (srcR ei) (dstR ei) ea (sliceWe0R We) (sliceV0R be) (sliceM0R W1) (sliceV0R b1) (sliceV0R g) (sliceV0R bb) (sliceM0R W2) (sliceV0R b2)
  let h2 := layerR h1 (srcR ei) (dstR ei) ea (sliceWe1R We) (sliceV1R be) (sliceM1R W1) (sliceV1R b1) (sliceV1R g) (sliceV1R bb) (sliceM1R W2) (sliceV1R b2)
  let h3 := layerR h2 (srcR ei) (dstR ei) ea (sliceWe2R We) (sliceV2R be) (sliceM2R W1) (sliceV2R b1) (sliceV2R g) (sliceV2R bb) (sliceM2R W2) (sliceV2R b2)
  refChainC (poolR (F := Ideal) h1 h2 h3 batch) l1W l1b l2W l2b

end Cert.ReferenceIdeal.HV

end
-- ==== Proof.RefVal.lean ====
import proofs.«405318_j78374563217910_3_alg».proof.Proof.RefVal0
import proofs.«405318_j78374563217910_3_alg».proof.Proof.RefVal1
import proofs.«405318_j78374563217910_3_alg».proof.Proof.RefVal2
import proofs.«405318_j78374563217910_3_alg».proof.Proof.RefVal3
import proofs.«405318_j78374563217910_3_alg».proof.Proof.RefVal4
import proofs.«405318_j78374563217910_3_alg».proof.Proof.RefNet2

noncomputable section

namespace Cert.ReferenceIdeal.HV

open Cert.ReferenceIdeal Cert.ReferenceIdeal.HRun Idealize.ShloMosaic Idealize.ShloMosaic.TcCoe Idealize.SL.Sem Idealize.ShloMosaic.StableHlo
open Facts₀ Facts

variable [Facts]

abbrev argRefs : List (Ref sig .tc) := [main_arg0, main_arg1, main_arg2, main_arg3, main_arg4, main_arg5, main_arg6, main_arg7, main_arg8, main_arg9, main_arg10, main_arg11, main_arg12, main_arg13, main_arg14, main_arg15]

variable (V : Valuation τ sig (Elt Ideal))

theorem vf_arg (b : Ref sig .tc) (hb : b ∈ argRefs) : after ops V b = V b :=
  finPre0 V b ((by decide : ∀ r ∈ argRefs, r.idx.val < 16) b hb)

theorem vf_src : after ops V main_v1 = srcR (after ops V main_arg14) := by
  rw [finIn0 V main_v1 (by decide), finPre0 V main_arg14 (by decide)]; exact ck_src (P0 V)
theorem vf_dst : after ops V main_v3 = dstR (after ops V main_arg14) := by
  rw [finIn0 V main_v3 (by decide), finPre0 V main_arg14 (by decide)]; exact ck_dst (P0 V)
theorem vf_We_0 : after ops V main_v12 = sliceWe0R (after ops V main_arg2) := by
  rw [finIn1 V main_v12 (by decide), finPre1 V main_arg2 (by decide)]; exact ck_We_0 (P1 V)
theorem vf_be_0 : after ops V main_v16 = sliceV0R (after ops V main_arg3) := by
  rw [finIn1 V main_v16 (by decide), finPre1 V main_arg3 (by decide)]; exact ck_be_0 (P1 V)
theorem vf_W1_0 : after ops V main_v26 = sliceM0R (after ops V main_arg4) := by
  rw [finIn3 V main_v26 (by decide), finPre3 V main_arg4 (by decide)]; exact ck_W1_0 (P3 V)
theorem vf_b1_0 : after ops V main_v29 = sliceV0R (after ops V main_arg5) := by
  rw [finIn3 V main_v29 (by decide), finPre3 V main_arg5 (by decide)]; exact ck_b1_0 (P3 V)
theorem vf_g_0 : after ops V main_v47 = sliceV0R (after ops V main_arg6) := by
  rw [finIn6 V main_v47 (by decide), finPre6 V main_arg6 (by decide)]; exact ck_g_0 (P6 V)
theorem vf_bb_0 : after ops V main_v52 = sliceV0R (after ops V main_arg7) := by
  rw [finIn6 V main_v52 (by decide), finPre6 V main_arg7 (by decide)]; exact ck_bb_0 (P6 V)
theorem vf_W2_0 : after ops V main_v58 = sliceM0R (after ops V main_arg8) := by
  rw [finIn7 V main_v58 (by decide), finPre7 V main_arg8 (by decide)]; exact ck_W2_0 (P7 V)
theorem vf_b2_0 : after ops V main_v61 = sliceV0R (after ops V main_arg9) := by
  rw [finIn7 V main_v61 (by decide), finPre7 V main_arg9 (by decide)]; exact ck_b2_0 (P7 V)
theorem vf_msg_0 : after ops V main_v20 = msgR (after ops V main_arg0) (after ops V main_v1) (after ops V main_arg1) (after ops V main_v12) (after ops V main_v16) := by
  rw [finIn1 V main_v20 (by decide), finPre1 V main_arg0 (by decide), finPre1 V main_v1 (by decide), finPre1 V main_arg1 (by decide), finIn1 V main_v12 (by decide), finIn1 V main_v16 (by decide)]; exact ck_msg_0 (P1 V)
theorem vf_agg_0 : after ops V main_v23 = aggR (after ops V main_v3) (after ops V main_v20) := by
  rw [finIn2 V main_v23 (by decide), finPre2 V main_v3 (by decide), finPre2 V main_v20 (by decide)]; exact ck_agg_0 (P2 V)
theorem vf_z_0 : after ops V main_v32 = zR (after ops V main_arg0) (after ops V main_v23) (after ops V main_v26) (after ops V main_v29) := by
  rw [finIn3 V main_v32 (by decide), finPre3 V main_arg0 (by decide), finPre3 V main_v23 (by decide), finIn3 V main_v26 (by decide), finIn3 V main_v29 (by decide)]; exact ck_z_0 (P3 V)
theorem vf_mu_0 : after ops V main_v35 = muR (after ops V main_v32) := by
  rw [finIn4 V main_v35 (by decide), finPre4 V main_v32 (by decide)]; exact ck_mu_0 (P4 V)
theorem vf_var_0 : after ops V main_v36 = varR (after ops V main_v32) := by
  rw [finIn5 V main_v36 (by decide), finPre5 V main_v32 (by decide)]; exact ck_var_0 (P5 V)
theorem vf_out_0 : after ops V main_v65 = outR (after ops V main_v32) (after ops V main_v35) (after ops V main_v36) (after ops V main_v47) (after ops V main_v52) (after ops V main_v58) (after ops V main_v61) := by
  rw [finIn7 V main_v65 (by decide), finPre6 V main_v32 (by decide), finPre6 V main_v35 (by decide), finPre6 V main_v36 (by decide), finIn7 V main_v47 (by decide), finIn7 V main_v52 (by decide), finIn7 V main_v58 (by decide), finIn7 V main_v61 (by decide)]; exact ck_out_0 (P6 V)
theorem vf_We_1 : after ops V main_v74 = sliceWe1R (after ops V main_arg2) := by
  rw [finIn8 V main_v74 (by decide), finPre8 V main_arg2 (by decide)]; exact ck_We_1 (P8 V)
theorem vf_be_1 : after ops V main_v78 = sliceV1R (after ops V main_arg3) := by
  rw [finIn8 V main_v78 (by decide), finPre8 V main_arg3 (by decide)]; exact ck_be_1 (P8 V)
theorem vf_W1_1 : after ops V main_v88 = sliceM1R (after ops V main_arg4) := by
  rw [finIn10 V main_v88 (by decide), finPre10 V main_arg4 (by decide)]; exact ck_W1_1 (P10 V)
theorem vf_b1_1 : after ops V main_v91 = sliceV1R (after ops V main_arg5) := by
  rw [finIn10 V main_v91 (by decide), finPre10 V main_arg5 (by decide)]; exact ck_b1_1 (P10 V)
theorem vf_g_1 : after ops V main_v109 = sliceV1R (after ops V main_arg6) := by
  rw [finIn14 V main_v109 (by decide), finPre14 V main_arg6 (by decide)]; exact ck_g_1 (P14 V)
theorem vf_bb_1 : after ops V main_v114 = sliceV1R (after ops V main_arg7) := by
  rw [finIn14 V main_v114 (by decide), finPre14 V main_arg7 (by decide)]; exact ck_bb_1 (P14 V)
theorem vf_W2_1 : after ops V main_v120 = sliceM1R (after ops V main_arg8) := by
  rw [finIn14 V main_v120 (by decide), finPre14 V main_arg8 (by decide)]; exact ck_W2_1 (P14 V)
theorem vf_b2_1 : after ops V main_v123 = sliceV1R (after ops V main_arg9) := by
  rw [finIn14 V main_v123 (by decide), finPre14 V main_arg9 (by decide)]; exact ck_b2_1 (P14 V)
theorem vf_msg_1 : after ops V main_v82 = msgR (after ops V main_v65) (after ops V main_v1) (after ops V main_arg1) (after ops V main_v74) (after ops V main_v78) := by
  rw [finIn8 V main_v82 (by decide), finPre8 V main_v65 (by decide), finPre8 V main_v1 (by decide), finPre8 V main_arg1 (by decide), finIn8 V main_v74 (by decide), finIn8 V main_v78 (by decide)]; exact ck_msg_1 (P8 V)
theorem vf_agg_1 : after ops V main_v85 = aggR (after ops V main_v3) (after ops V main_v82) := by
  rw [finIn9 V main_v85 (by decide), finPre9 V main_v3 (by decide), finPre9 V main_v82 (by decide)]; exact ck_agg_1 (P9 V)
theorem vf_z_1 : after ops V main_v94 = zR (after ops V main_v65) (after ops V main_v85) (after ops V main_v88) (after ops V main_v91) := by
  rw [finIn10 V main_v94 (by decide), finPre10 V main_v65 (by decide), finPre10 V main_v85 (by decide), finIn10 V main_v88 (by decide), finIn10 V main_v91 (by decide)]; exact ck_z_1 (P10 V)
theorem vf_mu_1 : after ops V main_v97 = muR (after ops V main_v94) := by
  rw [finIn11 V main_v97 (by decide), finPre11 V main_v94 (by decide)]; exact ck_mu_1 (P11 V)
theorem vf_var_1 : after ops V main_v98 = varR (after ops V main_v94) := by
  rw [finIn12 V main_v98 (by decide), finPre12 V main_v94 (by decide)]; exact ck_var_1 (P12 V)
theorem vf_out_1 : after ops V main_v127 = outR (after ops V main_v94) (after ops V main_v97) (after ops V main_v98) (after ops V main_v109) (after ops V main_v114) (after ops V main_v120) (after ops V main_v123) := by
  rw [finIn14 V main_v127 (by decide), finPre13 V main_v94 (by decide), finPre13 V main_v97 (by decide), finPre13 V main_v98 (by decide), finIn14 V main_v109 (by decide), finIn14 V main_v114 (by decide), finIn14 V main_v120 (by decide), finIn14 V main_v123 (by decide)]; exact ck_out_1 (P13 V)
theorem vf_We_2 : after ops V main_v136 = sliceWe2R (after ops V main_arg2) := by
  rw [finIn15 V main_v136 (by decide), finPre15 V main_arg2 (by decide)]; exact ck_We_2 (P15 V)
theorem vf_be_2 : after ops V main_v140 = sliceV2R (after ops V main_arg3) := by
  rw [finIn15 V main_v140 (by decide), finPre15 V main_arg3 (by decide)]; exact ck_be_2 (P15 V)
theorem vf_W1_2 : after ops V main_v150 = sliceM2R (after ops V main_arg4) := by
  rw [finIn17 V main_v150 (by decide), finPre17 V main_arg4 (by decide)]; exact ck_W1_2 (P17 V)
theorem vf_b1_2 : after ops V main_v153 = sliceV2R (after ops V main_arg5) := by
  rw [finIn17 V main_v153 (by decide), finPre17 V main_arg5 (by decide)]; exact ck_b1_2 (P17 V)
theorem vf_g_2 : after ops V main_v171 = sliceV2R (after ops V main_arg6) := by
  rw [finIn21 V main_v171 (by decide), finPre21 V main_arg6 (by decide)]; exact ck_g_2 (P21 V)
theorem vf_bb_2 : after ops V main_v176 = sliceV2R (after ops V main_arg7) := by
  rw [finIn21 V main_v176 (by decide), finPre21 V main_arg7 (by decide)]; exact ck_bb_2 (P21 V)
theorem vf_W2_2 : after ops V main_v182 = sliceM2R (after ops V main_arg8) := by
  rw [finIn21 V main_v182 (by decide), finPre21 V main_arg8 (by decide)]; exact ck_W2_2 (P21 V)
theorem vf_b2_2 : after ops V main_v185 = sliceV2R (after ops V main_arg9) := by
  rw [finIn21 V main_v185 (by decide), finPre21 V main_arg9 (by decide)]; exact ck_b2_2 (P21 V)
theorem vf_msg_2 : after ops V main_v144 = msgR (after ops V main_v127) (after ops V main_v1) (after ops V main_arg1) (after ops V main_v136) (after ops V main_v140) := by
  rw [finIn15 V main_v144 (by decide), finPre15 V main_v127 (by decide), finPre15 V main_v1 (by decide), finPre15 V main_arg1 (by decide), finIn15 V main_v136 (by decide), finIn15 V main_v140 (by decide)]; exact ck_msg_2 (P15 V)
theorem vf_agg_2 : after ops V main_v147 = aggR (after ops V main_v3) (after ops V main_v144) := by
  rw [finIn16 V main_v147 (by decide), finPre16 V main_v3 (by decide), finPre16 V main_v144 (by decide)]; exact ck_agg_2 (P16 V)
theorem vf_z_2 : after ops V main_v156 = zR (after ops V main_v127) (after ops V main_v147) (after ops V main_v150) (after ops V main_v153) := by
  rw [finIn17 V main_v156 (by decide), finPre17 V main_v127 (by decide), finPre17 V main_v147 (by decide), finIn17 V main_v150 (by decide), finIn17 V main_v153 (by decide)]; exact ck_z_2 (P17 V)
theorem vf_mu_2 : after ops V main_v159 = muR (after ops V main_v156) := by
  rw [finIn18 V main_v159 (by decide), finPre18 V main_v156 (by decide)]; exact ck_mu_2 (P18 V)
theorem vf_var_2 : after ops V main_v160 = varR (after ops V main_v156) := by
  rw [finIn20 V main_v160 (by decide), finPre19 V main_v156 (by decide)]; exact ck_var_2 (P19 V)
theorem vf_out_2 : after ops V main_v189 = outR (after ops V main_v156) (after ops V main_v159) (after ops V main_v160) (after ops V main_v171) (after ops V main_v176) (after ops V main_v182) (after ops V main_v185) := by
  rw [finIn21 V main_v189 (by decide), finPre21 V main_v156 (by decide), finPre21 V main_v159 (by decide), finPre21 V main_v160 (by decide), finIn21 V main_v171 (by decide), finIn21 V main_v176 (by decide), finIn21 V main_v182 (by decide), finIn21 V main_v185 (by decide)]; exact ck_out_2 (P21 V)
theorem vf_cnt : after ops V main_v193 = cntR (after ops V main_arg15) := by
  rw [finIn22 V main_v193 (by decide), finPre22 V main_arg15 (by decide)]; exact ck_cnt (P22 V)
theorem vf_pool_1 : after ops V main_v200 = poolOne (after ops V main_v65) (after ops V main_v193) (after ops V main_arg15) := by
  rw [finIn23 V main_v200 (by decide), finPre23 V main_v65 (by decide), finPre23 V main_v193 (by decide), finPre23 V main_arg15 (by decide)]; exact ck_pool_1 (P23 V)
theorem vf_pool_2 : after ops V main_v207 = poolOne (after ops V main_v127) (after ops V main_v193) (after ops V main_arg15) := by
  rw [finIn23 V main_v207 (by decide), finPre23 V main_v127 (by decide), finPre23 V main_v193 (by decide), finPre23 V main_arg15 (by decide)]; exact ck_pool_2 (P23 V)
theorem vf_pool_3 : after ops V main_v214 = poolOne (after ops V main_v189) (after ops V main_v193) (after ops V main_arg15) := by
  rw [finIn24 V main_v214 (by decide), finPre23 V main_v189 (by decide), finPre23 V main_v193 (by decide), finPre23 V main_arg15 (by decide)]; exact ck_pool_3 (P23 V)
theorem vf_cat : after ops V main_v215 = (concatenate S512x192 1 [⟨S512x64, (after ops V main_v200)⟩, ⟨S512x64, (after ops V main_v207)⟩, ⟨S512x64, (after ops V main_v214)⟩] concatenates_S512x64_S512x64_S512x64_S512x192_d1) := by
  rw [finIn25 V main_v215 (by decide), finPre25 V main_v200 (by decide), finPre25 V main_v207 (by decide), finPre25 V main_v214 (by decide)]; exact ck_cat (P25 V)
theorem vf_fin : after ops V main_v225 = finR (after ops V main_v215) (after ops V main_arg10) (after ops V main_arg11) (after ops V main_arg12) (after ops V main_arg13) := by
  rw [finIn26 V main_v225 (by decide), finPre26 V main_v215 (by decide), finPre26 V main_arg10 (by decide), finPre26 V main_arg11 (by decide), finPre26 V main_arg12 (by decide), finPre26 V main_arg13 (by decide)]; exact ck_fin (P26 V)

/-- A layer is its six stages composed. -/
theorem layer_eq {h ag z o : FVec Ideal S50000x64 .f32} {s d : IVec S800000 32} {e : FVec Ideal S800000x16 .f32}
    {ms : FVec Ideal S800000x64 .f32} {we : FVec Ideal S16x64 .f32} {be b1 g bb b2 mu vr : FVec Ideal S64 .f32}
    {w1 w2 : FVec Ideal S64x64 .f32} (hms : ms = msgR (F := Ideal) h s e we be) (hag : ag = aggR (F := Ideal) d ms)
    (hz : z = zR (F := Ideal) h ag w1 b1) (hmu : mu = muR (F := Ideal) z) (hvr : vr = varR (F := Ideal) z)
    (ho : o = outR (F := Ideal) z mu vr g bb w2 b2) : o = layerR h s d e we be w1 b1 g bb w2 b2 := by
  subst hms hag hz hmu hvr ho; rfl

theorem ref_value (m : (ℓ : Loc nD τ sig) → Buf (Elt Ideal) ℓ) (c : Dev nD) :
    after ops (launchContents m c) (main_v225 : DevRef τ sig) =
      netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [vf_fin, vf_cat, vf_pool_1, vf_pool_2, vf_pool_3, vf_cnt, ← poolR_eq, layer_eq (vf_msg_2 _) (vf_agg_2 _) (vf_z_2 _) (vf_mu_2 _) (vf_var_2 _) (vf_out_2 _),
    layer_eq (vf_msg_1 _) (vf_agg_1 _) (vf_z_1 _) (vf_mu_1 _) (vf_var_1 _) (vf_out_1 _), layer_eq (vf_msg_0 _) (vf_agg_0 _) (vf_z_0 _) (vf_mu_0 _) (vf_var_0 _) (vf_out_0 _),
    vf_src, vf_dst, vf_We_0, vf_be_0, vf_W1_0, vf_b1_0, vf_g_0, vf_bb_0, vf_W2_0, vf_b2_0, vf_We_1, vf_be_1, vf_W1_1, vf_b1_1, vf_g_1, vf_bb_1, vf_W2_1, vf_b2_1,
    vf_We_2, vf_be_2, vf_W1_2, vf_b1_2, vf_g_2, vf_bb_2, vf_W2_2, vf_b2_2,
    vf_arg _ main_arg0 (by decide), vf_arg _ main_arg1 (by decide), vf_arg _ main_arg2 (by decide), vf_arg _ main_arg3 (by decide), vf_arg _ main_arg4 (by decide), vf_arg _ main_arg5 (by decide), vf_arg _ main_arg6 (by decide), vf_arg _ main_arg7 (by decide), vf_arg _ main_arg8 (by decide), vf_arg _ main_arg9 (by decide), vf_arg _ main_arg10 (by decide), vf_arg _ main_arg11 (by decide), vf_arg _ main_arg12 (by decide), vf_arg _ main_arg13 (by decide), vf_arg _ main_arg14 (by decide), vf_arg _ main_arg15 (by decide)]
  rfl

theorem ref_arg (m : (ℓ : Loc nD τ sig) → Buf (Elt Ideal) ℓ) (c : Dev nD) (b : Ref sig .tc) (hb : b ∈ argRefs) :
    after ops (launchContents m c) (b : DevRef τ sig) = m ((c.tc : Thread nD τ).loc b) :=
  vf_arg (launchContents m c) b hb

end Cert.ReferenceIdeal.HV

end
-- ==== Proof.MsgEq.lean ====
import proofs.«405318_j78374563217910_3_alg».proof.Proof.KNet
import proofs.«405318_j78374563217910_3_alg».proof.Proof.RefNet
import proofs.«405318_j78374563217910_3_alg».proof.Proof.LibTakeRows

noncomputable section

namespace Cert.Proof.MsgEq

open Idealize.ShloMosaic Idealize.ShloMosaic.ValueIdx

variable [hK : Cert.KernelIdeal.Facts] [hR : Cert.ReferenceIdeal.Facts]

theorem toInt_49999 : (49999#32 : BitVec 32).toInt = 49999 := by decide

theorem gather_rec_eq : Cert.KernelIdeal.gather_S50000x64_S800000x1_S800000x64_1_0_n_n_0_1_164
    = Cert.ReferenceIdeal.gather_S50000x64_S800000x1_S800000x64_1_0_n_n_0_1_164 := rfl

theorem dot_rec_eq : Cert.KernelIdeal.dot_S800000x16_S16x64_S800000x64_1_0_0_1_n_n
    = Cert.ReferenceIdeal.dot_S800000x16_S16x64_S800000x64_1_0_0_1_n_n := rfl

section Kernel
open Cert.KernelIdeal Cert.KernelIdeal.Facts₀ Cert.KernelIdeal.HV

theorem takeK_apply (h : FVec Ideal S50000x64 .f32) (src : IVec S800000 32) (e : Fin 800000) (j : Fin 64)
    (h0 : 0 ≤ (src (ix1 e)).toInt) (h1 : (src (ix1 e)).toInt ≤ 49999) :
    takeK h src (ix2 e j)
      = Host.gather gather_S50000x64_S800000x1_S800000x64_1_0_n_n_0_1_164 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)) (ix2 e j) := by
  unfold takeK inRangeK colK wrapK
  refine Cert.Proof.TakeRows.take_fill_apply _ _ _ _ _ _ _ _ _ _ _ _ e j 49999#32 ?_ ?_ ?_ ?_ h0 ?_
  · rfl
  · rfl
  · rfl
  · rfl
  · rw [toInt_49999]; exact h1

theorem roundK_apply (x : FVec Ideal S800000x64 .f32) (i : S800000x64.Idx) : roundK x i = x i := rfl

theorem reluK_apply (x : FVec Ideal S800000x64 .f32) (i : S800000x64.Idx) :
    reluK x i = max (x i) (Ideal.ofBits .f32 0x00000000#32) := rfl

theorem linK_apply (ea : FVec Ideal S800000x16 .f32) (We : FVec Ideal S16x64 .f32) (be : FVec Ideal S64 .f32) (i : S800000x64.Idx) :
    linK ea We be i = Host.dotGeneral dot_S800000x16_S16x64_S800000x64_1_0_0_1_n_n none ea We i
      + broadcastInDim S800000x64 ![0, 1] bcast_S1x64_S800000x64_0_1 (broadcastInDim S1x64 ![1] bcast_S64_S1x64_1 be) i := rfl

theorem msgK_apply (h : FVec Ideal S50000x64 .f32) (src : IVec S800000 32) (ea : FVec Ideal S800000x16 .f32)
    (We : FVec Ideal S16x64 .f32) (be : FVec Ideal S64 .f32) (i : S800000x64.Idx) :
    msgK h src ea We be i = max (takeK h src i + linK ea We be i) (Ideal.ofBits .f32 0x00000000#32) := by
  unfold msgK
  rw [roundK_apply, reluK_apply, addf_apply]

end Kernel

section Reference
open Cert.ReferenceIdeal Cert.ReferenceIdeal.Facts₀ Cert.ReferenceIdeal.HV

theorem msgR_apply (h : FVec Ideal S50000x64 .f32) (src : IVec S800000 32) (ea : FVec Ideal S800000x16 .f32)
    (We : FVec Ideal S16x64 .f32) (be : FVec Ideal S64 .f32) (i : S800000x64.Idx) :
    msgR (F := Ideal) h src ea We be i
      = max ((Host.gather gather_S50000x64_S800000x1_S800000x64_1_0_n_n_0_1_164 h
              (broadcastInDim S800000x1 ![0] bcast_S800000_S800000x1_0
                (select (cmpi .slt src (broadcastInDim S800000 ![] bcast_S_S800000 (constantI S_ 32 0#32)))
                  (addi src (broadcastInDim S800000 ![] bcast_S_S800000 (constantI S_ 32 50000#32))) src)) i
            + Host.dotGeneral dot_S800000x16_S16x64_S800000x64_1_0_0_1_n_n none ea We i)
          + broadcastInDim S800000x64 ![0, 1] bcast_S1x64_S800000x64_0_1 (broadcastInDim S1x64 ![1] bcast_S64_S1x64_1 be) i)
        (Ideal.ofBits .f32 0x00000000#32) := rfl

end Reference

theorem msg_eq (h : FVec Ideal Cert.KernelIdeal.S50000x64 .f32) (src : IVec Cert.KernelIdeal.S800000 32)
    (ea : FVec Ideal Cert.KernelIdeal.S800000x16 .f32) (We : FVec Ideal Cert.KernelIdeal.S16x64 .f32)
    (be : FVec Ideal Cert.KernelIdeal.S64 .f32)
    (hs : ∀ e : Fin 800000, 0 ≤ (src (ix1 e)).toInt ∧ (src (ix1 e)).toInt ≤ 49999) :
    Cert.KernelIdeal.HV.msgK h src ea We be = Cert.ReferenceIdeal.HV.msgR (F := Ideal) h src ea We be := by
  funext i
  obtain ⟨e, j, rfl⟩ : ∃ e j, i = ix2 e j := ⟨i 0, i 1, eq_ix2 i⟩
  rw [msgK_apply, msgR_apply, linK_apply, takeK_apply h src e j (hs e).1 (hs e).2, ← add_assoc, gather_rec_eq, dot_rec_eq]

end Cert.Proof.MsgEq

end
-- ==== Proof.PreDecode.lean ====
import proofs.«405318_j78374563217910_3_alg».proof.Pre_finite_inputs
import Idealize.ShloMosaic.Lib.ReduceAll
import Idealize.ShloMosaic.Lib.ValueIdx
import Idealize.ShloMosaic.Lib.ValueLayout
import Idealize.ShloMosaic.PureOps.Ideal

noncomputable section

namespace Cert.Proof.Pre

open Idealize.ShloMosaic Idealize.ShloMosaic.ValueIdx
open Cert.Pre_finite_inputs

variable [Facts]

instance subsingleton_S_ : Subsingleton S_.Idx := ⟨fun a b => funext fun d => d.elim0⟩

theorem toInt_50000 : (50000#32 : BitVec 32).toInt = 50000 := by decide
theorem toInt_zero : (0#32 : BitVec 32).toInt = 0 := by decide

theorem slice_row0_apply {α : Type} (x : S2x800000.Idx → α) (hs : S2x800000.Slices ![0, 0] S1x800000) (e : Fin 800000) :
    extractStridedSlice S1x800000 ![0, 0] x hs (ix2 0 e) = x (ix2 0 e) := by
  unfold extractStridedSlice
  congr 1
  funext a
  match a with
  | ⟨0, _⟩ => exact Fin.ext (by simp)
  | ⟨1, _⟩ => exact Fin.ext (by simp)

theorem part4_range {F : FTy → Type} [FloatOps F] (a14 : IVec S2x800000 32) (v63 v67 : IVec S_ 1)
    (h : fn_part4 (F := F) a14 v63 v67 ix0 = 1#1) (e : Fin 800000) :
    0 ≤ (a14 (ix2 0 e)).toInt ∧ (a14 (ix2 0 e)).toInt ≤ 49999 := by
  unfold fn_part4 at h
  have h1 := (IntOp.andi_eq_one.1 h).2
  have h2 := Host.reduce_andi_all _ _ _ _ ix0 h1 (ix2 0 e)
  obtain ⟨hge, hlt⟩ := IntOp.andi_eq_one.1 h2
  have hge' : (0#32 : BitVec 32).toInt
      ≤ (extractStridedSlice S1x800000 ![0, 0] a14 Facts.slices_S2x800000_S1x800000_0_0 (ix2 0 e)).toInt :=
    IntOp.cmpi_sge.1 hge
  have hlt' : (extractStridedSlice S1x800000 ![0, 0] a14 Facts.slices_S2x800000_S1x800000_0_0 (ix2 0 e)).toInt
      < (50000#32 : BitVec 32).toInt :=
    IntOp.cmpi_slt.1 hlt
  rw [slice_row0_apply, toInt_zero] at hge'
  rw [slice_row0_apply, toInt_50000] at hlt'
  exact ⟨hge', by omega⟩

theorem src_range {a0 : FVec Ideal S50000x64 .f32} {a1 : FVec Ideal S800000x16 .f32} {a2 : FVec Ideal S3x16x64 .f32}
    {a3 : FVec Ideal S3x64 .f32} {a4 : FVec Ideal S3x64x64 .f32} {a5 : FVec Ideal S3x64 .f32} {a6 : FVec Ideal S3x64 .f32}
    {a7 : FVec Ideal S3x64 .f32} {a8 : FVec Ideal S3x64x64 .f32} {a9 : FVec Ideal S3x64 .f32} {a10 : FVec Ideal S192x192 .f32}
    {a11 : FVec Ideal S192 .f32} {a12 : FVec Ideal S192x10 .f32} {a13 : FVec Ideal S10 .f32} {a14 : IVec S2x800000 32}
    {a15 : IVec S50000 32}
    (h : fn (F := Ideal) a0 a1 a2 a3 a4 a5 a6 a7 a8 a9 a10 a11 a12 a13 a14 a15 = fun _ => 1#1) :
    ∀ e : Fin 800000, 0 ≤ (a14 (ix2 0 e)).toInt ∧ (a14 (ix2 0 e)).toInt ≤ 49999 := by
  intro e
  have h0 : fn (F := Ideal) a0 a1 a2 a3 a4 a5 a6 a7 a8 a9 a10 a11 a12 a13 a14 a15 ix0 = 1#1 := congrFun h ix0
  unfold fn fn_part1 fn_part2 fn_part3 at h0
  exact part4_range a14 _ _ h0 e

theorem row0_vector_apply {α : Type} (x : S2x800000.Idx → α) (hs : S2x800000.Slices ![0, 0] S1x800000)
    (hc : S1x800000.ShapeCasts (⟨1, ![800000]⟩ : Shape)) (e : Fin 800000) :
    shapeCast (⟨1, ![800000]⟩ : Shape) (extractStridedSlice S1x800000 ![0, 0] x hs) hc (ix1 e) = x (ix2 0 e) := by
  rw [shapeCast_1a_a_apply, slice_row0_apply]

theorem src_range_vector {a0 : FVec Ideal S50000x64 .f32} {a1 : FVec Ideal S800000x16 .f32} {a2 : FVec Ideal S3x16x64 .f32}
    {a3 : FVec Ideal S3x64 .f32} {a4 : FVec Ideal S3x64x64 .f32} {a5 : FVec Ideal S3x64 .f32} {a6 : FVec Ideal S3x64 .f32}
    {a7 : FVec Ideal S3x64 .f32} {a8 : FVec Ideal S3x64x64 .f32} {a9 : FVec Ideal S3x64 .f32} {a10 : FVec Ideal S192x192 .f32}
    {a11 : FVec Ideal S192 .f32} {a12 : FVec Ideal S192x10 .f32} {a13 : FVec Ideal S10 .f32} {a14 : IVec S2x800000 32}
    {a15 : IVec S50000 32}
    (h : fn (F := Ideal) a0 a1 a2 a3 a4 a5 a6 a7 a8 a9 a10 a11 a12 a13 a14 a15 = fun _ => 1#1)
    (hs : S2x800000.Slices ![0, 0] S1x800000) (hc : S1x800000.ShapeCasts (⟨1, ![800000]⟩ : Shape)) :
    ∀ e : Fin 800000,
      0 ≤ (shapeCast (⟨1, ![800000]⟩ : Shape) (extractStridedSlice S1x800000 ![0, 0] a14 hs) hc (ix1 e)).toInt
      ∧ (shapeCast (⟨1, ![800000]⟩ : Shape) (extractStridedSlice S1x800000 ![0, 0] a14 hs) hc (ix1 e)).toInt ≤ 49999 := by
  intro e
  rw [row0_vector_apply]
  exact src_range h e

end Cert.Proof.Pre

end
-- ==== Proof.Bridge.lean ====
import proofs.«405318_j78374563217910_3_alg».proof.Proof.KNet
import proofs.«405318_j78374563217910_3_alg».proof.Proof.RefNet2
import proofs.«405318_j78374563217910_3_alg».proof.Proof.MsgEq
import proofs.«405318_j78374563217910_3_alg».proof.Proof.PreDecode
import Idealize.ShloMosaic.Lib.ValueLayout

noncomputable section

namespace Cert.Proof.Bridge

open Idealize.ShloMosaic Idealize.ShloMosaic.ValueIdx
open Cert.KernelIdeal Cert.KernelIdeal.HV Cert.ReferenceIdeal.HV

variable [hK : Cert.KernelIdeal.Facts] [hR : Cert.ReferenceIdeal.Facts]

theorem rowK_apply (v : FVec Ideal S64 .f32) (j : Fin 64) : rowK v (ix2 0 j) = v (ix1 j) := by
  unfold rowK
  exact shapeCast_a_1a_apply v _ 0 j

theorem rowK192_apply (v : FVec Ideal S192 .f32) (j : Fin 192) : rowK192 v (ix2 0 j) = v (ix1 j) := by
  unfold rowK192
  exact shapeCast_a_1a_apply v _ 0 j

theorem rowK10_apply (v : FVec Ideal S10 .f32) (j : Fin 10) : rowK10 v (ix2 0 j) = v (ix1 j) := by
  unfold rowK10
  exact shapeCast_a_1a_apply v _ 0 j

theorem rowK_fun (v : FVec Ideal S64 .f32) : (fun j : Fin 64 => rowK v (ix2 0 j)) = fun j => v (ix1 j) :=
  funext fun j => rowK_apply v j

theorem rowK192_fun (v : FVec Ideal S192 .f32) : (fun j : Fin 192 => rowK192 v (ix2 0 j)) = fun j => v (ix1 j) :=
  funext fun j => rowK192_apply v j

theorem rowK10_fun (v : FVec Ideal S10 .f32) : (fun j : Fin 10 => rowK10 v (ix2 0 j)) = fun j => v (ix1 j) :=
  funext fun j => rowK10_apply v j

theorem srcK_eq (ei : IVec S2x800000 32) : srcK ei = srcR ei := rfl
theorem dstK_eq (ei : IVec S2x800000 32) : dstK ei = dstR ei := rfl

theorem sliceWe0_eq (We : FVec Ideal S3x16x64 .f32) : sliceWe0 We = sliceWe0R We := rfl
theorem sliceWe1_eq (We : FVec Ideal S3x16x64 .f32) : sliceWe1 We = sliceWe1R We := rfl
theorem sliceWe2_eq (We : FVec Ideal S3x16x64 .f32) : sliceWe2 We = sliceWe2R We := rfl
theorem sliceV0_eq (b : FVec Ideal S3x64 .f32) : sliceV0 b = sliceV0R b := rfl
theorem sliceV1_eq (b : FVec Ideal S3x64 .f32) : sliceV1 b = sliceV1R b := rfl
theorem sliceV2_eq (b : FVec Ideal S3x64 .f32) : sliceV2 b = sliceV2R b := rfl
theorem sliceM0_eq (w : FVec Ideal S3x64x64 .f32) : sliceM0 w = sliceM0R w := rfl
theorem sliceM1_eq (w : FVec Ideal S3x64x64 .f32) : sliceM1 w = sliceM1R w := rfl
theorem sliceM2_eq (w : FVec Ideal S3x64x64 .f32) : sliceM2 w = sliceM2R w := rfl

theorem agg_eq (dst : IVec S800000 32) (msg : FVec Ideal S800000x64 .f32) : aggK dst msg = aggR (F := Ideal) dst msg := rfl

theorem mu_eq (z : FVec Ideal S50000x64 .f32) : muK z = muR (F := Ideal) z := rfl

theorem var_eq (z : FVec Ideal S50000x64 .f32) : varK z = varR (F := Ideal) z := by
  unfold varK varCK dofK devSqK devK varR
  rfl

theorem pool_eq (h1 h2 h3 : FVec Ideal S50000x64 .f32) (batch : IVec S50000 32) :
    poolK h1 h2 h3 batch = poolR (F := Ideal) h1 h2 h3 batch := by
  unfold poolK meanK countK batchColK poolR
  rfl

theorem layer_eq (h : FVec Ideal S50000x64 .f32) (src dst : IVec S800000 32) (ea : FVec Ideal S800000x16 .f32)
    (We_i : FVec Ideal S16x64 .f32) (be_i : FVec Ideal S64 .f32) (W1_i : FVec Ideal S64x64 .f32) (b1_i : FVec Ideal S64 .f32)
    (g_i bb_i : FVec Ideal S64 .f32) (W2_i : FVec Ideal S64x64 .f32) (b2_i : FVec Ideal S64 .f32)
    (hs : ∀ e : Fin 800000, 0 ≤ (src (ix1 e)).toInt ∧ (src (ix1 e)).toInt ≤ 49999) :
    layerK h src dst ea We_i be_i W1_i b1_i g_i bb_i W2_i b2_i
      = layerR h src dst ea We_i be_i W1_i b1_i g_i bb_i W2_i b2_i := by
  have hz : Cert.Spec.specA h (aggK dst (msgK h src ea We_i be_i)) W1_i (fun j => rowK b1_i (ix2 0 j))
      = refChainA h (aggR (F := Ideal) dst (msgR (F := Ideal) h src ea We_i be_i)) W1_i b1_i := by
    rw [refA_eq, rowK_fun, Cert.Proof.MsgEq.msg_eq h src ea We_i be_i hs, agg_eq]
  unfold layerK layerR
  dsimp only
  rw [hz, refB_eq, rowK_fun, rowK_fun, rowK_fun, rowK_fun, rowK_fun, mu_eq, var_eq]

theorem net_eq (x : FVec Ideal S50000x64 .f32) (ea : FVec Ideal S800000x16 .f32) (We : FVec Ideal S3x16x64 .f32)
    (be : FVec Ideal S3x64 .f32) (W1 : FVec Ideal S3x64x64 .f32) (b1 g bb : FVec Ideal S3x64 .f32)
    (W2 : FVec Ideal S3x64x64 .f32) (b2 : FVec Ideal S3x64 .f32) (l1W : FVec Ideal S192x192 .f32) (l1b : FVec Ideal S192 .f32)
    (l2W : FVec Ideal S192x10 .f32) (l2b : FVec Ideal S10 .f32) (ei : IVec S2x800000 32) (batch : IVec S50000 32)
    (hsrc : ∀ e : Fin 800000, 0 ≤ (srcK ei (ix1 e)).toInt ∧ (srcK ei (ix1 e)).toInt ≤ 49999) :
    netK x ea We be W1 b1 g bb W2 b2 l1W l1b l2W l2b ei batch
      = netR x ea We be W1 b1 g bb W2 b2 l1W l1b l2W l2b ei batch := by
  unfold netK netR
  dsimp only
  rw [layer_eq x (srcK ei) (dstK ei) ea _ _ _ _ _ _ _ _ hsrc,
    layer_eq _ (srcK ei) (dstK ei) ea _ _ _ _ _ _ _ _ hsrc,
    layer_eq _ (srcK ei) (dstK ei) ea _ _ _ _ _ _ _ _ hsrc,
    pool_eq, refC_eq, rowK192_fun, rowK10_fun,
    srcK_eq, dstK_eq, sliceWe0_eq, sliceWe1_eq, sliceWe2_eq,
    sliceV0_eq, sliceV0_eq, sliceV0_eq, sliceV0_eq, sliceV0_eq,
    sliceV1_eq, sliceV1_eq, sliceV1_eq, sliceV1_eq, sliceV1_eq,
    sliceV2_eq, sliceV2_eq, sliceV2_eq, sliceV2_eq, sliceV2_eq,
    sliceM0_eq, sliceM0_eq, sliceM1_eq, sliceM1_eq, sliceM2_eq, sliceM2_eq]

theorem src_rangeK [Cert.Pre_finite_inputs.Facts]
    {a0 : FVec Ideal S50000x64 .f32} {a1 : FVec Ideal S800000x16 .f32} {a2 : FVec Ideal S3x16x64 .f32}
    {a3 : FVec Ideal S3x64 .f32} {a4 : FVec Ideal S3x64x64 .f32} {a5 : FVec Ideal S3x64 .f32} {a6 : FVec Ideal S3x64 .f32}
    {a7 : FVec Ideal S3x64 .f32} {a8 : FVec Ideal S3x64x64 .f32} {a9 : FVec Ideal S3x64 .f32} {a10 : FVec Ideal S192x192 .f32}
    {a11 : FVec Ideal S192 .f32} {a12 : FVec Ideal S192x10 .f32} {a13 : FVec Ideal S10 .f32} {a14 : IVec S2x800000 32}
    {a15 : IVec S50000 32}
    (h : Cert.Pre_finite_inputs.fn (F := Ideal) a0 a1 a2 a3 a4 a5 a6 a7 a8 a9 a10 a11 a12 a13 a14 a15 = fun _ => 1#1) :
    ∀ e : Fin 800000, 0 ≤ (srcK a14 (ix1 e)).toInt ∧ (srcK a14 (ix1 e)).toInt ≤ 49999 :=
  fun e => Cert.Proof.Pre.src_range_vector h _ _ e

end Cert.Proof.Bridge

end
-- ==== Proof.lean ====
import proofs.«405318_j78374563217910_3_alg».proof.Defs
import proofs.«405318_j78374563217910_3_alg».proof.Proof.Gen.Kernel
import proofs.«405318_j78374563217910_3_alg».proof.Proof.Gen.KernelIdeal
import proofs.«405318_j78374563217910_3_alg».proof.Proof.Gen.ReferenceIdeal
import proofs.«405318_j78374563217910_3_alg».proof.Proof.Gen.Pre_finite_inputs
import proofs.«405318_j78374563217910_3_alg».proof.Proof.RunI
import proofs.«405318_j78374563217910_3_alg».proof.Proof.RunW
import proofs.«405318_j78374563217910_3_alg».proof.Proof.KVal
import proofs.«405318_j78374563217910_3_alg».proof.Proof.RefRun
import proofs.«405318_j78374563217910_3_alg».proof.Proof.RefVal
import proofs.«405318_j78374563217910_3_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    have A := @Cert.Kernel.HF.arg_kept _ _ m ρ r h c
    ⟨A (by decide), A (by decide), A (by decide), A (by decide), A (by decide), A (by decide), A (by decide), A (by decide),
     A (by decide), A (by decide), A (by decide), A (by decide), A (by decide), A (by decide), A (by decide), A (by decide)⟩)
    (Cert.Kernel.HF.run_all m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c =>
    have A := @Cert.KernelIdeal.HF.arg_kept _ _ m ρ r h c
    ⟨A (by decide), A (by decide), A (by decide), A (by decide), A (by decide), A (by decide), A (by decide), A (by decide),
     A (by decide), A (by decide), A (by decide), A (by decide), A (by decide), A (by decide), A (by decide), A (by decide)⟩)
    (Cert.KernelIdeal.HF.run_all m ρ)

theorem frame_ri : Cert.frame_ReferenceIdeal (hReferenceIdeal := Cert.ReferenceIdeal.Gen.facts) (hPre_finite_inputs := Cert.Pre_finite_inputs.Gen.facts) := fun m' ρ' _ =>
  (θ_run (Cert.ReferenceIdeal.defs (F := Ideal)) _ _).mono (fun r h c =>
    have B : ∀ b (hb : b ∈ Cert.ReferenceIdeal.HV.argRefs), r.2.mem ((c.tc : Thread Cert.ReferenceIdeal.nD Cert.ReferenceIdeal.τ).loc b) = m' ((c.tc : Thread Cert.ReferenceIdeal.nD Cert.ReferenceIdeal.τ).loc b) :=
      fun b hb => (h c b).trans (Cert.ReferenceIdeal.HV.ref_arg m' c b hb)
    ⟨B _ (by decide), B _ (by decide), B _ (by decide), B _ (by decide), B _ (by decide), B _ (by decide), B _ (by decide), B _ (by decide),
     B _ (by decide), B _ (by decide), B _ (by decide), B _ (by decide), B _ (by decide), B _ (by decide), B _ (by decide), B _ (by decide)⟩)
    (Cert.ReferenceIdeal.HRun.run_raw m' ρ')

-- Both runs end with the kernel program's composed value of the arguments, which is the reference's where every source-node index is in range.
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.HV.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run (Cert.KernelIdeal.defs (F := Ideal)) _ _).mono (fun r h c =>
      have A := @Cert.KernelIdeal.HF.arg_kept _ _ m ρ r h c
      ⟨(h c _ (Cert.KernelIdeal.HF.mem_uc Cert.KernelIdeal.main_v148 (by decide))).trans (Cert.KernelIdeal.HV.kernel_value m ρ c),
       A (by decide), A (by decide), A (by decide), A (by decide), A (by decide), A (by decide), A (by decide), A (by decide),
       A (by decide), A (by decide), A (by decide), A (by decide), A (by decide), A (by decide), A (by decide), A (by decide)⟩)
      (Cert.KernelIdeal.HF.run_all m ρ)
  · refine (θ_run (Cert.ReferenceIdeal.defs (F := Ideal)) _ _).mono (fun r h c =>
      have B : ∀ b (hb : b ∈ Cert.ReferenceIdeal.HV.argRefs), r.2.mem ((c.tc : Thread Cert.ReferenceIdeal.nD Cert.ReferenceIdeal.τ).loc b) = m' ((c.tc : Thread Cert.ReferenceIdeal.nD Cert.ReferenceIdeal.τ).loc b) :=
      fun b hb => (h c b).trans (Cert.ReferenceIdeal.HV.ref_arg m' c b hb)
      ⟨?_,
       B _ (by decide), B _ (by decide), B _ (by decide), B _ (by decide), B _ (by decide), B _ (by decide), B _ (by decide), B _ (by decide),
       B _ (by decide), B _ (by decide), B _ (by decide), B _ (by decide), B _ (by decide), B _ (by decide), B _ (by decide), B _ (by decide)⟩)
      (Cert.ReferenceIdeal.HRun.run_raw m' ρ')
    obtain ⟨e0, e1, e2, e3, e4, e5, e6, e7, e8, e9, e10, e11, e12, e13, e14, e15⟩ := hagree c
    rw [h c Cert.ReferenceIdeal.main_v225, Cert.ReferenceIdeal.HV.ref_value m' c, e0, e1, e2, e3, e4, e5, e6, e7, e8, e9, e10, e11, e12, e13, e14, e15]
    exact (Cert.Proof.Bridge.net_eq _ _ _ _ _ _ _ _ _ _ _ _ _ _ _ _ (Cert.Proof.Bridge.src_rangeK (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
